-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x500 : Shape := ⟨2, ![12000, 500]⟩
abbrev S2x384000 : Shape := ⟨2, ![2, 384000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x500 : Shape := ⟨2, ![128, 500]⟩
abbrev S500 : Shape := ⟨1, ![500]⟩
abbrev S64x64 : Shape := ⟨2, ![64, 64]⟩
abbrev S_ : Shape := ⟨0, ![]⟩

class Facts : Prop where
  bcast_S_S12000x500 : S_.BroadcastsInDim S12000x500 (![] : Fin 0 → Fin S12000x500.rank)
  reducesTo_S12000x500_S_d0_1 : S12000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x500 : S_.BroadcastsInDim S128x500 (![] : Fin 0 → Fin S128x500.rank)
  reducesTo_S128x500_S_d0_1 : S128x500.ReducesTo [0, 1] S_
  bcast_S_S500 : S_.BroadcastsInDim S500 (![] : Fin 0 → Fin S500.rank)
  reducesTo_S500_S_d0 : S500.ReducesTo [0] S_
  bcast_S_S64x64 : S_.BroadcastsInDim S64x64 (![] : Fin 0 → Fin S64x64.rank)
  reducesTo_S64x64_S_d0_1 : S64x64.ReducesTo [0, 1] S_
  bcast_S_S2x384000 : S_.BroadcastsInDim S2x384000 (![] : Fin 0 → Fin S2x384000.rank)
  reducesTo_S2x384000_S_d0_1 : S2x384000.ReducesTo [0, 1] S_

variable [Facts]

def fn_part3 {F : FTy → Type} [FloatOps F] (main_arg1 : IVec S2x384000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S2x384000 32 := broadcastInDim S2x384000 ![] bcast_S_S2x384000 main_c_20
  let main_v55 : IVec S2x384000 1 := cmpi .sge main_arg1 main_v54
  let main_c_21 : IVec S_ 1 := constantI S_ 1 1#1
  let main_v56 : IVec S_ 1 := (fun x v => Host.reduce IntOp.andi x v reducesTo_S2x384000_S_d0_1 h_S_) main_v55 main_c_21
  let main_v57 : IVec S_ 1 := andi main_v53 main_v56
  let main_c_22 : IVec S_ 32 := constantI S_ 32 12000#32
  let main_v58 : IVec S2x384000 32 := broadcastInDim S2x384000 ![] bcast_S_S2x384000 main_c_22
  let main_v59 : IVec S2x384000 1 := cmpi .slt main_arg1 main_v58
  let main_c_23 : IVec S_ 1 := constantI S_ 1 1#1
  let main_v60 : IVec S_ 1 := (fun x v => Host.reduce IntOp.andi x v reducesTo_S2x384000_S_d0_1 h_S_) main_v59 main_c_23
  let main_v61 : IVec S_ 1 := andi main_v57 main_v60
  main_v61

def fn_part2 {F : FTy → Type} [FloatOps F] (main_arg1 : IVec S2x384000 32) (main_arg8 : FVec F S128x500 .f32) (main_arg9 : FVec F S500 .f32) (main_arg10 : FVec F S64x64 .f32) (main_arg11 : FVec F S64 .f32) (main_v33 : IVec S_ 1) : IVec S_ 1 :=
  let main_v34 : FVec F S128x500 .f32 := Host.absf main_arg8
  let main_cst_12 : FVec F S_ .f32 := constant S_ .f32 0x7F800000#32
  let main_v35 : FVec F S128x500 .f32 := broadcastInDim S128x500 ![] bcast_S_S128x500 main_cst_12
  let main_v36 : IVec S128x500 1 := cmpf .olt main_v34 main_v35
  let main_c_13 : IVec S_ 1 := constantI S_ 1 1#1
  let main_v37 : IVec S_ 1 := (fun x v => Host.reduce IntOp.andi x v reducesTo_S128x500_S_d0_1 h_S_) main_v36 main_c_13
  let main_v38 : IVec S_ 1 := andi main_v33 main_v37
  let main_v39 : FVec F S500 .f32 := Host.absf main_arg9
  let main_cst_14 : FVec F S_ .f32 := constant S_ .f32 0x7F800000#32
  let main_v40 : FVec F S500 .f32 := broadcastInDim S500 ![] bcast_S_S500 main_cst_14
  let main_v41 : IVec S500 1 := cmpf .olt main_v39 main_v40
  let main_c_15 : IVec S_ 1 := constantI S_ 1 1#1
  let main_v42 : IVec S_ 1 := (fun x v => Host.reduce IntOp.andi x v reducesTo_S500_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x384000 32) (main_arg5 : FVec F S64 .f32) (main_arg6 : FVec F S64x128 .f32) (main_arg7 : FVec F S128 .f32) (main_arg8 : FVec F S128x500 .f32) (main_arg9 : FVec F S500 .f32) (main_arg10 : FVec F S64x64 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S12000x500 .f32) (main_arg1 : IVec S2x384000 32) (main_arg2 : FVec F S500x128 .f32) (main_arg3 : FVec F S128 .f32) (main_arg4 : FVec F S128x64 .f32) (main_arg5 : FVec F S64 .f32) (main_arg6 : FVec F S64x128 .f32) (main_arg7 : FVec F S128 .f32) (main_arg8 : FVec F S128x500 .f32) (main_arg9 : FVec F S500 .f32) (main_arg10 : FVec F S64x64 .f32) (main_arg11 : FVec F S64 .f32) : IVec S_ 1 :=
  let main_v0 : FVec F S12000x500 .f32 := Host.absf main_arg0
  let main_cst : FVec F S_ .f32 := constant S_ .f32 0x7F800000#32
  let main_v1 : FVec F S12000x500 .f32 := broadcastInDim S12000x500 ![] bcast_S_S12000x500 main_cst
  let main_v2 : IVec S12000x500 1 := cmpf .olt main_v0 main_v1
  let main_c : IVec S_ 1 := constantI S_ 1 1#1
  let main_v3 : IVec S_ 1 := (fun x v => Host.reduce IntOp.andi x v reducesTo_S12000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_v13 main_v16
-- ==== Kernel.lean ====
abbrev S12000x500 : Shape := ⟨2, ![12000, 500]⟩
abbrev S2x384000 : Shape := ⟨2, ![2, 384000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x500 : Shape := ⟨2, ![128, 500]⟩
abbrev S500 : Shape := ⟨1, ![500]⟩
abbrev S64x64 : Shape := ⟨2, ![64, 64]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12288x12288 : Shape := ⟨2, ![12288, 12288]⟩
abbrev S396000x2 : Shape := ⟨2, ![396000, 2]⟩
abbrev S12288x500 : Shape := ⟨2, ![12288, 500]⟩
abbrev S12288x128 : Shape := ⟨2, ![12288, 128]⟩
abbrev S1536x500 : Shape := ⟨2, ![1536, 500]⟩
abbrev S1536x128 : Shape := ⟨2, ![1536, 128]⟩
abbrev S1x128 : Shape := ⟨2, ![1, 128]⟩
abbrev S1536x1536 : Shape := ⟨2, ![1536, 1536]⟩
abbrev S12288x64 : Shape := ⟨2, ![12288, 64]⟩
abbrev S1536x64 : Shape := ⟨2, ![1536, 64]⟩
abbrev S1x64 : Shape := ⟨2, ![1, 64]⟩
abbrev S1x500 : Shape := ⟨2, ![1, 500]⟩
abbrev S12000x12000 : Shape := ⟨2, ![12000, 12000]⟩

abbrev nBuf : Space → Nat
  | .hbm => 107
  | .vmem => 66
  | .smem => 0
  | _ => 0

abbrev bufTy : (tb : Table) → Fin (tcTables nBuf tb) → BufTy
  | .hbm, ⟨0, _⟩ => ⟨S12000x500, .f32⟩
  | .hbm, ⟨1, _⟩ => ⟨S2x384000, .i32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x500, .f32⟩
  | .hbm, ⟨9, _⟩ => ⟨S500, .f32⟩
  | .hbm, ⟨10, _⟩ => ⟨S64x64, .f32⟩
  | .hbm, ⟨11, _⟩ => ⟨S64, .f32⟩
  | .hbm, ⟨12, _⟩ => ⟨S12000, .i32⟩
  | .hbm, ⟨13, _⟩ => ⟨S1x384000, .i32⟩
  | .hbm, ⟨14, _⟩ => ⟨S384000, .i32⟩
  | .hbm, ⟨15, _⟩ => ⟨S396000, .i32⟩
  | .hbm, ⟨16, _⟩ => ⟨S1x384000, .i32⟩
  | .hbm, ⟨17, _⟩ => ⟨S384000, .i32⟩
  | .hbm, ⟨18, _⟩ => ⟨S396000, .i32⟩
  | .hbm, ⟨19, _⟩ => ⟨S_, .f32⟩
  | .hbm, ⟨20, _⟩ => ⟨S12000, .f32⟩
  | .hbm, ⟨21, _⟩ => ⟨S_, .i32⟩
  | .hbm, ⟨22, _⟩ => ⟨S396000, .i32⟩
  | .hbm, ⟨23, _⟩ => ⟨S396000, .i1⟩
  | .hbm, ⟨24, _⟩ => ⟨S_, .i32⟩
  | .hbm, ⟨25, _⟩ => ⟨S396000, .i32⟩
  | .hbm, ⟨26, _⟩ => ⟨S396000, .i32⟩
  | .hbm, ⟨27, _⟩ => ⟨S396000, .i32⟩
  | .hbm, ⟨28, _⟩ => ⟨S396000x1, .i32⟩
  | .hbm, ⟨29, _⟩ => ⟨S_, .f32⟩
  | .hbm, ⟨30, _⟩ => ⟨S396000, .f32⟩
  | .hbm, ⟨31, _⟩ => ⟨S12000, .f32⟩
  | .hbm, ⟨32, _⟩ => ⟨S_, .f32⟩
  | .hbm, ⟨33, _⟩ => ⟨S12000, .f32⟩
  | .hbm, ⟨34, _⟩ => ⟨S12000, .i1⟩
  | .hbm, ⟨35, _⟩ => ⟨S12000, .f32⟩
  | .hbm, ⟨36, _⟩ => ⟨S_, .f32⟩
  | .hbm, ⟨37, _⟩ => ⟨S_, .f32⟩
  | .hbm, ⟨38, _⟩ => ⟨S12000, .f32⟩
  | .hbm, ⟨39, _⟩ => ⟨S12000, .f32⟩
  | .hbm, ⟨40, _⟩ => ⟨S_, .i32⟩
  | .hbm, ⟨41, _⟩ => ⟨S396000, .i32⟩
  | .hbm, ⟨42, _⟩ => ⟨S396000, .i1⟩
  | .hbm, ⟨43, _⟩ => ⟨S_, .i32⟩
  | .hbm, ⟨44, _⟩ => ⟨S396000, .i32⟩
  | .hbm, ⟨45, _⟩ => ⟨S396000, .i32⟩
  | .hbm, ⟨46, _⟩ => ⟨S396000, .i32⟩
  | .hbm, ⟨47, _⟩ => ⟨S396000x1, .i32⟩
  | .hbm, ⟨48, _⟩ => ⟨S396000, .f32⟩
  | .hbm, ⟨49, _⟩ => ⟨S_, .i32⟩
  | .hbm, ⟨50, _⟩ => ⟨S396000, .i32⟩
  | .hbm, ⟨51, _⟩ => ⟨S396000, .i1⟩
  | .hbm, ⟨52, _⟩ => ⟨S_, .i32⟩
  | .hbm, ⟨53, _⟩ => ⟨S396000, .i32⟩
  | .hbm, ⟨54, _⟩ => ⟨S396000, .i32⟩
  | .hbm, ⟨55, _⟩ => ⟨S396000, .i32⟩
  | .hbm, ⟨56, _⟩ => ⟨S396000x1, .i32⟩
  | .hbm, ⟨57, _⟩ => ⟨S396000, .f32⟩
  | .hbm, ⟨58, _⟩ => ⟨S396000, .f32⟩
  | .hbm, ⟨59, _⟩ => ⟨S_, .f32⟩
  | .hbm, ⟨60, _⟩ => ⟨S12288x12288, .f32⟩
  | .hbm, ⟨61, _⟩ => ⟨S_, .i32⟩
  | .hbm, ⟨62, _⟩ => ⟨S396000, .i32⟩
  | .hbm, ⟨63, _⟩ => ⟨S396000, .i1⟩
  | .hbm, ⟨64, _⟩ => ⟨S_, .i32⟩
  | .hbm, ⟨65, _⟩ => ⟨S396000, .i32⟩
  | .hbm, ⟨66, _⟩ => ⟨S396000, .i32⟩
  | .hbm, ⟨67, _⟩ => ⟨S396000, .i32⟩
  | .hbm, ⟨68, _⟩ => ⟨S_, .i32⟩
  | .hbm, ⟨69, _⟩ => ⟨S396000, .i32⟩
  | .hbm, ⟨70, _⟩ => ⟨S396000, .i1⟩
  | .hbm, ⟨71, _⟩ => ⟨S_, .i32⟩
  | .hbm, ⟨72, _⟩ => ⟨S396000, .i32⟩
  | .hbm, ⟨73, _⟩ => ⟨S396000, .i32⟩
  | .hbm, ⟨74, _⟩ => ⟨S396000, .i32⟩
  | .hbm, ⟨75, _⟩ => ⟨S396000x1, .i32⟩
  | .hbm, ⟨76, _⟩ => ⟨S396000x1, .i32⟩
  | .hbm, ⟨77, _⟩ => ⟨S396000x2, .i32⟩
  | .hbm, ⟨78, _⟩ => ⟨S12288x12288, .f32⟩
  | .hbm, ⟨79, _⟩ => ⟨S12288x12288, .bf16⟩
  | .hbm, ⟨80, _⟩ => ⟨S_, .i32⟩
  | .hbm, ⟨81, _⟩ => ⟨S_, .f32⟩
  | .hbm, ⟨82, _⟩ => ⟨S12288x500, .f32⟩
  | .hbm, ⟨83, _⟩ => ⟨S12288x500, .bf16⟩
  | .hbm, ⟨84, _⟩ => ⟨S500x128, .bf16⟩
  | .hbm, ⟨85, _⟩ => ⟨S128x64, .bf16⟩
  | .hbm, ⟨86, _⟩ => ⟨S64x128, .bf16⟩
  | .hbm, ⟨87, _⟩ => ⟨S128x500, .bf16⟩
  | .hbm, ⟨88, _⟩ => ⟨S64x64, .bf16⟩
  | .hbm, ⟨89, _⟩ => ⟨S12288x128, .bf16⟩
  | .hbm, ⟨90, _⟩ => ⟨S1x128, .f32⟩
  | .hbm, ⟨91, _⟩ => ⟨S12288x128, .bf16⟩
  | .hbm, ⟨92, _⟩ => ⟨S12288x64, .bf16⟩
  | .hbm, ⟨93, _⟩ => ⟨S1x64, .f32⟩
  | .hbm, ⟨94, _⟩ => ⟨S12288x64, .bf16⟩
  | .hbm, ⟨95, _⟩ => ⟨S12288x128, .bf16⟩
  | .hbm, ⟨96, _⟩ => ⟨S1x128, .f32⟩
  | .hbm, ⟨97, _⟩ => ⟨S12288x128, .bf16⟩
  | .hbm, ⟨98, _⟩ => ⟨S12288x500, .bf16⟩
  | .hbm, ⟨99, _⟩ => ⟨S1x500, .f32⟩
  | .hbm, ⟨100, _⟩ => ⟨S12288x500, .f32⟩
  | .hbm, ⟨101, _⟩ => ⟨S12000x500, .f32⟩
  | .hbm, ⟨102, _⟩ => ⟨S12288x64, .bf16⟩
  | .hbm, ⟨103, _⟩ => ⟨S1x64, .f32⟩
  | .hbm, ⟨104, _⟩ => ⟨S12288x64, .bf16⟩
  | .hbm, ⟨105, _⟩ => ⟨S12288x12288, .f32⟩
  | .hbm, ⟨106, _⟩ => ⟨S12000x12000, .f32⟩
  | .local _ .vmem, ⟨0, _⟩ => ⟨S1536x500, .bf16⟩
  | .local _ .vmem, ⟨1, _⟩ => ⟨S1536x500, .bf16⟩
  | .local _ .vmem, ⟨2, _⟩ => ⟨S500x128, .bf16⟩
  | .local _ .vmem, ⟨3, _⟩ => ⟨S1536x128, .bf16⟩
  | .local _ .vmem, ⟨4, _⟩ => ⟨S1536x128, .bf16⟩
  | .local _ .vmem, ⟨5, _⟩ => ⟨S1536x1536, .bf16⟩
  | .local _ .vmem, ⟨6, _⟩ => ⟨S1536x1536, .bf16⟩
  | .local _ .vmem, ⟨7, _⟩ => ⟨S12288x128, .bf16⟩
  | .local _ .vmem, ⟨8, _⟩ => ⟨S1x128, .f32⟩
  | .local _ .vmem, ⟨9, _⟩ => ⟨S1536x128, .bf16⟩
  | .local _ .vmem, ⟨10, _⟩ => ⟨S1536x128, .bf16⟩
  | .local _ .vmem, ⟨11, _⟩ => ⟨S1536x128, .f32⟩
  | .local _ .vmem, ⟨12, _⟩ => ⟨S1536x128, .bf16⟩
  | .local _ .vmem, ⟨13, _⟩ => ⟨S1536x128, .bf16⟩
  | .local _ .vmem, ⟨14, _⟩ => ⟨S128x64, .bf16⟩
  | .local _ .vmem, ⟨15, _⟩ => ⟨S1536x64, .bf16⟩
  | .local _ .vmem, ⟨16, _⟩ => ⟨S1536x64, .bf16⟩
  | .local _ .vmem, ⟨17, _⟩ => ⟨S1536x1536, .bf16⟩
  | .local _ .vmem, ⟨18, _⟩ => ⟨S1536x1536, .bf16⟩
  | .local _ .vmem, ⟨19, _⟩ => ⟨S12288x64, .bf16⟩
  | .local _ .vmem, ⟨20, _⟩ => ⟨S1x64, .f32⟩
  | .local _ .vmem, ⟨21, _⟩ => ⟨S1536x64, .bf16⟩
  | .local _ .vmem, ⟨22, _⟩ => ⟨S1536x64, .bf16⟩
  | .local _ .vmem, ⟨23, _⟩ => ⟨S1536x64, .f32⟩
  | .local _ .vmem, ⟨24, _⟩ => ⟨S1536x64, .bf16⟩
  | .local _ .vmem, ⟨25, _⟩ => ⟨S1536x64, .bf16⟩
  | .local _ .vmem, ⟨26, _⟩ => ⟨S64x128, .bf16⟩
  | .local _ .vmem, ⟨27, _⟩ => ⟨S1536x128, .bf16⟩
  | .local _ .vmem, ⟨28, _⟩ => ⟨S1536x128, .bf16⟩
  | .local _ .vmem, ⟨29, _⟩ => ⟨S1536x1536, .bf16⟩
  | .local _ .vmem, ⟨30, _⟩ => ⟨S1536x1536, .bf16⟩
  | .local _ .vmem, ⟨31, _⟩ => ⟨S12288x128, .bf16⟩
  | .local _ .vmem, ⟨32, _⟩ => ⟨S1x128, .f32⟩
  | .local _ .vmem, ⟨33, _⟩ => ⟨S1536x128, .bf16⟩
  | .local _ .vmem, ⟨34, _⟩ => ⟨S1536x128, .bf16⟩
  | .local _ .vmem, ⟨35, _⟩ => ⟨S1536x128, .f32⟩
  | .local _ .vmem, ⟨36, _⟩ => ⟨S1536x128, .bf16⟩
  | .local _ .vmem, ⟨37, _⟩ => ⟨S1536x128, .bf16⟩
  | .local _ .vmem, ⟨38, _⟩ => ⟨S128x500, .bf16⟩
  | .local _ .vmem, ⟨39, _⟩ => ⟨S1536x500, .bf16⟩
  | .local _ .vmem, ⟨40, _⟩ => ⟨S1536x500, .bf16⟩
  | .local _ .vmem, ⟨41, _⟩ => ⟨S1536x1536, .bf16⟩
  | .local _ .vmem, ⟨42, _⟩ => ⟨S1536x1536, .bf16⟩
  | .local _ .vmem, ⟨43, _⟩ => ⟨S12288x500, .bf16⟩
  | .local _ .vmem, ⟨44, _⟩ => ⟨S1x500, .f32⟩
  | .local _ .vmem, ⟨45, _⟩ => ⟨S1536x500, .f32⟩
  | .local _ .vmem, ⟨46, _⟩ => ⟨S1536x500, .f32⟩
  | .local _ .vmem, ⟨47, _⟩ => ⟨S1536x500, .f32⟩
  | .local _ .vmem, ⟨48, _⟩ => ⟨S1536x64, .bf16⟩
  | .local _ .vmem, ⟨49, _⟩ => ⟨S1536x64, .bf16⟩
  | .local _ .vmem, ⟨50, _⟩ => ⟨S64x64, .bf16⟩
  | .local _ .vmem, ⟨51, _⟩ => ⟨S1536x64, .bf16⟩
  | .local _ .vmem, ⟨52, _⟩ => ⟨S1536x64, .bf16⟩
  | .local _ .vmem, ⟨53, _⟩ => ⟨S1536x1536, .bf16⟩
  | .local _ .vmem, ⟨54, _⟩ => ⟨S1536x1536, .bf16⟩
  | .local _ .vmem, ⟨55, _⟩ => ⟨S12288x64, .bf16⟩
  | .local _ .vmem, ⟨56, _⟩ => ⟨S1x64, .f32⟩
  | .local _ .vmem, ⟨57, _⟩ => ⟨S1536x64, .bf16⟩
  | .local _ .vmem, ⟨58, _⟩ => ⟨S1536x64, .bf16⟩
  | .local _ .vmem, ⟨59, _⟩ => ⟨S1536x64, .f32⟩
  | .local _ .vmem, ⟨60, _⟩ => ⟨S1536x64, .bf16⟩
  | .local _ .vmem, ⟨61, _⟩ => ⟨S1536x64, .bf16⟩
  | .local _ .vmem, ⟨62, _⟩ => ⟨S1536x64, .bf16⟩
  | .local _ .vmem, ⟨63, _⟩ => ⟨S1536x64, .bf16⟩
  | .local _ .vmem, ⟨64, _⟩ => ⟨S1536x1536, .f32⟩
  | .local _ .vmem, ⟨65, _⟩ => ⟨S1536x1536, .f32⟩
  | _, _ => ⟨S12000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_call1_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg3_1 : Ref sig .tc := ⟨.vmem, 46, rfl⟩
abbrev cc7_scratch0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg3_1 : Ref sig .tc := ⟨.vmem, 58, rfl⟩
abbrev cc9_scratch0 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem3_0 : DmaSem sig := 53
abbrev cc9_sem3_1 : DmaSem sig := 54
abbrev cc10_sem0_0 : DmaSem sig := 55
abbrev cc10_sem0_1 : DmaSem sig := 56
abbrev cc10_sem1_0 : DmaSem sig := 57
abbrev cc10_sem1_1 : DmaSem sig := 58
abbrev cc10_sem2_0 : DmaSem sig := 59
abbrev cc10_sem2_1 : DmaSem sig := 60

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x500 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1536_i32 : BitVec 32 := 1536#32
  let v3 : BitVec 32 := Scalar.muli arg1 c1536_i32
  v3
def k1_off1 (i : grid1.Coords) : Fin 2 → Nat :=
  let arg1 : BitVec 32 := BitVec.ofNat 32 (i 1).val
  let c1536_i32 : BitVec 32 := 1536#32
  let v3 : BitVec 32 := Scalar.muli arg1 c1536_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1536x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S12288x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1536x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1536x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1536x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_mult1 (i : grid3.Coords) : BitVec 32 :=
  let arg1 : BitVec 32 := BitVec.ofNat 32 (i 1).val
  let c1536_i32 : BitVec 32 := 1536#32
  let v3 : BitVec 32 := Scalar.muli arg1 c1536_i32
  v3
def k3_off1 (i : grid3.Coords) : Fin 2 → Nat :=
  let arg1 : BitVec 32 := BitVec.ofNat 32 (i 1).val
  let c1536_i32 : BitVec 32 := 1536#32
  let v3 : BitVec 32 := Scalar.muli arg1 c1536_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1536x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S12288x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1536x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1536x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1536x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 8], ![false, false]⟩

def k5_mult1 (i : grid5.Coords) : BitVec 32 :=
  let arg1 : BitVec 32 := BitVec.ofNat 32 (i 1).val
  let c1536_i32 : BitVec 32 := 1536#32
  let v3 : BitVec 32 := Scalar.muli arg1 c1536_i32
  v3
def k5_off1 (i : grid5.Coords) : Fin 2 → Nat :=
  let arg1 : BitVec 32 := BitVec.ofNat 32 (i 1).val
  let c1536_i32 : BitVec 32 := 1536#32
  let v3 : BitVec 32 := Scalar.muli arg1 c1536_i32
  let v4 : BitVec 32 := v3
  let v5 : Index := Scalar.indexCast v4
  let c0 : Index := 0#32
  ![v5.toNat, 0]
def k5_cond2 (i : grid5.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1536x1536 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S12288x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1536x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1536x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x500 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1536x500 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 8], ![false, false]⟩

def k7_mult1 (i : grid7.Coords) : BitVec 32 :=
  let arg1 : BitVec 32 := BitVec.ofNat 32 (i 1).val
  let c1536_i32 : BitVec 32 := 1536#32
  let v3 : BitVec 32 := Scalar.muli arg1 c1536_i32
  v3
def k7_off1 (i : grid7.Coords) : Fin 2 → Nat :=
  let arg1 : BitVec 32 := BitVec.ofNat 32 (i 1).val
  let c1536_i32 : BitVec 32 := 1536#32
  let v3 : BitVec 32 := Scalar.muli arg1 c1536_i32
  let v4 : BitVec 32 := v3
  let v5 : Index := Scalar.indexCast v4
  let c0 : Index := 0#32
  ![v5.toNat, 0]
def k7_cond2 (i : grid7.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1536x1536 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S12288x500 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x500 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1536x500 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1536x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1536x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![8, 8], ![false, false]⟩

def k9_mult1 (i : grid9.Coords) : BitVec 32 :=
  let arg1 : BitVec 32 := BitVec.ofNat 32 (i 1).val
  let c1536_i32 : BitVec 32 := 1536#32
  let v3 : BitVec 32 := Scalar.muli arg1 c1536_i32
  v3
def k9_off1 (i : grid9.Coords) : Fin 2 → Nat :=
  let arg1 : BitVec 32 := BitVec.ofNat 32 (i 1).val
  let c1536_i32 : BitVec 32 := 1536#32
  let v3 : BitVec 32 := Scalar.muli arg1 c1536_i32
  let v4 : BitVec 32 := v3
  let v5 : Index := Scalar.indexCast v4
  let c0 : Index := 0#32
  ![v5.toNat, 0]
def k9_cond2 (i : grid9.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1536x1536 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S12288x64 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1536x64 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![8, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1536x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1536x64 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1536x1536 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S12000 : S_.BroadcastsInDim S12000 (![] : Fin 0 → Fin S12000.rank)
  bcast_S_S396000 : S_.BroadcastsInDim S396000 (![] : Fin 0 → Fin S396000.rank)
  bcast_S396000_S396000x1_0 : S396000.BroadcastsInDim S396000x1 (![0] : Fin 1 → Fin S396000x1.rank)
  bcast_S_S12288x12288 : S_.BroadcastsInDim S12288x12288 (![] : Fin 0 → Fin S12288x12288.rank)
  concatenates_S396000x1_S396000x1_S396000x2_d1 : Shape.Concatenates [S396000x1, S396000x1] S396000x2 1
  bitsLt_bf16_f32 : FTy.bits .bf16 < FTy.bits .f32
  pads_S12000x500_S12288x500_02880_000 : S12000x500.Pads (![0, 0] : Fin 2 → Nat) ![288, 0] ![0, 0] S12288x500
  h_S_ : 0 < S_.numel
  inb_S1536x500_S1536x500_0_0 : ∀ a, (![0, 0] : Fin 2 → Nat) a + S1536x500.size a ≤ S1536x500.size a
  h_S1536x500 : 0 < S1536x500.numel
  shapeCasts_S1536x500_S1536x500 : S1536x500.ShapeCasts S1536x500
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S1536x128_S1536x128_0_0 : ∀ a, (![0, 0] : Fin 2 → Nat) a + S1536x128.size a ≤ S1536x128.size a
  h_S1536x128 : 0 < S1536x128.numel
  packedbf16_S1536x128_S1536x128_0_0 : (Rect.unit (s := S1536x128) ![0, 0] S1536x128.size inb_S1536x128_S1536x128_0_0).PackedRows (EltTy.packing .bf16)
  shapeCasts_S128_S1x128 : S128.ShapeCasts S1x128
  shapeCasts_S1536x128_S1536x128 : S1536x128.ShapeCasts S1536x128
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1536x128 : S1x128.Broadcasts S1536x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1536x64_S1536x64_0_0 : ∀ a, (![0, 0] : Fin 2 → Nat) a + S1536x64.size a ≤ S1536x64.size a
  h_S1536x64 : 0 < S1536x64.numel
  packedbf16_S1536x64_S1536x64_0_0 : (Rect.unit (s := S1536x64) ![0, 0] S1536x64.size inb_S1536x64_S1536x64_0_0).PackedRows (EltTy.packing .bf16)
  shapeCasts_S64_S1x64 : S64.ShapeCasts S1x64
  shapeCasts_S1536x64_S1536x64 : S1536x64.ShapeCasts S1536x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1536x64 : S1x64.Broadcasts S1536x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x500_S128x500_0_0 : ∀ a, (![0, 0] : Fin 2 → Nat) a + S128x500.size a ≤ S128x500.size a
  h_S128x500 : 0 < S128x500.numel
  shapeCasts_S128x500_S128x500 : S128x500.ShapeCasts S128x500
  packedbf16_S1536x500_S1536x500_0_0 : (Rect.unit (s := S1536x500) ![0, 0] S1536x500.size inb_S1536x500_S1536x500_0_0).PackedRows (EltTy.packing .bf16)
  shapeCasts_S500_S1x500 : S500.ShapeCasts S1x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S1536x500 : S1x500.Broadcasts S1536x500
  slices_S12288x500_S12000x500_0_0 : S12288x500.Slices ![0, 0] S12000x500
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S12288x12288_S12000x12000_0_0 : S12288x12288.Slices ![0, 0] S12000x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  scatter_S12288x12288_S396000x2_S396000_n_01_01_1_wf : ScatterDims.WF S12288x12288 S396000x2 S396000 [] [0, 1] [0, 1] 1
  dot_S1536x500_S500x128_S1536x128_1_0_0_1_n_n_wf : DotDims.WF S1536x500 S500x128 S1536x128 [1] [0] [0] [1] [] []
  dot_S1536x1536_S1536x128_S1536x128_1_0_0_1_n_n_wf : DotDims.WF S1536x1536 S1536x128 S1536x128 [1] [0] [0] [1] [] []
  dot_S1536x128_S128x64_S1536x64_1_0_0_1_n_n_wf : DotDims.WF S1536x128 S128x64 S1536x64 [1] [0] [0] [1] [] []
  dot_S1536x1536_S1536x64_S1536x64_1_0_0_1_n_n_wf : DotDims.WF S1536x1536 S1536x64 S1536x64 [1] [0] [0] [1] [] []
  dot_S1536x64_S64x128_S1536x128_1_0_0_1_n_n_wf : DotDims.WF S1536x64 S64x128 S1536x128 [1] [0] [0] [1] [] []
  dot_S1536x128_S128x500_S1536x500_1_0_0_1_n_n_wf : DotDims.WF S1536x128 S128x500 S1536x500 [1] [0] [0] [1] [] []
  dot_S1536x1536_S1536x500_S1536x500_1_0_0_1_n_n_wf : DotDims.WF S1536x1536 S1536x500 S1536x500 [1] [0] [0] [1] [] []
  dot_S1536x64_S64x64_S1536x64_1_0_0_1_n_n_wf : DotDims.WF S1536x64 S64x64 S1536x64 [1] [0] [0] [1] [] []
  dot_S1536x64_S1536x64_S1536x1536_1_1_0_0_n_n_wf : DotDims.WF S1536x64 S1536x64 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x500.size a ≤ S12288x500.size a
  hwx0_0 : ∀ i : grid0.Coords, EltTy.bits .bf16 = 32 ∨ (Rect.block (s := S12288x500) S1536x500.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .bf16 = 32 ∨ (Rect.block (s := S500x128) S500x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x128.size a ≤ S12288x128.size a
  hwx0_2 : ∀ i : grid0.Coords, EltTy.bits .bf16 = 32 ∨ (Rect.block (s := S12288x128) S1536x128.size (cc0_transform_2 i) (hinb0_2 i)).WholeWords (EltTy.packing .bf16)
  hrank1 : 0 < grid1.rank
  k1_mult1_dvd : ∀ i : grid1.Coords, 1536 ∣ (k1_mult1 i).toNat
  k1_off1_inb : ∀ i : grid1.Coords, ∀ a, (k1_off1 i) a + S1536x128.size a ≤ S12288x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x1536.size a ≤ S12288x12288.size a
  hwx1_0 : ∀ i : grid1.Coords, EltTy.bits .bf16 = 32 ∨ (Rect.block (s := S12288x12288) S1536x1536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x128.size a ≤ S12288x128.size a
  hwx1_1 : ∀ i : grid1.Coords, EltTy.bits .bf16 = 32 ∨ (Rect.block (s := S12288x128) S12288x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1536x128.size a ≤ S12288x128.size a
  hwx1_3 : ∀ i : grid1.Coords, EltTy.bits .bf16 = 32 ∨ (Rect.block (s := S12288x128) S1536x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x128.size a ≤ S12288x128.size a
  hwx2_0 : ∀ i : grid2.Coords, EltTy.bits .bf16 = 32 ∨ (Rect.block (s := S12288x128) S1536x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x64.size a ≤ S12288x64.size a
  hwx2_2 : ∀ i : grid2.Coords, EltTy.bits .bf16 = 32 ∨ (Rect.block (s := S12288x64) S1536x64.size (cc2_transform_2 i) (hinb2_2 i)).WholeWords (EltTy.packing .bf16)
  hrank3 : 0 < grid3.rank
  k3_mult1_dvd : ∀ i : grid3.Coords, 1536 ∣ (k3_mult1 i).toNat
  k3_off1_inb : ∀ i : grid3.Coords, ∀ a, (k3_off1 i) a + S1536x64.size a ≤ S12288x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1536x1536.size a ≤ S12288x12288.size a
  hwx3_0 : ∀ i : grid3.Coords, EltTy.bits .bf16 = 32 ∨ (Rect.block (s := S12288x12288) S1536x1536.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12288x64.size a ≤ S12288x64.size a
  hwx3_1 : ∀ i : grid3.Coords, EltTy.bits .bf16 = 32 ∨ (Rect.block (s := S12288x64) S12288x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1536x64.size a ≤ S12288x64.size a
  hwx3_3 : ∀ i : grid3.Coords, EltTy.bits .bf16 = 32 ∨ (Rect.block (s := S12288x64) S1536x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1536x64.size a ≤ S12288x64.size a
  hwx4_0 : ∀ i : grid4.Coords, EltTy.bits .bf16 = 32 ∨ (Rect.block (s := S12288x64) S1536x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .bf16 = 32 ∨ (Rect.block (s := S64x128) S64x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1536x128.size a ≤ S12288x128.size a
  hwx4_2 : ∀ i : grid4.Coords, EltTy.bits .bf16 = 32 ∨ (Rect.block (s := S12288x128) S1536x128.size (cc4_transform_2 i) (hinb4_2 i)).WholeWords (EltTy.packing .bf16)
  hrank5 : 0 < grid5.rank
  k5_mult1_dvd : ∀ i : grid5.Coords, 1536 ∣ (k5_mult1 i).toNat
  k5_off1_inb : ∀ i : grid5.Coords, ∀ a, (k5_off1 i) a + S1536x128.size a ≤ S12288x128.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1536x1536.size a ≤ S12288x12288.size a
  hwx5_0 : ∀ i : grid5.Coords, EltTy.bits .bf16 = 32 ∨ (Rect.block (s := S12288x12288) S1536x1536.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S12288x128.size a ≤ S12288x128.size a
  hwx5_1 : ∀ i : grid5.Coords, EltTy.bits .bf16 = 32 ∨ (Rect.block (s := S12288x128) S12288x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1536x128.size a ≤ S12288x128.size a
  hwx5_3 : ∀ i : grid5.Coords, EltTy.bits .bf16 = 32 ∨ (Rect.block (s := S12288x128) S1536x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1536x128.size a ≤ S12288x128.size a
  hwx6_0 : ∀ i : grid6.Coords, EltTy.bits .bf16 = 32 ∨ (Rect.block (s := S12288x128) S1536x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x500.size a ≤ S128x500.size a
  hwx6_1 : ∀ i : grid6.Coords, EltTy.bits .bf16 = 32 ∨ (Rect.block (s := S128x500) S128x500.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1536x500.size a ≤ S12288x500.size a
  hwx6_2 : ∀ i : grid6.Coords, EltTy.bits .bf16 = 32 ∨ (Rect.block (s := S12288x500) S1536x500.size (cc6_transform_2 i) (hinb6_2 i)).WholeWords (EltTy.packing .bf16)
  hrank7 : 0 < grid7.rank
  k7_mult1_dvd : ∀ i : grid7.Coords, 1536 ∣ (k7_mult1 i).toNat
  k7_off1_inb : ∀ i : grid7.Coords, ∀ a, (k7_off1 i) a + S1536x500.size a ≤ S12288x500.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1536x1536.size a ≤ S12288x12288.size a
  hwx7_0 : ∀ i : grid7.Coords, EltTy.bits .bf16 = 32 ∨ (Rect.block (s := S12288x12288) S1536x1536.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S12288x500.size a ≤ S12288x500.size a
  hwx7_1 : ∀ i : grid7.Coords, EltTy.bits .bf16 = 32 ∨ (Rect.block (s := S12288x500) S12288x500.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x500.size a ≤ S1x500.size a
  hwx7_2 : ∀ i : grid7.Coords, EltTy.bits .f32 = 32 ∨ (Rect.block (s := S1x500) S1x500.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1536x500.size a ≤ S12288x500.size a
  hwx7_3 : ∀ i : grid7.Coords, EltTy.bits .f32 = 32 ∨ (Rect.block (s := S12288x500) S1536x500.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1536x64.size a ≤ S12288x64.size a
  hwx8_0 : ∀ i : grid8.Coords, EltTy.bits .bf16 = 32 ∨ (Rect.block (s := S12288x64) S1536x64.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .bf16 = 32 ∨ (Rect.block (s := S64x64) S64x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1536x64.size a ≤ S12288x64.size a
  hwx8_2 : ∀ i : grid8.Coords, EltTy.bits .bf16 = 32 ∨ (Rect.block (s := S12288x64) S1536x64.size (cc8_transform_2 i) (hinb8_2 i)).WholeWords (EltTy.packing .bf16)
  hrank9 : 0 < grid9.rank
  k9_mult1_dvd : ∀ i : grid9.Coords, 1536 ∣ (k9_mult1 i).toNat
  k9_off1_inb : ∀ i : grid9.Coords, ∀ a, (k9_off1 i) a + S1536x64.size a ≤ S12288x64.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1536x1536.size a ≤ S12288x12288.size a
  hwx9_0 : ∀ i : grid9.Coords, EltTy.bits .bf16 = 32 ∨ (Rect.block (s := S12288x12288) S1536x1536.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S12288x64.size a ≤ S12288x64.size a
  hwx9_1 : ∀ i : grid9.Coords, EltTy.bits .bf16 = 32 ∨ (Rect.block (s := S12288x64) S12288x64.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1536x64.size a ≤ S12288x64.size a
  hwx9_3 : ∀ i : grid9.Coords, EltTy.bits .bf16 = 32 ∨ (Rect.block (s := S12288x64) S1536x64.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1536x64.size a ≤ S12288x64.size a
  hwx10_0 : ∀ i : grid10.Coords, EltTy.bits .bf16 = 32 ∨ (Rect.block (s := S12288x64) S1536x64.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1536x64.size a ≤ S12288x64.size a
  hwx10_1 : ∀ i : grid10.Coords, EltTy.bits .bf16 = 32 ∨ (Rect.block (s := S12288x64) S1536x64.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1536x1536.size a ≤ S12288x12288.size a
  hwx10_2 : ∀ i : grid10.Coords, EltTy.bits .f32 = 32 ∨ (Rect.block (s := S12288x12288) S1536x1536.size (cc10_transform_2 i) (hinb10_2 i)).WholeWords (EltTy.packing .f32)

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def scatter_S12288x12288_S396000x2_S396000_n_01_01_1 : ScatterDims S12288x12288 S396000x2 S396000 where
  updateWindowDims := []
  insertedWindowDims := [0, 1]
  scatterDimsToOperandDims := [0, 1]
  indexVectorDim := 1
  wf := scatter_S12288x12288_S396000x2_S396000_n_01_01_1_wf
def dot_S1536x500_S500x128_S1536x128_1_0_0_1_n_n : DotDims S1536x500 S500x128 S1536x128 where
  lhsContracting := [1]
  rhsContracting := [0]
  lhsNonContracting := [0]
  rhsNonContracting := [1]
  lhsBatch := []
  rhsBatch := []
  wf := dot_S1536x500_S500x128_S1536x128_1_0_0_1_n_n_wf
def dot_S1536x1536_S1536x128_S1536x128_1_0_0_1_n_n : DotDims S1536x1536 S1536x128 S1536x128 where
  lhsContracting := [1]
  rhsContracting := [0]
  lhsNonContracting := [0]
  rhsNonContracting := [1]
  lhsBatch := []
  rhsBatch := []
  wf := dot_S1536x1536_S1536x128_S1536x128_1_0_0_1_n_n_wf
def dot_S1536x128_S128x64_S1536x64_1_0_0_1_n_n : DotDims S1536x128 S128x64 S1536x64 where
  lhsContracting := [1]
  rhsContracting := [0]
  lhsNonContracting := [0]
  rhsNonContracting := [1]
  lhsBatch := []
  rhsBatch := []
  wf := dot_S1536x128_S128x64_S1536x64_1_0_0_1_n_n_wf
def dot_S1536x1536_S1536x64_S1536x64_1_0_0_1_n_n : DotDims S1536x1536 S1536x64 S1536x64 where
  lhsContracting := [1]
  rhsContracting := [0]
  lhsNonContracting := [0]
  rhsNonContracting := [1]
  lhsBatch := []
  rhsBatch := []
  wf := dot_S1536x1536_S1536x64_S1536x64_1_0_0_1_n_n_wf
def dot_S1536x64_S64x128_S1536x128_1_0_0_1_n_n : DotDims S1536x64 S64x128 S1536x128 where
  lhsContracting := [1]
  rhsContracting := [0]
  lhsNonContracting := [0]
  rhsNonContracting := [1]
  lhsBatch := []
  rhsBatch := []
  wf := dot_S1536x64_S64x128_S1536x128_1_0_0_1_n_n_wf
def dot_S1536x128_S128x500_S1536x500_1_0_0_1_n_n : DotDims S1536x128 S128x500 S1536x500 where
  lhsContracting := [1]
  rhsContracting := [0]
  lhsNonContracting := [0]
  rhsNonContracting := [1]
  lhsBatch := []
  rhsBatch := []
  wf := dot_S1536x128_S128x500_S1536x500_1_0_0_1_n_n_wf
def dot_S1536x1536_S1536x500_S1536x500_1_0_0_1_n_n : DotDims S1536x1536 S1536x500 S1536x500 where
  lhsContracting := [1]
  rhsContracting := [0]
  lhsNonContracting := [0]
  rhsNonContracting := [1]
  lhsBatch := []
  rhsBatch := []
  wf := dot_S1536x1536_S1536x500_S1536x500_1_0_0_1_n_n_wf
def dot_S1536x64_S64x64_S1536x64_1_0_0_1_n_n : DotDims S1536x64 S64x64 S1536x64 where
  lhsContracting := [1]
  rhsContracting := [0]
  lhsNonContracting := [0]
  rhsNonContracting := [1]
  lhsBatch := []
  rhsBatch := []
  wf := dot_S1536x64_S64x64_S1536x64_1_0_0_1_n_n_wf
def dot_S1536x64_S1536x64_S1536x1536_1_1_0_0_n_n : DotDims S1536x64 S1536x64 S1536x1536 where
  lhsContracting := [1]
  rhsContracting := [1]
  lhsNonContracting := [0]
  rhsNonContracting := [0]
  lhsBatch := []
  rhsBatch := []
  wf := dot_S1536x64_S1536x64_S1536x1536_1_1_0_0_n_n_wf

abbrev win0_0 : Pipeline.Window sig grid0 :=
  Pipeline.Window.ofSpec (Memref.whole main_v52) S1536x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1536x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S1536x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S12288x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1536x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v60) S1536x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1536x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S1536x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S12288x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1536x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v63) S1536x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1536x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S1536x1536.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S12288x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S1536x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v66) S1536x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S128x500.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1536x500.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v50) S1536x1536.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S12288x500.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v68) S1x500.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v69) S1536x500.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v63) S1536x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v71) S1536x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v50) S1536x1536.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v71) S12288x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v72) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v73) S1536x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v73) S1536x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v73) S1536x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v74) S1536x1536.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S12000x500 : Shape := ⟨2, ![12000, 500]⟩
abbrev S2x384000 : Shape := ⟨2, ![2, 384000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x500 : Shape := ⟨2, ![128, 500]⟩
abbrev S500 : Shape := ⟨1, ![500]⟩
abbrev S64x64 : Shape := ⟨2, ![64, 64]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x128 : Shape := ⟨2, ![12000, 128]⟩
abbrev S396000x128 : Shape := ⟨2, ![396000, 128]⟩
abbrev S1x128 : Shape := ⟨2, ![1, 128]⟩
abbrev S12000x64 : Shape := ⟨2, ![12000, 64]⟩
abbrev S396000x64 : Shape := ⟨2, ![396000, 64]⟩
abbrev S1x64 : Shape := ⟨2, ![1, 64]⟩
abbrev S396000x500 : Shape := ⟨2, ![396000, 500]⟩
abbrev S1x500 : Shape := ⟨2, ![1, 500]⟩
abbrev S64x12000 : Shape := ⟨2, ![64, 12000]⟩
abbrev S12000x12000 : Shape := ⟨2, ![12000, 12000]⟩

abbrev nBuf : Space → Nat
  | .hbm => 208
  | .vmem => 0
  | .smem => 0
  | _ => 0

abbrev hbmTy0_0 (i : Nat) : BufTy := match i % 128 with
  | 0 => ⟨S12000x500, .f32⟩
  | 1 => ⟨S2x384000, .i32⟩
  | 2 => ⟨S500x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x500, .f32⟩
  | 9 => ⟨S500, .f32⟩
  | 10 => ⟨S64x64, .f32⟩
  | 11 => ⟨S64, .f32⟩
  | 12 => ⟨S12000, .i32⟩
  | 13 => ⟨S1x384000, .i32⟩
  | 14 => ⟨S384000, .i32⟩
  | 15 => ⟨S396000, .i32⟩
  | 16 => ⟨S1x384000, .i32⟩
  | 17 => ⟨S384000, .i32⟩
  | 18 => ⟨S396000, .i32⟩
  | 19 => ⟨S_, .f32⟩
  | 20 => ⟨S12000, .f32⟩
  | 21 => ⟨S_, .i32⟩
  | 22 => ⟨S396000, .i32⟩
  | 23 => ⟨S396000, .i1⟩
  | 24 => ⟨S_, .i32⟩
  | 25 => ⟨S396000, .i32⟩
  | 26 => ⟨S396000, .i32⟩
  | 27 => ⟨S396000, .i32⟩
  | 28 => ⟨S396000x1, .i32⟩
  | 29 => ⟨S_, .f32⟩
  | 30 => ⟨S396000, .f32⟩
  | 31 => ⟨S12000, .f32⟩
  | 32 => ⟨S_, .f32⟩
  | 33 => ⟨S12000, .f32⟩
  | 34 => ⟨S12000, .i1⟩
  | 35 => ⟨S12000, .f32⟩
  | 36 => ⟨S_, .f32⟩
  | 37 => ⟨S_, .f32⟩
  | 38 => ⟨S12000, .f32⟩
  | 39 => ⟨S12000, .f32⟩
  | 40 => ⟨S_, .i32⟩
  | 41 => ⟨S396000, .i32⟩
  | 42 => ⟨S396000, .i1⟩
  | 43 => ⟨S_, .i32⟩
  | 44 => ⟨S396000, .i32⟩
  | 45 => ⟨S396000, .i32⟩
  | 46 => ⟨S396000, .i32⟩
  | 47 => ⟨S396000x1, .i32⟩
  | 48 => ⟨S396000, .f32⟩
  | 49 => ⟨S_, .i32⟩
  | 50 => ⟨S396000, .i32⟩
  | 51 => ⟨S396000, .i1⟩
  | 52 => ⟨S_, .i32⟩
  | 53 => ⟨S396000, .i32⟩
  | 54 => ⟨S396000, .i32⟩
  | 55 => ⟨S396000, .i32⟩
  | 56 => ⟨S396000x1, .i32⟩
  | 57 => ⟨S396000, .f32⟩
  | 58 => ⟨S396000, .f32⟩
  | 59 => ⟨S12000x128, .f32⟩
  | 60 => ⟨S_, .i32⟩
  | 61 => ⟨S396000, .i32⟩
  | 62 => ⟨S396000, .i1⟩
  | 63 => ⟨S_, .i32⟩
  | 64 => ⟨S396000, .i32⟩
  | 65 => ⟨S396000, .i32⟩
  | 66 => ⟨S396000, .i32⟩
  | 67 => ⟨S396000x1, .i32⟩
  | 68 => ⟨S396000x128, .f32⟩
  | 69 => ⟨S396000x1, .f32⟩
  | 70 => ⟨S396000x128, .f32⟩
  | 71 => ⟨S396000x128, .f32⟩
  | 72 => ⟨S_, .f32⟩
  | 73 => ⟨S12000x128, .f32⟩
  | 74 => ⟨S_, .i32⟩
  | 75 => ⟨S396000, .i32⟩
  | 76 => ⟨S396000, .i1⟩
  | 77 => ⟨S_, .i32⟩
  | 78 => ⟨S396000, .i32⟩
  | 79 => ⟨S396000, .i32⟩
  | 80 => ⟨S396000, .i32⟩
  | 81 => ⟨S396000x1, .i32⟩
  | 82 => ⟨S12000x128, .f32⟩
  | 83 => ⟨S1x128, .f32⟩
  | 84 => ⟨S12000x128, .f32⟩
  | 85 => ⟨S12000x128, .f32⟩
  | 86 => ⟨S_, .f32⟩
  | 87 => ⟨S12000x128, .f32⟩
  | 88 => ⟨S12000x128, .f32⟩
  | 89 => ⟨S12000x64, .f32⟩
  | 90 => ⟨S_, .i32⟩
  | 91 => ⟨S396000, .i32⟩
  | 92 => ⟨S396000, .i1⟩
  | 93 => ⟨S_, .i32⟩
  | 94 => ⟨S396000, .i32⟩
  | 95 => ⟨S396000, .i32⟩
  | 96 => ⟨S396000, .i32⟩
  | 97 => ⟨S396000x1, .i32⟩
  | 98 => ⟨S396000x64, .f32⟩
  | 99 => ⟨S396000x1, .f32⟩
  | 100 => ⟨S396000x64, .f32⟩
  | 101 => ⟨S396000x64, .f32⟩
  | 102 => ⟨S_, .f32⟩
  | 103 => ⟨S12000x64, .f32⟩
  | 104 => ⟨S_, .i32⟩
  | 105 => ⟨S396000, .i32⟩
  | 106 => ⟨S396000, .i1⟩
  | 107 => ⟨S_, .i32⟩
  | 108 => ⟨S396000, .i32⟩
  | 109 => ⟨S396000, .i32⟩
  | 110 => ⟨S396000, .i32⟩
  | 111 => ⟨S396000x1, .i32⟩
  | 112 => ⟨S12000x64, .f32⟩
  | 113 => ⟨S1x64, .f32⟩
  | 114 => ⟨S12000x64, .f32⟩
  | 115 => ⟨S12000x64, .f32⟩
  | 116 => ⟨S_, .f32⟩
  | 117 => ⟨S12000x64, .f32⟩
  | 118 => ⟨S12000x64, .f32⟩
  | 119 => ⟨S12000x128, .f32⟩
  | 120 => ⟨S_, .i32⟩
  | 121 => ⟨S396000, .i32⟩
  | 122 => ⟨S396000, .i1⟩
  | 123 => ⟨S_, .i32⟩
  | 124 => ⟨S396000, .i32⟩
  | 125 => ⟨S396000, .i32⟩
  | 126 => ⟨S396000, .i32⟩
  | 127 => ⟨S396000x1, .i32⟩
  | _ => ⟨S12000x500, .f32⟩

abbrev hbmTy0_1 (i : Nat) : BufTy := match i % 128 with
  | 0 => ⟨S396000x128, .f32⟩
  | 1 => ⟨S396000x1, .f32⟩
  | 2 => ⟨S396000x128, .f32⟩
  | 3 => ⟨S396000x128, .f32⟩
  | 4 => ⟨S_, .f32⟩
  | 5 => ⟨S12000x128, .f32⟩
  | 6 => ⟨S_, .i32⟩
  | 7 => ⟨S396000, .i32⟩
  | 8 => ⟨S396000, .i1⟩
  | 9 => ⟨S_, .i32⟩
  | 10 => ⟨S396000, .i32⟩
  | 11 => ⟨S396000, .i32⟩
  | 12 => ⟨S396000, .i32⟩
  | 13 => ⟨S396000x1, .i32⟩
  | 14 => ⟨S12000x128, .f32⟩
  | 15 => ⟨S1x128, .f32⟩
  | 16 => ⟨S12000x128, .f32⟩
  | 17 => ⟨S12000x128, .f32⟩
  | 18 => ⟨S_, .f32⟩
  | 19 => ⟨S12000x128, .f32⟩
  | 20 => ⟨S12000x128, .f32⟩
  | 21 => ⟨S12000x500, .f32⟩
  | 22 => ⟨S_, .i32⟩
  | 23 => ⟨S396000, .i32⟩
  | 24 => ⟨S396000, .i1⟩
  | 25 => ⟨S_, .i32⟩
  | 26 => ⟨S396000, .i32⟩
  | 27 => ⟨S396000, .i32⟩
  | 28 => ⟨S396000, .i32⟩
  | 29 => ⟨S396000x1, .i32⟩
  | 30 => ⟨S396000x500, .f32⟩
  | 31 => ⟨S396000x1, .f32⟩
  | 32 => ⟨S396000x500, .f32⟩
  | 33 => ⟨S396000x500, .f32⟩
  | 34 => ⟨S_, .f32⟩
  | 35 => ⟨S12000x500, .f32⟩
  | 36 => ⟨S_, .i32⟩
  | 37 => ⟨S396000, .i32⟩
  | 38 => ⟨S396000, .i1⟩
  | 39 => ⟨S_, .i32⟩
  | 40 => ⟨S396000, .i32⟩
  | 41 => ⟨S396000, .i32⟩
  | 42 => ⟨S396000, .i32⟩
  | 43 => ⟨S396000x1, .i32⟩
  | 44 => ⟨S12000x500, .f32⟩
  | 45 => ⟨S1x500, .f32⟩
  | 46 => ⟨S12000x500, .f32⟩
  | 47 => ⟨S12000x500, .f32⟩
  | 48 => ⟨S12000x64, .f32⟩
  | 49 => ⟨S_, .i32⟩
  | 50 => ⟨S396000, .i32⟩
  | 51 => ⟨S396000, .i1⟩
  | 52 => ⟨S_, .i32⟩
  | 53 => ⟨S396000, .i32⟩
  | 54 => ⟨S396000, .i32⟩
  | 55 => ⟨S396000, .i32⟩
  | 56 => ⟨S396000x1, .i32⟩
  | 57 => ⟨S396000x64, .f32⟩
  | 58 => ⟨S396000x1, .f32⟩
  | 59 => ⟨S396000x64, .f32⟩
  | 60 => ⟨S396000x64, .f32⟩
  | 61 => ⟨S_, .f32⟩
  | 62 => ⟨S12000x64, .f32⟩
  | 63 => ⟨S_, .i32⟩
  | 64 => ⟨S396000, .i32⟩
  | 65 => ⟨S396000, .i1⟩
  | 66 => ⟨S_, .i32⟩
  | 67 => ⟨S396000, .i32⟩
  | 68 => ⟨S396000, .i32⟩
  | 69 => ⟨S396000, .i32⟩
  | 70 => ⟨S396000x1, .i32⟩
  | 71 => ⟨S12000x64, .f32⟩
  | 72 => ⟨S1x64, .f32⟩
  | 73 => ⟨S12000x64, .f32⟩
  | 74 => ⟨S12000x64, .f32⟩
  | 75 => ⟨S_, .f32⟩
  | 76 => ⟨S12000x64, .f32⟩
  | 77 => ⟨S12000x64, .f32⟩
  | 78 => ⟨S64x12000, .f32⟩
  | 79 => ⟨S12000x12000, .f32⟩
  | _ => ⟨S12000x500, .f32⟩

abbrev hbmTy (i : Nat) : BufTy := match i / 128 with
  | 0 => hbmTy0_0 i
  | 1 => hbmTy0_1 i
  | _ => ⟨S12000x500, .f32⟩

abbrev bufTy : (tb : Table) → Fin (tcTables nBuf tb) → BufTy
  | .hbm, ⟨i, _⟩ => hbmTy i
  | _, _ => ⟨S12000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_cst : Ref sig .tc := ⟨.hbm, 86, rfl⟩
abbrev main_call1_v0 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_c_18 : Ref sig .tc := ⟨.hbm, 120, rfl⟩
abbrev main_v82 : Ref sig .tc := ⟨.hbm, 121, rfl⟩
abbrev main_v83 : Ref sig .tc := ⟨.hbm, 122, rfl⟩
abbrev main_c_19 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_c_21 : Ref sig .tc := ⟨.hbm, 134, rfl⟩
abbrev main_v93 : Ref sig .tc := ⟨.hbm, 135, rfl⟩
abbrev main_v94 : Ref sig .tc := ⟨.hbm, 136, rfl⟩
abbrev main_c_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_call3_cst : Ref sig .tc := ⟨.hbm, 146, rfl⟩
abbrev main_call3_v0 : Ref sig .tc := ⟨.hbm, 147, rfl⟩
abbrev main_v103 : Ref sig .tc := ⟨.hbm, 148, rfl⟩
abbrev main_v104 : Ref sig .tc := ⟨.hbm, 149, rfl⟩
abbrev main_c_23 : Ref sig .tc := ⟨.hbm, 150, rfl⟩
abbrev main_v105 : Ref sig .tc := ⟨.hbm, 151, rfl⟩
abbrev main_v106 : Ref sig .tc := ⟨.hbm, 152, rfl⟩
abbrev main_c_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_c_26 : Ref sig .tc := ⟨.hbm, 164, rfl⟩
abbrev main_v116 : Ref sig .tc := ⟨.hbm, 165, rfl⟩
abbrev main_v117 : Ref sig .tc := ⟨.hbm, 166, rfl⟩
abbrev main_c_27 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_28 : Ref sig .tc := ⟨.hbm, 177, rfl⟩
abbrev main_v127 : Ref sig .tc := ⟨.hbm, 178, rfl⟩
abbrev main_v128 : Ref sig .tc := ⟨.hbm, 179, rfl⟩
abbrev main_c_29 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_30 : Ref sig .tc := ⟨.hbm, 189, rfl⟩
abbrev main_v137 : Ref sig .tc := ⟨.hbm, 190, rfl⟩
abbrev main_c_31 : Ref sig .tc := ⟨.hbm, 191, rfl⟩
abbrev main_v138 : Ref sig .tc := ⟨.hbm, 192, rfl⟩
abbrev main_v139 : Ref sig .tc := ⟨.hbm, 193, rfl⟩
abbrev main_c_32 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_call4_cst : Ref sig .tc := ⟨.hbm, 203, rfl⟩
abbrev main_call4_v0 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S12000 : S_.BroadcastsInDim S12000 (![] : Fin 0 → Fin S12000.rank)
  bcast_S_S396000 : S_.BroadcastsInDim S396000 (![] : Fin 0 → Fin S396000.rank)
  bcast_S396000_S396000x1_0 : S396000.BroadcastsInDim S396000x1 (![0] : Fin 1 → Fin S396000x1.rank)
  bcast_S396000x1_S396000x128_0_1 : S396000x1.BroadcastsInDim S396000x128 (![0, 1] : Fin 2 → Fin S396000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  bcast_S396000x1_S396000x64_0_1 : S396000x1.BroadcastsInDim S396000x64 (![0, 1] : Fin 2 → Fin S396000x64.rank)
  bcast_S_S12000x64 : S_.BroadcastsInDim S12000x64 (![] : Fin 0 → Fin S12000x64.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  bcast_S396000x1_S396000x500_0_1 : S396000x1.BroadcastsInDim S396000x500 (![0, 1] : Fin 2 → Fin S396000x500.rank)
  bcast_S_S12000x500 : S_.BroadcastsInDim S12000x500 (![] : Fin 0 → Fin S12000x500.rank)
  bcast_S500_S1x500_1 : S500.BroadcastsInDim S1x500 (![1] : Fin 1 → Fin S1x500.rank)
  bcast_S1x500_S12000x500_0_1 : S1x500.BroadcastsInDim S12000x500 (![0, 1] : Fin 2 → Fin S12000x500.rank)
  transposes_S12000x64_S64x12000_1_0 : S12000x64.Transposes [1, 0] S64x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x500_S500x128_S12000x128_1_0_0_1_n_n_wf : DotDims.WF S12000x500 S500x128 S12000x128 [1] [0] [0] [1] [] []
  gather_S12000x128_S396000x1_S396000x128_1_0_n_n_0_1_1128_wf : GatherDims.WF S12000x128 S396000x1 S396000x128 [1] [0] [] [0] [] 1 ![1, 128]
  scatter_S12000x128_S396000x1_S396000x128_1_0_0_1_wf : ScatterDims.WF S12000x128 S396000x1 S396000x128 [1] [0] [0] 1
  dot_S12000x128_S128x64_S12000x64_1_0_0_1_n_n_wf : DotDims.WF S12000x128 S128x64 S12000x64 [1] [0] [0] [1] [] []
  gather_S12000x64_S396000x1_S396000x64_1_0_n_n_0_1_164_wf : GatherDims.WF S12000x64 S396000x1 S396000x64 [1] [0] [] [0] [] 1 ![1, 64]
  scatter_S12000x64_S396000x1_S396000x64_1_0_0_1_wf : ScatterDims.WF S12000x64 S396000x1 S396000x64 [1] [0] [0] 1
  dot_S12000x64_S64x128_S12000x128_1_0_0_1_n_n_wf : DotDims.WF S12000x64 S64x128 S12000x128 [1] [0] [0] [1] [] []
  dot_S12000x128_S128x500_S12000x500_1_0_0_1_n_n_wf : DotDims.WF S12000x128 S128x500 S12000x500 [1] [0] [0] [1] [] []
  gather_S12000x500_S396000x1_S396000x500_1_0_n_n_0_1_1500_wf : GatherDims.WF S12000x500 S396000x1 S396000x500 [1] [0] [] [0] [] 1 ![1, 500]
  scatter_S12000x500_S396000x1_S396000x500_1_0_0_1_wf : ScatterDims.WF S12000x500 S396000x1 S396000x500 [1] [0] [0] 1
  dot_S12000x64_S64x64_S12000x64_1_0_0_1_n_n_wf : DotDims.WF S12000x64 S64x64 S12000x64 [1] [0] [0] [1] [] []
  dot_S12000x64_S64x12000_S12000x12000_1_0_0_1_n_n_wf : DotDims.WF S12000x64 S64x12000 S12000x12000 [1] [0] [0] [1] [] []

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x500_S500x128_S12000x128_1_0_0_1_n_n : DotDims S12000x500 S500x128 S12000x128 where
  lhsContracting := [1]
  rhsContracting := [0]
  lhsNonContracting := [0]
  rhsNonContracting := [1]
  lhsBatch := []
  rhsBatch := []
  wf := dot_S12000x500_S500x128_S12000x128_1_0_0_1_n_n_wf
def gather_S12000x128_S396000x1_S396000x128_1_0_n_n_0_1_1128 : GatherDims S12000x128 S396000x1 S396000x128 where
  offsetDims := [1]
  collapsedSliceDims := [0]
  operandBatchingDims := []
  startIndicesBatchingDims := []
  startIndexMap := [0]
  indexVectorDim := 1
  sliceSizes := ![1, 128]
  wf := gather_S12000x128_S396000x1_S396000x128_1_0_n_n_0_1_1128_wf
def scatter_S12000x128_S396000x1_S396000x128_1_0_0_1 : ScatterDims S12000x128 S396000x1 S396000x128 where
  updateWindowDims := [1]
  insertedWindowDims := [0]
  scatterDimsToOperandDims := [0]
  indexVectorDim := 1
  wf := scatter_S12000x128_S396000x1_S396000x128_1_0_0_1_wf
def dot_S12000x128_S128x64_S12000x64_1_0_0_1_n_n : DotDims S12000x128 S128x64 S12000x64 where
  lhsContracting := [1]
  rhsContracting := [0]
  lhsNonContracting := [0]
  rhsNonContracting := [1]
  lhsBatch := []
  rhsBatch := []
  wf := dot_S12000x128_S128x64_S12000x64_1_0_0_1_n_n_wf
def gather_S12000x64_S396000x1_S396000x64_1_0_n_n_0_1_164 : GatherDims S12000x64 S396000x1 S396000x64 where
  offsetDims := [1]
  collapsedSliceDims := [0]
  operandBatchingDims := []
  startIndicesBatchingDims := []
  startIndexMap := [0]
  indexVectorDim := 1
  sliceSizes := ![1, 64]
  wf := gather_S12000x64_S396000x1_S396000x64_1_0_n_n_0_1_164_wf
def scatter_S12000x64_S396000x1_S396000x64_1_0_0_1 : ScatterDims S12000x64 S396000x1 S396000x64 where
  updateWindowDims := [1]
  insertedWindowDims := [0]
  scatterDimsToOperandDims := [0]
  indexVectorDim := 1
  wf := scatter_S12000x64_S396000x1_S396000x64_1_0_0_1_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def dot_S12000x128_S128x500_S12000x500_1_0_0_1_n_n : DotDims S12000x128 S128x500 S12000x500 where
  lhsContracting := [1]
  rhsContracting := [0]
  lhsNonContracting := [0]
  rhsNonContracting := [1]
  lhsBatch := []
  rhsBatch := []
  wf := dot_S12000x128_S128x500_S12000x500_1_0_0_1_n_n_wf
def gather_S12000x500_S396000x1_S396000x500_1_0_n_n_0_1_1500 : GatherDims S12000x500 S396000x1 S396000x500 where
  offsetDims := [1]
  collapsedSliceDims := [0]
  operandBatchingDims := []
  startIndicesBatchingDims := []
  startIndexMap := [0]
  indexVectorDim := 1
  sliceSizes := ![1, 500]
  wf := gather_S12000x500_S396000x1_S396000x500_1_0_n_n_0_1_1500_wf
def scatter_S12000x500_S396000x1_S396000x500_1_0_0_1 : ScatterDims S12000x500 S396000x1 S396000x500 where
  updateWindowDims := [1]
  insertedWindowDims := [0]
  scatterDimsToOperandDims := [0]
  indexVectorDim := 1
  wf := scatter_S12000x500_S396000x1_S396000x500_1_0_0_1_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def dot_S12000x64_S64x12000_S12000x12000_1_0_0_1_n_n : DotDims S12000x64 S64x12000 S12000x12000 where
  lhsContracting := [1]
  rhsContracting := [0]
  lhsNonContracting := [0]
  rhsNonContracting := [1]
  lhsBatch := []
  rhsBatch := []
  wf := dot_S12000x64_S64x12000_S12000x12000_1_0_0_1_n_n_wf

class Facts : Prop extends Facts₀ where

variable [Facts]
-- ==== Proof.KB.Base.lean ====
import proofs.«117129_j76819785056523_1_alg».proof.Proof.Gen.Kernel.Launch
import proofs.«117129_j76819785056523_1_alg».proof.Proof.Gen.Kernel.Skeleton
import proofs.«117129_j76819785056523_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Contents (F : FTy → Type) [FloatOps F] : Type :=
  (c : Dev nD) → (b : Ref sig .tc) → Buf (Elt F) ((c : Thread nD τ).loc b)

def readOver {s : Shape} {e : EltTy} (v : View sig .tc .vmem s e) (L : List (View.Piece (Elt F) s e)) : s.Idx → Elt F e :=
  v.read (Elt F) (v.writes (Elt F) v.junk L)

theorem owns_unread {sp : Space} {s : Shape} {e : EltTy} (c : Dev nD) {m : Memref sig .tc sp s e} (h : m.IsWhole) (q : PosShare TreeShare) (x : s.Idx → Elt F e) :
    (owns (c : Thread nD τ) m q x : sProp 𝕄) = (m.view.loc (c : Thread nD τ) ↦[m.view.set]{q} h.unread x) := by
  refine BI.equiv_iff.mp ⟨?_, ?_⟩ <;> unfold owns <;> change (_ : sProp 𝕄) ⊢ _
  · iintro ⟨%f, %hf, H⟩; obtain rfl := h.eq_unread hf; iexact H
  · iintro H; iexists _; isplitr
    · ipureintro; exact h.read_unread _
    · iexact H

theorem owns_of_cover {s : Shape} {e : EltTy} (c : Dev nD) (v : View sig .tc .vmem s e) (m : Memref sig .tc .vmem s e) {L : List (View.Piece (Elt F) s e)}
    (hL : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (readOver v L) := by
  iintro ⟨%f, H⟩; unfold owns; iexists m.view.writes (Elt F) f L; isplitr
  · ipureintro; exact View.read_writes_of_cover _ _ _ _ _ hL
  · iexact H

end Cert.Kernel.Hand

end
-- ==== Proof.KB.Feat0.lean ====
import Idealize.ShloMosaic.Lib.Pipeline.Value
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zeroOff0 : (![0, 0] : Fin 2 → Nat) = fun _ => 0 := funext fun a => by fin_cases a <;> rfl

theorem sound_kernel0 (E : Set ℕ) (i : grid0.Coords)
    (arg1 : Memref sig .tc .vmem S1536x500 .bf16) (harg1 : arg1.IsWhole)
    (arg2 : Memref sig .tc .vmem S500x128 .bf16) (harg2 : arg2.IsWhole)
    (arg3 : Memref sig .tc .vmem S1536x128 .bf16) (harg3 : arg3.IsWhole)
    (x0 : Vec F S1536x500 .bf16) (x1 : Vec F S500x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__feat_kernel i arg1 harg1 arg2 harg2 arg3 harg3) K := by
  simp only [owns_unread c harg1, owns_unread c harg2, cc0__feat_kernel_eq_skeleton]; unfold cc0__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x128.size (by rfl)), View.canon_unit_zero zeroOff0]
  simp only [View.readAt_eq_ld, harg1.read_unread, harg2.read_unread, View.ld_unit_zero (S := S1536x500) zeroOff0, View.ld_unit_zero (S := S500x128) zeroOff0]

def dat0 : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem after0_2 (t : Fin cfg0.N) : (dat0 V c).after 2 t = k0_pay1 (iblk0 V c 0 t) (iblk0 V c 1 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

theorem body_obligation0 : BodyObligation (dat0 V c) (defs₀ (F := F)) Variants.none () Set.univ := fun t => by
  rw [bigSep_W0, bigSep_W0]
  simp only [before0_0, before0_1]
  sl_whnfR [defs₀, Defs.onTc]
  rw [show (dat0 V c).Φ t.succ = (dat0 V c).Φ t.castSucc from rfl]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin0 : (Pipeline.ΦA spec0 c : sProp 𝕄) ⊢ (dat0 V c).Φ 0 := .rfl

theorem hout0 : (dat0 V c).Φ (Fin.last cfg0.N) ⊢ (Pipeline.ΦA spec0 c : sProp 𝕄) := .rfl

end Cert.Kernel.Hand

end
-- ==== Proof.KB.Agg1Runs.lean ====
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, _)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, _)
theorem idle1_3 : ∀ t : Fin cfg1.N, cfg1.idle 3 (grid1.coords t) = true ↔ ¬t.val % 8 = 7 := by decide +kernel

abbrev VO1_3 : View sig .tc .vmem S1536x128 .bf16 := (Memref.whole cc1_stg3_0 : Memref sig .tc .vmem S1536x128 .bf16).view
abbrev ms1_0 (t : Fin cfg1.N) : Memref sig .tc .vmem S1536x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S12288x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x128 .bf16 := win1_3.stage (cfg1.slots t 3)
abbrev hs1_3 (t : Fin cfg1.N) : (ms1_3 t).IsWhole := hstage1_3 ((cfg1.slots t 3).cast nbuf1_3)
abbrev scM1_0 : Memref sig .tc .vmem S1536x128 .f32 := Memref.whole cc1_scratch0
abbrev VS1_0 : View sig .tc .vmem S1536x128 .f32 := scM1_0.view

def PhiW1 (c : Dev nD) (P : sProp 𝕄) : sProp 𝕄 :=
  iprop(iprop(P ∗ Pipeline.scopedRestBut (Ix := Unit) (Name := ℕ) (U := Pipeline.UD sig nD τ) (Lvl := ℕ) (Val := Elt F) spec1 c [cc1_scratch0]) ∗ (∃ r, prngReg c r))

theorem PhiW1_mono (c : Dev nD) {P Q : sProp 𝕄} (h : P ⊢ Q) : PhiW1 c P ⊢ PhiW1 c Q := sep_mono_left (sep_mono_left h)

theorem PhiA1_eq (c : Dev nD) : (Pipeline.ΦA spec1 c : sProp 𝕄) = PhiW1 c iprop(∃ d, owns (c : Thread nD τ) scM1_0 fullShare d) := by
  unfold Pipeline.ΦA PhiW1; rw [scopedRest1_split]; simp only [scM1_0, owns_whole]; try rfl

section Runs

variable (c : Dev nD) (i : grid1.Coords) (arg2 : Memref sig .tc .vmem S1536x1536 .bf16) (harg2 : arg2.IsWhole) (arg3 : Memref sig .tc .vmem S12288x128 .bf16) (harg3 : arg3.IsWhole) (arg4 : Memref sig .tc .vmem S1x128 .f32) (harg4 : arg4.IsWhole) (arg5 : Memref sig .tc .vmem S1536x128 .bf16) (harg5 : arg5.IsWhole) (arg6 : Memref sig .tc .vmem S1536x128 .f32) (harg6 : arg6.IsWhole)

abbrev Run1 (x0 : Vec F S1536x1536 .bf16) (x1 : Vec F S12288x128 .bf16) (x2 : Vec F S1x128 .f32) (P5 P6 Q5 : sProp 𝕄)
    (LS0 : List (View.Piece (Elt F) S1536x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc1__agg_kernel_impl i arg2 harg2 arg3 harg3 arg4 harg4 arg5 harg5 arg6 harg6) K

section A

variable (hc0 : cond1_0 i) (hc1 : ¬cond1_1 i) (x0 : Vec F S1536x1536 .bf16) (x1 : Vec F S12288x128 .bf16) (x2 : Vec F S1x128 .f32)

def kernelRun1_A :
    Σ' (L3 : List (View.Piece (Elt F) S1536x128 .bf16)), { LS0 : List (View.Piece (Elt F) S1536x128 .f32) //
      ∀ xi3 : Vec F S1536x128 .bf16, Run1 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run1, owns_unread c harg2, owns_unread c harg3, owns_unread c harg4, owns_unread c harg5, owns_unread c harg6, cc1__agg_kernel_impl_eq_skeleton]
  unfold cc1__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond1_0 i) (hc1 : ¬cond1_1 i) (x0 : Vec F S1536x1536 .bf16) (x1 : Vec F S12288x128 .bf16) (x2 : Vec F S1x128 .f32) (xs0 : Vec F S1536x128 .f32)

def kernelRun1_B :
    Σ' (L3 : List (View.Piece (Elt F) S1536x128 .bf16)), { LS0 : List (View.Piece (Elt F) S1536x128 .f32) //
      ∀ xi3 : Vec F S1536x128 .bf16, Run1 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run1, owns_unread c harg2, owns_unread c harg3, owns_unread c harg4, owns_unread c harg5, owns_unread c harg6, cc1__agg_kernel_impl_eq_skeleton]
  unfold cc1__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond1_0 i) (hc1 : cond1_1 i) (x0 : Vec F S1536x1536 .bf16) (x1 : Vec F S12288x128 .bf16) (x2 : Vec F S1x128 .f32) (xs0 : Vec F S1536x128 .f32)

def kernelRun1_C :
    Σ' (L3 : List (View.Piece (Elt F) S1536x128 .bf16)), { LS0 : List (View.Piece (Elt F) S1536x128 .f32) //
      Run1 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run1, owns_unread c harg2, owns_unread c harg3, owns_unread c harg4, owns_unread c harg5, owns_unread c harg6, cc1__agg_kernel_impl_eq_skeleton]
  unfold cc1__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg1.N)

section A
variable (h0 : t.val % 8 = 0) (h1 : ¬t.val % 8 = 7)
def runA1 :=
  kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (mt (hcond1_1 t).mp h1) (iblk1 V c 0 t) (iblk1 V c 1 t) (iblk1 V c 2 t)
theorem coverA1 (y : S1536x128.Idx) : ∃ pc ∈ (runA1 V c t h0 h1).2.1, y ∈ pc.1.set :=
  View.cover_of_tiledL _ S1536x128.size (by sl_kernel_rfl) y
end A

section B
variable (h0 : ¬t.val % 8 = 0) (h1 : ¬t.val % 8 = 7) (s : Vec F S1536x128 .f32)
def runB1 :=
  kernelRun1_B c (grid1.coords t) (ms1_0 t) (hs1_0 t) (ms1_1 t) (hs1_1 t) (ms1_2 t) (hs1_2 t) (ms1_3 t) (hs1_3 t) scM1_0 (Memref.isWhole_whole _) (mt (hcond1_0 t).mp h0) (mt (hcond1_1 t).mp h1) (iblk1 V c 0 t) (iblk1 V c 1 t) (iblk1 V c 2 t) s
theorem coverB1 (y : S1536x128.Idx) : ∃ pc ∈ (runB1 V c t h0 h1 s).2.1, y ∈ pc.1.set :=
  View.cover_of_tiledL _ S1536x128.size (by sl_kernel_rfl) y
end B

section C
variable (h0 : ¬t.val % 8 = 0) (h1 : t.val % 8 = 7) (s : Vec F S1536x128 .f32)
def runC1 :=
  kernelRun1_C c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (iblk1 V c 0 t) (iblk1 V c 1 t) (iblk1 V c 2 t) s
theorem coverC1 (y : S1536x128.Idx) : ∃ pc ∈ (runC1 V c t h0 h1 s).2.1, y ∈ pc.1.set :=
  View.cover_of_tiledL _ S1536x128.size (by sl_kernel_rfl) y
theorem coverC1_3 (y : S1536x128.Idx) : ∃ pc ∈ (runC1 V c t h0 h1 s).1, y ∈ pc.1.set :=
  View.cover_of_tiledL _ S1536x128.size (by sl_kernel_rfl) y
end C

end Point

end Cert.Kernel.Hand

end
-- ==== Proof.KB.Agg1.lean ====
import proofs.«117129_j76819785056523_1_alg».proof.Proof.KB.Agg1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut1 (c : Dev nD) (t : Fin cfg1.N) (s : Vec F S1536x128 .f32) : Vec F S1536x128 .bf16 × Vec F S1536x128 .f32 :=
  if h0 : t.val % 8 = 0 then (readOver VO1_3 (runA1 V c t h0 (by omega)).1, readOver VS1_0 (runA1 V c t h0 (by omega)).2.1)
  else if h1 : t.val % 8 = 7 then (readOver VO1_3 (runC1 V c t h0 h1 s).1, readOver VS1_0 (runC1 V c t h0 h1 s).2.1)
  else (readOver VO1_3 (runB1 V c t h0 h1 s).1, readOver VS1_0 (runB1 V c t h0 h1 s).2.1)

def outsAt1 (c : Dev nD) : (n : ℕ) → n < cfg1.N → Vec F S1536x128 .bf16 × Vec F S1536x128 .f32
  | 0, hn => ptOut1 V c ⟨0, hn⟩ (readOver VS1_0 [])
  | n + 1, hn => ptOut1 V c ⟨n + 1, hn⟩ (outsAt1 c n (Nat.lt_of_succ_lt hn)).2

theorem outsAt1_A (c : Dev nD) (t : Fin cfg1.N) (h0 : t.val % 8 = 0) (h1 : ¬t.val % 8 = 7) :
    outsAt1 V c t.val t.isLt = (readOver VO1_3 (runA1 V c t h0 h1).1, readOver VS1_0 (runA1 V c t h0 h1).2.1) := by
  obtain ⟨n, hn⟩ := t
  cases n <;> first | exact dif_pos h0 | exact rfl

theorem outsAt1_B (c : Dev nD) (t : Fin cfg1.N) (h0 : ¬t.val % 8 = 0) (h1 : ¬t.val % 8 = 7) :
    outsAt1 V c t.val t.isLt = (readOver VO1_3 (runB1 V c t h0 h1 (outsAt1 V c (t.val - 1) (Nat.lt_of_le_of_lt (Nat.sub_le _ _) t.isLt)).2).1,
      readOver VS1_0 (runB1 V c t h0 h1 (outsAt1 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt1_C (c : Dev nD) (t : Fin cfg1.N) (h0 : ¬t.val % 8 = 0) (h1 : t.val % 8 = 7) :
    outsAt1 V c t.val t.isLt = (readOver VO1_3 (runC1 V c t h0 h1 (outsAt1 V c (t.val - 1) (Nat.lt_of_le_of_lt (Nat.sub_le _ _) t.isLt)).2).1,
      readOver VS1_0 (runC1 V c t h0 h1 (outsAt1 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS1 (c : Dev nD) : (n : ℕ) → n ≤ cfg1.N → sProp 𝕄
  | 0, _ => Pipeline.ΦA spec1 c
  | n + 1, hn => PhiW1 c (owns (c : Thread nD τ) scM1_0 fullShare (outsAt1 V c n hn).2)

theorem PhiS1_pos (c : Dev nD) (n : ℕ) (h : n ≤ cfg1.N) (hz : n ≠ 0) :
    PhiS1 V c n h = PhiW1 c (owns (c : Thread nD τ) scM1_0 fullShare (outsAt1 V c (n - 1) (by omega)).2) := by
  cases n with
  | zero => exact absurd rfl hz
  | succ n => rfl

theorem PhiS1_any (c : Dev nD) (n : ℕ) (h : n ≤ cfg1.N) : PhiS1 V c n h ⊢ (Pipeline.ΦA spec1 c : sProp 𝕄) := by
  cases n with
  | zero => exact .rfl
  | succ n => rw [PhiA1_eq]; exact PhiW1_mono c (exists_intro _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) (Φ : sProp 𝕄) : sProp 𝕄 :=
  iprop(Φ ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) (Φ R3 : sProp 𝕄) : sProp 𝕄 :=
  iprop(Φ ∗ (dat1 V c).owesAt () t.castSucc
    ∗ owns (c : Thread nD τ) (ms1_0 t) fullShare (iblk1 V c 0 t) ∗ owns (c : Thread nD τ) (ms1_1 t) fullShare (iblk1 V c 1 t)
    ∗ owns (c : Thread nD τ) (ms1_2 t) fullShare (iblk1 V c 2 t) ∗ R3)

theorem frame1 (c : Dev nD) (t : Fin cfg1.N) {PS QS RS R3 : sProp 𝕄} {P3 Q3 : Vec F S1536x128 .bf16 → sProp 𝕄}
    (hrun : ∀ d (K : PUnit → sProp 𝕄), iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ P3 d ∗ PS
        ∗ (iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ Q3 d ∗ QS) -∗ K ⟨⟩))
      ⊢ wp frame (wpE (defs₀ (F := F)) Variants.none c none) Set.univ (bodyAt1 t) K)
    (hP : ∀ d, owns (c : Thread nD τ) (ms1_3 t) fullShare ((dat1 V c).before 3 t d) ⊢ P3 d) (h3 : ∀ d, Q3 d ⊢ R3) (hS : QS ⊢ RS) :
    bodyPre1 V c t (PhiW1 c PS) ⊢ wp frame (wpE (defs₀ (F := F)) Variants.none c none) Set.univ (bodyAt1 t) fun _ => bodyPost1 V c t (PhiW1 c RS) R3 := by
  unfold bodyPre1 bodyPost1 PhiW1
  simp only [before1_0, before1_1, before1_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body1 (c : Dev nD) (t : Fin cfg1.N) :
    bodyPre1 V c t (PhiS1 V c t.val (Nat.le_of_lt t.isLt)) ⊢ wp frame (wpE (defs₀ (F := F)) Variants.none c none) Set.univ (bodyAt1 t) fun _ =>
      bodyPost1 V c t (PhiW1 c (owns (c : Thread nD τ) scM1_0 fullShare (outsAt1 V c t.val t.isLt).2)) ((dat1 V c).leavesExact 3 t) := by
  by_cases h1 : t.val % 8 = 7
  · have h0 : ¬t.val % 8 = 0 := by omega
    have hz : t.val ≠ 0 := by omega
    rw [show (dat1 V c).leavesExact 3 t = owns (c : Thread nD τ) (ms1_3 t) fullShare ((dat1 V c).after 3 t) from by
      unfold Dat.leavesExact; rw [Bool.eq_false_iff.mpr fun h => (idle1_3 t).mp h h1], after1_3]
    rw [outsAt1_C V c t h0 h1, PhiS1_pos V c _ _ hz]; dsimp only
    exact frame1 V c t (fun d K => (runC1 V c t h0 h1 _).2.2 Set.univ K) (fun d => exists_intro _)
      (fun _ => owns_of_cover c VO1_3 _ (coverC1_3 V c t h0 h1 _)) (owns_of_cover c VS1_0 _ (coverC1 V c t h0 h1 _))
  · rw [Dat.leavesExact_idle (dat1 V c) 3 t ((idle1_3 t).mpr h1) (Bool.eq_false_iff.mpr (mt (flush1_3 t).mp h1))]
    by_cases h0 : t.val % 8 = 0
    · rw [outsAt1_A V c t h0 h1]; dsimp only
      refine (sep_mono_left ((PhiS1_any V c _ _).trans (PhiA1_eq c).le)).trans ?_
      exact frame1 V c t (fun d K => (runA1 V c t h0 h1).2.2 ((dat1 V c).before 3 t d) Set.univ K)
        (fun _ => .rfl) (fun d => by iintro H; iexists d; iexact H) (owns_of_cover c VS1_0 _ (coverA1 V c t h0 h1))
    · have hz : t.val ≠ 0 := by omega
      rw [outsAt1_B V c t h0 h1, PhiS1_pos V c _ _ hz]; dsimp only
      exact frame1 V c t (fun d K => (runB1 V c t h0 h1 _).2.2 ((dat1 V c).before 3 t d) Set.univ K)
        (fun _ => .rfl) (fun d => by iintro H; iexists d; iexact H) (owns_of_cover c VS1_0 _ (coverB1 V c t h0 h1 _))

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := PhiS1_any V c (Fin.last cfg1.N).val _

end Cert.Kernel.Hand

end
-- ==== Proof.KB.Feat2.lean ====
import Idealize.ShloMosaic.Lib.Pipeline.Value
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

theorem zeroOff2 : (![0, 0] : Fin 2 → Nat) = fun _ => 0 := funext fun a => by fin_cases a <;> rfl

theorem sound_kernel2 (E : Set ℕ) (i : grid2.Coords)
    (arg1 : Memref sig .tc .vmem S1536x128 .bf16) (harg1 : arg1.IsWhole)
    (arg2 : Memref sig .tc .vmem S128x64 .bf16) (harg2 : arg2.IsWhole)
    (arg3 : Memref sig .tc .vmem S1536x64 .bf16) (harg3 : arg3.IsWhole)
    (x0 : Vec F S1536x128 .bf16) (x1 : Vec F S128x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__feat_kernel i arg1 harg1 arg2 harg2 arg3 harg3) K := by
  simp only [owns_unread c harg1, owns_unread c harg2, cc2__feat_kernel_eq_skeleton]; unfold cc2__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x64.size (by rfl)), View.canon_unit_zero zeroOff2]
  simp only [View.readAt_eq_ld, harg1.read_unread, harg2.read_unread, View.ld_unit_zero (S := S1536x128) zeroOff2, View.ld_unit_zero (S := S128x64) zeroOff2]

def dat2 : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem after2_2 (t : Fin cfg2.N) : (dat2 V c).after 2 t = k2_pay1 (iblk2 V c 0 t) (iblk2 V c 1 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d

theorem body_obligation2 : BodyObligation (dat2 V c) (defs₀ (F := F)) Variants.none () Set.univ := fun t => by
  rw [bigSep_W2, bigSep_W2]
  simp only [before2_0, before2_1]
  sl_whnfR [defs₀, Defs.onTc]
  rw [show (dat2 V c).Φ t.succ = (dat2 V c).Φ t.castSucc from rfl]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin2 : (Pipeline.ΦA spec2 c : sProp 𝕄) ⊢ (dat2 V c).Φ 0 := .rfl

theorem hout2 : (dat2 V c).Φ (Fin.last cfg2.N) ⊢ (Pipeline.ΦA spec2 c : sProp 𝕄) := .rfl

end Cert.Kernel.Hand

end
-- ==== Proof.KB.Agg3Runs.lean ====
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, _)
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, _)
theorem idle3_3 : ∀ t : Fin cfg3.N, cfg3.idle 3 (grid3.coords t) = true ↔ ¬t.val % 8 = 7 := by decide +kernel

abbrev VO3_3 : View sig .tc .vmem S1536x64 .bf16 := (Memref.whole cc3_stg3_0 : Memref sig .tc .vmem S1536x64 .bf16).view
abbrev ms3_0 (t : Fin cfg3.N) : Memref sig .tc .vmem S1536x1536 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S12288x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1536x64 .bf16 := win3_3.stage (cfg3.slots t 3)
abbrev hs3_3 (t : Fin cfg3.N) : (ms3_3 t).IsWhole := hstage3_3 ((cfg3.slots t 3).cast nbuf3_3)
abbrev scM3_0 : Memref sig .tc .vmem S1536x64 .f32 := Memref.whole cc3_scratch0
abbrev VS3_0 : View sig .tc .vmem S1536x64 .f32 := scM3_0.view

def PhiW3 (c : Dev nD) (P : sProp 𝕄) : sProp 𝕄 :=
  iprop(iprop(P ∗ Pipeline.scopedRestBut (Ix := Unit) (Name := ℕ) (U := Pipeline.UD sig nD τ) (Lvl := ℕ) (Val := Elt F) spec3 c [cc3_scratch0]) ∗ (∃ r, prngReg c r))

theorem PhiW3_mono (c : Dev nD) {P Q : sProp 𝕄} (h : P ⊢ Q) : PhiW3 c P ⊢ PhiW3 c Q := sep_mono_left (sep_mono_left h)

theorem PhiA3_eq (c : Dev nD) : (Pipeline.ΦA spec3 c : sProp 𝕄) = PhiW3 c iprop(∃ d, owns (c : Thread nD τ) scM3_0 fullShare d) := by
  unfold Pipeline.ΦA PhiW3; rw [scopedRest3_split]; simp only [scM3_0, owns_whole]; try rfl

section Runs

variable (c : Dev nD) (i : grid3.Coords) (arg2 : Memref sig .tc .vmem S1536x1536 .bf16) (harg2 : arg2.IsWhole) (arg3 : Memref sig .tc .vmem S12288x64 .bf16) (harg3 : arg3.IsWhole) (arg4 : Memref sig .tc .vmem S1x64 .f32) (harg4 : arg4.IsWhole) (arg5 : Memref sig .tc .vmem S1536x64 .bf16) (harg5 : arg5.IsWhole) (arg6 : Memref sig .tc .vmem S1536x64 .f32) (harg6 : arg6.IsWhole)

abbrev Run3 (x0 : Vec F S1536x1536 .bf16) (x1 : Vec F S12288x64 .bf16) (x2 : Vec F S1x64 .f32) (P5 P6 Q5 : sProp 𝕄)
    (LS0 : List (View.Piece (Elt F) S1536x64 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc3__agg_kernel_impl i arg2 harg2 arg3 harg3 arg4 harg4 arg5 harg5 arg6 harg6) K

section A

variable (hc0 : cond3_0 i) (hc1 : ¬cond3_1 i) (x0 : Vec F S1536x1536 .bf16) (x1 : Vec F S12288x64 .bf16) (x2 : Vec F S1x64 .f32)

def kernelRun3_A :
    Σ' (L3 : List (View.Piece (Elt F) S1536x64 .bf16)), { LS0 : List (View.Piece (Elt F) S1536x64 .f32) //
      ∀ xi3 : Vec F S1536x64 .bf16, Run3 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run3, owns_unread c harg2, owns_unread c harg3, owns_unread c harg4, owns_unread c harg5, owns_unread c harg6, cc3__agg_kernel_impl_eq_skeleton]
  unfold cc3__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond3_0 i) (hc1 : ¬cond3_1 i) (x0 : Vec F S1536x1536 .bf16) (x1 : Vec F S12288x64 .bf16) (x2 : Vec F S1x64 .f32) (xs0 : Vec F S1536x64 .f32)

def kernelRun3_B :
    Σ' (L3 : List (View.Piece (Elt F) S1536x64 .bf16)), { LS0 : List (View.Piece (Elt F) S1536x64 .f32) //
      ∀ xi3 : Vec F S1536x64 .bf16, Run3 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run3, owns_unread c harg2, owns_unread c harg3, owns_unread c harg4, owns_unread c harg5, owns_unread c harg6, cc3__agg_kernel_impl_eq_skeleton]
  unfold cc3__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond3_0 i) (hc1 : cond3_1 i) (x0 : Vec F S1536x1536 .bf16) (x1 : Vec F S12288x64 .bf16) (x2 : Vec F S1x64 .f32) (xs0 : Vec F S1536x64 .f32)

def kernelRun3_C :
    Σ' (L3 : List (View.Piece (Elt F) S1536x64 .bf16)), { LS0 : List (View.Piece (Elt F) S1536x64 .f32) //
      Run3 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run3, owns_unread c harg2, owns_unread c harg3, owns_unread c harg4, owns_unread c harg5, owns_unread c harg6, cc3__agg_kernel_impl_eq_skeleton]
  unfold cc3__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg3.N)

section A
variable (h0 : t.val % 8 = 0) (h1 : ¬t.val % 8 = 7)
def runA3 :=
  kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (iblk3 V c 0 t) (iblk3 V c 1 t) (iblk3 V c 2 t)
theorem coverA3 (y : S1536x64.Idx) : ∃ pc ∈ (runA3 V c t h0 h1).2.1, y ∈ pc.1.set :=
  View.cover_of_tiledL _ S1536x64.size (by sl_kernel_rfl) y
end A

section B
variable (h0 : ¬t.val % 8 = 0) (h1 : ¬t.val % 8 = 7) (s : Vec F S1536x64 .f32)
def runB3 :=
  kernelRun3_B c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) s
theorem coverB3 (y : S1536x64.Idx) : ∃ pc ∈ (runB3 V c t h0 h1 s).2.1, y ∈ pc.1.set :=
  View.cover_of_tiledL _ S1536x64.size (by sl_kernel_rfl) y
end B

section C
variable (h0 : ¬t.val % 8 = 0) (h1 : t.val % 8 = 7) (s : Vec F S1536x64 .f32)
def runC3 :=
  kernelRun3_C c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) s
theorem coverC3 (y : S1536x64.Idx) : ∃ pc ∈ (runC3 V c t h0 h1 s).2.1, y ∈ pc.1.set :=
  View.cover_of_tiledL _ S1536x64.size (by sl_kernel_rfl) y
theorem coverC3_3 (y : S1536x64.Idx) : ∃ pc ∈ (runC3 V c t h0 h1 s).1, y ∈ pc.1.set :=
  View.cover_of_tiledL _ S1536x64.size (by sl_kernel_rfl) y
end C

end Point

end Cert.Kernel.Hand

end
-- ==== Proof.KB.Agg3.lean ====
import proofs.«117129_j76819785056523_1_alg».proof.Proof.KB.Agg3Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut3 (c : Dev nD) (t : Fin cfg3.N) (s : Vec F S1536x64 .f32) : Vec F S1536x64 .bf16 × Vec F S1536x64 .f32 :=
  if h0 : t.val % 8 = 0 then (readOver VO3_3 (runA3 V c t h0 (by omega)).1, readOver VS3_0 (runA3 V c t h0 (by omega)).2.1)
  else if h1 : t.val % 8 = 7 then (readOver VO3_3 (runC3 V c t h0 h1 s).1, readOver VS3_0 (runC3 V c t h0 h1 s).2.1)
  else (readOver VO3_3 (runB3 V c t h0 h1 s).1, readOver VS3_0 (runB3 V c t h0 h1 s).2.1)

def outsAt3 (c : Dev nD) : (n : ℕ) → n < cfg3.N → Vec F S1536x64 .bf16 × Vec F S1536x64 .f32
  | 0, hn => ptOut3 V c ⟨0, hn⟩ (readOver VS3_0 [])
  | n + 1, hn => ptOut3 V c ⟨n + 1, hn⟩ (outsAt3 c n (Nat.lt_of_succ_lt hn)).2

theorem outsAt3_A (c : Dev nD) (t : Fin cfg3.N) (h0 : t.val % 8 = 0) (h1 : ¬t.val % 8 = 7) :
    outsAt3 V c t.val t.isLt = (readOver VO3_3 (runA3 V c t h0 h1).1, readOver VS3_0 (runA3 V c t h0 h1).2.1) := by
  obtain ⟨n, hn⟩ := t
  cases n <;> first | exact dif_pos h0 | exact rfl

theorem outsAt3_B (c : Dev nD) (t : Fin cfg3.N) (h0 : ¬t.val % 8 = 0) (h1 : ¬t.val % 8 = 7) :
    outsAt3 V c t.val t.isLt = (readOver VO3_3 (runB3 V c t h0 h1 (outsAt3 V c (t.val - 1) (Nat.lt_of_le_of_lt (Nat.sub_le _ _) t.isLt)).2).1,
      readOver VS3_0 (runB3 V c t h0 h1 (outsAt3 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt3_C (c : Dev nD) (t : Fin cfg3.N) (h0 : ¬t.val % 8 = 0) (h1 : t.val % 8 = 7) :
    outsAt3 V c t.val t.isLt = (readOver VO3_3 (runC3 V c t h0 h1 (outsAt3 V c (t.val - 1) (Nat.lt_of_le_of_lt (Nat.sub_le _ _) t.isLt)).2).1,
      readOver VS3_0 (runC3 V c t h0 h1 (outsAt3 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS3 (c : Dev nD) : (n : ℕ) → n ≤ cfg3.N → sProp 𝕄
  | 0, _ => Pipeline.ΦA spec3 c
  | n + 1, hn => PhiW3 c (owns (c : Thread nD τ) scM3_0 fullShare (outsAt3 V c n hn).2)

theorem PhiS3_pos (c : Dev nD) (n : ℕ) (h : n ≤ cfg3.N) (hz : n ≠ 0) :
    PhiS3 V c n h = PhiW3 c (owns (c : Thread nD τ) scM3_0 fullShare (outsAt3 V c (n - 1) (by omega)).2) := by
  cases n with
  | zero => exact absurd rfl hz
  | succ n => rfl

theorem PhiS3_any (c : Dev nD) (n : ℕ) (h : n ≤ cfg3.N) : PhiS3 V c n h ⊢ (Pipeline.ΦA spec3 c : sProp 𝕄) := by
  cases n with
  | zero => exact .rfl
  | succ n => rw [PhiA3_eq]; exact PhiW3_mono c (exists_intro _)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) (Φ : sProp 𝕄) : sProp 𝕄 :=
  iprop(Φ ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) (Φ R3 : sProp 𝕄) : sProp 𝕄 :=
  iprop(Φ ∗ (dat3 V c).owesAt () t.castSucc
    ∗ owns (c : Thread nD τ) (ms3_0 t) fullShare (iblk3 V c 0 t) ∗ owns (c : Thread nD τ) (ms3_1 t) fullShare (iblk3 V c 1 t)
    ∗ owns (c : Thread nD τ) (ms3_2 t) fullShare (iblk3 V c 2 t) ∗ R3)

theorem frame3 (c : Dev nD) (t : Fin cfg3.N) {PS QS RS R3 : sProp 𝕄} {P3 Q3 : Vec F S1536x64 .bf16 → sProp 𝕄}
    (hrun : ∀ d (K : PUnit → sProp 𝕄), iprop(owns (c : Thread nD τ) (ms3_0 t) fullShare (iblk3 V c 0 t) ∗ owns (c : Thread nD τ) (ms3_1 t) fullShare (iblk3 V c 1 t) ∗ owns (c : Thread nD τ) (ms3_2 t) fullShare (iblk3 V c 2 t) ∗ P3 d ∗ PS
        ∗ (iprop(owns (c : Thread nD τ) (ms3_0 t) fullShare (iblk3 V c 0 t) ∗ owns (c : Thread nD τ) (ms3_1 t) fullShare (iblk3 V c 1 t) ∗ owns (c : Thread nD τ) (ms3_2 t) fullShare (iblk3 V c 2 t) ∗ Q3 d ∗ QS) -∗ K ⟨⟩))
      ⊢ wp frame (wpE (defs₀ (F := F)) Variants.none c none) Set.univ (bodyAt3 t) K)
    (hP : ∀ d, owns (c : Thread nD τ) (ms3_3 t) fullShare ((dat3 V c).before 3 t d) ⊢ P3 d) (h3 : ∀ d, Q3 d ⊢ R3) (hS : QS ⊢ RS) :
    bodyPre3 V c t (PhiW3 c PS) ⊢ wp frame (wpE (defs₀ (F := F)) Variants.none c none) Set.univ (bodyAt3 t) fun _ => bodyPost3 V c t (PhiW3 c RS) R3 := by
  unfold bodyPre3 bodyPost3 PhiW3
  simp only [before3_0, before3_1, before3_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body3 (c : Dev nD) (t : Fin cfg3.N) :
    bodyPre3 V c t (PhiS3 V c t.val (Nat.le_of_lt t.isLt)) ⊢ wp frame (wpE (defs₀ (F := F)) Variants.none c none) Set.univ (bodyAt3 t) fun _ =>
      bodyPost3 V c t (PhiW3 c (owns (c : Thread nD τ) scM3_0 fullShare (outsAt3 V c t.val t.isLt).2)) ((dat3 V c).leavesExact 3 t) := by
  by_cases h1 : t.val % 8 = 7
  · have h0 : ¬t.val % 8 = 0 := by omega
    have hz : t.val ≠ 0 := by omega
    rw [show (dat3 V c).leavesExact 3 t = owns (c : Thread nD τ) (ms3_3 t) fullShare ((dat3 V c).after 3 t) from by
      unfold Dat.leavesExact; rw [Bool.eq_false_iff.mpr fun h => (idle3_3 t).mp h h1], after3_3]
    rw [outsAt3_C V c t h0 h1, PhiS3_pos V c _ _ hz]; dsimp only
    exact frame3 V c t (fun d K => (runC3 V c t h0 h1 _).2.2 Set.univ K) (fun d => exists_intro _)
      (fun _ => owns_of_cover c VO3_3 _ (coverC3_3 V c t h0 h1 _)) (owns_of_cover c VS3_0 _ (coverC3 V c t h0 h1 _))
  · rw [Dat.leavesExact_idle (dat3 V c) 3 t ((idle3_3 t).mpr h1) (Bool.eq_false_iff.mpr (mt (flush3_3 t).mp h1))]
    by_cases h0 : t.val % 8 = 0
    · rw [outsAt3_A V c t h0 h1]; dsimp only
      refine (sep_mono_left ((PhiS3_any V c _ _).trans (PhiA3_eq c).le)).trans ?_
      exact frame3 V c t (fun d K => (runA3 V c t h0 h1).2.2 ((dat3 V c).before 3 t d) Set.univ K)
        (fun _ => .rfl) (fun d => by iintro H; iexists d; iexact H) (owns_of_cover c VS3_0 _ (coverA3 V c t h0 h1))
    · have hz : t.val ≠ 0 := by omega
      rw [outsAt3_B V c t h0 h1, PhiS3_pos V c _ _ hz]; dsimp only
      exact frame3 V c t (fun d K => (runB3 V c t h0 h1 _).2.2 ((dat3 V c).before 3 t d) Set.univ K)
        (fun _ => .rfl) (fun d => by iintro H; iexists d; iexact H) (owns_of_cover c VS3_0 _ (coverB3 V c t h0 h1 _))

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := PhiS3_any V c (Fin.last cfg3.N).val _

end Cert.Kernel.Hand

end
-- ==== Proof.KB.Feat4.lean ====
import Idealize.ShloMosaic.Lib.Pipeline.Value
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zeroOff4 : (![0, 0] : Fin 2 → Nat) = fun _ => 0 := funext fun a => by fin_cases a <;> rfl

theorem sound_kernel4 (E : Set ℕ) (i : grid4.Coords)
    (arg1 : Memref sig .tc .vmem S1536x64 .bf16) (harg1 : arg1.IsWhole)
    (arg2 : Memref sig .tc .vmem S64x128 .bf16) (harg2 : arg2.IsWhole)
    (arg3 : Memref sig .tc .vmem S1536x128 .bf16) (harg3 : arg3.IsWhole)
    (x0 : Vec F S1536x64 .bf16) (x1 : Vec F S64x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k4_pay1 x0 x1)) -∗ K ⟨⟩))
      ⊢ wp frame (wpE (defs₀ (F := F)) Variants.none c none) E (cc4__feat_kernel i arg1 harg1 arg2 harg2 arg3 harg3) K := by
  simp only [owns_unread c harg1, owns_unread c harg2, cc4__feat_kernel_eq_skeleton]; unfold cc4__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x128.size (by rfl)), View.canon_unit_zero zeroOff4]
  simp only [View.readAt_eq_ld, harg1.read_unread, harg2.read_unread, View.ld_unit_zero (S := S1536x64) zeroOff4, View.ld_unit_zero (S := S64x128) zeroOff4]

def dat4 : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem after4_2 (t : Fin cfg4.N) : (dat4 V c).after 2 t = k4_pay1 (iblk4 V c 0 t) (iblk4 V c 1 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d

theorem body_obligation4 : BodyObligation (dat4 V c) (defs₀ (F := F)) Variants.none () Set.univ := fun t => by
  rw [bigSep_W4, bigSep_W4]
  simp only [before4_0, before4_1]
  sl_whnfR [defs₀, Defs.onTc]
  rw [show (dat4 V c).Φ t.succ = (dat4 V c).Φ t.castSucc from rfl]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin4 : (Pipeline.ΦA spec4 c : sProp 𝕄) ⊢ (dat4 V c).Φ 0 := .rfl

theorem hout4 : (dat4 V c).Φ (Fin.last cfg4.N) ⊢ (Pipeline.ΦA spec4 c : sProp 𝕄) := .rfl

end Cert.Kernel.Hand

end
-- ==== Proof.KB.Agg5Runs.lean ====
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, _)
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, _)
theorem idle5_3 : ∀ t : Fin cfg5.N, cfg5.idle 3 (grid5.coords t) = true ↔ ¬t.val % 8 = 7 := by decide +kernel

abbrev VO5_3 : View sig .tc .vmem S1536x128 .bf16 := (Memref.whole cc5_stg3_0 : Memref sig .tc .vmem S1536x128 .bf16).view
abbrev ms5_0 (t : Fin cfg5.N) : Memref sig .tc .vmem S1536x1536 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S12288x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1536x128 .bf16 := win5_3.stage (cfg5.slots t 3)
abbrev hs5_3 (t : Fin cfg5.N) : (ms5_3 t).IsWhole := hstage5_3 ((cfg5.slots t 3).cast nbuf5_3)
abbrev scM5_0 : Memref sig .tc .vmem S1536x128 .f32 := Memref.whole cc5_scratch0
abbrev VS5_0 : View sig .tc .vmem S1536x128 .f32 := scM5_0.view

def PhiW5 (c : Dev nD) (P : sProp 𝕄) : sProp 𝕄 :=
  iprop(iprop(P ∗ Pipeline.scopedRestBut (Ix := Unit) (Name := ℕ) (U := Pipeline.UD sig nD τ) (Lvl := ℕ) (Val := Elt F) spec5 c [cc5_scratch0]) ∗ (∃ r, prngReg c r))

theorem PhiW5_mono (c : Dev nD) {P Q : sProp 𝕄} (h : P ⊢ Q) : PhiW5 c P ⊢ PhiW5 c Q := sep_mono_left (sep_mono_left h)

theorem PhiA5_eq (c : Dev nD) : (Pipeline.ΦA spec5 c : sProp 𝕄) = PhiW5 c iprop(∃ d, owns (c : Thread nD τ) scM5_0 fullShare d) := by
  unfold Pipeline.ΦA PhiW5; rw [scopedRest5_split]; simp only [scM5_0, owns_whole]; try rfl

section Runs

variable (c : Dev nD) (i : grid5.Coords) (arg2 : Memref sig .tc .vmem S1536x1536 .bf16) (harg2 : arg2.IsWhole) (arg3 : Memref sig .tc .vmem S12288x128 .bf16) (harg3 : arg3.IsWhole) (arg4 : Memref sig .tc .vmem S1x128 .f32) (harg4 : arg4.IsWhole) (arg5 : Memref sig .tc .vmem S1536x128 .bf16) (harg5 : arg5.IsWhole) (arg6 : Memref sig .tc .vmem S1536x128 .f32) (harg6 : arg6.IsWhole)

abbrev Run5 (x0 : Vec F S1536x1536 .bf16) (x1 : Vec F S12288x128 .bf16) (x2 : Vec F S1x128 .f32) (P5 P6 Q5 : sProp 𝕄)
    (LS0 : List (View.Piece (Elt F) S1536x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc5__agg_kernel_impl i arg2 harg2 arg3 harg3 arg4 harg4 arg5 harg5 arg6 harg6) K

section A

variable (hc0 : cond5_0 i) (hc1 : ¬cond5_1 i) (x0 : Vec F S1536x1536 .bf16) (x1 : Vec F S12288x128 .bf16) (x2 : Vec F S1x128 .f32)

def kernelRun5_A :
    Σ' (L3 : List (View.Piece (Elt F) S1536x128 .bf16)), { LS0 : List (View.Piece (Elt F) S1536x128 .f32) //
      ∀ xi3 : Vec F S1536x128 .bf16, Run5 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run5, owns_unread c harg2, owns_unread c harg3, owns_unread c harg4, owns_unread c harg5, owns_unread c harg6, cc5__agg_kernel_impl_eq_skeleton]
  unfold cc5__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond5_0 i) (hc1 : ¬cond5_1 i) (x0 : Vec F S1536x1536 .bf16) (x1 : Vec F S12288x128 .bf16) (x2 : Vec F S1x128 .f32) (xs0 : Vec F S1536x128 .f32)

def kernelRun5_B :
    Σ' (L3 : List (View.Piece (Elt F) S1536x128 .bf16)), { LS0 : List (View.Piece (Elt F) S1536x128 .f32) //
      ∀ xi3 : Vec F S1536x128 .bf16, Run5 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run5, owns_unread c harg2, owns_unread c harg3, owns_unread c harg4, owns_unread c harg5, owns_unread c harg6, cc5__agg_kernel_impl_eq_skeleton]
  unfold cc5__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond5_0 i) (hc1 : cond5_1 i) (x0 : Vec F S1536x1536 .bf16) (x1 : Vec F S12288x128 .bf16) (x2 : Vec F S1x128 .f32) (xs0 : Vec F S1536x128 .f32)

def kernelRun5_C :
    Σ' (L3 : List (View.Piece (Elt F) S1536x128 .bf16)), { LS0 : List (View.Piece (Elt F) S1536x128 .f32) //
      Run5 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run5, owns_unread c harg2, owns_unread c harg3, owns_unread c harg4, owns_unread c harg5, owns_unread c harg6, cc5__agg_kernel_impl_eq_skeleton]
  unfold cc5__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg5.N)

section A
variable (h0 : t.val % 8 = 0) (h1 : ¬t.val % 8 = 7)
def runA5 :=
  kernelRun5_A c (grid5.coords t) (ms5_0 t) (hs5_0 t) (ms5_1 t) (hs5_1 t) (ms5_2 t) (hs5_2 t) (ms5_3 t) (hs5_3 t) scM5_0 (Memref.isWhole_whole _) ((hcond5_0 t).mpr h0) (mt (hcond5_1 t).mp h1) (iblk5 V c 0 t) (iblk5 V c 1 t) (iblk5 V c 2 t)
theorem coverA5 (y : S1536x128.Idx) : ∃ pc ∈ (runA5 V c t h0 h1).2.1, y ∈ pc.1.set :=
  View.cover_of_tiledL _ S1536x128.size (by sl_kernel_rfl) y
end A

section B
variable (h0 : ¬t.val % 8 = 0) (h1 : ¬t.val % 8 = 7) (s : Vec F S1536x128 .f32)
def runB5 :=
  kernelRun5_B c (grid5.coords t) (ms5_0 t) (hs5_0 t) (ms5_1 t) (hs5_1 t) (ms5_2 t) (hs5_2 t) (ms5_3 t) (hs5_3 t) scM5_0 (Memref.isWhole_whole _) (mt (hcond5_0 t).mp h0) (mt (hcond5_1 t).mp h1) (iblk5 V c 0 t) (iblk5 V c 1 t) (iblk5 V c 2 t) s
theorem coverB5 (y : S1536x128.Idx) : ∃ pc ∈ (runB5 V c t h0 h1 s).2.1, y ∈ pc.1.set :=
  View.cover_of_tiledL _ S1536x128.size (by sl_kernel_rfl) y
end B

section C
variable (h0 : ¬t.val % 8 = 0) (h1 : t.val % 8 = 7) (s : Vec F S1536x128 .f32)
def runC5 :=
  kernelRun5_C c (grid5.coords t) (ms5_0 t) (hs5_0 t) (ms5_1 t) (hs5_1 t) (ms5_2 t) (hs5_2 t) (ms5_3 t) (hs5_3 t) scM5_0 (Memref.isWhole_whole _) (mt (hcond5_0 t).mp h0) ((hcond5_1 t).mpr h1) (iblk5 V c 0 t) (iblk5 V c 1 t) (iblk5 V c 2 t) s
theorem coverC5 (y : S1536x128.Idx) : ∃ pc ∈ (runC5 V c t h0 h1 s).2.1, y ∈ pc.1.set :=
  View.cover_of_tiledL _ S1536x128.size (by sl_kernel_rfl) y
theorem coverC5_3 (y : S1536x128.Idx) : ∃ pc ∈ (runC5 V c t h0 h1 s).1, y ∈ pc.1.set :=
  View.cover_of_tiledL _ S1536x128.size (by sl_kernel_rfl) y
end C

end Point

end Cert.Kernel.Hand

end
-- ==== Proof.KB.Agg5.lean ====
import proofs.«117129_j76819785056523_1_alg».proof.Proof.KB.Agg5Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut5 (c : Dev nD) (t : Fin cfg5.N) (s : Vec F S1536x128 .f32) : Vec F S1536x128 .bf16 × Vec F S1536x128 .f32 :=
  if h0 : t.val % 8 = 0 then (readOver VO5_3 (runA5 V c t h0 (by omega)).1, readOver VS5_0 (runA5 V c t h0 (by omega)).2.1)
  else if h1 : t.val % 8 = 7 then (readOver VO5_3 (runC5 V c t h0 h1 s).1, readOver VS5_0 (runC5 V c t h0 h1 s).2.1)
  else (readOver VO5_3 (runB5 V c t h0 h1 s).1, readOver VS5_0 (runB5 V c t h0 h1 s).2.1)

def outsAt5 (c : Dev nD) : (n : ℕ) → n < cfg5.N → Vec F S1536x128 .bf16 × Vec F S1536x128 .f32
  | 0, hn => ptOut5 V c ⟨0, hn⟩ (readOver VS5_0 [])
  | n + 1, hn => ptOut5 V c ⟨n + 1, hn⟩ (outsAt5 c n (Nat.lt_of_succ_lt hn)).2

theorem outsAt5_A (c : Dev nD) (t : Fin cfg5.N) (h0 : t.val % 8 = 0) (h1 : ¬t.val % 8 = 7) :
    outsAt5 V c t.val t.isLt = (readOver VO5_3 (runA5 V c t h0 h1).1, readOver VS5_0 (runA5 V c t h0 h1).2.1) := by
  obtain ⟨n, hn⟩ := t
  cases n <;> first | exact dif_pos h0 | exact rfl

theorem outsAt5_B (c : Dev nD) (t : Fin cfg5.N) (h0 : ¬t.val % 8 = 0) (h1 : ¬t.val % 8 = 7) :
    outsAt5 V c t.val t.isLt = (readOver VO5_3 (runB5 V c t h0 h1 (outsAt5 V c (t.val - 1) (Nat.lt_of_le_of_lt (Nat.sub_le _ _) t.isLt)).2).1,
      readOver VS5_0 (runB5 V c t h0 h1 (outsAt5 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt5_C (c : Dev nD) (t : Fin cfg5.N) (h0 : ¬t.val % 8 = 0) (h1 : t.val % 8 = 7) :
    outsAt5 V c t.val t.isLt = (readOver VO5_3 (runC5 V c t h0 h1 (outsAt5 V c (t.val - 1) (Nat.lt_of_le_of_lt (Nat.sub_le _ _) t.isLt)).2).1,
      readOver VS5_0 (runC5 V c t h0 h1 (outsAt5 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS5 (c : Dev nD) : (n : ℕ) → n ≤ cfg5.N → sProp 𝕄
  | 0, _ => Pipeline.ΦA spec5 c
  | n + 1, hn => PhiW5 c (owns (c : Thread nD τ) scM5_0 fullShare (outsAt5 V c n hn).2)

theorem PhiS5_pos (c : Dev nD) (n : ℕ) (h : n ≤ cfg5.N) (hz : n ≠ 0) :
    PhiS5 V c n h = PhiW5 c (owns (c : Thread nD τ) scM5_0 fullShare (outsAt5 V c (n - 1) (by omega)).2) := by
  cases n with
  | zero => exact absurd rfl hz
  | succ n => rfl

theorem PhiS5_any (c : Dev nD) (n : ℕ) (h : n ≤ cfg5.N) : PhiS5 V c n h ⊢ (Pipeline.ΦA spec5 c : sProp 𝕄) := by
  cases n with
  | zero => exact .rfl
  | succ n => rw [PhiA5_eq]; exact PhiW5_mono c (exists_intro _)

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_3 (c : Dev nD) (t : Fin cfg5.N) : (dat5 V c).after 3 t = (outsAt5 V c t.val t.isLt).1 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) (Φ : sProp 𝕄) : sProp 𝕄 :=
  iprop(Φ ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) (Φ R3 : sProp 𝕄) : sProp 𝕄 :=
  iprop(Φ ∗ (dat5 V c).owesAt () t.castSucc
    ∗ owns (c : Thread nD τ) (ms5_0 t) fullShare (iblk5 V c 0 t) ∗ owns (c : Thread nD τ) (ms5_1 t) fullShare (iblk5 V c 1 t)
    ∗ owns (c : Thread nD τ) (ms5_2 t) fullShare (iblk5 V c 2 t) ∗ R3)

theorem frame5 (c : Dev nD) (t : Fin cfg5.N) {PS QS RS R3 : sProp 𝕄} {P3 Q3 : Vec F S1536x128 .bf16 → sProp 𝕄}
    (hrun : ∀ d (K : PUnit → sProp 𝕄), iprop(owns (c : Thread nD τ) (ms5_0 t) fullShare (iblk5 V c 0 t) ∗ owns (c : Thread nD τ) (ms5_1 t) fullShare (iblk5 V c 1 t) ∗ owns (c : Thread nD τ) (ms5_2 t) fullShare (iblk5 V c 2 t) ∗ P3 d ∗ PS
        ∗ (iprop(owns (c : Thread nD τ) (ms5_0 t) fullShare (iblk5 V c 0 t) ∗ owns (c : Thread nD τ) (ms5_1 t) fullShare (iblk5 V c 1 t) ∗ owns (c : Thread nD τ) (ms5_2 t) fullShare (iblk5 V c 2 t) ∗ Q3 d ∗ QS) -∗ K ⟨⟩))
      ⊢ wp frame (wpE (defs₀ (F := F)) Variants.none c none) Set.univ (bodyAt5 t) K)
    (hP : ∀ d, owns (c : Thread nD τ) (ms5_3 t) fullShare ((dat5 V c).before 3 t d) ⊢ P3 d) (h3 : ∀ d, Q3 d ⊢ R3) (hS : QS ⊢ RS) :
    bodyPre5 V c t (PhiW5 c PS) ⊢ wp frame (wpE (defs₀ (F := F)) Variants.none c none) Set.univ (bodyAt5 t) fun _ => bodyPost5 V c t (PhiW5 c RS) R3 := by
  unfold bodyPre5 bodyPost5 PhiW5
  simp only [before5_0, before5_1, before5_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body5 (c : Dev nD) (t : Fin cfg5.N) :
    bodyPre5 V c t (PhiS5 V c t.val (Nat.le_of_lt t.isLt)) ⊢ wp frame (wpE (defs₀ (F := F)) Variants.none c none) Set.univ (bodyAt5 t) fun _ =>
      bodyPost5 V c t (PhiW5 c (owns (c : Thread nD τ) scM5_0 fullShare (outsAt5 V c t.val t.isLt).2)) ((dat5 V c).leavesExact 3 t) := by
  by_cases h1 : t.val % 8 = 7
  · have h0 : ¬t.val % 8 = 0 := by omega
    have hz : t.val ≠ 0 := by omega
    rw [show (dat5 V c).leavesExact 3 t = owns (c : Thread nD τ) (ms5_3 t) fullShare ((dat5 V c).after 3 t) from by
      unfold Dat.leavesExact; rw [Bool.eq_false_iff.mpr fun h => (idle5_3 t).mp h h1], after5_3]
    rw [outsAt5_C V c t h0 h1, PhiS5_pos V c _ _ hz]; dsimp only
    exact frame5 V c t (fun d K => (runC5 V c t h0 h1 _).2.2 Set.univ K) (fun d => exists_intro _)
      (fun _ => owns_of_cover c VO5_3 _ (coverC5_3 V c t h0 h1 _)) (owns_of_cover c VS5_0 _ (coverC5 V c t h0 h1 _))
  · rw [Dat.leavesExact_idle (dat5 V c) 3 t ((idle5_3 t).mpr h1) (Bool.eq_false_iff.mpr (mt (flush5_3 t).mp h1))]
    by_cases h0 : t.val % 8 = 0
    · rw [outsAt5_A V c t h0 h1]; dsimp only
      refine (sep_mono_left ((PhiS5_any V c _ _).trans (PhiA5_eq c).le)).trans ?_
      exact frame5 V c t (fun d K => (runA5 V c t h0 h1).2.2 ((dat5 V c).before 3 t d) Set.univ K)
        (fun _ => .rfl) (fun d => by iintro H; iexists d; iexact H) (owns_of_cover c VS5_0 _ (coverA5 V c t h0 h1))
    · have hz : t.val ≠ 0 := by omega
      rw [outsAt5_B V c t h0 h1, PhiS5_pos V c _ _ hz]; dsimp only
      exact frame5 V c t (fun d K => (runB5 V c t h0 h1 _).2.2 ((dat5 V c).before 3 t d) Set.univ K)
        (fun _ => .rfl) (fun d => by iintro H; iexists d; iexact H) (owns_of_cover c VS5_0 _ (coverB5 V c t h0 h1 _))

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := .rfl

theorem hout5 (c : Dev nD) : (dat5 V c).Φ (Fin.last cfg5.N) ⊢ (Pipeline.ΦA spec5 c : sProp 𝕄) := PhiS5_any V c (Fin.last cfg5.N).val _

end Cert.Kernel.Hand

end
-- ==== Proof.KB.Feat6.lean ====
import Idealize.ShloMosaic.Lib.Pipeline.Value
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

theorem zeroOff6 : (![0, 0] : Fin 2 → Nat) = fun _ => 0 := funext fun a => by fin_cases a <;> rfl

theorem sound_kernel6 (E : Set ℕ) (i : grid6.Coords)
    (arg1 : Memref sig .tc .vmem S1536x128 .bf16) (harg1 : arg1.IsWhole)
    (arg2 : Memref sig .tc .vmem S128x500 .bf16) (harg2 : arg2.IsWhole)
    (arg3 : Memref sig .tc .vmem S1536x500 .bf16) (harg3 : arg3.IsWhole)
    (x0 : Vec F S1536x128 .bf16) (x1 : Vec F S128x500 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k6_pay1 x0 x1)) -∗ K ⟨⟩))
      ⊢ wp frame (wpE (defs₀ (F := F)) Variants.none c none) E (cc6__feat_kernel i arg1 harg1 arg2 harg2 arg3 harg3) K := by
  simp only [owns_unread c harg1, owns_unread c harg2, cc6__feat_kernel_eq_skeleton]; unfold cc6__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x500.size (by rfl)), View.canon_unit_zero zeroOff6]
  simp only [View.readAt_eq_ld, harg1.read_unread, harg2.read_unread, View.ld_unit_zero (S := S1536x128) zeroOff6, View.ld_unit_zero (S := S128x500) zeroOff6]

def dat6 : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

theorem after6_2 (t : Fin cfg6.N) : (dat6 V c).after 2 t = k6_pay1 (iblk6 V c 0 t) (iblk6 V c 1 t) := by dsimp only [dat6]

theorem before6_0 (t : Fin cfg6.N) (d) : (dat6 V c).before 0 t d = iblk6 V c 0 t :=
  (dat6 V c).before_in_eq_fetched 0 rfl (fun _ => rfl) (fun _ _ _ => rfl) (fun _ => rfl) t d
theorem before6_1 (t : Fin cfg6.N) (d) : (dat6 V c).before 1 t d = iblk6 V c 1 t :=
  (dat6 V c).before_in_eq_fetched 1 rfl (fun _ => rfl) (fun _ _ _ => rfl) (fun _ => rfl) t d

theorem body_obligation6 : BodyObligation (dat6 V c) (defs₀ (F := F)) Variants.none () Set.univ := fun t => by
  rw [bigSep_W6, bigSep_W6]
  simp only [before6_0, before6_1]
  sl_whnfR [defs₀, Defs.onTc]
  rw [show (dat6 V c).Φ t.succ = (dat6 V c).Φ t.castSucc from rfl]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin6 : (Pipeline.ΦA spec6 c : sProp 𝕄) ⊢ (dat6 V c).Φ 0 := .rfl

theorem hout6 : (dat6 V c).Φ (Fin.last cfg6.N) ⊢ (Pipeline.ΦA spec6 c : sProp 𝕄) := .rfl

end Cert.Kernel.Hand

end
-- ==== Proof.KB.Agg7Runs.lean ====
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 8 = 0 :=
  (by decide +kernel : ∀ t : Fin grid7.N, _)
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, _)
theorem idle7_3 : ∀ t : Fin cfg7.N, cfg7.idle 3 (grid7.coords t) = true ↔ ¬t.val % 8 = 7 := by decide +kernel

abbrev VO7_3 : View sig .tc .vmem S1536x500 .f32 := (Memref.whole cc7_stg3_0 : Memref sig .tc .vmem S1536x500 .f32).view
abbrev ms7_0 (t : Fin cfg7.N) : Memref sig .tc .vmem S1536x1536 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S12288x500 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x500 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1536x500 .f32 := win7_3.stage (cfg7.slots t 3)
abbrev hs7_3 (t : Fin cfg7.N) : (ms7_3 t).IsWhole := hstage7_3 ((cfg7.slots t 3).cast nbuf7_3)
abbrev scM7_0 : Memref sig .tc .vmem S1536x500 .f32 := Memref.whole cc7_scratch0
abbrev VS7_0 : View sig .tc .vmem S1536x500 .f32 := scM7_0.view

def PhiW7 (c : Dev nD) (P : sProp 𝕄) : sProp 𝕄 :=
  iprop(iprop(P ∗ Pipeline.scopedRestBut (Ix := Unit) (Name := ℕ) (U := Pipeline.UD sig nD τ) (Lvl := ℕ) (Val := Elt F) spec7 c [cc7_scratch0]) ∗ (∃ r, prngReg c r))

theorem PhiW7_mono (c : Dev nD) {P Q : sProp 𝕄} (h : P ⊢ Q) : PhiW7 c P ⊢ PhiW7 c Q := sep_mono_left (sep_mono_left h)

theorem PhiA7_eq (c : Dev nD) : (Pipeline.ΦA spec7 c : sProp 𝕄) = PhiW7 c iprop(∃ d, owns (c : Thread nD τ) scM7_0 fullShare d) := by
  unfold Pipeline.ΦA PhiW7; rw [scopedRest7_split]; simp only [scM7_0, owns_whole]; try rfl

section Runs

variable (c : Dev nD) (i : grid7.Coords) (arg2 : Memref sig .tc .vmem S1536x1536 .bf16) (harg2 : arg2.IsWhole) (arg3 : Memref sig .tc .vmem S12288x500 .bf16) (harg3 : arg3.IsWhole) (arg4 : Memref sig .tc .vmem S1x500 .f32) (harg4 : arg4.IsWhole) (arg5 : Memref sig .tc .vmem S1536x500 .f32) (harg5 : arg5.IsWhole) (arg6 : Memref sig .tc .vmem S1536x500 .f32) (harg6 : arg6.IsWhole)

abbrev Run7 (x0 : Vec F S1536x1536 .bf16) (x1 : Vec F S12288x500 .bf16) (x2 : Vec F S1x500 .f32) (P5 P6 Q5 : sProp 𝕄)
    (LS0 : List (View.Piece (Elt F) S1536x500 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc7__agg_kernel_impl i arg2 harg2 arg3 harg3 arg4 harg4 arg5 harg5 arg6 harg6) K

section A

variable (hc0 : cond7_0 i) (hc1 : ¬cond7_1 i) (x0 : Vec F S1536x1536 .bf16) (x1 : Vec F S12288x500 .bf16) (x2 : Vec F S1x500 .f32)

def kernelRun7_A :
    Σ' (L3 : List (View.Piece (Elt F) S1536x500 .f32)), { LS0 : List (View.Piece (Elt F) S1536x500 .f32) //
      ∀ xi3 : Vec F S1536x500 .f32, Run7 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run7, owns_unread c harg2, owns_unread c harg3, owns_unread c harg4, owns_unread c harg5, owns_unread c harg6, cc7__agg_kernel_impl_eq_skeleton]
  unfold cc7__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond7_0 i) (hc1 : ¬cond7_1 i) (x0 : Vec F S1536x1536 .bf16) (x1 : Vec F S12288x500 .bf16) (x2 : Vec F S1x500 .f32) (xs0 : Vec F S1536x500 .f32)

def kernelRun7_B :
    Σ' (L3 : List (View.Piece (Elt F) S1536x500 .f32)), { LS0 : List (View.Piece (Elt F) S1536x500 .f32) //
      ∀ xi3 : Vec F S1536x500 .f32, Run7 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run7, owns_unread c harg2, owns_unread c harg3, owns_unread c harg4, owns_unread c harg5, owns_unread c harg6, cc7__agg_kernel_impl_eq_skeleton]
  unfold cc7__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond7_0 i) (hc1 : cond7_1 i) (x0 : Vec F S1536x1536 .bf16) (x1 : Vec F S12288x500 .bf16) (x2 : Vec F S1x500 .f32) (xs0 : Vec F S1536x500 .f32)

def kernelRun7_C :
    Σ' (L3 : List (View.Piece (Elt F) S1536x500 .f32)), { LS0 : List (View.Piece (Elt F) S1536x500 .f32) //
      Run7 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run7, owns_unread c harg2, owns_unread c harg3, owns_unread c harg4, owns_unread c harg5, owns_unread c harg6, cc7__agg_kernel_impl_eq_skeleton]
  unfold cc7__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg7.N)

section A
variable (h0 : t.val % 8 = 0) (h1 : ¬t.val % 8 = 7)
def runA7 :=
  kernelRun7_A c (grid7.coords t) (ms7_0 t) (hs7_0 t) (ms7_1 t) (hs7_1 t) (ms7_2 t) (hs7_2 t) (ms7_3 t) (hs7_3 t) scM7_0 (Memref.isWhole_whole _) ((hcond7_0 t).mpr h0) (mt (hcond7_1 t).mp h1) (iblk7 V c 0 t) (iblk7 V c 1 t) (iblk7 V c 2 t)
theorem coverA7 (y : S1536x500.Idx) : ∃ pc ∈ (runA7 V c t h0 h1).2.1, y ∈ pc.1.set :=
  View.cover_of_tiledL _ S1536x500.size (by sl_kernel_rfl) y
end A

section B
variable (h0 : ¬t.val % 8 = 0) (h1 : ¬t.val % 8 = 7) (s : Vec F S1536x500 .f32)
def runB7 :=
  kernelRun7_B c (grid7.coords t) (ms7_0 t) (hs7_0 t) (ms7_1 t) (hs7_1 t) (ms7_2 t) (hs7_2 t) (ms7_3 t) (hs7_3 t) scM7_0 (Memref.isWhole_whole _) (mt (hcond7_0 t).mp h0) (mt (hcond7_1 t).mp h1) (iblk7 V c 0 t) (iblk7 V c 1 t) (iblk7 V c 2 t) s
theorem coverB7 (y : S1536x500.Idx) : ∃ pc ∈ (runB7 V c t h0 h1 s).2.1, y ∈ pc.1.set :=
  View.cover_of_tiledL _ S1536x500.size (by sl_kernel_rfl) y
end B

section C
variable (h0 : ¬t.val % 8 = 0) (h1 : t.val % 8 = 7) (s : Vec F S1536x500 .f32)
def runC7 :=
  kernelRun7_C c (grid7.coords t) (ms7_0 t) (hs7_0 t) (ms7_1 t) (hs7_1 t) (ms7_2 t) (hs7_2 t) (ms7_3 t) (hs7_3 t) scM7_0 (Memref.isWhole_whole _) (mt (hcond7_0 t).mp h0) ((hcond7_1 t).mpr h1) (iblk7 V c 0 t) (iblk7 V c 1 t) (iblk7 V c 2 t) s
theorem coverC7 (y : S1536x500.Idx) : ∃ pc ∈ (runC7 V c t h0 h1 s).2.1, y ∈ pc.1.set :=
  View.cover_of_tiledL _ S1536x500.size (by sl_kernel_rfl) y
theorem coverC7_3 (y : S1536x500.Idx) : ∃ pc ∈ (runC7 V c t h0 h1 s).1, y ∈ pc.1.set :=
  View.cover_of_tiledL _ S1536x500.size (by sl_kernel_rfl) y
end C

end Point

end Cert.Kernel.Hand

end
-- ==== Proof.KB.Agg7.lean ====
import proofs.«117129_j76819785056523_1_alg».proof.Proof.KB.Agg7Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut7 (c : Dev nD) (t : Fin cfg7.N) (s : Vec F S1536x500 .f32) : Vec F S1536x500 .f32 × Vec F S1536x500 .f32 :=
  if h0 : t.val % 8 = 0 then (readOver VO7_3 (runA7 V c t h0 (by omega)).1, readOver VS7_0 (runA7 V c t h0 (by omega)).2.1)
  else if h1 : t.val % 8 = 7 then (readOver VO7_3 (runC7 V c t h0 h1 s).1, readOver VS7_0 (runC7 V c t h0 h1 s).2.1)
  else (readOver VO7_3 (runB7 V c t h0 h1 s).1, readOver VS7_0 (runB7 V c t h0 h1 s).2.1)

def outsAt7 (c : Dev nD) : (n : ℕ) → n < cfg7.N → Vec F S1536x500 .f32 × Vec F S1536x500 .f32
  | 0, hn => ptOut7 V c ⟨0, hn⟩ (readOver VS7_0 [])
  | n + 1, hn => ptOut7 V c ⟨n + 1, hn⟩ (outsAt7 c n (Nat.lt_of_succ_lt hn)).2

theorem outsAt7_A (c : Dev nD) (t : Fin cfg7.N) (h0 : t.val % 8 = 0) (h1 : ¬t.val % 8 = 7) :
    outsAt7 V c t.val t.isLt = (readOver VO7_3 (runA7 V c t h0 h1).1, readOver VS7_0 (runA7 V c t h0 h1).2.1) := by
  obtain ⟨n, hn⟩ := t
  cases n <;> first | exact dif_pos h0 | exact rfl

theorem outsAt7_B (c : Dev nD) (t : Fin cfg7.N) (h0 : ¬t.val % 8 = 0) (h1 : ¬t.val % 8 = 7) :
    outsAt7 V c t.val t.isLt = (readOver VO7_3 (runB7 V c t h0 h1 (outsAt7 V c (t.val - 1) (Nat.lt_of_le_of_lt (Nat.sub_le _ _) t.isLt)).2).1,
      readOver VS7_0 (runB7 V c t h0 h1 (outsAt7 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt7_C (c : Dev nD) (t : Fin cfg7.N) (h0 : ¬t.val % 8 = 0) (h1 : t.val % 8 = 7) :
    outsAt7 V c t.val t.isLt = (readOver VO7_3 (runC7 V c t h0 h1 (outsAt7 V c (t.val - 1) (Nat.lt_of_le_of_lt (Nat.sub_le _ _) t.isLt)).2).1,
      readOver VS7_0 (runC7 V c t h0 h1 (outsAt7 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS7 (c : Dev nD) : (n : ℕ) → n ≤ cfg7.N → sProp 𝕄
  | 0, _ => Pipeline.ΦA spec7 c
  | n + 1, hn => PhiW7 c (owns (c : Thread nD τ) scM7_0 fullShare (outsAt7 V c n hn).2)

theorem PhiS7_pos (c : Dev nD) (n : ℕ) (h : n ≤ cfg7.N) (hz : n ≠ 0) :
    PhiS7 V c n h = PhiW7 c (owns (c : Thread nD τ) scM7_0 fullShare (outsAt7 V c (n - 1) (by omega)).2) := by
  cases n with
  | zero => exact absurd rfl hz
  | succ n => rfl

theorem PhiS7_any (c : Dev nD) (n : ℕ) (h : n ≤ cfg7.N) : PhiS7 V c n h ⊢ (Pipeline.ΦA spec7 c : sProp 𝕄) := by
  cases n with
  | zero => exact .rfl
  | succ n => rw [PhiA7_eq]; exact PhiW7_mono c (exists_intro _)

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := rfl

theorem after7_3 (c : Dev nD) (t : Fin cfg7.N) : (dat7 V c).after 3 t = (outsAt7 V c t.val t.isLt).1 := rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

def bodyPre7 (c : Dev nD) (t : Fin cfg7.N) (Φ : sProp 𝕄) : sProp 𝕄 :=
  iprop(Φ ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) (Φ R3 : sProp 𝕄) : sProp 𝕄 :=
  iprop(Φ ∗ (dat7 V c).owesAt () t.castSucc
    ∗ owns (c : Thread nD τ) (ms7_0 t) fullShare (iblk7 V c 0 t) ∗ owns (c : Thread nD τ) (ms7_1 t) fullShare (iblk7 V c 1 t)
    ∗ owns (c : Thread nD τ) (ms7_2 t) fullShare (iblk7 V c 2 t) ∗ R3)

theorem frame7 (c : Dev nD) (t : Fin cfg7.N) {PS QS RS R3 : sProp 𝕄} {P3 Q3 : Vec F S1536x500 .f32 → sProp 𝕄}
    (hrun : ∀ d (K : PUnit → sProp 𝕄), iprop(owns (c : Thread nD τ) (ms7_0 t) fullShare (iblk7 V c 0 t) ∗ owns (c : Thread nD τ) (ms7_1 t) fullShare (iblk7 V c 1 t) ∗ owns (c : Thread nD τ) (ms7_2 t) fullShare (iblk7 V c 2 t) ∗ P3 d ∗ PS
        ∗ (iprop(owns (c : Thread nD τ) (ms7_0 t) fullShare (iblk7 V c 0 t) ∗ owns (c : Thread nD τ) (ms7_1 t) fullShare (iblk7 V c 1 t) ∗ owns (c : Thread nD τ) (ms7_2 t) fullShare (iblk7 V c 2 t) ∗ Q3 d ∗ QS) -∗ K ⟨⟩))
      ⊢ wp frame (wpE (defs₀ (F := F)) Variants.none c none) Set.univ (bodyAt7 t) K)
    (hP : ∀ d, owns (c : Thread nD τ) (ms7_3 t) fullShare ((dat7 V c).before 3 t d) ⊢ P3 d) (h3 : ∀ d, Q3 d ⊢ R3) (hS : QS ⊢ RS) :
    bodyPre7 V c t (PhiW7 c PS) ⊢ wp frame (wpE (defs₀ (F := F)) Variants.none c none) Set.univ (bodyAt7 t) fun _ => bodyPost7 V c t (PhiW7 c RS) R3 := by
  unfold bodyPre7 bodyPost7 PhiW7
  simp only [before7_0, before7_1, before7_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body7 (c : Dev nD) (t : Fin cfg7.N) :
    bodyPre7 V c t (PhiS7 V c t.val (Nat.le_of_lt t.isLt)) ⊢ wp frame (wpE (defs₀ (F := F)) Variants.none c none) Set.univ (bodyAt7 t) fun _ =>
      bodyPost7 V c t (PhiW7 c (owns (c : Thread nD τ) scM7_0 fullShare (outsAt7 V c t.val t.isLt).2)) ((dat7 V c).leavesExact 3 t) := by
  by_cases h1 : t.val % 8 = 7
  · have h0 : ¬t.val % 8 = 0 := by omega
    have hz : t.val ≠ 0 := by omega
    rw [show (dat7 V c).leavesExact 3 t = owns (c : Thread nD τ) (ms7_3 t) fullShare ((dat7 V c).after 3 t) from by
      unfold Dat.leavesExact; rw [Bool.eq_false_iff.mpr fun h => (idle7_3 t).mp h h1], after7_3]
    rw [outsAt7_C V c t h0 h1, PhiS7_pos V c _ _ hz]; dsimp only
    exact frame7 V c t (fun d K => (runC7 V c t h0 h1 _).2.2 Set.univ K) (fun d => exists_intro _)
      (fun _ => owns_of_cover c VO7_3 _ (coverC7_3 V c t h0 h1 _)) (owns_of_cover c VS7_0 _ (coverC7 V c t h0 h1 _))
  · rw [Dat.leavesExact_idle (dat7 V c) 3 t ((idle7_3 t).mpr h1) (Bool.eq_false_iff.mpr (mt (flush7_3 t).mp h1))]
    by_cases h0 : t.val % 8 = 0
    · rw [outsAt7_A V c t h0 h1]; dsimp only
      refine (sep_mono_left ((PhiS7_any V c _ _).trans (PhiA7_eq c).le)).trans ?_
      exact frame7 V c t (fun d K => (runA7 V c t h0 h1).2.2 ((dat7 V c).before 3 t d) Set.univ K)
        (fun _ => .rfl) (fun d => by iintro H; iexists d; iexact H) (owns_of_cover c VS7_0 _ (coverA7 V c t h0 h1))
    · have hz : t.val ≠ 0 := by omega
      rw [outsAt7_B V c t h0 h1, PhiS7_pos V c _ _ hz]; dsimp only
      exact frame7 V c t (fun d K => (runB7 V c t h0 h1 _).2.2 ((dat7 V c).before 3 t d) Set.univ K)
        (fun _ => .rfl) (fun d => by iintro H; iexists d; iexact H) (owns_of_cover c VS7_0 _ (coverB7 V c t h0 h1 _))

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := .rfl

theorem hout7 (c : Dev nD) : (dat7 V c).Φ (Fin.last cfg7.N) ⊢ (Pipeline.ΦA spec7 c : sProp 𝕄) := PhiS7_any V c (Fin.last cfg7.N).val _

end Cert.Kernel.Hand

end
-- ==== Proof.KB.Feat8.lean ====
import Idealize.ShloMosaic.Lib.Pipeline.Value
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

theorem zeroOff8 : (![0, 0] : Fin 2 → Nat) = fun _ => 0 := funext fun a => by fin_cases a <;> rfl

theorem sound_kernel8 (E : Set ℕ) (i : grid8.Coords)
    (arg1 : Memref sig .tc .vmem S1536x64 .bf16) (harg1 : arg1.IsWhole)
    (arg2 : Memref sig .tc .vmem S64x64 .bf16) (harg2 : arg2.IsWhole)
    (arg3 : Memref sig .tc .vmem S1536x64 .bf16) (harg3 : arg3.IsWhole)
    (x0 : Vec F S1536x64 .bf16) (x1 : Vec F S64x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k8_pay1 x0 x1)) -∗ K ⟨⟩))
      ⊢ wp frame (wpE (defs₀ (F := F)) Variants.none c none) E (cc8__feat_kernel i arg1 harg1 arg2 harg2 arg3 harg3) K := by
  simp only [owns_unread c harg1, owns_unread c harg2, cc8__feat_kernel_eq_skeleton]; unfold cc8__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x64.size (by rfl)), View.canon_unit_zero zeroOff8]
  simp only [View.readAt_eq_ld, harg1.read_unread, harg2.read_unread, View.ld_unit_zero (S := S1536x64) zeroOff8, View.ld_unit_zero (S := S64x64) zeroOff8]

def dat8 : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => k8_pay1 (iblk8 V c 0 t) (iblk8 V c 1 t)
  Φ _ := Pipeline.ΦA spec8 c
  q _ := fullShare
  owed _ := 0

theorem A_eq8 (w : Fin cfg8.W) : (dat8 V c).A w = V c (Pipeline.arrRef spec8 w) := rfl

theorem after8_2 (t : Fin cfg8.N) : (dat8 V c).after 2 t = k8_pay1 (iblk8 V c 0 t) (iblk8 V c 1 t) := by dsimp only [dat8]

theorem before8_0 (t : Fin cfg8.N) (d) : (dat8 V c).before 0 t d = iblk8 V c 0 t :=
  (dat8 V c).before_in_eq_fetched 0 rfl (fun _ => rfl) (fun _ _ _ => rfl) (fun _ => rfl) t d
theorem before8_1 (t : Fin cfg8.N) (d) : (dat8 V c).before 1 t d = iblk8 V c 1 t :=
  (dat8 V c).before_in_eq_fetched 1 rfl (fun _ => rfl) (fun _ _ _ => rfl) (fun _ => rfl) t d

theorem body_obligation8 : BodyObligation (dat8 V c) (defs₀ (F := F)) Variants.none () Set.univ := fun t => by
  rw [bigSep_W8, bigSep_W8]
  simp only [before8_0, before8_1]
  sl_whnfR [defs₀, Defs.onTc]
  rw [show (dat8 V c).Φ t.succ = (dat8 V c).Φ t.castSucc from rfl]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin8 : (Pipeline.ΦA spec8 c : sProp 𝕄) ⊢ (dat8 V c).Φ 0 := .rfl

theorem hout8 : (dat8 V c).Φ (Fin.last cfg8.N) ⊢ (Pipeline.ΦA spec8 c : sProp 𝕄) := .rfl

end Cert.Kernel.Hand

end
-- ==== Proof.KB.Agg9Runs.lean ====
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 1).val) 0#32)) 0#32) = 1#1
theorem hcond9_0 : ∀ t : Fin cfg9.N, cond9_0 (grid9.coords t) ↔ t.val % 8 = 0 :=
  (by decide +kernel : ∀ t : Fin grid9.N, _)
abbrev cond9_1 (i : grid9.Coords) : Prop := k9_cond2 i = 1#1
theorem hcond9_1 : ∀ t : Fin cfg9.N, cond9_1 (grid9.coords t) ↔ t.val % 8 = 7 :=
  (by decide +kernel : ∀ t : Fin grid9.N, _)
theorem idle9_3 : ∀ t : Fin cfg9.N, cfg9.idle 3 (grid9.coords t) = true ↔ ¬t.val % 8 = 7 := by decide +kernel

abbrev VO9_3 : View sig .tc .vmem S1536x64 .bf16 := (Memref.whole cc9_stg3_0 : Memref sig .tc .vmem S1536x64 .bf16).view
abbrev ms9_0 (t : Fin cfg9.N) : Memref sig .tc .vmem S1536x1536 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S12288x64 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1536x64 .bf16 := win9_3.stage (cfg9.slots t 3)
abbrev hs9_3 (t : Fin cfg9.N) : (ms9_3 t).IsWhole := hstage9_3 ((cfg9.slots t 3).cast nbuf9_3)
abbrev scM9_0 : Memref sig .tc .vmem S1536x64 .f32 := Memref.whole cc9_scratch0
abbrev VS9_0 : View sig .tc .vmem S1536x64 .f32 := scM9_0.view

def PhiW9 (c : Dev nD) (P : sProp 𝕄) : sProp 𝕄 :=
  iprop(iprop(P ∗ Pipeline.scopedRestBut (Ix := Unit) (Name := ℕ) (U := Pipeline.UD sig nD τ) (Lvl := ℕ) (Val := Elt F) spec9 c [cc9_scratch0]) ∗ (∃ r, prngReg c r))

theorem PhiW9_mono (c : Dev nD) {P Q : sProp 𝕄} (h : P ⊢ Q) : PhiW9 c P ⊢ PhiW9 c Q := sep_mono_left (sep_mono_left h)

theorem PhiA9_eq (c : Dev nD) : (Pipeline.ΦA spec9 c : sProp 𝕄) = PhiW9 c iprop(∃ d, owns (c : Thread nD τ) scM9_0 fullShare d) := by
  unfold Pipeline.ΦA PhiW9; rw [scopedRest9_split]; simp only [scM9_0, owns_whole]; try rfl

section Runs

variable (c : Dev nD) (i : grid9.Coords) (arg2 : Memref sig .tc .vmem S1536x1536 .bf16) (harg2 : arg2.IsWhole) (arg3 : Memref sig .tc .vmem S12288x64 .bf16) (harg3 : arg3.IsWhole) (arg4 : Memref sig .tc .vmem S1x64 .f32) (harg4 : arg4.IsWhole) (arg5 : Memref sig .tc .vmem S1536x64 .bf16) (harg5 : arg5.IsWhole) (arg6 : Memref sig .tc .vmem S1536x64 .f32) (harg6 : arg6.IsWhole)

abbrev Run9 (x0 : Vec F S1536x1536 .bf16) (x1 : Vec F S12288x64 .bf16) (x2 : Vec F S1x64 .f32) (P5 P6 Q5 : sProp 𝕄)
    (LS0 : List (View.Piece (Elt F) S1536x64 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc9__agg_kernel_impl i arg2 harg2 arg3 harg3 arg4 harg4 arg5 harg5 arg6 harg6) K

section A

variable (hc0 : cond9_0 i) (hc1 : ¬cond9_1 i) (x0 : Vec F S1536x1536 .bf16) (x1 : Vec F S12288x64 .bf16) (x2 : Vec F S1x64 .f32)

def kernelRun9_A :
    Σ' (L3 : List (View.Piece (Elt F) S1536x64 .bf16)), { LS0 : List (View.Piece (Elt F) S1536x64 .f32) //
      ∀ xi3 : Vec F S1536x64 .bf16, Run9 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run9, owns_unread c harg2, owns_unread c harg3, owns_unread c harg4, owns_unread c harg5, owns_unread c harg6, cc9__agg_kernel_impl_eq_skeleton]
  unfold cc9__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond9_0 i) (hc1 : ¬cond9_1 i) (x0 : Vec F S1536x1536 .bf16) (x1 : Vec F S12288x64 .bf16) (x2 : Vec F S1x64 .f32) (xs0 : Vec F S1536x64 .f32)

def kernelRun9_B :
    Σ' (L3 : List (View.Piece (Elt F) S1536x64 .bf16)), { LS0 : List (View.Piece (Elt F) S1536x64 .f32) //
      ∀ xi3 : Vec F S1536x64 .bf16, Run9 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run9, owns_unread c harg2, owns_unread c harg3, owns_unread c harg4, owns_unread c harg5, owns_unread c harg6, cc9__agg_kernel_impl_eq_skeleton]
  unfold cc9__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond9_0 i) (hc1 : cond9_1 i) (x0 : Vec F S1536x1536 .bf16) (x1 : Vec F S12288x64 .bf16) (x2 : Vec F S1x64 .f32) (xs0 : Vec F S1536x64 .f32)

def kernelRun9_C :
    Σ' (L3 : List (View.Piece (Elt F) S1536x64 .bf16)), { LS0 : List (View.Piece (Elt F) S1536x64 .f32) //
      Run9 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run9, owns_unread c harg2, owns_unread c harg3, owns_unread c harg4, owns_unread c harg5, owns_unread c harg6, cc9__agg_kernel_impl_eq_skeleton]
  unfold cc9__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg9.N)

section A
variable (h0 : t.val % 8 = 0) (h1 : ¬t.val % 8 = 7)
def runA9 :=
  kernelRun9_A c (grid9.coords t) (ms9_0 t) (hs9_0 t) (ms9_1 t) (hs9_1 t) (ms9_2 t) (hs9_2 t) (ms9_3 t) (hs9_3 t) scM9_0 (Memref.isWhole_whole _) ((hcond9_0 t).mpr h0) (mt (hcond9_1 t).mp h1) (iblk9 V c 0 t) (iblk9 V c 1 t) (iblk9 V c 2 t)
theorem coverA9 (y : S1536x64.Idx) : ∃ pc ∈ (runA9 V c t h0 h1).2.1, y ∈ pc.1.set :=
  View.cover_of_tiledL _ S1536x64.size (by sl_kernel_rfl) y
end A

section B
variable (h0 : ¬t.val % 8 = 0) (h1 : ¬t.val % 8 = 7) (s : Vec F S1536x64 .f32)
def runB9 :=
  kernelRun9_B c (grid9.coords t) (ms9_0 t) (hs9_0 t) (ms9_1 t) (hs9_1 t) (ms9_2 t) (hs9_2 t) (ms9_3 t) (hs9_3 t) scM9_0 (Memref.isWhole_whole _) (mt (hcond9_0 t).mp h0) (mt (hcond9_1 t).mp h1) (iblk9 V c 0 t) (iblk9 V c 1 t) (iblk9 V c 2 t) s
theorem coverB9 (y : S1536x64.Idx) : ∃ pc ∈ (runB9 V c t h0 h1 s).2.1, y ∈ pc.1.set :=
  View.cover_of_tiledL _ S1536x64.size (by sl_kernel_rfl) y
end B

section C
variable (h0 : ¬t.val % 8 = 0) (h1 : t.val % 8 = 7) (s : Vec F S1536x64 .f32)
def runC9 :=
  kernelRun9_C c (grid9.coords t) (ms9_0 t) (hs9_0 t) (ms9_1 t) (hs9_1 t) (ms9_2 t) (hs9_2 t) (ms9_3 t) (hs9_3 t) scM9_0 (Memref.isWhole_whole _) (mt (hcond9_0 t).mp h0) ((hcond9_1 t).mpr h1) (iblk9 V c 0 t) (iblk9 V c 1 t) (iblk9 V c 2 t) s
theorem coverC9 (y : S1536x64.Idx) : ∃ pc ∈ (runC9 V c t h0 h1 s).2.1, y ∈ pc.1.set :=
  View.cover_of_tiledL _ S1536x64.size (by sl_kernel_rfl) y
theorem coverC9_3 (y : S1536x64.Idx) : ∃ pc ∈ (runC9 V c t h0 h1 s).1, y ∈ pc.1.set :=
  View.cover_of_tiledL _ S1536x64.size (by sl_kernel_rfl) y
end C

end Point

end Cert.Kernel.Hand

end
-- ==== Proof.KB.Agg9.lean ====
import proofs.«117129_j76819785056523_1_alg».proof.Proof.KB.Agg9Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut9 (c : Dev nD) (t : Fin cfg9.N) (s : Vec F S1536x64 .f32) : Vec F S1536x64 .bf16 × Vec F S1536x64 .f32 :=
  if h0 : t.val % 8 = 0 then (readOver VO9_3 (runA9 V c t h0 (by omega)).1, readOver VS9_0 (runA9 V c t h0 (by omega)).2.1)
  else if h1 : t.val % 8 = 7 then (readOver VO9_3 (runC9 V c t h0 h1 s).1, readOver VS9_0 (runC9 V c t h0 h1 s).2.1)
  else (readOver VO9_3 (runB9 V c t h0 h1 s).1, readOver VS9_0 (runB9 V c t h0 h1 s).2.1)

def outsAt9 (c : Dev nD) : (n : ℕ) → n < cfg9.N → Vec F S1536x64 .bf16 × Vec F S1536x64 .f32
  | 0, hn => ptOut9 V c ⟨0, hn⟩ (readOver VS9_0 [])
  | n + 1, hn => ptOut9 V c ⟨n + 1, hn⟩ (outsAt9 c n (Nat.lt_of_succ_lt hn)).2

theorem outsAt9_A (c : Dev nD) (t : Fin cfg9.N) (h0 : t.val % 8 = 0) (h1 : ¬t.val % 8 = 7) :
    outsAt9 V c t.val t.isLt = (readOver VO9_3 (runA9 V c t h0 h1).1, readOver VS9_0 (runA9 V c t h0 h1).2.1) := by
  obtain ⟨n, hn⟩ := t
  cases n <;> first | exact dif_pos h0 | exact rfl

theorem outsAt9_B (c : Dev nD) (t : Fin cfg9.N) (h0 : ¬t.val % 8 = 0) (h1 : ¬t.val % 8 = 7) :
    outsAt9 V c t.val t.isLt = (readOver VO9_3 (runB9 V c t h0 h1 (outsAt9 V c (t.val - 1) (Nat.lt_of_le_of_lt (Nat.sub_le _ _) t.isLt)).2).1,
      readOver VS9_0 (runB9 V c t h0 h1 (outsAt9 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt9_C (c : Dev nD) (t : Fin cfg9.N) (h0 : ¬t.val % 8 = 0) (h1 : t.val % 8 = 7) :
    outsAt9 V c t.val t.isLt = (readOver VO9_3 (runC9 V c t h0 h1 (outsAt9 V c (t.val - 1) (Nat.lt_of_le_of_lt (Nat.sub_le _ _) t.isLt)).2).1,
      readOver VS9_0 (runC9 V c t h0 h1 (outsAt9 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS9 (c : Dev nD) : (n : ℕ) → n ≤ cfg9.N → sProp 𝕄
  | 0, _ => Pipeline.ΦA spec9 c
  | n + 1, hn => PhiW9 c (owns (c : Thread nD τ) scM9_0 fullShare (outsAt9 V c n hn).2)

theorem PhiS9_pos (c : Dev nD) (n : ℕ) (h : n ≤ cfg9.N) (hz : n ≠ 0) :
    PhiS9 V c n h = PhiW9 c (owns (c : Thread nD τ) scM9_0 fullShare (outsAt9 V c (n - 1) (by omega)).2) := by
  cases n with
  | zero => exact absurd rfl hz
  | succ n => rfl

theorem PhiS9_any (c : Dev nD) (n : ℕ) (h : n ≤ cfg9.N) : PhiS9 V c n h ⊢ (Pipeline.ΦA spec9 c : sProp 𝕄) := by
  cases n with
  | zero => exact .rfl
  | succ n => rw [PhiA9_eq]; exact PhiW9_mono c (exists_intro _)

def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := rfl

theorem after9_3 (c : Dev nD) (t : Fin cfg9.N) : (dat9 V c).after 3 t = (outsAt9 V c t.val t.isLt).1 := rfl

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl

def bodyPre9 (c : Dev nD) (t : Fin cfg9.N) (Φ : sProp 𝕄) : sProp 𝕄 :=
  iprop(Φ ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) (Φ R3 : sProp 𝕄) : sProp 𝕄 :=
  iprop(Φ ∗ (dat9 V c).owesAt () t.castSucc
    ∗ owns (c : Thread nD τ) (ms9_0 t) fullShare (iblk9 V c 0 t) ∗ owns (c : Thread nD τ) (ms9_1 t) fullShare (iblk9 V c 1 t)
    ∗ owns (c : Thread nD τ) (ms9_2 t) fullShare (iblk9 V c 2 t) ∗ R3)

theorem frame9 (c : Dev nD) (t : Fin cfg9.N) {PS QS RS R3 : sProp 𝕄} {P3 Q3 : Vec F S1536x64 .bf16 → sProp 𝕄}
    (hrun : ∀ d (K : PUnit → sProp 𝕄), iprop(owns (c : Thread nD τ) (ms9_0 t) fullShare (iblk9 V c 0 t) ∗ owns (c : Thread nD τ) (ms9_1 t) fullShare (iblk9 V c 1 t) ∗ owns (c : Thread nD τ) (ms9_2 t) fullShare (iblk9 V c 2 t) ∗ P3 d ∗ PS
        ∗ (iprop(owns (c : Thread nD τ) (ms9_0 t) fullShare (iblk9 V c 0 t) ∗ owns (c : Thread nD τ) (ms9_1 t) fullShare (iblk9 V c 1 t) ∗ owns (c : Thread nD τ) (ms9_2 t) fullShare (iblk9 V c 2 t) ∗ Q3 d ∗ QS) -∗ K ⟨⟩))
      ⊢ wp frame (wpE (defs₀ (F := F)) Variants.none c none) Set.univ (bodyAt9 t) K)
    (hP : ∀ d, owns (c : Thread nD τ) (ms9_3 t) fullShare ((dat9 V c).before 3 t d) ⊢ P3 d) (h3 : ∀ d, Q3 d ⊢ R3) (hS : QS ⊢ RS) :
    bodyPre9 V c t (PhiW9 c PS) ⊢ wp frame (wpE (defs₀ (F := F)) Variants.none c none) Set.univ (bodyAt9 t) fun _ => bodyPost9 V c t (PhiW9 c RS) R3 := by
  unfold bodyPre9 bodyPost9 PhiW9
  simp only [before9_0, before9_1, before9_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body9 (c : Dev nD) (t : Fin cfg9.N) :
    bodyPre9 V c t (PhiS9 V c t.val (Nat.le_of_lt t.isLt)) ⊢ wp frame (wpE (defs₀ (F := F)) Variants.none c none) Set.univ (bodyAt9 t) fun _ =>
      bodyPost9 V c t (PhiW9 c (owns (c : Thread nD τ) scM9_0 fullShare (outsAt9 V c t.val t.isLt).2)) ((dat9 V c).leavesExact 3 t) := by
  by_cases h1 : t.val % 8 = 7
  · have h0 : ¬t.val % 8 = 0 := by omega
    have hz : t.val ≠ 0 := by omega
    rw [show (dat9 V c).leavesExact 3 t = owns (c : Thread nD τ) (ms9_3 t) fullShare ((dat9 V c).after 3 t) from by
      unfold Dat.leavesExact; rw [Bool.eq_false_iff.mpr fun h => (idle9_3 t).mp h h1], after9_3]
    rw [outsAt9_C V c t h0 h1, PhiS9_pos V c _ _ hz]; dsimp only
    exact frame9 V c t (fun d K => (runC9 V c t h0 h1 _).2.2 Set.univ K) (fun d => exists_intro _)
      (fun _ => owns_of_cover c VO9_3 _ (coverC9_3 V c t h0 h1 _)) (owns_of_cover c VS9_0 _ (coverC9 V c t h0 h1 _))
  · rw [Dat.leavesExact_idle (dat9 V c) 3 t ((idle9_3 t).mpr h1) (Bool.eq_false_iff.mpr (mt (flush9_3 t).mp h1))]
    by_cases h0 : t.val % 8 = 0
    · rw [outsAt9_A V c t h0 h1]; dsimp only
      refine (sep_mono_left ((PhiS9_any V c _ _).trans (PhiA9_eq c).le)).trans ?_
      exact frame9 V c t (fun d K => (runA9 V c t h0 h1).2.2 ((dat9 V c).before 3 t d) Set.univ K)
        (fun _ => .rfl) (fun d => by iintro H; iexists d; iexact H) (owns_of_cover c VS9_0 _ (coverA9 V c t h0 h1))
    · have hz : t.val ≠ 0 := by omega
      rw [outsAt9_B V c t h0 h1, PhiS9_pos V c _ _ hz]; dsimp only
      exact frame9 V c t (fun d K => (runB9 V c t h0 h1 _).2.2 ((dat9 V c).before 3 t d) Set.univ K)
        (fun _ => .rfl) (fun d => by iintro H; iexists d; iexact H) (owns_of_cover c VS9_0 _ (coverB9 V c t h0 h1 _))

theorem body_obligation9 (c : Dev nD) : BodyObligation (dat9 (F := F) V c) (defs₀ (F := F)) Variants.none () Set.univ := fun t => by
  rw [bigSep_W9, bigSep_W9]
  exact sound_body9 V c t

theorem hin9 (c : Dev nD) : (Pipeline.ΦA spec9 c : sProp 𝕄) ⊢ (dat9 V c).Φ 0 := .rfl

theorem hout9 (c : Dev nD) : (dat9 V c).Φ (Fin.last cfg9.N) ⊢ (Pipeline.ΦA spec9 c : sProp 𝕄) := PhiS9_any V c (Fin.last cfg9.N).val _

end Cert.Kernel.Hand

end
-- ==== Proof.KB.Outer10.lean ====
import proofs.«117129_j76819785056523_1_alg».proof.Proof.KB.Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk10 (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_in : Rect S1536x64 := Rect.unit (s := S1536x64) ![0, 0] S1536x64.size inb_S1536x64_S1536x64_0_0
abbrev r10_0 : Rect S1536x1536 := Rect.unit (s := S1536x1536) ![0, 0] S1536x1536.size inb_S1536x1536_S1536x1536_0_0

def out10_2 (x0 x1 : Vec F S1536x64 .bf16) : Vec F S1536x1536 .f32 :=
  View.canon [⟨r10_0, k10_pay1 (View.ld x0 r10_in) (View.ld x1 r10_in)⟩]

theorem sound_kernel10 (E : Set ℕ) (i : grid10.Coords)
    (arg2 : Memref sig .tc .vmem S1536x64 .bf16) (harg2 : arg2.IsWhole) (arg3 : Memref sig .tc .vmem S1536x64 .bf16) (harg3 : arg3.IsWhole)
    (arg4 : Memref sig .tc .vmem S1536x1536 .f32) (harg4 : arg4.IsWhole)
    (x0 x1 : Vec F S1536x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out10_2 x0 x1)) -∗ K ⟨⟩))
      ⊢ wp frame (wpE (defs₀ (F := F)) Variants.none c none) E (cc10__outer_kernel i arg2 harg2 arg3 harg3 arg4 harg4) K := by
  simp only [cc10__outer_kernel_eq_skeleton]; unfold cc10__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r10_0, _⟩] S1536x1536.size (by rfl))

def dat10 : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q w := match w with
    | ⟨0, _⟩ => fullShare.left
    | ⟨1, _⟩ => fullShare.right
    | ⟨2, _⟩ => fullShare
  owed _ := 0

theorem after10_0 (t : Fin cfg10.N) : (dat10 V c).after 0 t = iblk10 V c 0 t := by dsimp only [dat10]
theorem after10_1 (t : Fin cfg10.N) : (dat10 V c).after 1 t = iblk10 V c 1 t := by dsimp only [dat10]
theorem after10_2 (t : Fin cfg10.N) : (dat10 V c).after 2 t = out10_2 (iblk10 V c 0 t) (iblk10 V c 1 t) := by dsimp only [dat10]

theorem before10_0 (t : Fin cfg10.N) (d) : (dat10 V c).before 0 t d = iblk10 V c 0 t :=
  (dat10 V c).before_in_eq_fetched 0 rfl (fun _ => rfl) (fun _ _ _ => rfl) (fun _ => rfl) t d
theorem before10_1 (t : Fin cfg10.N) (d) : (dat10 V c).before 1 t d = iblk10 V c 1 t :=
  (dat10 V c).before_in_eq_fetched 1 rfl (fun _ => rfl) (fun _ _ _ => rfl) (fun _ => rfl) t d

theorem body_obligation10 : BodyObligation (dat10 (F := F) V c) (defs₀ (F := F)) Variants.none () Set.univ := fun t => by
  rw [bigSep_W10, bigSep_W10]
  change _ ⊢ wp _ _ _ (bodyAt10 t) _
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem hin10 : (Pipeline.ΦA spec10 c : sProp 𝕄) ⊢ (dat10 V c).Φ 0 := .rfl

theorem hout10 : (dat10 V c).Φ (Fin.last cfg10.N) ⊢ (Pipeline.ΦA spec10 c : sProp 𝕄) := .rfl

theorem arrRefs10 : Finset.univ.image (Pipeline.arrRef spec10) = ({main_v73, main_v74} : Finset (Ref sig .tc)) := by decide

theorem unscopedBufs10_eq (W : (b : Ref sig .tc) → Buf (Elt F) ((c : Thread nD τ).loc b)) :
    (unscopedBufs c W : sProp 𝕄)
      = iprop(((((c : Thread nD τ).loc main_v73) ↦{fullShare} W main_v73) ∗ (((c : Thread nD τ).loc main_v74) ↦{fullShare} W main_v74))
          ∗ Pipeline.unscopedRest spec10 c W) := by
  refine (Pipeline.unscopedBufs_split₀ cfgs 10 winFacts₀10.arr_unscoped c W).trans ?_
  show iprop(Pipeline.arrBufs spec10 c W ∗ _) = _
  unfold Pipeline.arrBufs
  rw [arrRefs10, bigSep_insert (by decide), bigSep_singleton]
  rfl

theorem arrays10_eq (G : (w : Fin cfg10.W) → Buf (Elt F) ((cfg10.win w).arr.view.loc (c.tc : Thread nD τ))) :
    ((dat10 V c).arrays G : sProp 𝕄)
      = iprop((((c : Thread nD τ).loc main_v73) ↦{fullShare.left} G 0) ∗ (((c : Thread nD τ).loc main_v73) ↦{fullShare.right} G 1)
          ∗ (((c : Thread nD τ).loc main_v74) ↦{fullShare} G 2)) := by
  unfold Dat.arrays
  rw [bigSep_W10, (arr_whole10 0).set_eq_univ, (arr_whole10 2).set_eq_univ]
  rfl

theorem arrays_of_unscopedBufs10 :
    (unscopedBufs c (V c) : sProp 𝕄) ⊢ iprop((dat10 V c).arrays ((dat10 V c).arrAt · 0)
      ∗ Pipeline.unscopedRest (Ix := Unit) (Name := ℕ) (U := Pipeline.UD sig nD τ) (Lvl := ℕ) spec10 c (V c)) := by
  rw [unscopedBufs10_eq, arrays10_eq]
  iintro ⟨⟨H73, H74⟩, HR⟩
  ihave H73 := (pointsTo_share (PosShare.mem_left_op_right fullShare)).1 $$ H73
  icases H73 with ⟨Ha, Hb⟩
  isplitr [HR]
  · isplitl [Ha]; · iexact Ha
    isplitl [Hb]; · iexact Hb
    iexact H74
  · iexact HR

theorem unscopedBufs_of_arrays10 (Vp : Contents F) (c : Dev nD)
    (hout : Vp c main_v74 = (dat10 V c).arrAt 2 cfg10.N) (hne : ∀ b : Ref sig .tc, b ≠ main_v74 → Vp c b = V c b) :
    iprop((dat10 V c).arrays ((dat10 V c).arrAt · cfg10.N)
      ∗ Pipeline.unscopedRest (Ix := Unit) (Name := ℕ) (U := Pipeline.UD sig nD τ) (Lvl := ℕ) spec10 c (V c))
      ⊢ (unscopedBufs c (Vp c) : sProp 𝕄) := by
  have hrest : (Pipeline.unscopedRest spec10 c (Vp c) : sProp 𝕄) = Pipeline.unscopedRest spec10 c (V c) := by
    unfold Pipeline.unscopedRest
    exact bigSep_congr fun b hb => by
      rw [hne b fun h => (Finset.mem_sdiff.mp hb).2 (by rw [arrRefs10, h]; decide)]
  rw [unscopedBufs10_eq, arrays10_eq, hrest, (dat10 V c).arrAt_in 0 rfl, (dat10 V c).arrAt_in 1 rfl, ← hout, hne main_v73 (by decide)]
  iintro ⟨⟨Ha, Hb, H74⟩, HR⟩
  ihave H73 := (pointsTo_share (PosShare.mem_left_op_right fullShare)).2 $$ [Ha Hb]
  · isplitl [Ha]; · iexact Ha
    iexact Hb
  isplitr [HR]
  · isplitl [H73]; · iexact H73
    iexact H74
  · iexact HR

end Cert.Kernel.Hand

end
-- ==== Proof.KB.RunVals.lean ====
import proofs.«117129_j76819785056523_1_alg».proof.Proof.Gen.Kernel.Regions
import proofs.«117129_j76819785056523_1_alg».proof.Proof.KB.Feat0
import proofs.«117129_j76819785056523_1_alg».proof.Proof.KB.Agg1
import proofs.«117129_j76819785056523_1_alg».proof.Proof.KB.Feat2
import proofs.«117129_j76819785056523_1_alg».proof.Proof.KB.Agg3
import proofs.«117129_j76819785056523_1_alg».proof.Proof.KB.Feat4
import proofs.«117129_j76819785056523_1_alg».proof.Proof.KB.Agg5
import proofs.«117129_j76819785056523_1_alg».proof.Proof.KB.Feat6
import proofs.«117129_j76819785056523_1_alg».proof.Proof.KB.Agg7
import proofs.«117129_j76819785056523_1_alg».proof.Proof.KB.Feat8
import proofs.«117129_j76819785056523_1_alg».proof.Proof.KB.Agg9
import proofs.«117129_j76819785056523_1_alg».proof.Proof.KB.Outer10

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase
open Idealize.ShloMosaic.Rounds
open Idealize.ShloMosaic.Pipeline (Dat)

variable {F : FTy → Type} [FloatOps F]

theorem upd_ne (X : Valuation τ sig (Elt F)) {r b : Ref sig .tc} (x) (h : b ≠ r) : Function.update X r x b = X b :=
  Function.update_of_ne (StableHlo.devRef_ne_of_ne h) _ _

theorem upd_congr {X Y : Valuation τ sig (Elt F)} (h : X = Y) (r : Ref sig .tc) (x) :
    Function.update X r (Function.update Y r x r) = Function.update Y r x := by
  rw [h, Function.update_self]

variable (m : (ℓ : Loc nD τ sig) → Buf (Elt F) ℓ) (c : Dev nD)

def W5 : Valuation τ sig (Elt F) := V5 m c
def o0 : Buf (Elt F) ((c : Thread nD τ).loc main_v58) := (dat0 (fun c b => W5 m c b) c).arrAt 2 cfg0.N
def W6 : Valuation τ sig (Elt F) := Function.update (W5 m c) main_v58 (o0 m c)
theorem W6_out : W6 m c main_v58 = o0 m c := Function.update_self ..
theorem W6_ne (b : Ref sig .tc) (h : b ≠ main_v58) : W6 m c b = W5 m c b := upd_ne _ _ h
def W7 : Valuation τ sig (Elt F) := StableHlo.after hostOps1 (W6 m c)
def o1 : Buf (Elt F) ((c : Thread nD τ).loc main_v60) := (dat1 (fun c b => W7 m c b) c).arrAt 3 cfg1.N
def W8 : Valuation τ sig (Elt F) := Function.update (W7 m c) main_v60 (o1 m c)
theorem W8_out : W8 m c main_v60 = o1 m c := Function.update_self ..
theorem W8_ne (b : Ref sig .tc) (h : b ≠ main_v60) : W8 m c b = W7 m c b := upd_ne _ _ h
def o2 : Buf (Elt F) ((c : Thread nD τ).loc main_v61) := (dat2 (fun c b => W8 m c b) c).arrAt 2 cfg2.N
def W9 : Valuation τ sig (Elt F) := Function.update (W8 m c) main_v61 (o2 m c)
theorem W9_out : W9 m c main_v61 = o2 m c := Function.update_self ..
theorem W9_ne (b : Ref sig .tc) (h : b ≠ main_v61) : W9 m c b = W8 m c b := upd_ne _ _ h
def W10 : Valuation τ sig (Elt F) := StableHlo.after hostOps3 (W9 m c)
def o3 : Buf (Elt F) ((c : Thread nD τ).loc main_v63) := (dat3 (fun c b => W10 m c b) c).arrAt 3 cfg3.N
def W11 : Valuation τ sig (Elt F) := Function.update (W10 m c) main_v63 (o3 m c)
theorem W11_out : W11 m c main_v63 = o3 m c := Function.update_self ..
theorem W11_ne (b : Ref sig .tc) (h : b ≠ main_v63) : W11 m c b = W10 m c b := upd_ne _ _ h
def o4 : Buf (Elt F) ((c : Thread nD τ).loc main_v64) := (dat4 (fun c b => W11 m c b) c).arrAt 2 cfg4.N
def W12 : Valuation τ sig (Elt F) := Function.update (W11 m c) main_v64 (o4 m c)
theorem W12_out : W12 m c main_v64 = o4 m c := Function.update_self ..
theorem W12_ne (b : Ref sig .tc) (h : b ≠ main_v64) : W12 m c b = W11 m c b := upd_ne _ _ h
def W13 : Valuation τ sig (Elt F) := StableHlo.after hostOps5 (W12 m c)
def o5 : Buf (Elt F) ((c : Thread nD τ).loc main_v66) := (dat5 (fun c b => W13 m c b) c).arrAt 3 cfg5.N
def W14 : Valuation τ sig (Elt F) := Function.update (W13 m c) main_v66 (o5 m c)
theorem W14_out : W14 m c main_v66 = o5 m c := Function.update_self ..
theorem W14_ne (b : Ref sig .tc) (h : b ≠ main_v66) : W14 m c b = W13 m c b := upd_ne _ _ h
def o6 : Buf (Elt F) ((c : Thread nD τ).loc main_v67) := (dat6 (fun c b => W14 m c b) c).arrAt 2 cfg6.N
def W15 : Valuation τ sig (Elt F) := Function.update (W14 m c) main_v67 (o6 m c)
theorem W15_out : W15 m c main_v67 = o6 m c := Function.update_self ..
theorem W15_ne (b : Ref sig .tc) (h : b ≠ main_v67) : W15 m c b = W14 m c b := upd_ne _ _ h
def W16 : Valuation τ sig (Elt F) := StableHlo.after hostOps7 (W15 m c)
def o7 : Buf (Elt F) ((c : Thread nD τ).loc main_v69) := (dat7 (fun c b => W16 m c b) c).arrAt 3 cfg7.N
def W17 : Valuation τ sig (Elt F) := Function.update (W16 m c) main_v69 (o7 m c)
theorem W17_out : W17 m c main_v69 = o7 m c := Function.update_self ..
theorem W17_ne (b : Ref sig .tc) (h : b ≠ main_v69) : W17 m c b = W16 m c b := upd_ne _ _ h
def W18 : Valuation τ sig (Elt F) := StableHlo.after hostOps8 (W17 m c)
def o8 : Buf (Elt F) ((c : Thread nD τ).loc main_v71) := (dat8 (fun c b => W18 m c b) c).arrAt 2 cfg8.N
def W19 : Valuation τ sig (Elt F) := Function.update (W18 m c) main_v71 (o8 m c)
theorem W19_out : W19 m c main_v71 = o8 m c := Function.update_self ..
theorem W19_ne (b : Ref sig .tc) (h : b ≠ main_v71) : W19 m c b = W18 m c b := upd_ne _ _ h
def W20 : Valuation τ sig (Elt F) := StableHlo.after hostOps9 (W19 m c)
def o9 : Buf (Elt F) ((c : Thread nD τ).loc main_v73) := (dat9 (fun c b => W20 m c b) c).arrAt 3 cfg9.N
def W21 : Valuation τ sig (Elt F) := Function.update (W20 m c) main_v73 (o9 m c)
theorem W21_out : W21 m c main_v73 = o9 m c := Function.update_self ..
theorem W21_ne (b : Ref sig .tc) (h : b ≠ main_v73) : W21 m c b = W20 m c b := upd_ne _ _ h
def o10 : Buf (Elt F) ((c : Thread nD τ).loc main_v74) := (dat10 (fun c b => W21 m c b) c).arrAt 2 cfg10.N
def W22 : Valuation τ sig (Elt F) := Function.update (W21 m c) main_v74 (o10 m c)
theorem W22_out : W22 m c main_v74 = o10 m c := Function.update_self ..
theorem W22_ne (b : Ref sig .tc) (h : b ≠ main_v74) : W22 m c b = W21 m c b := upd_ne _ _ h
def W23 : Valuation τ sig (Elt F) := StableHlo.after hostOps11 (W22 m c)

def outs : Outs (F := F) := fun J r c =>
  match J with
  | 6 => W6 m c r
  | 8 => W8 m c r
  | 9 => W9 m c r
  | 11 => W11 m c r
  | 12 => W12 m c r
  | 14 => W14 m c r
  | 15 => W15 m c r
  | 17 => W17 m c r
  | 19 => W19 m c r
  | 21 => W21 m c r
  | 22 => W22 m c r
  | _ => W5 m c r

theorem V6_eq : V6 m (outs m) c = W6 m c := upd_congr rfl _ _
theorem V7_eq : V7 m (outs m) c = W7 m c := congrArg (StableHlo.after hostOps1) (V6_eq m c)
theorem V8_eq : V8 m (outs m) c = W8 m c := upd_congr (V7_eq m c) _ _
theorem V9_eq : V9 m (outs m) c = W9 m c := upd_congr (V8_eq m c) _ _
theorem V10_eq : V10 m (outs m) c = W10 m c := congrArg (StableHlo.after hostOps3) (V9_eq m c)
theorem V11_eq : V11 m (outs m) c = W11 m c := upd_congr (V10_eq m c) _ _
theorem V12_eq : V12 m (outs m) c = W12 m c := upd_congr (V11_eq m c) _ _
theorem V13_eq : V13 m (outs m) c = W13 m c := congrArg (StableHlo.after hostOps5) (V12_eq m c)
theorem V14_eq : V14 m (outs m) c = W14 m c := upd_congr (V13_eq m c) _ _
theorem V15_eq : V15 m (outs m) c = W15 m c := upd_congr (V14_eq m c) _ _
theorem V16_eq : V16 m (outs m) c = W16 m c := congrArg (StableHlo.after hostOps7) (V15_eq m c)
theorem V17_eq : V17 m (outs m) c = W17 m c := upd_congr (V16_eq m c) _ _
theorem V18_eq : V18 m (outs m) c = W18 m c := congrArg (StableHlo.after hostOps8) (V17_eq m c)
theorem V19_eq : V19 m (outs m) c = W19 m c := upd_congr (V18_eq m c) _ _
theorem V20_eq : V20 m (outs m) c = W20 m c := congrArg (StableHlo.after hostOps9) (V19_eq m c)
theorem V21_eq : V21 m (outs m) c = W21 m c := upd_congr (V20_eq m c) _ _
theorem V22_eq : V22 m (outs m) c = W22 m c := upd_congr (V21_eq m c) _ _
theorem V23_eq : V23 m (outs m) c = W23 m c := congrArg (StableHlo.after hostOps11) (V22_eq m c)

def pdats : (p : Fin 11) → (c : Dev nD) → Dat τ (Elt F) Unit ℕ (Pipeline.UD sig nD τ) ℕ (Pipeline.pin (pcfgs (F := F)) adm p) c
  | ⟨0, _⟩ => fun c => dat0 (fun c b => W5 m c b) c
  | ⟨1, _⟩ => fun c => dat1 (fun c b => W7 m c b) c
  | ⟨2, _⟩ => fun c => dat2 (fun c b => W8 m c b) c
  | ⟨3, _⟩ => fun c => dat3 (fun c b => W10 m c b) c
  | ⟨4, _⟩ => fun c => dat4 (fun c b => W11 m c b) c
  | ⟨5, _⟩ => fun c => dat5 (fun c b => W13 m c b) c
  | ⟨6, _⟩ => fun c => dat6 (fun c b => W14 m c b) c
  | ⟨7, _⟩ => fun c => dat7 (fun c b => W16 m c b) c
  | ⟨8, _⟩ => fun c => dat8 (fun c b => W18 m c b) c
  | ⟨9, _⟩ => fun c => dat9 (fun c b => W20 m c b) c
  | ⟨10, _⟩ => fun c => dat10 (fun c b => W21 m c b) c

abbrev L : GSem nD τ sig → Finset Unit := fun _ => ∅
abbrev lv : GSem nD τ sig → Unit → ℕ := fun _ _ => 0
abbrev R (c : Dev nD) : sProp (MT nD τ sig Unit (Elt F) ℕ (Pipeline.UD sig nD τ) ℕ) := iprop((∃ r, prngReg c r) ∗ ∃ W, owes (c : Thread nD τ) (0 : CellTallies nD τ sig Unit) W)

end Cert.Kernel.Hand

end
-- ==== Proof.KB.RunSegs.lean ====
import proofs.«117129_j76819785056523_1_alg».proof.Proof.KB.RunVals

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.ProofMode
open scoped Idealize.SL.BI

variable {F : FTy → Type} [FloatOps F] (m : (ℓ : Loc nD τ sig) → Buf (Elt F) ℓ)

local notation "𝕄" => MT nD τ sig Unit (Elt F) ℕ (Pipeline.UD sig nD τ) ℕ

abbrev Reg := Pipeline.RegionSeg (pcfgs (F := F)) adm (pdats m) () defs₀ Variants.none L lv

theorem owed_pdats (p : Fin 11) (c : Dev nD) (t) : (pdats m p c).owed t = 0 := by fin_cases p <;> rfl

theorem recorded_pdats (p : Fin 11) (c : Dev nD) (t) : (pdats m p c).recorded t = Set.univ := by fin_cases p <;> rfl

variable {p : Fin 11} (Va Vb : Dev nD → Valuation τ sig (Elt F))

def regOf (win : Pipeline.WinFacts₀ (cfgs p).spec) (block_pos : ∀ w, 0 < ((cfgs p).spec w).block.numel)
    (stage_whole : ∀ w s, (((cfgs p).spec w).stage s).IsWhole)
    (hB : ∀ c, Pipeline.BodyObligation (pdats m p c) (defs₀ (F := F)) Variants.none () Set.univ)
    (hI : ∀ c, (Pipeline.ΦA (cfgs p).spec c : sProp 𝕄) ⊢ (pdats m p c).Φ 0)
    (hO : ∀ c, (pdats m p c).Φ (Fin.last (cfgs p).N) ⊢ (Pipeline.ΦA (cfgs p).spec c : sProp 𝕄))
    (hsplit : ∀ c, (unscopedBufs c (fun b => Va c b) : sProp 𝕄)
      ⊢ iprop((pdats m p c).arrays ((pdats m p c).arrAt · 0) ∗ Pipeline.unscopedRest (cfgs p).spec c fun b => Va c b))
    (hjoin : ∀ c, iprop((pdats m p c).arrays ((pdats m p c).arrAt · (cfgs p).N) ∗ Pipeline.unscopedRest (cfgs p).spec c fun b => Va c b)
      ⊢ (unscopedBufs c (fun b => Vb c b) : sProp 𝕄)) : Reg m p where
  win := win
  block_pos := block_pos
  stage_whole := stage_whole
  K := PEmpty
  osem k := k.elim
  ho := .none _
  hbody c := (hB c).loose
  hwaits := Pipeline.hwaits_of_owed_zero _ _ _ _ L lv p (owed_pdats m p)
  pre c := iprop(StableHlo.held (c : Thread nD τ) (Pipeline.ucRefs τ sig) (Va c) ∗ R c)
  post c := iprop(StableHlo.held (c : Thread nD τ) (Pipeline.ucRefs τ sig) (Vb c) ∗ R c)
  X c := iprop(∃ r, prngReg c r)
  Y c := iprop(∃ r, prngReg c r)
  Z c := Pipeline.unscopedRest (cfgs p).spec c fun b => Va c b
  hentry c := by
    have hs := hsplit c
    rw [Pipeline.unscopedBufs_held] at hs
    unfold Pipeline.Dat.owesAt Pipeline.owesWithin Pipeline.Dat.bound Pipeline.prefHeld
    rw [owed_pdats, recorded_pdats]
    iintro ⟨⟨Hub, Hp, %W, HO⟩, -⟩
    ihave ⟨Ha, Hrest⟩ := hs $$ Hub
    imodintro
    iframe
    isplitr
    · rw [show (Finset.univ : Finset (Fin (pcfgs (F := F) p).pre.K)) = ∅ from rfl, bigSep_empty]; iempintro
    iexists W; iframe; ipureintro; exact fun _ _ => .inl trivial
  hin c := by refine .trans ?_ (hI c); unfold Pipeline.ΦA; iintro ⟨Hp, -, Hr⟩; iframe
  hout c := by refine (hO c).trans ?_; unfold Pipeline.ΦA; rw [Pipeline.ownSems0_none]; iintro ⟨Hr, Hp⟩; iframe; iempintro
  hexit c := by
    have hj := hjoin c
    rw [Pipeline.unscopedBufs_held] at hj
    unfold Pipeline.Dat.owesAt Pipeline.owesWithin
    rw [owed_pdats]
    iintro ⟨Ha, ⟨%W, -, HO⟩, HY, Hrest⟩
    imodintro
    isplitl [Ha Hrest]
    · iapply hj; iframe
    isplitl [HY]
    · iexact HY
    iexists W; iexact HO

def regOut (launch : Pipeline.LaunchFacts (nD := nD) (τ := τ) cfgs p) (o : Fin (cfgs p).W)
    (hio : ∀ w, w ≠ o → ((cfgs p).win w).isOut = false)
    (hq : ∀ c w, (pdats m p c).q w = fullShare)
    (hA : ∀ c w, (pdats m p c).A w = Va c (Pipeline.arrRef (cfgs p).spec w))
    (ho : ∀ c, Vb c (Pipeline.arrRef (cfgs p).spec o) = (pdats m p c).arrAt o (cfgs p).N)
    (hne : ∀ c (b : Ref sig .tc), b ≠ Pipeline.arrRef (cfgs p).spec o → Vb c b = Va c b)
    (hB : ∀ c, Pipeline.BodyObligation (pdats m p c) (defs₀ (F := F)) Variants.none () Set.univ)
    (hI : ∀ c, (Pipeline.ΦA (cfgs p).spec c : sProp 𝕄) ⊢ (pdats m p c).Φ 0)
    (hO : ∀ c, (pdats m p c).Φ (Fin.last (cfgs p).N) ⊢ (Pipeline.ΦA (cfgs p).spec c : sProp 𝕄)) : Reg m p :=
  regOf m Va Vb launch.win.to₀ launch.block_pos launch.stage_whole hB hI hO
    (fun c => Pipeline.arrays_of_unscopedBufs (pcfgs (F := F)) adm (pdats m) launch.win launch.arr_whole c
      ((pdats m p c).share_full (hq c)) _ (hA c))
    fun c => Pipeline.unscopedBufs_of_arrays (pcfgs (F := F)) adm launch.win launch.arr_whole c (pdats m)
      ((pdats m p c).share_full (hq c)) _ _ _
      (fun w => by
        by_cases h : w = o
        · subst h; exact (ho c).symm
        · exact ((pdats m p c).arrAt_in w (hio w h) _).trans
            ((hA c w).trans (hne c _ fun e => h (launch.win.arr_inj e)).symm))
      fun b hb => hne c b fun h => hb (h ▸ Finset.mem_image_of_mem _ (Finset.mem_univ o))

def reg0 : Reg m 0 :=
  let V : Contents F := fun c b => W5 m c b
  regOut m (W5 m) (W6 m) launch0 2 (by decide) (fun _ _ => rfl) (A_eq0 V) (W6_out m) (W6_ne m) (body_obligation0 V) (hin0 V) (hout0 V)

def reg1 : Reg m 1 :=
  let V : Contents F := fun c b => W7 m c b
  regOut m (W7 m) (W8 m) launch1 3 (by decide) (fun _ _ => rfl) (A_eq1 V) (W8_out m) (W8_ne m) (body_obligation1 V) (hin1 V) (hout1 V)

def reg2 : Reg m 2 :=
  let V : Contents F := fun c b => W8 m c b
  regOut m (W8 m) (W9 m) launch2 2 (by decide) (fun _ _ => rfl) (A_eq2 V) (W9_out m) (W9_ne m) (body_obligation2 V) (hin2 V) (hout2 V)

def reg3 : Reg m 3 :=
  let V : Contents F := fun c b => W10 m c b
  regOut m (W10 m) (W11 m) launch3 3 (by decide) (fun _ _ => rfl) (A_eq3 V) (W11_out m) (W11_ne m) (body_obligation3 V) (hin3 V) (hout3 V)

def reg4 : Reg m 4 :=
  let V : Contents F := fun c b => W11 m c b
  regOut m (W11 m) (W12 m) launch4 2 (by decide) (fun _ _ => rfl) (A_eq4 V) (W12_out m) (W12_ne m) (body_obligation4 V) (hin4 V) (hout4 V)

def reg5 : Reg m 5 :=
  let V : Contents F := fun c b => W13 m c b
  regOut m (W13 m) (W14 m) launch5 3 (by decide) (fun _ _ => rfl) (A_eq5 V) (W14_out m) (W14_ne m) (body_obligation5 V) (hin5 V) (hout5 V)

def reg6 : Reg m 6 :=
  let V : Contents F := fun c b => W14 m c b
  regOut m (W14 m) (W15 m) launch6 2 (by decide) (fun _ _ => rfl) (A_eq6 V) (W15_out m) (W15_ne m) (body_obligation6 V) (hin6 V) (hout6 V)

def reg7 : Reg m 7 :=
  let V : Contents F := fun c b => W16 m c b
  regOut m (W16 m) (W17 m) launch7 3 (by decide) (fun _ _ => rfl) (A_eq7 V) (W17_out m) (W17_ne m) (body_obligation7 V) (hin7 V) (hout7 V)

def reg8 : Reg m 8 :=
  let V : Contents F := fun c b => W18 m c b
  regOut m (W18 m) (W19 m) launch8 2 (by decide) (fun _ _ => rfl) (A_eq8 V) (W19_out m) (W19_ne m) (body_obligation8 V) (hin8 V) (hout8 V)

def reg9 : Reg m 9 :=
  let V : Contents F := fun c b => W20 m c b
  regOut m (W20 m) (W21 m) launch9 3 (by decide) (fun _ _ => rfl) (A_eq9 V) (W21_out m) (W21_ne m) (body_obligation9 V) (hin9 V) (hout9 V)

def reg10 : Reg m 10 :=
  let V : Contents F := fun c b => W21 m c b
  regOf m (W21 m) (W22 m) winFacts₀10 block_pos10 stage_whole10 (body_obligation10 V) (hin10 V) (hout10 V)
    (arrays_of_unscopedBufs10 V) fun c => unscopedBufs_of_arrays10 V (fun c b => W22 m c b) c (W22_out m c) (W22_ne m c)

end Cert.Kernel.Hand

end
-- ==== Proof.KB.Run.lean ====
import proofs.«117129_j76819785056523_1_alg».proof.Proof.KB.RunSegs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem held_eq (c : Dev nD) {X Y : Valuation τ sig (Elt F)} (h : X = Y) :
    (iprop(StableHlo.held (c : Thread nD τ) (Pipeline.ucRefs τ sig) X ∗ R c) : sProp 𝕄)
      ⊢ iprop(StableHlo.held (c : Thread nD τ) (Pipeline.ucRefs τ sig) Y ∗ R c) := h ▸ .rfl

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem ((c : Thread nD τ).1, b) = V23 m (outs m) c b) := by
  refine Pipeline.θ_run_regions_kit_dev (pcfgs (F := F)) adm (pdats m) () cellOf_inj embL defs₀ Variants.none L lv m ρ main
    (segs m (outs m) Variants.none L lv (fun _ c => R c) () (pdats m) (reg0 m) (reg1 m) (reg2 m) (reg3 m) (reg4 m) (reg5 m) (reg6 m) (reg7 m) (reg8 m) (reg9 m) (reg10 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V23 m (outs m) c))
    (hch := fun c => ⟨.rfl, .rfl, .rfl, .rfl, .rfl, .rfl, held_eq c (V6_eq m c).symm, held_eq c (V7_eq m c), .rfl, held_eq c (V9_eq m c).symm,
      held_eq c (V10_eq m c), .rfl, held_eq c (V12_eq m c).symm, held_eq c (V13_eq m c), .rfl, held_eq c (V15_eq m c).symm,
      held_eq c (V16_eq m c), held_eq c (V17_eq m c).symm, held_eq c (V18_eq m c), held_eq c (V19_eq m c).symm, held_eq c (V20_eq m c), .rfl,
      held_eq c (V22_eq m c).symm, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V23 m (outs m) c b)
    (hfin := fun c s' => by
      iintro ⟨Hh, HSI⟩
      unfold StableHlo.held
      imodintro
      iapply (pointsTo_read_all (Pipeline.ucRefs τ sig) (fun b => ((c : Thread nD τ).1, b)) (V23 m (outs m) c) s')
      isplitl [Hh] <;> iassumption)
    (hQ := fun _ h => h)

theorem run_results : θ_run defs (onTc (τ := τ) (main (F := F))) ⟨m, fun _ => 0, ρ⟩ (fun r => ∀ c : Dev nD,
      r.2.mem ((c.tc : Thread nD τ).loc main_v70) = W23 m c main_v70
      ∧ r.2.mem ((c.tc : Thread nD τ).loc main_v75) = W23 m c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have a := fun (b : Ref sig .tc) (hb : ¬ (Proc.devRef .tc b : DevRef τ sig).isScoped) =>
      h c _ (Finset.mem_filter.mpr ⟨StableHlo.devRef_mem_tcRefs b, hb⟩)
    ⟨(a main_v70 (by decide)).trans (congrFun (V23_eq m c) _), (a main_v75 (by decide)).trans (congrFun (V23_eq m c) _),
     (a main_arg0 (by decide)).trans (V23_main_arg0 m (outs m) c),
     (a main_arg1 (by decide)).trans (V23_main_arg1 m (outs m) c),
     (a main_arg2 (by decide)).trans (V23_main_arg2 m (outs m) c),
     (a main_arg3 (by decide)).trans (V23_main_arg3 m (outs m) c),
     (a main_arg4 (by decide)).trans (V23_main_arg4 m (outs m) c),
     (a main_arg5 (by decide)).trans (V23_main_arg5 m (outs m) c),
     (a main_arg6 (by decide)).trans (V23_main_arg6 m (outs m) c),
     (a main_arg7 (by decide)).trans (V23_main_arg7 m (outs m) c),
     (a main_arg8 (by decide)).trans (V23_main_arg8 m (outs m) c),
     (a main_arg9 (by decide)).trans (V23_main_arg9 m (outs m) c),
     (a main_arg10 (by decide)).trans (V23_main_arg10 m (outs m) c),
     (a main_arg11 (by decide)).trans (V23_main_arg11 m (outs m) c)⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2) (run_results m ρ)

end Cert.Kernel.Hand

end
-- ==== Proof.KI.Base.lean ====
import proofs.«117129_j76819785056523_1_alg».proof.Proof.Gen.KernelIdeal.Launch
import proofs.«117129_j76819785056523_1_alg».proof.Proof.Gen.KernelIdeal.Skeleton
import proofs.«117129_j76819785056523_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Contents (F : FTy → Type) [FloatOps F] : Type :=
  (c : Dev nD) → (b : Ref sig .tc) → Buf (Elt F) ((c : Thread nD τ).loc b)

def readOver {s : Shape} {e : EltTy} (v : View sig .tc .vmem s e) (L : List (View.Piece (Elt F) s e)) : s.Idx → Elt F e :=
  v.read (Elt F) (v.writes (Elt F) v.junk L)

theorem owns_unread {sp : Space} {s : Shape} {e : EltTy} (c : Dev nD) {m : Memref sig .tc sp s e} (h : m.IsWhole) (q : PosShare TreeShare) (x : s.Idx → Elt F e) :
    (owns (c : Thread nD τ) m q x : sProp 𝕄) = (m.view.loc (c : Thread nD τ) ↦[m.view.set]{q} h.unread x) := by
  refine BI.equiv_iff.mp ⟨?_, ?_⟩ <;> unfold owns <;> change (_ : sProp 𝕄) ⊢ _
  · iintro ⟨%f, %hf, H⟩; obtain rfl := h.eq_unread hf; iexact H
  · iintro H; iexists _; isplitr
    · ipureintro; exact h.read_unread _
    · iexact H

theorem owns_of_cover {s : Shape} {e : EltTy} (c : Dev nD) (v : View sig .tc .vmem s e) (m : Memref sig .tc .vmem s e) {L : List (View.Piece (Elt F) s e)}
    (hL : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (readOver v L) := by
  iintro ⟨%f, H⟩; unfold owns; iexists m.view.writes (Elt F) f L; isplitr
  · ipureintro; exact View.read_writes_of_cover _ _ _ _ _ hL
  · iexact H

end Cert.KernelIdeal.Hand

end
-- ==== Proof.KI.Feat0.lean ====
import Idealize.ShloMosaic.Lib.Pipeline.Value
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zeroOff0 : (![0, 0] : Fin 2 → Nat) = fun _ => 0 := funext fun a => by fin_cases a <;> rfl

theorem sound_kernel0 (E : Set ℕ) (i : grid0.Coords)
    (arg1 : Memref sig .tc .vmem S1536x500 .bf16) (harg1 : arg1.IsWhole)
    (arg2 : Memref sig .tc .vmem S500x128 .bf16) (harg2 : arg2.IsWhole)
    (arg3 : Memref sig .tc .vmem S1536x128 .bf16) (harg3 : arg3.IsWhole)
    (x0 : Vec F S1536x500 .bf16) (x1 : Vec F S500x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__feat_kernel i arg1 harg1 arg2 harg2 arg3 harg3) K := by
  simp only [owns_unread c harg1, owns_unread c harg2, cc0__feat_kernel_eq_skeleton]; unfold cc0__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x128.size (by rfl)), View.canon_unit_zero zeroOff0]
  simp only [View.readAt_eq_ld, harg1.read_unread, harg2.read_unread, View.ld_unit_zero (S := S1536x500) zeroOff0, View.ld_unit_zero (S := S500x128) zeroOff0]

def dat0 : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem after0_2 (t : Fin cfg0.N) : (dat0 V c).after 2 t = k0_pay1 (iblk0 V c 0 t) (iblk0 V c 1 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

theorem body_obligation0 : BodyObligation (dat0 V c) (defs₀ (F := F)) Variants.none () Set.univ := fun t => by
  rw [bigSep_W0, bigSep_W0]
  simp only [before0_0, before0_1]
  sl_whnfR [defs₀, Defs.onTc]
  rw [show (dat0 V c).Φ t.succ = (dat0 V c).Φ t.castSucc from rfl]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin0 : (Pipeline.ΦA spec0 c : sProp 𝕄) ⊢ (dat0 V c).Φ 0 := .rfl

theorem hout0 : (dat0 V c).Φ (Fin.last cfg0.N) ⊢ (Pipeline.ΦA spec0 c : sProp 𝕄) := .rfl

end Cert.KernelIdeal.Hand

end
-- ==== Proof.KI.Agg1Runs.lean ====
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, _)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, _)
theorem idle1_3 : ∀ t : Fin cfg1.N, cfg1.idle 3 (grid1.coords t) = true ↔ ¬t.val % 8 = 7 := by decide +kernel

abbrev VO1_3 : View sig .tc .vmem S1536x128 .bf16 := (Memref.whole cc1_stg3_0 : Memref sig .tc .vmem S1536x128 .bf16).view
abbrev ms1_0 (t : Fin cfg1.N) : Memref sig .tc .vmem S1536x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S12288x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x128 .bf16 := win1_3.stage (cfg1.slots t 3)
abbrev hs1_3 (t : Fin cfg1.N) : (ms1_3 t).IsWhole := hstage1_3 ((cfg1.slots t 3).cast nbuf1_3)
abbrev scM1_0 : Memref sig .tc .vmem S1536x128 .f32 := Memref.whole cc1_scratch0
abbrev VS1_0 : View sig .tc .vmem S1536x128 .f32 := scM1_0.view

def PhiW1 (c : Dev nD) (P : sProp 𝕄) : sProp 𝕄 :=
  iprop(iprop(P ∗ Pipeline.scopedRestBut (Ix := Unit) (Name := ℕ) (U := Pipeline.UD sig nD τ) (Lvl := ℕ) (Val := Elt F) spec1 c [cc1_scratch0]) ∗ (∃ r, prngReg c r))

theorem PhiW1_mono (c : Dev nD) {P Q : sProp 𝕄} (h : P ⊢ Q) : PhiW1 c P ⊢ PhiW1 c Q := sep_mono_left (sep_mono_left h)

theorem PhiA1_eq (c : Dev nD) : (Pipeline.ΦA spec1 c : sProp 𝕄) = PhiW1 c iprop(∃ d, owns (c : Thread nD τ) scM1_0 fullShare d) := by
  unfold Pipeline.ΦA PhiW1; rw [scopedRest1_split]; simp only [scM1_0, owns_whole]; try rfl

section Runs

variable (c : Dev nD) (i : grid1.Coords) (arg2 : Memref sig .tc .vmem S1536x1536 .bf16) (harg2 : arg2.IsWhole) (arg3 : Memref sig .tc .vmem S12288x128 .bf16) (harg3 : arg3.IsWhole) (arg4 : Memref sig .tc .vmem S1x128 .f32) (harg4 : arg4.IsWhole) (arg5 : Memref sig .tc .vmem S1536x128 .bf16) (harg5 : arg5.IsWhole) (arg6 : Memref sig .tc .vmem S1536x128 .f32) (harg6 : arg6.IsWhole)

abbrev Run1 (x0 : Vec F S1536x1536 .bf16) (x1 : Vec F S12288x128 .bf16) (x2 : Vec F S1x128 .f32) (P5 P6 Q5 : sProp 𝕄)
    (LS0 : List (View.Piece (Elt F) S1536x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc1__agg_kernel_impl i arg2 harg2 arg3 harg3 arg4 harg4 arg5 harg5 arg6 harg6) K

section A

variable (hc0 : cond1_0 i) (hc1 : ¬cond1_1 i) (x0 : Vec F S1536x1536 .bf16) (x1 : Vec F S12288x128 .bf16) (x2 : Vec F S1x128 .f32)

def kernelRun1_A :
    Σ' (L3 : List (View.Piece (Elt F) S1536x128 .bf16)), { LS0 : List (View.Piece (Elt F) S1536x128 .f32) //
      ∀ xi3 : Vec F S1536x128 .bf16, Run1 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run1, owns_unread c harg2, owns_unread c harg3, owns_unread c harg4, owns_unread c harg5, owns_unread c harg6, cc1__agg_kernel_impl_eq_skeleton]
  unfold cc1__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond1_0 i) (hc1 : ¬cond1_1 i) (x0 : Vec F S1536x1536 .bf16) (x1 : Vec F S12288x128 .bf16) (x2 : Vec F S1x128 .f32) (xs0 : Vec F S1536x128 .f32)

def kernelRun1_B :
    Σ' (L3 : List (View.Piece (Elt F) S1536x128 .bf16)), { LS0 : List (View.Piece (Elt F) S1536x128 .f32) //
      ∀ xi3 : Vec F S1536x128 .bf16, Run1 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run1, owns_unread c harg2, owns_unread c harg3, owns_unread c harg4, owns_unread c harg5, owns_unread c harg6, cc1__agg_kernel_impl_eq_skeleton]
  unfold cc1__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond1_0 i) (hc1 : cond1_1 i) (x0 : Vec F S1536x1536 .bf16) (x1 : Vec F S12288x128 .bf16) (x2 : Vec F S1x128 .f32) (xs0 : Vec F S1536x128 .f32)

def kernelRun1_C :
    Σ' (L3 : List (View.Piece (Elt F) S1536x128 .bf16)), { LS0 : List (View.Piece (Elt F) S1536x128 .f32) //
      Run1 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run1, owns_unread c harg2, owns_unread c harg3, owns_unread c harg4, owns_unread c harg5, owns_unread c harg6, cc1__agg_kernel_impl_eq_skeleton]
  unfold cc1__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg1.N)

section A
variable (h0 : t.val % 8 = 0) (h1 : ¬t.val % 8 = 7)
def runA1 :=
  kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (mt (hcond1_1 t).mp h1) (iblk1 V c 0 t) (iblk1 V c 1 t) (iblk1 V c 2 t)
theorem coverA1 (y : S1536x128.Idx) : ∃ pc ∈ (runA1 V c t h0 h1).2.1, y ∈ pc.1.set :=
  View.cover_of_tiledL _ S1536x128.size (by sl_kernel_rfl) y
end A

section B
variable (h0 : ¬t.val % 8 = 0) (h1 : ¬t.val % 8 = 7) (s : Vec F S1536x128 .f32)
def runB1 :=
  kernelRun1_B c (grid1.coords t) (ms1_0 t) (hs1_0 t) (ms1_1 t) (hs1_1 t) (ms1_2 t) (hs1_2 t) (ms1_3 t) (hs1_3 t) scM1_0 (Memref.isWhole_whole _) (mt (hcond1_0 t).mp h0) (mt (hcond1_1 t).mp h1) (iblk1 V c 0 t) (iblk1 V c 1 t) (iblk1 V c 2 t) s
theorem coverB1 (y : S1536x128.Idx) : ∃ pc ∈ (runB1 V c t h0 h1 s).2.1, y ∈ pc.1.set :=
  View.cover_of_tiledL _ S1536x128.size (by sl_kernel_rfl) y
end B

section C
variable (h0 : ¬t.val % 8 = 0) (h1 : t.val % 8 = 7) (s : Vec F S1536x128 .f32)
def runC1 :=
  kernelRun1_C c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (iblk1 V c 0 t) (iblk1 V c 1 t) (iblk1 V c 2 t) s
theorem coverC1 (y : S1536x128.Idx) : ∃ pc ∈ (runC1 V c t h0 h1 s).2.1, y ∈ pc.1.set :=
  View.cover_of_tiledL _ S1536x128.size (by sl_kernel_rfl) y
theorem coverC1_3 (y : S1536x128.Idx) : ∃ pc ∈ (runC1 V c t h0 h1 s).1, y ∈ pc.1.set :=
  View.cover_of_tiledL _ S1536x128.size (by sl_kernel_rfl) y
end C

end Point

end Cert.KernelIdeal.Hand

end
-- ==== Proof.KI.Agg1.lean ====
import proofs.«117129_j76819785056523_1_alg».proof.Proof.KI.Agg1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut1 (c : Dev nD) (t : Fin cfg1.N) (s : Vec F S1536x128 .f32) : Vec F S1536x128 .bf16 × Vec F S1536x128 .f32 :=
  if h0 : t.val % 8 = 0 then (readOver VO1_3 (runA1 V c t h0 (by omega)).1, readOver VS1_0 (runA1 V c t h0 (by omega)).2.1)
  else if h1 : t.val % 8 = 7 then (readOver VO1_3 (runC1 V c t h0 h1 s).1, readOver VS1_0 (runC1 V c t h0 h1 s).2.1)
  else (readOver VO1_3 (runB1 V c t h0 h1 s).1, readOver VS1_0 (runB1 V c t h0 h1 s).2.1)

def outsAt1 (c : Dev nD) : (n : ℕ) → n < cfg1.N → Vec F S1536x128 .bf16 × Vec F S1536x128 .f32
  | 0, hn => ptOut1 V c ⟨0, hn⟩ (readOver VS1_0 [])
  | n + 1, hn => ptOut1 V c ⟨n + 1, hn⟩ (outsAt1 c n (Nat.lt_of_succ_lt hn)).2

theorem outsAt1_A (c : Dev nD) (t : Fin cfg1.N) (h0 : t.val % 8 = 0) (h1 : ¬t.val % 8 = 7) :
    outsAt1 V c t.val t.isLt = (readOver VO1_3 (runA1 V c t h0 h1).1, readOver VS1_0 (runA1 V c t h0 h1).2.1) := by
  obtain ⟨n, hn⟩ := t
  cases n <;> first | exact dif_pos h0 | exact rfl

theorem outsAt1_B (c : Dev nD) (t : Fin cfg1.N) (h0 : ¬t.val % 8 = 0) (h1 : ¬t.val % 8 = 7) :
    outsAt1 V c t.val t.isLt = (readOver VO1_3 (runB1 V c t h0 h1 (outsAt1 V c (t.val - 1) (Nat.lt_of_le_of_lt (Nat.sub_le _ _) t.isLt)).2).1,
      readOver VS1_0 (runB1 V c t h0 h1 (outsAt1 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt1_C (c : Dev nD) (t : Fin cfg1.N) (h0 : ¬t.val % 8 = 0) (h1 : t.val % 8 = 7) :
    outsAt1 V c t.val t.isLt = (readOver VO1_3 (runC1 V c t h0 h1 (outsAt1 V c (t.val - 1) (Nat.lt_of_le_of_lt (Nat.sub_le _ _) t.isLt)).2).1,
      readOver VS1_0 (runC1 V c t h0 h1 (outsAt1 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS1 (c : Dev nD) : (n : ℕ) → n ≤ cfg1.N → sProp 𝕄
  | 0, _ => Pipeline.ΦA spec1 c
  | n + 1, hn => PhiW1 c (owns (c : Thread nD τ) scM1_0 fullShare (outsAt1 V c n hn).2)

theorem PhiS1_pos (c : Dev nD) (n : ℕ) (h : n ≤ cfg1.N) (hz : n ≠ 0) :
    PhiS1 V c n h = PhiW1 c (owns (c : Thread nD τ) scM1_0 fullShare (outsAt1 V c (n - 1) (by omega)).2) := by
  cases n with
  | zero => exact absurd rfl hz
  | succ n => rfl

theorem PhiS1_any (c : Dev nD) (n : ℕ) (h : n ≤ cfg1.N) : PhiS1 V c n h ⊢ (Pipeline.ΦA spec1 c : sProp 𝕄) := by
  cases n with
  | zero => exact .rfl
  | succ n => rw [PhiA1_eq]; exact PhiW1_mono c (exists_intro _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) (Φ : sProp 𝕄) : sProp 𝕄 :=
  iprop(Φ ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) (Φ R3 : sProp 𝕄) : sProp 𝕄 :=
  iprop(Φ ∗ (dat1 V c).owesAt () t.castSucc
    ∗ owns (c : Thread nD τ) (ms1_0 t) fullShare (iblk1 V c 0 t) ∗ owns (c : Thread nD τ) (ms1_1 t) fullShare (iblk1 V c 1 t)
    ∗ owns (c : Thread nD τ) (ms1_2 t) fullShare (iblk1 V c 2 t) ∗ R3)

theorem frame1 (c : Dev nD) (t : Fin cfg1.N) {PS QS RS R3 : sProp 𝕄} {P3 Q3 : Vec F S1536x128 .bf16 → sProp 𝕄}
    (hrun : ∀ d (K : PUnit → sProp 𝕄), iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ P3 d ∗ PS
        ∗ (iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ Q3 d ∗ QS) -∗ K ⟨⟩))
      ⊢ wp frame (wpE (defs₀ (F := F)) Variants.none c none) Set.univ (bodyAt1 t) K)
    (hP : ∀ d, owns (c : Thread nD τ) (ms1_3 t) fullShare ((dat1 V c).before 3 t d) ⊢ P3 d) (h3 : ∀ d, Q3 d ⊢ R3) (hS : QS ⊢ RS) :
    bodyPre1 V c t (PhiW1 c PS) ⊢ wp frame (wpE (defs₀ (F := F)) Variants.none c none) Set.univ (bodyAt1 t) fun _ => bodyPost1 V c t (PhiW1 c RS) R3 := by
  unfold bodyPre1 bodyPost1 PhiW1
  simp only [before1_0, before1_1, before1_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body1 (c : Dev nD) (t : Fin cfg1.N) :
    bodyPre1 V c t (PhiS1 V c t.val (Nat.le_of_lt t.isLt)) ⊢ wp frame (wpE (defs₀ (F := F)) Variants.none c none) Set.univ (bodyAt1 t) fun _ =>
      bodyPost1 V c t (PhiW1 c (owns (c : Thread nD τ) scM1_0 fullShare (outsAt1 V c t.val t.isLt).2)) ((dat1 V c).leavesExact 3 t) := by
  by_cases h1 : t.val % 8 = 7
  · have h0 : ¬t.val % 8 = 0 := by omega
    have hz : t.val ≠ 0 := by omega
    rw [show (dat1 V c).leavesExact 3 t = owns (c : Thread nD τ) (ms1_3 t) fullShare ((dat1 V c).after 3 t) from by
      unfold Dat.leavesExact; rw [Bool.eq_false_iff.mpr fun h => (idle1_3 t).mp h h1], after1_3]
    rw [outsAt1_C V c t h0 h1, PhiS1_pos V c _ _ hz]; dsimp only
    exact frame1 V c t (fun d K => (runC1 V c t h0 h1 _).2.2 Set.univ K) (fun d => exists_intro _)
      (fun _ => owns_of_cover c VO1_3 _ (coverC1_3 V c t h0 h1 _)) (owns_of_cover c VS1_0 _ (coverC1 V c t h0 h1 _))
  · rw [Dat.leavesExact_idle (dat1 V c) 3 t ((idle1_3 t).mpr h1) (Bool.eq_false_iff.mpr (mt (flush1_3 t).mp h1))]
    by_cases h0 : t.val % 8 = 0
    · rw [outsAt1_A V c t h0 h1]; dsimp only
      refine (sep_mono_left ((PhiS1_any V c _ _).trans (PhiA1_eq c).le)).trans ?_
      exact frame1 V c t (fun d K => (runA1 V c t h0 h1).2.2 ((dat1 V c).before 3 t d) Set.univ K)
        (fun _ => .rfl) (fun d => by iintro H; iexists d; iexact H) (owns_of_cover c VS1_0 _ (coverA1 V c t h0 h1))
    · have hz : t.val ≠ 0 := by omega
      rw [outsAt1_B V c t h0 h1, PhiS1_pos V c _ _ hz]; dsimp only
      exact frame1 V c t (fun d K => (runB1 V c t h0 h1 _).2.2 ((dat1 V c).before 3 t d) Set.univ K)
        (fun _ => .rfl) (fun d => by iintro H; iexists d; iexact H) (owns_of_cover c VS1_0 _ (coverB1 V c t h0 h1 _))

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := PhiS1_any V c (Fin.last cfg1.N).val _

end Cert.KernelIdeal.Hand

end
-- ==== Proof.KI.Feat2.lean ====
import Idealize.ShloMosaic.Lib.Pipeline.Value
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

theorem zeroOff2 : (![0, 0] : Fin 2 → Nat) = fun _ => 0 := funext fun a => by fin_cases a <;> rfl

theorem sound_kernel2 (E : Set ℕ) (i : grid2.Coords)
    (arg1 : Memref sig .tc .vmem S1536x128 .bf16) (harg1 : arg1.IsWhole)
    (arg2 : Memref sig .tc .vmem S128x64 .bf16) (harg2 : arg2.IsWhole)
    (arg3 : Memref sig .tc .vmem S1536x64 .bf16) (harg3 : arg3.IsWhole)
    (x0 : Vec F S1536x128 .bf16) (x1 : Vec F S128x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__feat_kernel i arg1 harg1 arg2 harg2 arg3 harg3) K := by
  simp only [owns_unread c harg1, owns_unread c harg2, cc2__feat_kernel_eq_skeleton]; unfold cc2__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x64.size (by rfl)), View.canon_unit_zero zeroOff2]
  simp only [View.readAt_eq_ld, harg1.read_unread, harg2.read_unread, View.ld_unit_zero (S := S1536x128) zeroOff2, View.ld_unit_zero (S := S128x64) zeroOff2]

def dat2 : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem after2_2 (t : Fin cfg2.N) : (dat2 V c).after 2 t = k2_pay1 (iblk2 V c 0 t) (iblk2 V c 1 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d

theorem body_obligation2 : BodyObligation (dat2 V c) (defs₀ (F := F)) Variants.none () Set.univ := fun t => by
  rw [bigSep_W2, bigSep_W2]
  simp only [before2_0, before2_1]
  sl_whnfR [defs₀, Defs.onTc]
  rw [show (dat2 V c).Φ t.succ = (dat2 V c).Φ t.castSucc from rfl]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin2 : (Pipeline.ΦA spec2 c : sProp 𝕄) ⊢ (dat2 V c).Φ 0 := .rfl

theorem hout2 : (dat2 V c).Φ (Fin.last cfg2.N) ⊢ (Pipeline.ΦA spec2 c : sProp 𝕄) := .rfl

end Cert.KernelIdeal.Hand

end
-- ==== Proof.KI.Agg3Runs.lean ====
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, _)
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, _)
theorem idle3_3 : ∀ t : Fin cfg3.N, cfg3.idle 3 (grid3.coords t) = true ↔ ¬t.val % 8 = 7 := by decide +kernel

abbrev VO3_3 : View sig .tc .vmem S1536x64 .bf16 := (Memref.whole cc3_stg3_0 : Memref sig .tc .vmem S1536x64 .bf16).view
abbrev ms3_0 (t : Fin cfg3.N) : Memref sig .tc .vmem S1536x1536 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S12288x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1536x64 .bf16 := win3_3.stage (cfg3.slots t 3)
abbrev hs3_3 (t : Fin cfg3.N) : (ms3_3 t).IsWhole := hstage3_3 ((cfg3.slots t 3).cast nbuf3_3)
abbrev scM3_0 : Memref sig .tc .vmem S1536x64 .f32 := Memref.whole cc3_scratch0
abbrev VS3_0 : View sig .tc .vmem S1536x64 .f32 := scM3_0.view

def PhiW3 (c : Dev nD) (P : sProp 𝕄) : sProp 𝕄 :=
  iprop(iprop(P ∗ Pipeline.scopedRestBut (Ix := Unit) (Name := ℕ) (U := Pipeline.UD sig nD τ) (Lvl := ℕ) (Val := Elt F) spec3 c [cc3_scratch0]) ∗ (∃ r, prngReg c r))

theorem PhiW3_mono (c : Dev nD) {P Q : sProp 𝕄} (h : P ⊢ Q) : PhiW3 c P ⊢ PhiW3 c Q := sep_mono_left (sep_mono_left h)

theorem PhiA3_eq (c : Dev nD) : (Pipeline.ΦA spec3 c : sProp 𝕄) = PhiW3 c iprop(∃ d, owns (c : Thread nD τ) scM3_0 fullShare d) := by
  unfold Pipeline.ΦA PhiW3; rw [scopedRest3_split]; simp only [scM3_0, owns_whole]; try rfl

section Runs

variable (c : Dev nD) (i : grid3.Coords) (arg2 : Memref sig .tc .vmem S1536x1536 .bf16) (harg2 : arg2.IsWhole) (arg3 : Memref sig .tc .vmem S12288x64 .bf16) (harg3 : arg3.IsWhole) (arg4 : Memref sig .tc .vmem S1x64 .f32) (harg4 : arg4.IsWhole) (arg5 : Memref sig .tc .vmem S1536x64 .bf16) (harg5 : arg5.IsWhole) (arg6 : Memref sig .tc .vmem S1536x64 .f32) (harg6 : arg6.IsWhole)

abbrev Run3 (x0 : Vec F S1536x1536 .bf16) (x1 : Vec F S12288x64 .bf16) (x2 : Vec F S1x64 .f32) (P5 P6 Q5 : sProp 𝕄)
    (LS0 : List (View.Piece (Elt F) S1536x64 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc3__agg_kernel_impl i arg2 harg2 arg3 harg3 arg4 harg4 arg5 harg5 arg6 harg6) K

section A

variable (hc0 : cond3_0 i) (hc1 : ¬cond3_1 i) (x0 : Vec F S1536x1536 .bf16) (x1 : Vec F S12288x64 .bf16) (x2 : Vec F S1x64 .f32)

def kernelRun3_A :
    Σ' (L3 : List (View.Piece (Elt F) S1536x64 .bf16)), { LS0 : List (View.Piece (Elt F) S1536x64 .f32) //
      ∀ xi3 : Vec F S1536x64 .bf16, Run3 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run3, owns_unread c harg2, owns_unread c harg3, owns_unread c harg4, owns_unread c harg5, owns_unread c harg6, cc3__agg_kernel_impl_eq_skeleton]
  unfold cc3__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond3_0 i) (hc1 : ¬cond3_1 i) (x0 : Vec F S1536x1536 .bf16) (x1 : Vec F S12288x64 .bf16) (x2 : Vec F S1x64 .f32) (xs0 : Vec F S1536x64 .f32)

def kernelRun3_B :
    Σ' (L3 : List (View.Piece (Elt F) S1536x64 .bf16)), { LS0 : List (View.Piece (Elt F) S1536x64 .f32) //
      ∀ xi3 : Vec F S1536x64 .bf16, Run3 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run3, owns_unread c harg2, owns_unread c harg3, owns_unread c harg4, owns_unread c harg5, owns_unread c harg6, cc3__agg_kernel_impl_eq_skeleton]
  unfold cc3__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond3_0 i) (hc1 : cond3_1 i) (x0 : Vec F S1536x1536 .bf16) (x1 : Vec F S12288x64 .bf16) (x2 : Vec F S1x64 .f32) (xs0 : Vec F S1536x64 .f32)

def kernelRun3_C :
    Σ' (L3 : List (View.Piece (Elt F) S1536x64 .bf16)), { LS0 : List (View.Piece (Elt F) S1536x64 .f32) //
      Run3 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run3, owns_unread c harg2, owns_unread c harg3, owns_unread c harg4, owns_unread c harg5, owns_unread c harg6, cc3__agg_kernel_impl_eq_skeleton]
  unfold cc3__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg3.N)

section A
variable (h0 : t.val % 8 = 0) (h1 : ¬t.val % 8 = 7)
def runA3 :=
  kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (iblk3 V c 0 t) (iblk3 V c 1 t) (iblk3 V c 2 t)
theorem coverA3 (y : S1536x64.Idx) : ∃ pc ∈ (runA3 V c t h0 h1).2.1, y ∈ pc.1.set :=
  View.cover_of_tiledL _ S1536x64.size (by sl_kernel_rfl) y
end A

section B
variable (h0 : ¬t.val % 8 = 0) (h1 : ¬t.val % 8 = 7) (s : Vec F S1536x64 .f32)
def runB3 :=
  kernelRun3_B c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) s
theorem coverB3 (y : S1536x64.Idx) : ∃ pc ∈ (runB3 V c t h0 h1 s).2.1, y ∈ pc.1.set :=
  View.cover_of_tiledL _ S1536x64.size (by sl_kernel_rfl) y
end B

section C
variable (h0 : ¬t.val % 8 = 0) (h1 : t.val % 8 = 7) (s : Vec F S1536x64 .f32)
def runC3 :=
  kernelRun3_C c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) s
theorem coverC3 (y : S1536x64.Idx) : ∃ pc ∈ (runC3 V c t h0 h1 s).2.1, y ∈ pc.1.set :=
  View.cover_of_tiledL _ S1536x64.size (by sl_kernel_rfl) y
theorem coverC3_3 (y : S1536x64.Idx) : ∃ pc ∈ (runC3 V c t h0 h1 s).1, y ∈ pc.1.set :=
  View.cover_of_tiledL _ S1536x64.size (by sl_kernel_rfl) y
end C

end Point

end Cert.KernelIdeal.Hand

end
-- ==== Proof.KI.Agg3.lean ====
import proofs.«117129_j76819785056523_1_alg».proof.Proof.KI.Agg3Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut3 (c : Dev nD) (t : Fin cfg3.N) (s : Vec F S1536x64 .f32) : Vec F S1536x64 .bf16 × Vec F S1536x64 .f32 :=
  if h0 : t.val % 8 = 0 then (readOver VO3_3 (runA3 V c t h0 (by omega)).1, readOver VS3_0 (runA3 V c t h0 (by omega)).2.1)
  else if h1 : t.val % 8 = 7 then (readOver VO3_3 (runC3 V c t h0 h1 s).1, readOver VS3_0 (runC3 V c t h0 h1 s).2.1)
  else (readOver VO3_3 (runB3 V c t h0 h1 s).1, readOver VS3_0 (runB3 V c t h0 h1 s).2.1)

def outsAt3 (c : Dev nD) : (n : ℕ) → n < cfg3.N → Vec F S1536x64 .bf16 × Vec F S1536x64 .f32
  | 0, hn => ptOut3 V c ⟨0, hn⟩ (readOver VS3_0 [])
  | n + 1, hn => ptOut3 V c ⟨n + 1, hn⟩ (outsAt3 c n (Nat.lt_of_succ_lt hn)).2

theorem outsAt3_A (c : Dev nD) (t : Fin cfg3.N) (h0 : t.val % 8 = 0) (h1 : ¬t.val % 8 = 7) :
    outsAt3 V c t.val t.isLt = (readOver VO3_3 (runA3 V c t h0 h1).1, readOver VS3_0 (runA3 V c t h0 h1).2.1) := by
  obtain ⟨n, hn⟩ := t
  cases n <;> first | exact dif_pos h0 | exact rfl

theorem outsAt3_B (c : Dev nD) (t : Fin cfg3.N) (h0 : ¬t.val % 8 = 0) (h1 : ¬t.val % 8 = 7) :
    outsAt3 V c t.val t.isLt = (readOver VO3_3 (runB3 V c t h0 h1 (outsAt3 V c (t.val - 1) (Nat.lt_of_le_of_lt (Nat.sub_le _ _) t.isLt)).2).1,
      readOver VS3_0 (runB3 V c t h0 h1 (outsAt3 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt3_C (c : Dev nD) (t : Fin cfg3.N) (h0 : ¬t.val % 8 = 0) (h1 : t.val % 8 = 7) :
    outsAt3 V c t.val t.isLt = (readOver VO3_3 (runC3 V c t h0 h1 (outsAt3 V c (t.val - 1) (Nat.lt_of_le_of_lt (Nat.sub_le _ _) t.isLt)).2).1,
      readOver VS3_0 (runC3 V c t h0 h1 (outsAt3 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS3 (c : Dev nD) : (n : ℕ) → n ≤ cfg3.N → sProp 𝕄
  | 0, _ => Pipeline.ΦA spec3 c
  | n + 1, hn => PhiW3 c (owns (c : Thread nD τ) scM3_0 fullShare (outsAt3 V c n hn).2)

theorem PhiS3_pos (c : Dev nD) (n : ℕ) (h : n ≤ cfg3.N) (hz : n ≠ 0) :
    PhiS3 V c n h = PhiW3 c (owns (c : Thread nD τ) scM3_0 fullShare (outsAt3 V c (n - 1) (by omega)).2) := by
  cases n with
  | zero => exact absurd rfl hz
  | succ n => rfl

theorem PhiS3_any (c : Dev nD) (n : ℕ) (h : n ≤ cfg3.N) : PhiS3 V c n h ⊢ (Pipeline.ΦA spec3 c : sProp 𝕄) := by
  cases n with
  | zero => exact .rfl
  | succ n => rw [PhiA3_eq]; exact PhiW3_mono c (exists_intro _)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) (Φ : sProp 𝕄) : sProp 𝕄 :=
  iprop(Φ ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) (Φ R3 : sProp 𝕄) : sProp 𝕄 :=
  iprop(Φ ∗ (dat3 V c).owesAt () t.castSucc
    ∗ owns (c : Thread nD τ) (ms3_0 t) fullShare (iblk3 V c 0 t) ∗ owns (c : Thread nD τ) (ms3_1 t) fullShare (iblk3 V c 1 t)
    ∗ owns (c : Thread nD τ) (ms3_2 t) fullShare (iblk3 V c 2 t) ∗ R3)

theorem frame3 (c : Dev nD) (t : Fin cfg3.N) {PS QS RS R3 : sProp 𝕄} {P3 Q3 : Vec F S1536x64 .bf16 → sProp 𝕄}
    (hrun : ∀ d (K : PUnit → sProp 𝕄), iprop(owns (c : Thread nD τ) (ms3_0 t) fullShare (iblk3 V c 0 t) ∗ owns (c : Thread nD τ) (ms3_1 t) fullShare (iblk3 V c 1 t) ∗ owns (c : Thread nD τ) (ms3_2 t) fullShare (iblk3 V c 2 t) ∗ P3 d ∗ PS
        ∗ (iprop(owns (c : Thread nD τ) (ms3_0 t) fullShare (iblk3 V c 0 t) ∗ owns (c : Thread nD τ) (ms3_1 t) fullShare (iblk3 V c 1 t) ∗ owns (c : Thread nD τ) (ms3_2 t) fullShare (iblk3 V c 2 t) ∗ Q3 d ∗ QS) -∗ K ⟨⟩))
      ⊢ wp frame (wpE (defs₀ (F := F)) Variants.none c none) Set.univ (bodyAt3 t) K)
    (hP : ∀ d, owns (c : Thread nD τ) (ms3_3 t) fullShare ((dat3 V c).before 3 t d) ⊢ P3 d) (h3 : ∀ d, Q3 d ⊢ R3) (hS : QS ⊢ RS) :
    bodyPre3 V c t (PhiW3 c PS) ⊢ wp frame (wpE (defs₀ (F := F)) Variants.none c none) Set.univ (bodyAt3 t) fun _ => bodyPost3 V c t (PhiW3 c RS) R3 := by
  unfold bodyPre3 bodyPost3 PhiW3
  simp only [before3_0, before3_1, before3_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body3 (c : Dev nD) (t : Fin cfg3.N) :
    bodyPre3 V c t (PhiS3 V c t.val (Nat.le_of_lt t.isLt)) ⊢ wp frame (wpE (defs₀ (F := F)) Variants.none c none) Set.univ (bodyAt3 t) fun _ =>
      bodyPost3 V c t (PhiW3 c (owns (c : Thread nD τ) scM3_0 fullShare (outsAt3 V c t.val t.isLt).2)) ((dat3 V c).leavesExact 3 t) := by
  by_cases h1 : t.val % 8 = 7
  · have h0 : ¬t.val % 8 = 0 := by omega
    have hz : t.val ≠ 0 := by omega
    rw [show (dat3 V c).leavesExact 3 t = owns (c : Thread nD τ) (ms3_3 t) fullShare ((dat3 V c).after 3 t) from by
      unfold Dat.leavesExact; rw [Bool.eq_false_iff.mpr fun h => (idle3_3 t).mp h h1], after3_3]
    rw [outsAt3_C V c t h0 h1, PhiS3_pos V c _ _ hz]; dsimp only
    exact frame3 V c t (fun d K => (runC3 V c t h0 h1 _).2.2 Set.univ K) (fun d => exists_intro _)
      (fun _ => owns_of_cover c VO3_3 _ (coverC3_3 V c t h0 h1 _)) (owns_of_cover c VS3_0 _ (coverC3 V c t h0 h1 _))
  · rw [Dat.leavesExact_idle (dat3 V c) 3 t ((idle3_3 t).mpr h1) (Bool.eq_false_iff.mpr (mt (flush3_3 t).mp h1))]
    by_cases h0 : t.val % 8 = 0
    · rw [outsAt3_A V c t h0 h1]; dsimp only
      refine (sep_mono_left ((PhiS3_any V c _ _).trans (PhiA3_eq c).le)).trans ?_
      exact frame3 V c t (fun d K => (runA3 V c t h0 h1).2.2 ((dat3 V c).before 3 t d) Set.univ K)
        (fun _ => .rfl) (fun d => by iintro H; iexists d; iexact H) (owns_of_cover c VS3_0 _ (coverA3 V c t h0 h1))
    · have hz : t.val ≠ 0 := by omega
      rw [outsAt3_B V c t h0 h1, PhiS3_pos V c _ _ hz]; dsimp only
      exact frame3 V c t (fun d K => (runB3 V c t h0 h1 _).2.2 ((dat3 V c).before 3 t d) Set.univ K)
        (fun _ => .rfl) (fun d => by iintro H; iexists d; iexact H) (owns_of_cover c VS3_0 _ (coverB3 V c t h0 h1 _))

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := PhiS3_any V c (Fin.last cfg3.N).val _

end Cert.KernelIdeal.Hand

end
-- ==== Proof.KI.Feat4.lean ====
import Idealize.ShloMosaic.Lib.Pipeline.Value
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zeroOff4 : (![0, 0] : Fin 2 → Nat) = fun _ => 0 := funext fun a => by fin_cases a <;> rfl

theorem sound_kernel4 (E : Set ℕ) (i : grid4.Coords)
    (arg1 : Memref sig .tc .vmem S1536x64 .bf16) (harg1 : arg1.IsWhole)
    (arg2 : Memref sig .tc .vmem S64x128 .bf16) (harg2 : arg2.IsWhole)
    (arg3 : Memref sig .tc .vmem S1536x128 .bf16) (harg3 : arg3.IsWhole)
    (x0 : Vec F S1536x64 .bf16) (x1 : Vec F S64x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k4_pay1 x0 x1)) -∗ K ⟨⟩))
      ⊢ wp frame (wpE (defs₀ (F := F)) Variants.none c none) E (cc4__feat_kernel i arg1 harg1 arg2 harg2 arg3 harg3) K := by
  simp only [owns_unread c harg1, owns_unread c harg2, cc4__feat_kernel_eq_skeleton]; unfold cc4__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x128.size (by rfl)), View.canon_unit_zero zeroOff4]
  simp only [View.readAt_eq_ld, harg1.read_unread, harg2.read_unread, View.ld_unit_zero (S := S1536x64) zeroOff4, View.ld_unit_zero (S := S64x128) zeroOff4]

def dat4 : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem after4_2 (t : Fin cfg4.N) : (dat4 V c).after 2 t = k4_pay1 (iblk4 V c 0 t) (iblk4 V c 1 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d

theorem body_obligation4 : BodyObligation (dat4 V c) (defs₀ (F := F)) Variants.none () Set.univ := fun t => by
  rw [bigSep_W4, bigSep_W4]
  simp only [before4_0, before4_1]
  sl_whnfR [defs₀, Defs.onTc]
  rw [show (dat4 V c).Φ t.succ = (dat4 V c).Φ t.castSucc from rfl]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin4 : (Pipeline.ΦA spec4 c : sProp 𝕄) ⊢ (dat4 V c).Φ 0 := .rfl

theorem hout4 : (dat4 V c).Φ (Fin.last cfg4.N) ⊢ (Pipeline.ΦA spec4 c : sProp 𝕄) := .rfl

end Cert.KernelIdeal.Hand

end
-- ==== Proof.KI.Agg5Runs.lean ====
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, _)
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, _)
theorem idle5_3 : ∀ t : Fin cfg5.N, cfg5.idle 3 (grid5.coords t) = true ↔ ¬t.val % 8 = 7 := by decide +kernel

abbrev VO5_3 : View sig .tc .vmem S1536x128 .bf16 := (Memref.whole cc5_stg3_0 : Memref sig .tc .vmem S1536x128 .bf16).view
abbrev ms5_0 (t : Fin cfg5.N) : Memref sig .tc .vmem S1536x1536 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S12288x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1536x128 .bf16 := win5_3.stage (cfg5.slots t 3)
abbrev hs5_3 (t : Fin cfg5.N) : (ms5_3 t).IsWhole := hstage5_3 ((cfg5.slots t 3).cast nbuf5_3)
abbrev scM5_0 : Memref sig .tc .vmem S1536x128 .f32 := Memref.whole cc5_scratch0
abbrev VS5_0 : View sig .tc .vmem S1536x128 .f32 := scM5_0.view

def PhiW5 (c : Dev nD) (P : sProp 𝕄) : sProp 𝕄 :=
  iprop(iprop(P ∗ Pipeline.scopedRestBut (Ix := Unit) (Name := ℕ) (U := Pipeline.UD sig nD τ) (Lvl := ℕ) (Val := Elt F) spec5 c [cc5_scratch0]) ∗ (∃ r, prngReg c r))

theorem PhiW5_mono (c : Dev nD) {P Q : sProp 𝕄} (h : P ⊢ Q) : PhiW5 c P ⊢ PhiW5 c Q := sep_mono_left (sep_mono_left h)

theorem PhiA5_eq (c : Dev nD) : (Pipeline.ΦA spec5 c : sProp 𝕄) = PhiW5 c iprop(∃ d, owns (c : Thread nD τ) scM5_0 fullShare d) := by
  unfold Pipeline.ΦA PhiW5; rw [scopedRest5_split]; simp only [scM5_0, owns_whole]; try rfl

section Runs

variable (c : Dev nD) (i : grid5.Coords) (arg2 : Memref sig .tc .vmem S1536x1536 .bf16) (harg2 : arg2.IsWhole) (arg3 : Memref sig .tc .vmem S12288x128 .bf16) (harg3 : arg3.IsWhole) (arg4 : Memref sig .tc .vmem S1x128 .f32) (harg4 : arg4.IsWhole) (arg5 : Memref sig .tc .vmem S1536x128 .bf16) (harg5 : arg5.IsWhole) (arg6 : Memref sig .tc .vmem S1536x128 .f32) (harg6 : arg6.IsWhole)

abbrev Run5 (x0 : Vec F S1536x1536 .bf16) (x1 : Vec F S12288x128 .bf16) (x2 : Vec F S1x128 .f32) (P5 P6 Q5 : sProp 𝕄)
    (LS0 : List (View.Piece (Elt F) S1536x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc5__agg_kernel_impl i arg2 harg2 arg3 harg3 arg4 harg4 arg5 harg5 arg6 harg6) K

section A

variable (hc0 : cond5_0 i) (hc1 : ¬cond5_1 i) (x0 : Vec F S1536x1536 .bf16) (x1 : Vec F S12288x128 .bf16) (x2 : Vec F S1x128 .f32)

def kernelRun5_A :
    Σ' (L3 : List (View.Piece (Elt F) S1536x128 .bf16)), { LS0 : List (View.Piece (Elt F) S1536x128 .f32) //
      ∀ xi3 : Vec F S1536x128 .bf16, Run5 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run5, owns_unread c harg2, owns_unread c harg3, owns_unread c harg4, owns_unread c harg5, owns_unread c harg6, cc5__agg_kernel_impl_eq_skeleton]
  unfold cc5__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond5_0 i) (hc1 : ¬cond5_1 i) (x0 : Vec F S1536x1536 .bf16) (x1 : Vec F S12288x128 .bf16) (x2 : Vec F S1x128 .f32) (xs0 : Vec F S1536x128 .f32)

def kernelRun5_B :
    Σ' (L3 : List (View.Piece (Elt F) S1536x128 .bf16)), { LS0 : List (View.Piece (Elt F) S1536x128 .f32) //
      ∀ xi3 : Vec F S1536x128 .bf16, Run5 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run5, owns_unread c harg2, owns_unread c harg3, owns_unread c harg4, owns_unread c harg5, owns_unread c harg6, cc5__agg_kernel_impl_eq_skeleton]
  unfold cc5__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond5_0 i) (hc1 : cond5_1 i) (x0 : Vec F S1536x1536 .bf16) (x1 : Vec F S12288x128 .bf16) (x2 : Vec F S1x128 .f32) (xs0 : Vec F S1536x128 .f32)

def kernelRun5_C :
    Σ' (L3 : List (View.Piece (Elt F) S1536x128 .bf16)), { LS0 : List (View.Piece (Elt F) S1536x128 .f32) //
      Run5 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run5, owns_unread c harg2, owns_unread c harg3, owns_unread c harg4, owns_unread c harg5, owns_unread c harg6, cc5__agg_kernel_impl_eq_skeleton]
  unfold cc5__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg5.N)

section A
variable (h0 : t.val % 8 = 0) (h1 : ¬t.val % 8 = 7)
def runA5 :=
  kernelRun5_A c (grid5.coords t) (ms5_0 t) (hs5_0 t) (ms5_1 t) (hs5_1 t) (ms5_2 t) (hs5_2 t) (ms5_3 t) (hs5_3 t) scM5_0 (Memref.isWhole_whole _) ((hcond5_0 t).mpr h0) (mt (hcond5_1 t).mp h1) (iblk5 V c 0 t) (iblk5 V c 1 t) (iblk5 V c 2 t)
theorem coverA5 (y : S1536x128.Idx) : ∃ pc ∈ (runA5 V c t h0 h1).2.1, y ∈ pc.1.set :=
  View.cover_of_tiledL _ S1536x128.size (by sl_kernel_rfl) y
end A

section B
variable (h0 : ¬t.val % 8 = 0) (h1 : ¬t.val % 8 = 7) (s : Vec F S1536x128 .f32)
def runB5 :=
  kernelRun5_B c (grid5.coords t) (ms5_0 t) (hs5_0 t) (ms5_1 t) (hs5_1 t) (ms5_2 t) (hs5_2 t) (ms5_3 t) (hs5_3 t) scM5_0 (Memref.isWhole_whole _) (mt (hcond5_0 t).mp h0) (mt (hcond5_1 t).mp h1) (iblk5 V c 0 t) (iblk5 V c 1 t) (iblk5 V c 2 t) s
theorem coverB5 (y : S1536x128.Idx) : ∃ pc ∈ (runB5 V c t h0 h1 s).2.1, y ∈ pc.1.set :=
  View.cover_of_tiledL _ S1536x128.size (by sl_kernel_rfl) y
end B

section C
variable (h0 : ¬t.val % 8 = 0) (h1 : t.val % 8 = 7) (s : Vec F S1536x128 .f32)
def runC5 :=
  kernelRun5_C c (grid5.coords t) (ms5_0 t) (hs5_0 t) (ms5_1 t) (hs5_1 t) (ms5_2 t) (hs5_2 t) (ms5_3 t) (hs5_3 t) scM5_0 (Memref.isWhole_whole _) (mt (hcond5_0 t).mp h0) ((hcond5_1 t).mpr h1) (iblk5 V c 0 t) (iblk5 V c 1 t) (iblk5 V c 2 t) s
theorem coverC5 (y : S1536x128.Idx) : ∃ pc ∈ (runC5 V c t h0 h1 s).2.1, y ∈ pc.1.set :=
  View.cover_of_tiledL _ S1536x128.size (by sl_kernel_rfl) y
theorem coverC5_3 (y : S1536x128.Idx) : ∃ pc ∈ (runC5 V c t h0 h1 s).1, y ∈ pc.1.set :=
  View.cover_of_tiledL _ S1536x128.size (by sl_kernel_rfl) y
end C

end Point

end Cert.KernelIdeal.Hand

end
-- ==== Proof.KI.Agg5.lean ====
import proofs.«117129_j76819785056523_1_alg».proof.Proof.KI.Agg5Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut5 (c : Dev nD) (t : Fin cfg5.N) (s : Vec F S1536x128 .f32) : Vec F S1536x128 .bf16 × Vec F S1536x128 .f32 :=
  if h0 : t.val % 8 = 0 then (readOver VO5_3 (runA5 V c t h0 (by omega)).1, readOver VS5_0 (runA5 V c t h0 (by omega)).2.1)
  else if h1 : t.val % 8 = 7 then (readOver VO5_3 (runC5 V c t h0 h1 s).1, readOver VS5_0 (runC5 V c t h0 h1 s).2.1)
  else (readOver VO5_3 (runB5 V c t h0 h1 s).1, readOver VS5_0 (runB5 V c t h0 h1 s).2.1)

def outsAt5 (c : Dev nD) : (n : ℕ) → n < cfg5.N → Vec F S1536x128 .bf16 × Vec F S1536x128 .f32
  | 0, hn => ptOut5 V c ⟨0, hn⟩ (readOver VS5_0 [])
  | n + 1, hn => ptOut5 V c ⟨n + 1, hn⟩ (outsAt5 c n (Nat.lt_of_succ_lt hn)).2

theorem outsAt5_A (c : Dev nD) (t : Fin cfg5.N) (h0 : t.val % 8 = 0) (h1 : ¬t.val % 8 = 7) :
    outsAt5 V c t.val t.isLt = (readOver VO5_3 (runA5 V c t h0 h1).1, readOver VS5_0 (runA5 V c t h0 h1).2.1) := by
  obtain ⟨n, hn⟩ := t
  cases n <;> first | exact dif_pos h0 | exact rfl

theorem outsAt5_B (c : Dev nD) (t : Fin cfg5.N) (h0 : ¬t.val % 8 = 0) (h1 : ¬t.val % 8 = 7) :
    outsAt5 V c t.val t.isLt = (readOver VO5_3 (runB5 V c t h0 h1 (outsAt5 V c (t.val - 1) (Nat.lt_of_le_of_lt (Nat.sub_le _ _) t.isLt)).2).1,
      readOver VS5_0 (runB5 V c t h0 h1 (outsAt5 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt5_C (c : Dev nD) (t : Fin cfg5.N) (h0 : ¬t.val % 8 = 0) (h1 : t.val % 8 = 7) :
    outsAt5 V c t.val t.isLt = (readOver VO5_3 (runC5 V c t h0 h1 (outsAt5 V c (t.val - 1) (Nat.lt_of_le_of_lt (Nat.sub_le _ _) t.isLt)).2).1,
      readOver VS5_0 (runC5 V c t h0 h1 (outsAt5 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS5 (c : Dev nD) : (n : ℕ) → n ≤ cfg5.N → sProp 𝕄
  | 0, _ => Pipeline.ΦA spec5 c
  | n + 1, hn => PhiW5 c (owns (c : Thread nD τ) scM5_0 fullShare (outsAt5 V c n hn).2)

theorem PhiS5_pos (c : Dev nD) (n : ℕ) (h : n ≤ cfg5.N) (hz : n ≠ 0) :
    PhiS5 V c n h = PhiW5 c (owns (c : Thread nD τ) scM5_0 fullShare (outsAt5 V c (n - 1) (by omega)).2) := by
  cases n with
  | zero => exact absurd rfl hz
  | succ n => rfl

theorem PhiS5_any (c : Dev nD) (n : ℕ) (h : n ≤ cfg5.N) : PhiS5 V c n h ⊢ (Pipeline.ΦA spec5 c : sProp 𝕄) := by
  cases n with
  | zero => exact .rfl
  | succ n => rw [PhiA5_eq]; exact PhiW5_mono c (exists_intro _)

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_3 (c : Dev nD) (t : Fin cfg5.N) : (dat5 V c).after 3 t = (outsAt5 V c t.val t.isLt).1 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) (Φ : sProp 𝕄) : sProp 𝕄 :=
  iprop(Φ ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) (Φ R3 : sProp 𝕄) : sProp 𝕄 :=
  iprop(Φ ∗ (dat5 V c).owesAt () t.castSucc
    ∗ owns (c : Thread nD τ) (ms5_0 t) fullShare (iblk5 V c 0 t) ∗ owns (c : Thread nD τ) (ms5_1 t) fullShare (iblk5 V c 1 t)
    ∗ owns (c : Thread nD τ) (ms5_2 t) fullShare (iblk5 V c 2 t) ∗ R3)

theorem frame5 (c : Dev nD) (t : Fin cfg5.N) {PS QS RS R3 : sProp 𝕄} {P3 Q3 : Vec F S1536x128 .bf16 → sProp 𝕄}
    (hrun : ∀ d (K : PUnit → sProp 𝕄), iprop(owns (c : Thread nD τ) (ms5_0 t) fullShare (iblk5 V c 0 t) ∗ owns (c : Thread nD τ) (ms5_1 t) fullShare (iblk5 V c 1 t) ∗ owns (c : Thread nD τ) (ms5_2 t) fullShare (iblk5 V c 2 t) ∗ P3 d ∗ PS
        ∗ (iprop(owns (c : Thread nD τ) (ms5_0 t) fullShare (iblk5 V c 0 t) ∗ owns (c : Thread nD τ) (ms5_1 t) fullShare (iblk5 V c 1 t) ∗ owns (c : Thread nD τ) (ms5_2 t) fullShare (iblk5 V c 2 t) ∗ Q3 d ∗ QS) -∗ K ⟨⟩))
      ⊢ wp frame (wpE (defs₀ (F := F)) Variants.none c none) Set.univ (bodyAt5 t) K)
    (hP : ∀ d, owns (c : Thread nD τ) (ms5_3 t) fullShare ((dat5 V c).before 3 t d) ⊢ P3 d) (h3 : ∀ d, Q3 d ⊢ R3) (hS : QS ⊢ RS) :
    bodyPre5 V c t (PhiW5 c PS) ⊢ wp frame (wpE (defs₀ (F := F)) Variants.none c none) Set.univ (bodyAt5 t) fun _ => bodyPost5 V c t (PhiW5 c RS) R3 := by
  unfold bodyPre5 bodyPost5 PhiW5
  simp only [before5_0, before5_1, before5_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body5 (c : Dev nD) (t : Fin cfg5.N) :
    bodyPre5 V c t (PhiS5 V c t.val (Nat.le_of_lt t.isLt)) ⊢ wp frame (wpE (defs₀ (F := F)) Variants.none c none) Set.univ (bodyAt5 t) fun _ =>
      bodyPost5 V c t (PhiW5 c (owns (c : Thread nD τ) scM5_0 fullShare (outsAt5 V c t.val t.isLt).2)) ((dat5 V c).leavesExact 3 t) := by
  by_cases h1 : t.val % 8 = 7
  · have h0 : ¬t.val % 8 = 0 := by omega
    have hz : t.val ≠ 0 := by omega
    rw [show (dat5 V c).leavesExact 3 t = owns (c : Thread nD τ) (ms5_3 t) fullShare ((dat5 V c).after 3 t) from by
      unfold Dat.leavesExact; rw [Bool.eq_false_iff.mpr fun h => (idle5_3 t).mp h h1], after5_3]
    rw [outsAt5_C V c t h0 h1, PhiS5_pos V c _ _ hz]; dsimp only
    exact frame5 V c t (fun d K => (runC5 V c t h0 h1 _).2.2 Set.univ K) (fun d => exists_intro _)
      (fun _ => owns_of_cover c VO5_3 _ (coverC5_3 V c t h0 h1 _)) (owns_of_cover c VS5_0 _ (coverC5 V c t h0 h1 _))
  · rw [Dat.leavesExact_idle (dat5 V c) 3 t ((idle5_3 t).mpr h1) (Bool.eq_false_iff.mpr (mt (flush5_3 t).mp h1))]
    by_cases h0 : t.val % 8 = 0
    · rw [outsAt5_A V c t h0 h1]; dsimp only
      refine (sep_mono_left ((PhiS5_any V c _ _).trans (PhiA5_eq c).le)).trans ?_
      exact frame5 V c t (fun d K => (runA5 V c t h0 h1).2.2 ((dat5 V c).before 3 t d) Set.univ K)
        (fun _ => .rfl) (fun d => by iintro H; iexists d; iexact H) (owns_of_cover c VS5_0 _ (coverA5 V c t h0 h1))
    · have hz : t.val ≠ 0 := by omega
      rw [outsAt5_B V c t h0 h1, PhiS5_pos V c _ _ hz]; dsimp only
      exact frame5 V c t (fun d K => (runB5 V c t h0 h1 _).2.2 ((dat5 V c).before 3 t d) Set.univ K)
        (fun _ => .rfl) (fun d => by iintro H; iexists d; iexact H) (owns_of_cover c VS5_0 _ (coverB5 V c t h0 h1 _))

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := .rfl

theorem hout5 (c : Dev nD) : (dat5 V c).Φ (Fin.last cfg5.N) ⊢ (Pipeline.ΦA spec5 c : sProp 𝕄) := PhiS5_any V c (Fin.last cfg5.N).val _

end Cert.KernelIdeal.Hand

end
-- ==== Proof.KI.Feat6.lean ====
import Idealize.ShloMosaic.Lib.Pipeline.Value
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

theorem zeroOff6 : (![0, 0] : Fin 2 → Nat) = fun _ => 0 := funext fun a => by fin_cases a <;> rfl

theorem sound_kernel6 (E : Set ℕ) (i : grid6.Coords)
    (arg1 : Memref sig .tc .vmem S1536x128 .bf16) (harg1 : arg1.IsWhole)
    (arg2 : Memref sig .tc .vmem S128x500 .bf16) (harg2 : arg2.IsWhole)
    (arg3 : Memref sig .tc .vmem S1536x500 .bf16) (harg3 : arg3.IsWhole)
    (x0 : Vec F S1536x128 .bf16) (x1 : Vec F S128x500 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k6_pay1 x0 x1)) -∗ K ⟨⟩))
      ⊢ wp frame (wpE (defs₀ (F := F)) Variants.none c none) E (cc6__feat_kernel i arg1 harg1 arg2 harg2 arg3 harg3) K := by
  simp only [owns_unread c harg1, owns_unread c harg2, cc6__feat_kernel_eq_skeleton]; unfold cc6__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x500.size (by rfl)), View.canon_unit_zero zeroOff6]
  simp only [View.readAt_eq_ld, harg1.read_unread, harg2.read_unread, View.ld_unit_zero (S := S1536x128) zeroOff6, View.ld_unit_zero (S := S128x500) zeroOff6]

def dat6 : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

theorem after6_2 (t : Fin cfg6.N) : (dat6 V c).after 2 t = k6_pay1 (iblk6 V c 0 t) (iblk6 V c 1 t) := by dsimp only [dat6]

theorem before6_0 (t : Fin cfg6.N) (d) : (dat6 V c).before 0 t d = iblk6 V c 0 t :=
  (dat6 V c).before_in_eq_fetched 0 rfl (fun _ => rfl) (fun _ _ _ => rfl) (fun _ => rfl) t d
theorem before6_1 (t : Fin cfg6.N) (d) : (dat6 V c).before 1 t d = iblk6 V c 1 t :=
  (dat6 V c).before_in_eq_fetched 1 rfl (fun _ => rfl) (fun _ _ _ => rfl) (fun _ => rfl) t d

theorem body_obligation6 : BodyObligation (dat6 V c) (defs₀ (F := F)) Variants.none () Set.univ := fun t => by
  rw [bigSep_W6, bigSep_W6]
  simp only [before6_0, before6_1]
  sl_whnfR [defs₀, Defs.onTc]
  rw [show (dat6 V c).Φ t.succ = (dat6 V c).Φ t.castSucc from rfl]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin6 : (Pipeline.ΦA spec6 c : sProp 𝕄) ⊢ (dat6 V c).Φ 0 := .rfl

theorem hout6 : (dat6 V c).Φ (Fin.last cfg6.N) ⊢ (Pipeline.ΦA spec6 c : sProp 𝕄) := .rfl

end Cert.KernelIdeal.Hand

end
-- ==== Proof.KI.Agg7Runs.lean ====
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 8 = 0 :=
  (by decide +kernel : ∀ t : Fin grid7.N, _)
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, _)
theorem idle7_3 : ∀ t : Fin cfg7.N, cfg7.idle 3 (grid7.coords t) = true ↔ ¬t.val % 8 = 7 := by decide +kernel

abbrev VO7_3 : View sig .tc .vmem S1536x500 .f32 := (Memref.whole cc7_stg3_0 : Memref sig .tc .vmem S1536x500 .f32).view
abbrev ms7_0 (t : Fin cfg7.N) : Memref sig .tc .vmem S1536x1536 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S12288x500 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x500 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1536x500 .f32 := win7_3.stage (cfg7.slots t 3)
abbrev hs7_3 (t : Fin cfg7.N) : (ms7_3 t).IsWhole := hstage7_3 ((cfg7.slots t 3).cast nbuf7_3)
abbrev scM7_0 : Memref sig .tc .vmem S1536x500 .f32 := Memref.whole cc7_scratch0
abbrev VS7_0 : View sig .tc .vmem S1536x500 .f32 := scM7_0.view

def PhiW7 (c : Dev nD) (P : sProp 𝕄) : sProp 𝕄 :=
  iprop(iprop(P ∗ Pipeline.scopedRestBut (Ix := Unit) (Name := ℕ) (U := Pipeline.UD sig nD τ) (Lvl := ℕ) (Val := Elt F) spec7 c [cc7_scratch0]) ∗ (∃ r, prngReg c r))

theorem PhiW7_mono (c : Dev nD) {P Q : sProp 𝕄} (h : P ⊢ Q) : PhiW7 c P ⊢ PhiW7 c Q := sep_mono_left (sep_mono_left h)

theorem PhiA7_eq (c : Dev nD) : (Pipeline.ΦA spec7 c : sProp 𝕄) = PhiW7 c iprop(∃ d, owns (c : Thread nD τ) scM7_0 fullShare d) := by
  unfold Pipeline.ΦA PhiW7; rw [scopedRest7_split]; simp only [scM7_0, owns_whole]; try rfl

section Runs

variable (c : Dev nD) (i : grid7.Coords) (arg2 : Memref sig .tc .vmem S1536x1536 .bf16) (harg2 : arg2.IsWhole) (arg3 : Memref sig .tc .vmem S12288x500 .bf16) (harg3 : arg3.IsWhole) (arg4 : Memref sig .tc .vmem S1x500 .f32) (harg4 : arg4.IsWhole) (arg5 : Memref sig .tc .vmem S1536x500 .f32) (harg5 : arg5.IsWhole) (arg6 : Memref sig .tc .vmem S1536x500 .f32) (harg6 : arg6.IsWhole)

abbrev Run7 (x0 : Vec F S1536x1536 .bf16) (x1 : Vec F S12288x500 .bf16) (x2 : Vec F S1x500 .f32) (P5 P6 Q5 : sProp 𝕄)
    (LS0 : List (View.Piece (Elt F) S1536x500 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc7__agg_kernel_impl i arg2 harg2 arg3 harg3 arg4 harg4 arg5 harg5 arg6 harg6) K

section A

variable (hc0 : cond7_0 i) (hc1 : ¬cond7_1 i) (x0 : Vec F S1536x1536 .bf16) (x1 : Vec F S12288x500 .bf16) (x2 : Vec F S1x500 .f32)

def kernelRun7_A :
    Σ' (L3 : List (View.Piece (Elt F) S1536x500 .f32)), { LS0 : List (View.Piece (Elt F) S1536x500 .f32) //
      ∀ xi3 : Vec F S1536x500 .f32, Run7 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run7, owns_unread c harg2, owns_unread c harg3, owns_unread c harg4, owns_unread c harg5, owns_unread c harg6, cc7__agg_kernel_impl_eq_skeleton]
  unfold cc7__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond7_0 i) (hc1 : ¬cond7_1 i) (x0 : Vec F S1536x1536 .bf16) (x1 : Vec F S12288x500 .bf16) (x2 : Vec F S1x500 .f32) (xs0 : Vec F S1536x500 .f32)

def kernelRun7_B :
    Σ' (L3 : List (View.Piece (Elt F) S1536x500 .f32)), { LS0 : List (View.Piece (Elt F) S1536x500 .f32) //
      ∀ xi3 : Vec F S1536x500 .f32, Run7 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run7, owns_unread c harg2, owns_unread c harg3, owns_unread c harg4, owns_unread c harg5, owns_unread c harg6, cc7__agg_kernel_impl_eq_skeleton]
  unfold cc7__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond7_0 i) (hc1 : cond7_1 i) (x0 : Vec F S1536x1536 .bf16) (x1 : Vec F S12288x500 .bf16) (x2 : Vec F S1x500 .f32) (xs0 : Vec F S1536x500 .f32)

def kernelRun7_C :
    Σ' (L3 : List (View.Piece (Elt F) S1536x500 .f32)), { LS0 : List (View.Piece (Elt F) S1536x500 .f32) //
      Run7 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run7, owns_unread c harg2, owns_unread c harg3, owns_unread c harg4, owns_unread c harg5, owns_unread c harg6, cc7__agg_kernel_impl_eq_skeleton]
  unfold cc7__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg7.N)

section A
variable (h0 : t.val % 8 = 0) (h1 : ¬t.val % 8 = 7)
def runA7 :=
  kernelRun7_A c (grid7.coords t) (ms7_0 t) (hs7_0 t) (ms7_1 t) (hs7_1 t) (ms7_2 t) (hs7_2 t) (ms7_3 t) (hs7_3 t) scM7_0 (Memref.isWhole_whole _) ((hcond7_0 t).mpr h0) (mt (hcond7_1 t).mp h1) (iblk7 V c 0 t) (iblk7 V c 1 t) (iblk7 V c 2 t)
theorem coverA7 (y : S1536x500.Idx) : ∃ pc ∈ (runA7 V c t h0 h1).2.1, y ∈ pc.1.set :=
  View.cover_of_tiledL _ S1536x500.size (by sl_kernel_rfl) y
end A

section B
variable (h0 : ¬t.val % 8 = 0) (h1 : ¬t.val % 8 = 7) (s : Vec F S1536x500 .f32)
def runB7 :=
  kernelRun7_B c (grid7.coords t) (ms7_0 t) (hs7_0 t) (ms7_1 t) (hs7_1 t) (ms7_2 t) (hs7_2 t) (ms7_3 t) (hs7_3 t) scM7_0 (Memref.isWhole_whole _) (mt (hcond7_0 t).mp h0) (mt (hcond7_1 t).mp h1) (iblk7 V c 0 t) (iblk7 V c 1 t) (iblk7 V c 2 t) s
theorem coverB7 (y : S1536x500.Idx) : ∃ pc ∈ (runB7 V c t h0 h1 s).2.1, y ∈ pc.1.set :=
  View.cover_of_tiledL _ S1536x500.size (by sl_kernel_rfl) y
end B

section C
variable (h0 : ¬t.val % 8 = 0) (h1 : t.val % 8 = 7) (s : Vec F S1536x500 .f32)
def runC7 :=
  kernelRun7_C c (grid7.coords t) (ms7_0 t) (hs7_0 t) (ms7_1 t) (hs7_1 t) (ms7_2 t) (hs7_2 t) (ms7_3 t) (hs7_3 t) scM7_0 (Memref.isWhole_whole _) (mt (hcond7_0 t).mp h0) ((hcond7_1 t).mpr h1) (iblk7 V c 0 t) (iblk7 V c 1 t) (iblk7 V c 2 t) s
theorem coverC7 (y : S1536x500.Idx) : ∃ pc ∈ (runC7 V c t h0 h1 s).2.1, y ∈ pc.1.set :=
  View.cover_of_tiledL _ S1536x500.size (by sl_kernel_rfl) y
theorem coverC7_3 (y : S1536x500.Idx) : ∃ pc ∈ (runC7 V c t h0 h1 s).1, y ∈ pc.1.set :=
  View.cover_of_tiledL _ S1536x500.size (by sl_kernel_rfl) y
end C

end Point

end Cert.KernelIdeal.Hand

end
-- ==== Proof.KI.Agg7.lean ====
import proofs.«117129_j76819785056523_1_alg».proof.Proof.KI.Agg7Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut7 (c : Dev nD) (t : Fin cfg7.N) (s : Vec F S1536x500 .f32) : Vec F S1536x500 .f32 × Vec F S1536x500 .f32 :=
  if h0 : t.val % 8 = 0 then (readOver VO7_3 (runA7 V c t h0 (by omega)).1, readOver VS7_0 (runA7 V c t h0 (by omega)).2.1)
  else if h1 : t.val % 8 = 7 then (readOver VO7_3 (runC7 V c t h0 h1 s).1, readOver VS7_0 (runC7 V c t h0 h1 s).2.1)
  else (readOver VO7_3 (runB7 V c t h0 h1 s).1, readOver VS7_0 (runB7 V c t h0 h1 s).2.1)

def outsAt7 (c : Dev nD) : (n : ℕ) → n < cfg7.N → Vec F S1536x500 .f32 × Vec F S1536x500 .f32
  | 0, hn => ptOut7 V c ⟨0, hn⟩ (readOver VS7_0 [])
  | n + 1, hn => ptOut7 V c ⟨n + 1, hn⟩ (outsAt7 c n (Nat.lt_of_succ_lt hn)).2

theorem outsAt7_A (c : Dev nD) (t : Fin cfg7.N) (h0 : t.val % 8 = 0) (h1 : ¬t.val % 8 = 7) :
    outsAt7 V c t.val t.isLt = (readOver VO7_3 (runA7 V c t h0 h1).1, readOver VS7_0 (runA7 V c t h0 h1).2.1) := by
  obtain ⟨n, hn⟩ := t
  cases n <;> first | exact dif_pos h0 | exact rfl

theorem outsAt7_B (c : Dev nD) (t : Fin cfg7.N) (h0 : ¬t.val % 8 = 0) (h1 : ¬t.val % 8 = 7) :
    outsAt7 V c t.val t.isLt = (readOver VO7_3 (runB7 V c t h0 h1 (outsAt7 V c (t.val - 1) (Nat.lt_of_le_of_lt (Nat.sub_le _ _) t.isLt)).2).1,
      readOver VS7_0 (runB7 V c t h0 h1 (outsAt7 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt7_C (c : Dev nD) (t : Fin cfg7.N) (h0 : ¬t.val % 8 = 0) (h1 : t.val % 8 = 7) :
    outsAt7 V c t.val t.isLt = (readOver VO7_3 (runC7 V c t h0 h1 (outsAt7 V c (t.val - 1) (Nat.lt_of_le_of_lt (Nat.sub_le _ _) t.isLt)).2).1,
      readOver VS7_0 (runC7 V c t h0 h1 (outsAt7 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS7 (c : Dev nD) : (n : ℕ) → n ≤ cfg7.N → sProp 𝕄
  | 0, _ => Pipeline.ΦA spec7 c
  | n + 1, hn => PhiW7 c (owns (c : Thread nD τ) scM7_0 fullShare (outsAt7 V c n hn).2)

theorem PhiS7_pos (c : Dev nD) (n : ℕ) (h : n ≤ cfg7.N) (hz : n ≠ 0) :
    PhiS7 V c n h = PhiW7 c (owns (c : Thread nD τ) scM7_0 fullShare (outsAt7 V c (n - 1) (by omega)).2) := by
  cases n with
  | zero => exact absurd rfl hz
  | succ n => rfl

theorem PhiS7_any (c : Dev nD) (n : ℕ) (h : n ≤ cfg7.N) : PhiS7 V c n h ⊢ (Pipeline.ΦA spec7 c : sProp 𝕄) := by
  cases n with
  | zero => exact .rfl
  | succ n => rw [PhiA7_eq]; exact PhiW7_mono c (exists_intro _)

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := rfl

theorem after7_3 (c : Dev nD) (t : Fin cfg7.N) : (dat7 V c).after 3 t = (outsAt7 V c t.val t.isLt).1 := rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

def bodyPre7 (c : Dev nD) (t : Fin cfg7.N) (Φ : sProp 𝕄) : sProp 𝕄 :=
  iprop(Φ ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) (Φ R3 : sProp 𝕄) : sProp 𝕄 :=
  iprop(Φ ∗ (dat7 V c).owesAt () t.castSucc
    ∗ owns (c : Thread nD τ) (ms7_0 t) fullShare (iblk7 V c 0 t) ∗ owns (c : Thread nD τ) (ms7_1 t) fullShare (iblk7 V c 1 t)
    ∗ owns (c : Thread nD τ) (ms7_2 t) fullShare (iblk7 V c 2 t) ∗ R3)

theorem frame7 (c : Dev nD) (t : Fin cfg7.N) {PS QS RS R3 : sProp 𝕄} {P3 Q3 : Vec F S1536x500 .f32 → sProp 𝕄}
    (hrun : ∀ d (K : PUnit → sProp 𝕄), iprop(owns (c : Thread nD τ) (ms7_0 t) fullShare (iblk7 V c 0 t) ∗ owns (c : Thread nD τ) (ms7_1 t) fullShare (iblk7 V c 1 t) ∗ owns (c : Thread nD τ) (ms7_2 t) fullShare (iblk7 V c 2 t) ∗ P3 d ∗ PS
        ∗ (iprop(owns (c : Thread nD τ) (ms7_0 t) fullShare (iblk7 V c 0 t) ∗ owns (c : Thread nD τ) (ms7_1 t) fullShare (iblk7 V c 1 t) ∗ owns (c : Thread nD τ) (ms7_2 t) fullShare (iblk7 V c 2 t) ∗ Q3 d ∗ QS) -∗ K ⟨⟩))
      ⊢ wp frame (wpE (defs₀ (F := F)) Variants.none c none) Set.univ (bodyAt7 t) K)
    (hP : ∀ d, owns (c : Thread nD τ) (ms7_3 t) fullShare ((dat7 V c).before 3 t d) ⊢ P3 d) (h3 : ∀ d, Q3 d ⊢ R3) (hS : QS ⊢ RS) :
    bodyPre7 V c t (PhiW7 c PS) ⊢ wp frame (wpE (defs₀ (F := F)) Variants.none c none) Set.univ (bodyAt7 t) fun _ => bodyPost7 V c t (PhiW7 c RS) R3 := by
  unfold bodyPre7 bodyPost7 PhiW7
  simp only [before7_0, before7_1, before7_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body7 (c : Dev nD) (t : Fin cfg7.N) :
    bodyPre7 V c t (PhiS7 V c t.val (Nat.le_of_lt t.isLt)) ⊢ wp frame (wpE (defs₀ (F := F)) Variants.none c none) Set.univ (bodyAt7 t) fun _ =>
      bodyPost7 V c t (PhiW7 c (owns (c : Thread nD τ) scM7_0 fullShare (outsAt7 V c t.val t.isLt).2)) ((dat7 V c).leavesExact 3 t) := by
  by_cases h1 : t.val % 8 = 7
  · have h0 : ¬t.val % 8 = 0 := by omega
    have hz : t.val ≠ 0 := by omega
    rw [show (dat7 V c).leavesExact 3 t = owns (c : Thread nD τ) (ms7_3 t) fullShare ((dat7 V c).after 3 t) from by
      unfold Dat.leavesExact; rw [Bool.eq_false_iff.mpr fun h => (idle7_3 t).mp h h1], after7_3]
    rw [outsAt7_C V c t h0 h1, PhiS7_pos V c _ _ hz]; dsimp only
    exact frame7 V c t (fun d K => (runC7 V c t h0 h1 _).2.2 Set.univ K) (fun d => exists_intro _)
      (fun _ => owns_of_cover c VO7_3 _ (coverC7_3 V c t h0 h1 _)) (owns_of_cover c VS7_0 _ (coverC7 V c t h0 h1 _))
  · rw [Dat.leavesExact_idle (dat7 V c) 3 t ((idle7_3 t).mpr h1) (Bool.eq_false_iff.mpr (mt (flush7_3 t).mp h1))]
    by_cases h0 : t.val % 8 = 0
    · rw [outsAt7_A V c t h0 h1]; dsimp only
      refine (sep_mono_left ((PhiS7_any V c _ _).trans (PhiA7_eq c).le)).trans ?_
      exact frame7 V c t (fun d K => (runA7 V c t h0 h1).2.2 ((dat7 V c).before 3 t d) Set.univ K)
        (fun _ => .rfl) (fun d => by iintro H; iexists d; iexact H) (owns_of_cover c VS7_0 _ (coverA7 V c t h0 h1))
    · have hz : t.val ≠ 0 := by omega
      rw [outsAt7_B V c t h0 h1, PhiS7_pos V c _ _ hz]; dsimp only
      exact frame7 V c t (fun d K => (runB7 V c t h0 h1 _).2.2 ((dat7 V c).before 3 t d) Set.univ K)
        (fun _ => .rfl) (fun d => by iintro H; iexists d; iexact H) (owns_of_cover c VS7_0 _ (coverB7 V c t h0 h1 _))

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := .rfl

theorem hout7 (c : Dev nD) : (dat7 V c).Φ (Fin.last cfg7.N) ⊢ (Pipeline.ΦA spec7 c : sProp 𝕄) := PhiS7_any V c (Fin.last cfg7.N).val _

end Cert.KernelIdeal.Hand

end
-- ==== Proof.KI.Feat8.lean ====
import Idealize.ShloMosaic.Lib.Pipeline.Value
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

theorem zeroOff8 : (![0, 0] : Fin 2 → Nat) = fun _ => 0 := funext fun a => by fin_cases a <;> rfl

theorem sound_kernel8 (E : Set ℕ) (i : grid8.Coords)
    (arg1 : Memref sig .tc .vmem S1536x64 .bf16) (harg1 : arg1.IsWhole)
    (arg2 : Memref sig .tc .vmem S64x64 .bf16) (harg2 : arg2.IsWhole)
    (arg3 : Memref sig .tc .vmem S1536x64 .bf16) (harg3 : arg3.IsWhole)
    (x0 : Vec F S1536x64 .bf16) (x1 : Vec F S64x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k8_pay1 x0 x1)) -∗ K ⟨⟩))
      ⊢ wp frame (wpE (defs₀ (F := F)) Variants.none c none) E (cc8__feat_kernel i arg1 harg1 arg2 harg2 arg3 harg3) K := by
  simp only [owns_unread c harg1, owns_unread c harg2, cc8__feat_kernel_eq_skeleton]; unfold cc8__feat_kernel_skel owns
  iintro ⟨H0, H1, ⟨%d2, %f2, -, H2⟩, Hk⟩
  sl_exec
  sl_step
  iapply Hk
  iframe H0 H1
  iexists _; isplitr
  swap; · iexact H2
  ipureintro
  rw [View.read_writes_eq_canon _ _ _ (View.cover_of_tiled _ S1536x64.size (by rfl)), View.canon_unit_zero zeroOff8]
  simp only [View.readAt_eq_ld, harg1.read_unread, harg2.read_unread, View.ld_unit_zero (S := S1536x64) zeroOff8, View.ld_unit_zero (S := S64x64) zeroOff8]

def dat8 : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => k8_pay1 (iblk8 V c 0 t) (iblk8 V c 1 t)
  Φ _ := Pipeline.ΦA spec8 c
  q _ := fullShare
  owed _ := 0

theorem A_eq8 (w : Fin cfg8.W) : (dat8 V c).A w = V c (Pipeline.arrRef spec8 w) := rfl

theorem after8_2 (t : Fin cfg8.N) : (dat8 V c).after 2 t = k8_pay1 (iblk8 V c 0 t) (iblk8 V c 1 t) := by dsimp only [dat8]

theorem before8_0 (t : Fin cfg8.N) (d) : (dat8 V c).before 0 t d = iblk8 V c 0 t :=
  (dat8 V c).before_in_eq_fetched 0 rfl (fun _ => rfl) (fun _ _ _ => rfl) (fun _ => rfl) t d
theorem before8_1 (t : Fin cfg8.N) (d) : (dat8 V c).before 1 t d = iblk8 V c 1 t :=
  (dat8 V c).before_in_eq_fetched 1 rfl (fun _ => rfl) (fun _ _ _ => rfl) (fun _ => rfl) t d

theorem body_obligation8 : BodyObligation (dat8 V c) (defs₀ (F := F)) Variants.none () Set.univ := fun t => by
  rw [bigSep_W8, bigSep_W8]
  simp only [before8_0, before8_1]
  sl_whnfR [defs₀, Defs.onTc]
  rw [show (dat8 V c).Φ t.succ = (dat8 V c).Φ t.castSucc from rfl]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

theorem hin8 : (Pipeline.ΦA spec8 c : sProp 𝕄) ⊢ (dat8 V c).Φ 0 := .rfl

theorem hout8 : (dat8 V c).Φ (Fin.last cfg8.N) ⊢ (Pipeline.ΦA spec8 c : sProp 𝕄) := .rfl

end Cert.KernelIdeal.Hand

end
-- ==== Proof.KI.Agg9Runs.lean ====
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Contents F)

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 1).val) 0#32)) 0#32) = 1#1
theorem hcond9_0 : ∀ t : Fin cfg9.N, cond9_0 (grid9.coords t) ↔ t.val % 8 = 0 :=
  (by decide +kernel : ∀ t : Fin grid9.N, _)
abbrev cond9_1 (i : grid9.Coords) : Prop := k9_cond2 i = 1#1
theorem hcond9_1 : ∀ t : Fin cfg9.N, cond9_1 (grid9.coords t) ↔ t.val % 8 = 7 :=
  (by decide +kernel : ∀ t : Fin grid9.N, _)
theorem idle9_3 : ∀ t : Fin cfg9.N, cfg9.idle 3 (grid9.coords t) = true ↔ ¬t.val % 8 = 7 := by decide +kernel

abbrev VO9_3 : View sig .tc .vmem S1536x64 .bf16 := (Memref.whole cc9_stg3_0 : Memref sig .tc .vmem S1536x64 .bf16).view
abbrev ms9_0 (t : Fin cfg9.N) : Memref sig .tc .vmem S1536x1536 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S12288x64 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1536x64 .bf16 := win9_3.stage (cfg9.slots t 3)
abbrev hs9_3 (t : Fin cfg9.N) : (ms9_3 t).IsWhole := hstage9_3 ((cfg9.slots t 3).cast nbuf9_3)
abbrev scM9_0 : Memref sig .tc .vmem S1536x64 .f32 := Memref.whole cc9_scratch0
abbrev VS9_0 : View sig .tc .vmem S1536x64 .f32 := scM9_0.view

def PhiW9 (c : Dev nD) (P : sProp 𝕄) : sProp 𝕄 :=
  iprop(iprop(P ∗ Pipeline.scopedRestBut (Ix := Unit) (Name := ℕ) (U := Pipeline.UD sig nD τ) (Lvl := ℕ) (Val := Elt F) spec9 c [cc9_scratch0]) ∗ (∃ r, prngReg c r))

theorem PhiW9_mono (c : Dev nD) {P Q : sProp 𝕄} (h : P ⊢ Q) : PhiW9 c P ⊢ PhiW9 c Q := sep_mono_left (sep_mono_left h)

theorem PhiA9_eq (c : Dev nD) : (Pipeline.ΦA spec9 c : sProp 𝕄) = PhiW9 c iprop(∃ d, owns (c : Thread nD τ) scM9_0 fullShare d) := by
  unfold Pipeline.ΦA PhiW9; rw [scopedRest9_split]; simp only [scM9_0, owns_whole]; try rfl

section Runs

variable (c : Dev nD) (i : grid9.Coords) (arg2 : Memref sig .tc .vmem S1536x1536 .bf16) (harg2 : arg2.IsWhole) (arg3 : Memref sig .tc .vmem S12288x64 .bf16) (harg3 : arg3.IsWhole) (arg4 : Memref sig .tc .vmem S1x64 .f32) (harg4 : arg4.IsWhole) (arg5 : Memref sig .tc .vmem S1536x64 .bf16) (harg5 : arg5.IsWhole) (arg6 : Memref sig .tc .vmem S1536x64 .f32) (harg6 : arg6.IsWhole)

abbrev Run9 (x0 : Vec F S1536x1536 .bf16) (x1 : Vec F S12288x64 .bf16) (x2 : Vec F S1x64 .f32) (P5 P6 Q5 : sProp 𝕄)
    (LS0 : List (View.Piece (Elt F) S1536x64 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 ∗ P6
        ∗ (iprop(owns (c : Thread nD τ) arg2 fullShare x0 ∗ owns (c : Thread nD τ) arg3 fullShare x1 ∗ owns (c : Thread nD τ) arg4 fullShare x2 ∗ Q5 ∗ (∃ f, arg6.view.loc (c : Thread nD τ) ↦[arg6.view.set]{fullShare} arg6.view.writes (Elt F) f LS0)) -∗ K ⟨⟩))
      ⊢ wp frame (wpE (defs₀ (F := F)) Variants.none c none) E (cc9__agg_kernel_impl i arg2 harg2 arg3 harg3 arg4 harg4 arg5 harg5 arg6 harg6) K

section A

variable (hc0 : cond9_0 i) (hc1 : ¬cond9_1 i) (x0 : Vec F S1536x1536 .bf16) (x1 : Vec F S12288x64 .bf16) (x2 : Vec F S1x64 .f32)

def kernelRun9_A :
    Σ' (L3 : List (View.Piece (Elt F) S1536x64 .bf16)), { LS0 : List (View.Piece (Elt F) S1536x64 .f32) //
      ∀ xi3 : Vec F S1536x64 .bf16, Run9 c i arg2 harg2 arg3 harg3 arg4 harg4 arg5 harg5 arg6 harg6 x0 x1 x2 (owns (c : Thread nD τ) arg5 fullShare xi3)
        iprop(∃ d, owns (c : Thread nD τ) arg6 fullShare d) (owns (c : Thread nD τ) arg5 fullShare xi3) LS0 } := by
  refine ⟨[], ?_, fun xi3 E K => ?_⟩; swap
  simp only [Run9, owns_unread c harg2, owns_unread c harg3, owns_unread c harg4, owns_unread c harg5, owns_unread c harg6, cc9__agg_kernel_impl_eq_skeleton]
  unfold cc9__agg_kernel_impl_skel
  iintro ⟨H0, H1, H2, H3, ⟨%d, HS0⟩, Hk⟩
  sl_exec (disch := first | exact hc0 | exact hc1)
  sl_step
  iapply Hk
  iframe H0 H1 H2 H3
  iexists _; iexact HS0

end A

section B

variable (hc0 : ¬cond9_0 i) (hc1 : ¬cond9_1 i) (x0 : Vec F S1536x1536 .bf16) (x1 : Vec F S12288x64 .bf16) (x2 : Vec F S1x64 .f32) (xs0 : Vec F S1536x64 .f32)

def kernelRun9_B :
    Σ' (L3 : List (View.Piece (Elt F) S1536x64 .bf16)), { LS0 : List (View.Piece (Elt F) S1536x64 .f32) //
      ∀ xi3 : Vec F S1536x64 .bf16, Run9 c i arg2 harg2 arg3 harg3 arg4 harg4 arg5 harg5 arg6 harg6 x0 x1 x2 (owns (c : Thread nD τ) arg5 fullShare xi3)
        (owns (c : Thread nD τ) arg6 fullShare xs0) (owns (c : Thread nD τ) arg5 fullShare xi3) LS0 } := by
  refine ⟨[], ?_, fun xi3 E K => ?_⟩; swap
  simp only [Run9, owns_unread c harg2, owns_unread c harg3, owns_unread c harg4, owns_unread c harg5, owns_unread c harg6, cc9__agg_kernel_impl_eq_skeleton]
  unfold cc9__agg_kernel_impl_skel
  iintro ⟨H0, H1, H2, H3, HS0, Hk⟩
  sl_exec (disch := first | exact hc0 | exact hc1)
  sl_step
  iapply Hk
  iframe H0 H1 H2 H3
  iexists _; iexact HS0

end B

section C

variable (hc0 : ¬cond9_0 i) (hc1 : cond9_1 i) (x0 : Vec F S1536x1536 .bf16) (x1 : Vec F S12288x64 .bf16) (x2 : Vec F S1x64 .f32) (xs0 : Vec F S1536x64 .f32)

def kernelRun9_C :
    Σ' (L3 : List (View.Piece (Elt F) S1536x64 .bf16)), { LS0 : List (View.Piece (Elt F) S1536x64 .f32) //
      Run9 c i arg2 harg2 arg3 harg3 arg4 harg4 arg5 harg5 arg6 harg6 x0 x1 x2 iprop(∃ d, owns (c : Thread nD τ) arg5 fullShare d) (owns (c : Thread nD τ) arg6 fullShare xs0)
        iprop(∃ f, arg5.view.loc (c : Thread nD τ) ↦[arg5.view.set]{fullShare} arg5.view.writes (Elt F) f L3) LS0 } := by
  refine ⟨?_, ?_, fun E K => ?_⟩; rotate_left 2
  simp only [Run9, owns_unread c harg2, owns_unread c harg3, owns_unread c harg4, owns_unread c harg5, owns_unread c harg6, cc9__agg_kernel_impl_eq_skeleton]
  unfold cc9__agg_kernel_impl_skel
  iintro ⟨H0, H1, H2, ⟨%d, H3⟩, HS0, Hk⟩
  sl_exec (disch := first | exact hc0 | exact hc1)
  sl_step
  iapply Hk
  iframe H0 H1 H2
  isplitl [H3]; · iexists _; iexact H3
  iexists _; iexact HS0

end C

end Runs

section Point

variable (c : Dev nD) (t : Fin cfg9.N)

section A
variable (h0 : t.val % 8 = 0) (h1 : ¬t.val % 8 = 7)
def runA9 :=
  kernelRun9_A c (grid9.coords t) (ms9_0 t) (hs9_0 t) (ms9_1 t) (hs9_1 t) (ms9_2 t) (hs9_2 t) (ms9_3 t) (hs9_3 t) scM9_0 (Memref.isWhole_whole _) ((hcond9_0 t).mpr h0) (mt (hcond9_1 t).mp h1) (iblk9 V c 0 t) (iblk9 V c 1 t) (iblk9 V c 2 t)
theorem coverA9 (y : S1536x64.Idx) : ∃ pc ∈ (runA9 V c t h0 h1).2.1, y ∈ pc.1.set :=
  View.cover_of_tiledL _ S1536x64.size (by sl_kernel_rfl) y
end A

section B
variable (h0 : ¬t.val % 8 = 0) (h1 : ¬t.val % 8 = 7) (s : Vec F S1536x64 .f32)
def runB9 :=
  kernelRun9_B c (grid9.coords t) (ms9_0 t) (hs9_0 t) (ms9_1 t) (hs9_1 t) (ms9_2 t) (hs9_2 t) (ms9_3 t) (hs9_3 t) scM9_0 (Memref.isWhole_whole _) (mt (hcond9_0 t).mp h0) (mt (hcond9_1 t).mp h1) (iblk9 V c 0 t) (iblk9 V c 1 t) (iblk9 V c 2 t) s
theorem coverB9 (y : S1536x64.Idx) : ∃ pc ∈ (runB9 V c t h0 h1 s).2.1, y ∈ pc.1.set :=
  View.cover_of_tiledL _ S1536x64.size (by sl_kernel_rfl) y
end B

section C
variable (h0 : ¬t.val % 8 = 0) (h1 : t.val % 8 = 7) (s : Vec F S1536x64 .f32)
def runC9 :=
  kernelRun9_C c (grid9.coords t) (ms9_0 t) (hs9_0 t) (ms9_1 t) (hs9_1 t) (ms9_2 t) (hs9_2 t) (ms9_3 t) (hs9_3 t) scM9_0 (Memref.isWhole_whole _) (mt (hcond9_0 t).mp h0) ((hcond9_1 t).mpr h1) (iblk9 V c 0 t) (iblk9 V c 1 t) (iblk9 V c 2 t) s
theorem coverC9 (y : S1536x64.Idx) : ∃ pc ∈ (runC9 V c t h0 h1 s).2.1, y ∈ pc.1.set :=
  View.cover_of_tiledL _ S1536x64.size (by sl_kernel_rfl) y
theorem coverC9_3 (y : S1536x64.Idx) : ∃ pc ∈ (runC9 V c t h0 h1 s).1, y ∈ pc.1.set :=
  View.cover_of_tiledL _ S1536x64.size (by sl_kernel_rfl) y
end C

end Point

end Cert.KernelIdeal.Hand

end
-- ==== Proof.KI.Agg9.lean ====
import proofs.«117129_j76819785056523_1_alg».proof.Proof.KI.Agg9Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F)

def ptOut9 (c : Dev nD) (t : Fin cfg9.N) (s : Vec F S1536x64 .f32) : Vec F S1536x64 .bf16 × Vec F S1536x64 .f32 :=
  if h0 : t.val % 8 = 0 then (readOver VO9_3 (runA9 V c t h0 (by omega)).1, readOver VS9_0 (runA9 V c t h0 (by omega)).2.1)
  else if h1 : t.val % 8 = 7 then (readOver VO9_3 (runC9 V c t h0 h1 s).1, readOver VS9_0 (runC9 V c t h0 h1 s).2.1)
  else (readOver VO9_3 (runB9 V c t h0 h1 s).1, readOver VS9_0 (runB9 V c t h0 h1 s).2.1)

def outsAt9 (c : Dev nD) : (n : ℕ) → n < cfg9.N → Vec F S1536x64 .bf16 × Vec F S1536x64 .f32
  | 0, hn => ptOut9 V c ⟨0, hn⟩ (readOver VS9_0 [])
  | n + 1, hn => ptOut9 V c ⟨n + 1, hn⟩ (outsAt9 c n (Nat.lt_of_succ_lt hn)).2

theorem outsAt9_A (c : Dev nD) (t : Fin cfg9.N) (h0 : t.val % 8 = 0) (h1 : ¬t.val % 8 = 7) :
    outsAt9 V c t.val t.isLt = (readOver VO9_3 (runA9 V c t h0 h1).1, readOver VS9_0 (runA9 V c t h0 h1).2.1) := by
  obtain ⟨n, hn⟩ := t
  cases n <;> first | exact dif_pos h0 | exact rfl

theorem outsAt9_B (c : Dev nD) (t : Fin cfg9.N) (h0 : ¬t.val % 8 = 0) (h1 : ¬t.val % 8 = 7) :
    outsAt9 V c t.val t.isLt = (readOver VO9_3 (runB9 V c t h0 h1 (outsAt9 V c (t.val - 1) (Nat.lt_of_le_of_lt (Nat.sub_le _ _) t.isLt)).2).1,
      readOver VS9_0 (runB9 V c t h0 h1 (outsAt9 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_neg h1)

theorem outsAt9_C (c : Dev nD) (t : Fin cfg9.N) (h0 : ¬t.val % 8 = 0) (h1 : t.val % 8 = 7) :
    outsAt9 V c t.val t.isLt = (readOver VO9_3 (runC9 V c t h0 h1 (outsAt9 V c (t.val - 1) (Nat.lt_of_le_of_lt (Nat.sub_le _ _) t.isLt)).2).1,
      readOver VS9_0 (runC9 V c t h0 h1 (outsAt9 V c (t.val - 1) (Nat.lt_of_le_of_lt (Nat.sub_le _ _) t.isLt)).2).2.1) := by
  obtain ⟨n, hn⟩ := t
  cases n with
  | zero => exact absurd (Nat.zero_mod 8) h0
  | succ n => exact (dif_neg h0).trans (dif_pos h1)

def PhiS9 (c : Dev nD) : (n : ℕ) → n ≤ cfg9.N → sProp 𝕄
  | 0, _ => Pipeline.ΦA spec9 c
  | n + 1, hn => PhiW9 c (owns (c : Thread nD τ) scM9_0 fullShare (outsAt9 V c n hn).2)

theorem PhiS9_pos (c : Dev nD) (n : ℕ) (h : n ≤ cfg9.N) (hz : n ≠ 0) :
    PhiS9 V c n h = PhiW9 c (owns (c : Thread nD τ) scM9_0 fullShare (outsAt9 V c (n - 1) (by omega)).2) := by
  cases n with
  | zero => exact absurd rfl hz
  | succ n => rfl

theorem PhiS9_any (c : Dev nD) (n : ℕ) (h : n ≤ cfg9.N) : PhiS9 V c n h ⊢ (Pipeline.ΦA spec9 c : sProp 𝕄) := by
  cases n with
  | zero => exact .rfl
  | succ n => rw [PhiA9_eq]; exact PhiW9_mono c (exists_intro _)

def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := rfl

theorem after9_3 (c : Dev nD) (t : Fin cfg9.N) : (dat9 V c).after 3 t = (outsAt9 V c t.val t.isLt).1 := rfl

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl

def bodyPre9 (c : Dev nD) (t : Fin cfg9.N) (Φ : sProp 𝕄) : sProp 𝕄 :=
  iprop(Φ ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) (Φ R3 : sProp 𝕄) : sProp 𝕄 :=
  iprop(Φ ∗ (dat9 V c).owesAt () t.castSucc
    ∗ owns (c : Thread nD τ) (ms9_0 t) fullShare (iblk9 V c 0 t) ∗ owns (c : Thread nD τ) (ms9_1 t) fullShare (iblk9 V c 1 t)
    ∗ owns (c : Thread nD τ) (ms9_2 t) fullShare (iblk9 V c 2 t) ∗ R3)

theorem frame9 (c : Dev nD) (t : Fin cfg9.N) {PS QS RS R3 : sProp 𝕄} {P3 Q3 : Vec F S1536x64 .bf16 → sProp 𝕄}
    (hrun : ∀ d (K : PUnit → sProp 𝕄), iprop(owns (c : Thread nD τ) (ms9_0 t) fullShare (iblk9 V c 0 t) ∗ owns (c : Thread nD τ) (ms9_1 t) fullShare (iblk9 V c 1 t) ∗ owns (c : Thread nD τ) (ms9_2 t) fullShare (iblk9 V c 2 t) ∗ P3 d ∗ PS
        ∗ (iprop(owns (c : Thread nD τ) (ms9_0 t) fullShare (iblk9 V c 0 t) ∗ owns (c : Thread nD τ) (ms9_1 t) fullShare (iblk9 V c 1 t) ∗ owns (c : Thread nD τ) (ms9_2 t) fullShare (iblk9 V c 2 t) ∗ Q3 d ∗ QS) -∗ K ⟨⟩))
      ⊢ wp frame (wpE (defs₀ (F := F)) Variants.none c none) Set.univ (bodyAt9 t) K)
    (hP : ∀ d, owns (c : Thread nD τ) (ms9_3 t) fullShare ((dat9 V c).before 3 t d) ⊢ P3 d) (h3 : ∀ d, Q3 d ⊢ R3) (hS : QS ⊢ RS) :
    bodyPre9 V c t (PhiW9 c PS) ⊢ wp frame (wpE (defs₀ (F := F)) Variants.none c none) Set.univ (bodyAt9 t) fun _ => bodyPost9 V c t (PhiW9 c RS) R3 := by
  unfold bodyPre9 bodyPost9 PhiW9
  simp only [before9_0, before9_1, before9_2]
  iintro ⟨⟨⟨HS0, HR⟩, Hg⟩, Ho, ⟨%d0, H0⟩, ⟨%d1, H1⟩, ⟨%d2, H2⟩, ⟨%d3, H3⟩⟩
  iapply (hrun d3 _)
  iframe H0 H1 H2 HS0
  isplitl [H3]; · iapply (hP d3); iexact H3
  iintro ⟨H0, H1, H2, H3, HS0⟩
  iframe HR Hg Ho H0 H1 H2
  isplitl [HS0]; · iapply hS; iexact HS0
  iapply (h3 d3); iexact H3

theorem sound_body9 (c : Dev nD) (t : Fin cfg9.N) :
    bodyPre9 V c t (PhiS9 V c t.val (Nat.le_of_lt t.isLt)) ⊢ wp frame (wpE (defs₀ (F := F)) Variants.none c none) Set.univ (bodyAt9 t) fun _ =>
      bodyPost9 V c t (PhiW9 c (owns (c : Thread nD τ) scM9_0 fullShare (outsAt9 V c t.val t.isLt).2)) ((dat9 V c).leavesExact 3 t) := by
  by_cases h1 : t.val % 8 = 7
  · have h0 : ¬t.val % 8 = 0 := by omega
    have hz : t.val ≠ 0 := by omega
    rw [show (dat9 V c).leavesExact 3 t = owns (c : Thread nD τ) (ms9_3 t) fullShare ((dat9 V c).after 3 t) from by
      unfold Dat.leavesExact; rw [Bool.eq_false_iff.mpr fun h => (idle9_3 t).mp h h1], after9_3]
    rw [outsAt9_C V c t h0 h1, PhiS9_pos V c _ _ hz]; dsimp only
    exact frame9 V c t (fun d K => (runC9 V c t h0 h1 _).2.2 Set.univ K) (fun d => exists_intro _)
      (fun _ => owns_of_cover c VO9_3 _ (coverC9_3 V c t h0 h1 _)) (owns_of_cover c VS9_0 _ (coverC9 V c t h0 h1 _))
  · rw [Dat.leavesExact_idle (dat9 V c) 3 t ((idle9_3 t).mpr h1) (Bool.eq_false_iff.mpr (mt (flush9_3 t).mp h1))]
    by_cases h0 : t.val % 8 = 0
    · rw [outsAt9_A V c t h0 h1]; dsimp only
      refine (sep_mono_left ((PhiS9_any V c _ _).trans (PhiA9_eq c).le)).trans ?_
      exact frame9 V c t (fun d K => (runA9 V c t h0 h1).2.2 ((dat9 V c).before 3 t d) Set.univ K)
        (fun _ => .rfl) (fun d => by iintro H; iexists d; iexact H) (owns_of_cover c VS9_0 _ (coverA9 V c t h0 h1))
    · have hz : t.val ≠ 0 := by omega
      rw [outsAt9_B V c t h0 h1, PhiS9_pos V c _ _ hz]; dsimp only
      exact frame9 V c t (fun d K => (runB9 V c t h0 h1 _).2.2 ((dat9 V c).before 3 t d) Set.univ K)
        (fun _ => .rfl) (fun d => by iintro H; iexists d; iexact H) (owns_of_cover c VS9_0 _ (coverB9 V c t h0 h1 _))

theorem body_obligation9 (c : Dev nD) : BodyObligation (dat9 (F := F) V c) (defs₀ (F := F)) Variants.none () Set.univ := fun t => by
  rw [bigSep_W9, bigSep_W9]
  exact sound_body9 V c t

theorem hin9 (c : Dev nD) : (Pipeline.ΦA spec9 c : sProp 𝕄) ⊢ (dat9 V c).Φ 0 := .rfl

theorem hout9 (c : Dev nD) : (dat9 V c).Φ (Fin.last cfg9.N) ⊢ (Pipeline.ΦA spec9 c : sProp 𝕄) := PhiS9_any V c (Fin.last cfg9.N).val _

end Cert.KernelIdeal.Hand

end
-- ==== Proof.KI.Outer10.lean ====
import proofs.«117129_j76819785056523_1_alg».proof.Proof.KI.Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : Contents F) (c : Dev nD)

def iblk10 (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_in : Rect S1536x64 := Rect.unit (s := S1536x64) ![0, 0] S1536x64.size inb_S1536x64_S1536x64_0_0
abbrev r10_0 : Rect S1536x1536 := Rect.unit (s := S1536x1536) ![0, 0] S1536x1536.size inb_S1536x1536_S1536x1536_0_0

def out10_2 (x0 x1 : Vec F S1536x64 .bf16) : Vec F S1536x1536 .f32 :=
  View.canon [⟨r10_0, k10_pay1 (View.ld x0 r10_in) (View.ld x1 r10_in)⟩]

theorem sound_kernel10 (E : Set ℕ) (i : grid10.Coords)
    (arg2 : Memref sig .tc .vmem S1536x64 .bf16) (harg2 : arg2.IsWhole) (arg3 : Memref sig .tc .vmem S1536x64 .bf16) (harg3 : arg3.IsWhole)
    (arg4 : Memref sig .tc .vmem S1536x1536 .f32) (harg4 : arg4.IsWhole)
    (x0 x1 : Vec F S1536x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out10_2 x0 x1)) -∗ K ⟨⟩))
      ⊢ wp frame (wpE (defs₀ (F := F)) Variants.none c none) E (cc10__outer_kernel i arg2 harg2 arg3 harg3 arg4 harg4) K := by
  simp only [cc10__outer_kernel_eq_skeleton]; unfold cc10__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r10_0, _⟩] S1536x1536.size (by rfl))

def dat10 : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q w := match w with
    | ⟨0, _⟩ => fullShare.left
    | ⟨1, _⟩ => fullShare.right
    | ⟨2, _⟩ => fullShare
  owed _ := 0

theorem after10_0 (t : Fin cfg10.N) : (dat10 V c).after 0 t = iblk10 V c 0 t := by dsimp only [dat10]
theorem after10_1 (t : Fin cfg10.N) : (dat10 V c).after 1 t = iblk10 V c 1 t := by dsimp only [dat10]
theorem after10_2 (t : Fin cfg10.N) : (dat10 V c).after 2 t = out10_2 (iblk10 V c 0 t) (iblk10 V c 1 t) := by dsimp only [dat10]

theorem before10_0 (t : Fin cfg10.N) (d) : (dat10 V c).before 0 t d = iblk10 V c 0 t :=
  (dat10 V c).before_in_eq_fetched 0 rfl (fun _ => rfl) (fun _ _ _ => rfl) (fun _ => rfl) t d
theorem before10_1 (t : Fin cfg10.N) (d) : (dat10 V c).before 1 t d = iblk10 V c 1 t :=
  (dat10 V c).before_in_eq_fetched 1 rfl (fun _ => rfl) (fun _ _ _ => rfl) (fun _ => rfl) t d

theorem body_obligation10 : BodyObligation (dat10 (F := F) V c) (defs₀ (F := F)) Variants.none () Set.univ := fun t => by
  rw [bigSep_W10, bigSep_W10]
  change _ ⊢ wp _ _ _ (bodyAt10 t) _
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem hin10 : (Pipeline.ΦA spec10 c : sProp 𝕄) ⊢ (dat10 V c).Φ 0 := .rfl

theorem hout10 : (dat10 V c).Φ (Fin.last cfg10.N) ⊢ (Pipeline.ΦA spec10 c : sProp 𝕄) := .rfl

theorem arrRefs10 : Finset.univ.image (Pipeline.arrRef spec10) = ({main_v73, main_v74} : Finset (Ref sig .tc)) := by decide

theorem unscopedBufs10_eq (W : (b : Ref sig .tc) → Buf (Elt F) ((c : Thread nD τ).loc b)) :
    (unscopedBufs c W : sProp 𝕄)
      = iprop(((((c : Thread nD τ).loc main_v73) ↦{fullShare} W main_v73) ∗ (((c : Thread nD τ).loc main_v74) ↦{fullShare} W main_v74))
          ∗ Pipeline.unscopedRest spec10 c W) := by
  refine (Pipeline.unscopedBufs_split₀ cfgs 10 winFacts₀10.arr_unscoped c W).trans ?_
  show iprop(Pipeline.arrBufs spec10 c W ∗ _) = _
  unfold Pipeline.arrBufs
  rw [arrRefs10, bigSep_insert (by decide), bigSep_singleton]
  rfl

theorem arrays10_eq (G : (w : Fin cfg10.W) → Buf (Elt F) ((cfg10.win w).arr.view.loc (c.tc : Thread nD τ))) :
    ((dat10 V c).arrays G : sProp 𝕄)
      = iprop((((c : Thread nD τ).loc main_v73) ↦{fullShare.left} G 0) ∗ (((c : Thread nD τ).loc main_v73) ↦{fullShare.right} G 1)
          ∗ (((c : Thread nD τ).loc main_v74) ↦{fullShare} G 2)) := by
  unfold Dat.arrays
  rw [bigSep_W10, (arr_whole10 0).set_eq_univ, (arr_whole10 2).set_eq_univ]
  rfl

theorem arrays_of_unscopedBufs10 :
    (unscopedBufs c (V c) : sProp 𝕄) ⊢ iprop((dat10 V c).arrays ((dat10 V c).arrAt · 0)
      ∗ Pipeline.unscopedRest (Ix := Unit) (Name := ℕ) (U := Pipeline.UD sig nD τ) (Lvl := ℕ) spec10 c (V c)) := by
  rw [unscopedBufs10_eq, arrays10_eq]
  iintro ⟨⟨H73, H74⟩, HR⟩
  ihave H73 := (pointsTo_share (PosShare.mem_left_op_right fullShare)).1 $$ H73
  icases H73 with ⟨Ha, Hb⟩
  isplitr [HR]
  · isplitl [Ha]; · iexact Ha
    isplitl [Hb]; · iexact Hb
    iexact H74
  · iexact HR

theorem unscopedBufs_of_arrays10 (Vp : Contents F) (c : Dev nD)
    (hout : Vp c main_v74 = (dat10 V c).arrAt 2 cfg10.N) (hne : ∀ b : Ref sig .tc, b ≠ main_v74 → Vp c b = V c b) :
    iprop((dat10 V c).arrays ((dat10 V c).arrAt · cfg10.N)
      ∗ Pipeline.unscopedRest (Ix := Unit) (Name := ℕ) (U := Pipeline.UD sig nD τ) (Lvl := ℕ) spec10 c (V c))
      ⊢ (unscopedBufs c (Vp c) : sProp 𝕄) := by
  have hrest : (Pipeline.unscopedRest spec10 c (Vp c) : sProp 𝕄) = Pipeline.unscopedRest spec10 c (V c) := by
    unfold Pipeline.unscopedRest
    exact bigSep_congr fun b hb => by
      rw [hne b fun h => (Finset.mem_sdiff.mp hb).2 (by rw [arrRefs10, h]; decide)]
  rw [unscopedBufs10_eq, arrays10_eq, hrest, (dat10 V c).arrAt_in 0 rfl, (dat10 V c).arrAt_in 1 rfl, ← hout, hne main_v73 (by decide)]
  iintro ⟨⟨Ha, Hb, H74⟩, HR⟩
  ihave H73 := (pointsTo_share (PosShare.mem_left_op_right fullShare)).2 $$ [Ha Hb]
  · isplitl [Ha]; · iexact Ha
    iexact Hb
  isplitr [HR]
  · isplitl [H73]; · iexact H73
    iexact H74
  · iexact HR

end Cert.KernelIdeal.Hand

end
-- ==== Proof.KI.RunVals.lean ====
import proofs.«117129_j76819785056523_1_alg».proof.Proof.Gen.KernelIdeal.Regions
import proofs.«117129_j76819785056523_1_alg».proof.Proof.KI.Feat0
import proofs.«117129_j76819785056523_1_alg».proof.Proof.KI.Agg1
import proofs.«117129_j76819785056523_1_alg».proof.Proof.KI.Feat2
import proofs.«117129_j76819785056523_1_alg».proof.Proof.KI.Agg3
import proofs.«117129_j76819785056523_1_alg».proof.Proof.KI.Feat4
import proofs.«117129_j76819785056523_1_alg».proof.Proof.KI.Agg5
import proofs.«117129_j76819785056523_1_alg».proof.Proof.KI.Feat6
import proofs.«117129_j76819785056523_1_alg».proof.Proof.KI.Agg7
import proofs.«117129_j76819785056523_1_alg».proof.Proof.KI.Feat8
import proofs.«117129_j76819785056523_1_alg».proof.Proof.KI.Agg9
import proofs.«117129_j76819785056523_1_alg».proof.Proof.KI.Outer10

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase
open Idealize.ShloMosaic.Rounds
open Idealize.ShloMosaic.Pipeline (Dat)

variable {F : FTy → Type} [FloatOps F]

theorem upd_ne (X : Valuation τ sig (Elt F)) {r b : Ref sig .tc} (x) (h : b ≠ r) : Function.update X r x b = X b :=
  Function.update_of_ne (StableHlo.devRef_ne_of_ne h) _ _

theorem upd_congr {X Y : Valuation τ sig (Elt F)} (h : X = Y) (r : Ref sig .tc) (x) :
    Function.update X r (Function.update Y r x r) = Function.update Y r x := by
  rw [h, Function.update_self]

variable (m : (ℓ : Loc nD τ sig) → Buf (Elt F) ℓ) (c : Dev nD)

def W5 : Valuation τ sig (Elt F) := V5 m c
def o0 : Buf (Elt F) ((c : Thread nD τ).loc main_v58) := (dat0 (fun c b => W5 m c b) c).arrAt 2 cfg0.N
def W6 : Valuation τ sig (Elt F) := Function.update (W5 m c) main_v58 (o0 m c)
theorem W6_out : W6 m c main_v58 = o0 m c := Function.update_self ..
theorem W6_ne (b : Ref sig .tc) (h : b ≠ main_v58) : W6 m c b = W5 m c b := upd_ne _ _ h
def W7 : Valuation τ sig (Elt F) := StableHlo.after hostOps1 (W6 m c)
def o1 : Buf (Elt F) ((c : Thread nD τ).loc main_v60) := (dat1 (fun c b => W7 m c b) c).arrAt 3 cfg1.N
def W8 : Valuation τ sig (Elt F) := Function.update (W7 m c) main_v60 (o1 m c)
theorem W8_out : W8 m c main_v60 = o1 m c := Function.update_self ..
theorem W8_ne (b : Ref sig .tc) (h : b ≠ main_v60) : W8 m c b = W7 m c b := upd_ne _ _ h
def o2 : Buf (Elt F) ((c : Thread nD τ).loc main_v61) := (dat2 (fun c b => W8 m c b) c).arrAt 2 cfg2.N
def W9 : Valuation τ sig (Elt F) := Function.update (W8 m c) main_v61 (o2 m c)
theorem W9_out : W9 m c main_v61 = o2 m c := Function.update_self ..
theorem W9_ne (b : Ref sig .tc) (h : b ≠ main_v61) : W9 m c b = W8 m c b := upd_ne _ _ h
def W10 : Valuation τ sig (Elt F) := StableHlo.after hostOps3 (W9 m c)
def o3 : Buf (Elt F) ((c : Thread nD τ).loc main_v63) := (dat3 (fun c b => W10 m c b) c).arrAt 3 cfg3.N
def W11 : Valuation τ sig (Elt F) := Function.update (W10 m c) main_v63 (o3 m c)
theorem W11_out : W11 m c main_v63 = o3 m c := Function.update_self ..
theorem W11_ne (b : Ref sig .tc) (h : b ≠ main_v63) : W11 m c b = W10 m c b := upd_ne _ _ h
def o4 : Buf (Elt F) ((c : Thread nD τ).loc main_v64) := (dat4 (fun c b => W11 m c b) c).arrAt 2 cfg4.N
def W12 : Valuation τ sig (Elt F) := Function.update (W11 m c) main_v64 (o4 m c)
theorem W12_out : W12 m c main_v64 = o4 m c := Function.update_self ..
theorem W12_ne (b : Ref sig .tc) (h : b ≠ main_v64) : W12 m c b = W11 m c b := upd_ne _ _ h
def W13 : Valuation τ sig (Elt F) := StableHlo.after hostOps5 (W12 m c)
def o5 : Buf (Elt F) ((c : Thread nD τ).loc main_v66) := (dat5 (fun c b => W13 m c b) c).arrAt 3 cfg5.N
def W14 : Valuation τ sig (Elt F) := Function.update (W13 m c) main_v66 (o5 m c)
theorem W14_out : W14 m c main_v66 = o5 m c := Function.update_self ..
theorem W14_ne (b : Ref sig .tc) (h : b ≠ main_v66) : W14 m c b = W13 m c b := upd_ne _ _ h
def o6 : Buf (Elt F) ((c : Thread nD τ).loc main_v67) := (dat6 (fun c b => W14 m c b) c).arrAt 2 cfg6.N
def W15 : Valuation τ sig (Elt F) := Function.update (W14 m c) main_v67 (o6 m c)
theorem W15_out : W15 m c main_v67 = o6 m c := Function.update_self ..
theorem W15_ne (b : Ref sig .tc) (h : b ≠ main_v67) : W15 m c b = W14 m c b := upd_ne _ _ h
def W16 : Valuation τ sig (Elt F) := StableHlo.after hostOps7 (W15 m c)
def o7 : Buf (Elt F) ((c : Thread nD τ).loc main_v69) := (dat7 (fun c b => W16 m c b) c).arrAt 3 cfg7.N
def W17 : Valuation τ sig (Elt F) := Function.update (W16 m c) main_v69 (o7 m c)
theorem W17_out : W17 m c main_v69 = o7 m c := Function.update_self ..
theorem W17_ne (b : Ref sig .tc) (h : b ≠ main_v69) : W17 m c b = W16 m c b := upd_ne _ _ h
def W18 : Valuation τ sig (Elt F) := StableHlo.after hostOps8 (W17 m c)
def o8 : Buf (Elt F) ((c : Thread nD τ).loc main_v71) := (dat8 (fun c b => W18 m c b) c).arrAt 2 cfg8.N
def W19 : Valuation τ sig (Elt F) := Function.update (W18 m c) main_v71 (o8 m c)
theorem W19_out : W19 m c main_v71 = o8 m c := Function.update_self ..
theorem W19_ne (b : Ref sig .tc) (h : b ≠ main_v71) : W19 m c b = W18 m c b := upd_ne _ _ h
def W20 : Valuation τ sig (Elt F) := StableHlo.after hostOps9 (W19 m c)
def o9 : Buf (Elt F) ((c : Thread nD τ).loc main_v73) := (dat9 (fun c b => W20 m c b) c).arrAt 3 cfg9.N
def W21 : Valuation τ sig (Elt F) := Function.update (W20 m c) main_v73 (o9 m c)
theorem W21_out : W21 m c main_v73 = o9 m c := Function.update_self ..
theorem W21_ne (b : Ref sig .tc) (h : b ≠ main_v73) : W21 m c b = W20 m c b := upd_ne _ _ h
def o10 : Buf (Elt F) ((c : Thread nD τ).loc main_v74) := (dat10 (fun c b => W21 m c b) c).arrAt 2 cfg10.N
def W22 : Valuation τ sig (Elt F) := Function.update (W21 m c) main_v74 (o10 m c)
theorem W22_out : W22 m c main_v74 = o10 m c := Function.update_self ..
theorem W22_ne (b : Ref sig .tc) (h : b ≠ main_v74) : W22 m c b = W21 m c b := upd_ne _ _ h
def W23 : Valuation τ sig (Elt F) := StableHlo.after hostOps11 (W22 m c)

def outs : Outs (F := F) := fun J r c =>
  match J with
  | 6 => W6 m c r
  | 8 => W8 m c r
  | 9 => W9 m c r
  | 11 => W11 m c r
  | 12 => W12 m c r
  | 14 => W14 m c r
  | 15 => W15 m c r
  | 17 => W17 m c r
  | 19 => W19 m c r
  | 21 => W21 m c r
  | 22 => W22 m c r
  | _ => W5 m c r

theorem V6_eq : V6 m (outs m) c = W6 m c := upd_congr rfl _ _
theorem V7_eq : V7 m (outs m) c = W7 m c := congrArg (StableHlo.after hostOps1) (V6_eq m c)
theorem V8_eq : V8 m (outs m) c = W8 m c := upd_congr (V7_eq m c) _ _
theorem V9_eq : V9 m (outs m) c = W9 m c := upd_congr (V8_eq m c) _ _
theorem V10_eq : V10 m (outs m) c = W10 m c := congrArg (StableHlo.after hostOps3) (V9_eq m c)
theorem V11_eq : V11 m (outs m) c = W11 m c := upd_congr (V10_eq m c) _ _
theorem V12_eq : V12 m (outs m) c = W12 m c := upd_congr (V11_eq m c) _ _
theorem V13_eq : V13 m (outs m) c = W13 m c := congrArg (StableHlo.after hostOps5) (V12_eq m c)
theorem V14_eq : V14 m (outs m) c = W14 m c := upd_congr (V13_eq m c) _ _
theorem V15_eq : V15 m (outs m) c = W15 m c := upd_congr (V14_eq m c) _ _
theorem V16_eq : V16 m (outs m) c = W16 m c := congrArg (StableHlo.after hostOps7) (V15_eq m c)
theorem V17_eq : V17 m (outs m) c = W17 m c := upd_congr (V16_eq m c) _ _
theorem V18_eq : V18 m (outs m) c = W18 m c := congrArg (StableHlo.after hostOps8) (V17_eq m c)
theorem V19_eq : V19 m (outs m) c = W19 m c := upd_congr (V18_eq m c) _ _
theorem V20_eq : V20 m (outs m) c = W20 m c := congrArg (StableHlo.after hostOps9) (V19_eq m c)
theorem V21_eq : V21 m (outs m) c = W21 m c := upd_congr (V20_eq m c) _ _
theorem V22_eq : V22 m (outs m) c = W22 m c := upd_congr (V21_eq m c) _ _
theorem V23_eq : V23 m (outs m) c = W23 m c := congrArg (StableHlo.after hostOps11) (V22_eq m c)

def pdats : (p : Fin 11) → (c : Dev nD) → Dat τ (Elt F) Unit ℕ (Pipeline.UD sig nD τ) ℕ (Pipeline.pin (pcfgs (F := F)) adm p) c
  | ⟨0, _⟩ => fun c => dat0 (fun c b => W5 m c b) c
  | ⟨1, _⟩ => fun c => dat1 (fun c b => W7 m c b) c
  | ⟨2, _⟩ => fun c => dat2 (fun c b => W8 m c b) c
  | ⟨3, _⟩ => fun c => dat3 (fun c b => W10 m c b) c
  | ⟨4, _⟩ => fun c => dat4 (fun c b => W11 m c b) c
  | ⟨5, _⟩ => fun c => dat5 (fun c b => W13 m c b) c
  | ⟨6, _⟩ => fun c => dat6 (fun c b => W14 m c b) c
  | ⟨7, _⟩ => fun c => dat7 (fun c b => W16 m c b) c
  | ⟨8, _⟩ => fun c => dat8 (fun c b => W18 m c b) c
  | ⟨9, _⟩ => fun c => dat9 (fun c b => W20 m c b) c
  | ⟨10, _⟩ => fun c => dat10 (fun c b => W21 m c b) c

abbrev L : GSem nD τ sig → Finset Unit := fun _ => ∅
abbrev lv : GSem nD τ sig → Unit → ℕ := fun _ _ => 0
abbrev R (c : Dev nD) : sProp (MT nD τ sig Unit (Elt F) ℕ (Pipeline.UD sig nD τ) ℕ) := iprop((∃ r, prngReg c r) ∗ ∃ W, owes (c : Thread nD τ) (0 : CellTallies nD τ sig Unit) W)

end Cert.KernelIdeal.Hand

end
-- ==== Proof.KI.RunSegs.lean ====
import proofs.«117129_j76819785056523_1_alg».proof.Proof.KI.RunVals

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.ProofMode
open scoped Idealize.SL.BI

variable {F : FTy → Type} [FloatOps F] (m : (ℓ : Loc nD τ sig) → Buf (Elt F) ℓ)

local notation "𝕄" => MT nD τ sig Unit (Elt F) ℕ (Pipeline.UD sig nD τ) ℕ

abbrev Reg := Pipeline.RegionSeg (pcfgs (F := F)) adm (pdats m) () defs₀ Variants.none L lv

theorem owed_pdats (p : Fin 11) (c : Dev nD) (t) : (pdats m p c).owed t = 0 := by fin_cases p <;> rfl

theorem recorded_pdats (p : Fin 11) (c : Dev nD) (t) : (pdats m p c).recorded t = Set.univ := by fin_cases p <;> rfl

variable {p : Fin 11} (Va Vb : Dev nD → Valuation τ sig (Elt F))

def regOf (win : Pipeline.WinFacts₀ (cfgs p).spec) (block_pos : ∀ w, 0 < ((cfgs p).spec w).block.numel)
    (stage_whole : ∀ w s, (((cfgs p).spec w).stage s).IsWhole)
    (hB : ∀ c, Pipeline.BodyObligation (pdats m p c) (defs₀ (F := F)) Variants.none () Set.univ)
    (hI : ∀ c, (Pipeline.ΦA (cfgs p).spec c : sProp 𝕄) ⊢ (pdats m p c).Φ 0)
    (hO : ∀ c, (pdats m p c).Φ (Fin.last (cfgs p).N) ⊢ (Pipeline.ΦA (cfgs p).spec c : sProp 𝕄))
    (hsplit : ∀ c, (unscopedBufs c (fun b => Va c b) : sProp 𝕄)
      ⊢ iprop((pdats m p c).arrays ((pdats m p c).arrAt · 0) ∗ Pipeline.unscopedRest (cfgs p).spec c fun b => Va c b))
    (hjoin : ∀ c, iprop((pdats m p c).arrays ((pdats m p c).arrAt · (cfgs p).N) ∗ Pipeline.unscopedRest (cfgs p).spec c fun b => Va c b)
      ⊢ (unscopedBufs c (fun b => Vb c b) : sProp 𝕄)) : Reg m p where
  win := win
  block_pos := block_pos
  stage_whole := stage_whole
  K := PEmpty
  osem k := k.elim
  ho := .none _
  hbody c := (hB c).loose
  hwaits := Pipeline.hwaits_of_owed_zero _ _ _ _ L lv p (owed_pdats m p)
  pre c := iprop(StableHlo.held (c : Thread nD τ) (Pipeline.ucRefs τ sig) (Va c) ∗ R c)
  post c := iprop(StableHlo.held (c : Thread nD τ) (Pipeline.ucRefs τ sig) (Vb c) ∗ R c)
  X c := iprop(∃ r, prngReg c r)
  Y c := iprop(∃ r, prngReg c r)
  Z c := Pipeline.unscopedRest (cfgs p).spec c fun b => Va c b
  hentry c := by
    have hs := hsplit c
    rw [Pipeline.unscopedBufs_held] at hs
    unfold Pipeline.Dat.owesAt Pipeline.owesWithin Pipeline.Dat.bound Pipeline.prefHeld
    rw [owed_pdats, recorded_pdats]
    iintro ⟨⟨Hub, Hp, %W, HO⟩, -⟩
    ihave ⟨Ha, Hrest⟩ := hs $$ Hub
    imodintro
    iframe
    isplitr
    · rw [show (Finset.univ : Finset (Fin (pcfgs (F := F) p).pre.K)) = ∅ from rfl, bigSep_empty]; iempintro
    iexists W; iframe; ipureintro; exact fun _ _ => .inl trivial
  hin c := by refine .trans ?_ (hI c); unfold Pipeline.ΦA; iintro ⟨Hp, -, Hr⟩; iframe
  hout c := by refine (hO c).trans ?_; unfold Pipeline.ΦA; rw [Pipeline.ownSems0_none]; iintro ⟨Hr, Hp⟩; iframe; iempintro
  hexit c := by
    have hj := hjoin c
    rw [Pipeline.unscopedBufs_held] at hj
    unfold Pipeline.Dat.owesAt Pipeline.owesWithin
    rw [owed_pdats]
    iintro ⟨Ha, ⟨%W, -, HO⟩, HY, Hrest⟩
    imodintro
    isplitl [Ha Hrest]
    · iapply hj; iframe
    isplitl [HY]
    · iexact HY
    iexists W; iexact HO

def regOut (launch : Pipeline.LaunchFacts (nD := nD) (τ := τ) cfgs p) (o : Fin (cfgs p).W)
    (hio : ∀ w, w ≠ o → ((cfgs p).win w).isOut = false)
    (hq : ∀ c w, (pdats m p c).q w = fullShare)
    (hA : ∀ c w, (pdats m p c).A w = Va c (Pipeline.arrRef (cfgs p).spec w))
    (ho : ∀ c, Vb c (Pipeline.arrRef (cfgs p).spec o) = (pdats m p c).arrAt o (cfgs p).N)
    (hne : ∀ c (b : Ref sig .tc), b ≠ Pipeline.arrRef (cfgs p).spec o → Vb c b = Va c b)
    (hB : ∀ c, Pipeline.BodyObligation (pdats m p c) (defs₀ (F := F)) Variants.none () Set.univ)
    (hI : ∀ c, (Pipeline.ΦA (cfgs p).spec c : sProp 𝕄) ⊢ (pdats m p c).Φ 0)
    (hO : ∀ c, (pdats m p c).Φ (Fin.last (cfgs p).N) ⊢ (Pipeline.ΦA (cfgs p).spec c : sProp 𝕄)) : Reg m p :=
  regOf m Va Vb launch.win.to₀ launch.block_pos launch.stage_whole hB hI hO
    (fun c => Pipeline.arrays_of_unscopedBufs (pcfgs (F := F)) adm (pdats m) launch.win launch.arr_whole c
      ((pdats m p c).share_full (hq c)) _ (hA c))
    fun c => Pipeline.unscopedBufs_of_arrays (pcfgs (F := F)) adm launch.win launch.arr_whole c (pdats m)
      ((pdats m p c).share_full (hq c)) _ _ _
      (fun w => by
        by_cases h : w = o
        · subst h; exact (ho c).symm
        · exact ((pdats m p c).arrAt_in w (hio w h) _).trans
            ((hA c w).trans (hne c _ fun e => h (launch.win.arr_inj e)).symm))
      fun b hb => hne c b fun h => hb (h ▸ Finset.mem_image_of_mem _ (Finset.mem_univ o))

def reg0 : Reg m 0 :=
  let V : Contents F := fun c b => W5 m c b
  regOut m (W5 m) (W6 m) launch0 2 (by decide) (fun _ _ => rfl) (A_eq0 V) (W6_out m) (W6_ne m) (body_obligation0 V) (hin0 V) (hout0 V)

def reg1 : Reg m 1 :=
  let V : Contents F := fun c b => W7 m c b
  regOut m (W7 m) (W8 m) launch1 3 (by decide) (fun _ _ => rfl) (A_eq1 V) (W8_out m) (W8_ne m) (body_obligation1 V) (hin1 V) (hout1 V)

def reg2 : Reg m 2 :=
  let V : Contents F := fun c b => W8 m c b
  regOut m (W8 m) (W9 m) launch2 2 (by decide) (fun _ _ => rfl) (A_eq2 V) (W9_out m) (W9_ne m) (body_obligation2 V) (hin2 V) (hout2 V)

def reg3 : Reg m 3 :=
  let V : Contents F := fun c b => W10 m c b
  regOut m (W10 m) (W11 m) launch3 3 (by decide) (fun _ _ => rfl) (A_eq3 V) (W11_out m) (W11_ne m) (body_obligation3 V) (hin3 V) (hout3 V)

def reg4 : Reg m 4 :=
  let V : Contents F := fun c b => W11 m c b
  regOut m (W11 m) (W12 m) launch4 2 (by decide) (fun _ _ => rfl) (A_eq4 V) (W12_out m) (W12_ne m) (body_obligation4 V) (hin4 V) (hout4 V)

def reg5 : Reg m 5 :=
  let V : Contents F := fun c b => W13 m c b
  regOut m (W13 m) (W14 m) launch5 3 (by decide) (fun _ _ => rfl) (A_eq5 V) (W14_out m) (W14_ne m) (body_obligation5 V) (hin5 V) (hout5 V)

def reg6 : Reg m 6 :=
  let V : Contents F := fun c b => W14 m c b
  regOut m (W14 m) (W15 m) launch6 2 (by decide) (fun _ _ => rfl) (A_eq6 V) (W15_out m) (W15_ne m) (body_obligation6 V) (hin6 V) (hout6 V)

def reg7 : Reg m 7 :=
  let V : Contents F := fun c b => W16 m c b
  regOut m (W16 m) (W17 m) launch7 3 (by decide) (fun _ _ => rfl) (A_eq7 V) (W17_out m) (W17_ne m) (body_obligation7 V) (hin7 V) (hout7 V)

def reg8 : Reg m 8 :=
  let V : Contents F := fun c b => W18 m c b
  regOut m (W18 m) (W19 m) launch8 2 (by decide) (fun _ _ => rfl) (A_eq8 V) (W19_out m) (W19_ne m) (body_obligation8 V) (hin8 V) (hout8 V)

def reg9 : Reg m 9 :=
  let V : Contents F := fun c b => W20 m c b
  regOut m (W20 m) (W21 m) launch9 3 (by decide) (fun _ _ => rfl) (A_eq9 V) (W21_out m) (W21_ne m) (body_obligation9 V) (hin9 V) (hout9 V)

def reg10 : Reg m 10 :=
  let V : Contents F := fun c b => W21 m c b
  regOf m (W21 m) (W22 m) winFacts₀10 block_pos10 stage_whole10 (body_obligation10 V) (hin10 V) (hout10 V)
    (arrays_of_unscopedBufs10 V) fun c => unscopedBufs_of_arrays10 V (fun c b => W22 m c b) c (W22_out m c) (W22_ne m c)

end Cert.KernelIdeal.Hand

end
-- ==== Proof.KI.Run.lean ====
import proofs.«117129_j76819785056523_1_alg».proof.Proof.KI.RunSegs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem held_eq (c : Dev nD) {X Y : Valuation τ sig (Elt F)} (h : X = Y) :
    (iprop(StableHlo.held (c : Thread nD τ) (Pipeline.ucRefs τ sig) X ∗ R c) : sProp 𝕄)
      ⊢ iprop(StableHlo.held (c : Thread nD τ) (Pipeline.ucRefs τ sig) Y ∗ R c) := h ▸ .rfl

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem ((c : Thread nD τ).1, b) = V23 m (outs m) c b) := by
  refine Pipeline.θ_run_regions_kit_dev (pcfgs (F := F)) adm (pdats m) () cellOf_inj embL defs₀ Variants.none L lv m ρ main
    (segs m (outs m) Variants.none L lv (fun _ c => R c) () (pdats m) (reg0 m) (reg1 m) (reg2 m) (reg3 m) (reg4 m) (reg5 m) (reg6 m) (reg7 m) (reg8 m) (reg9 m) (reg10 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V23 m (outs m) c))
    (hch := fun c => ⟨.rfl, .rfl, .rfl, .rfl, .rfl, .rfl, held_eq c (V6_eq m c).symm, held_eq c (V7_eq m c), .rfl, held_eq c (V9_eq m c).symm,
      held_eq c (V10_eq m c), .rfl, held_eq c (V12_eq m c).symm, held_eq c (V13_eq m c), .rfl, held_eq c (V15_eq m c).symm,
      held_eq c (V16_eq m c), held_eq c (V17_eq m c).symm, held_eq c (V18_eq m c), held_eq c (V19_eq m c).symm, held_eq c (V20_eq m c), .rfl,
      held_eq c (V22_eq m c).symm, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V23 m (outs m) c b)
    (hfin := fun c s' => by
      iintro ⟨Hh, HSI⟩
      unfold StableHlo.held
      imodintro
      iapply (pointsTo_read_all (Pipeline.ucRefs τ sig) (fun b => ((c : Thread nD τ).1, b)) (V23 m (outs m) c) s')
      isplitl [Hh] <;> iassumption)
    (hQ := fun _ h => h)

theorem run_results : θ_run defs (onTc (τ := τ) (main (F := F))) ⟨m, fun _ => 0, ρ⟩ (fun r => ∀ c : Dev nD,
      r.2.mem ((c.tc : Thread nD τ).loc main_v70) = W23 m c main_v70
      ∧ r.2.mem ((c.tc : Thread nD τ).loc main_v75) = W23 m c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have a := fun (b : Ref sig .tc) (hb : ¬ (Proc.devRef .tc b : DevRef τ sig).isScoped) =>
      h c _ (Finset.mem_filter.mpr ⟨StableHlo.devRef_mem_tcRefs b, hb⟩)
    ⟨(a main_v70 (by decide)).trans (congrFun (V23_eq m c) _), (a main_v75 (by decide)).trans (congrFun (V23_eq m c) _),
     (a main_arg0 (by decide)).trans (V23_main_arg0 m (outs m) c),
     (a main_arg1 (by decide)).trans (V23_main_arg1 m (outs m) c),
     (a main_arg2 (by decide)).trans (V23_main_arg2 m (outs m) c),
     (a main_arg3 (by decide)).trans (V23_main_arg3 m (outs m) c),
     (a main_arg4 (by decide)).trans (V23_main_arg4 m (outs m) c),
     (a main_arg5 (by decide)).trans (V23_main_arg5 m (outs m) c),
     (a main_arg6 (by decide)).trans (V23_main_arg6 m (outs m) c),
     (a main_arg7 (by decide)).trans (V23_main_arg7 m (outs m) c),
     (a main_arg8 (by decide)).trans (V23_main_arg8 m (outs m) c),
     (a main_arg9 (by decide)).trans (V23_main_arg9 m (outs m) c),
     (a main_arg10 (by decide)).trans (V23_main_arg10 m (outs m) c),
     (a main_arg11 (by decide)).trans (V23_main_arg11 m (outs m) c)⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2) (run_results m ρ)

end Cert.KernelIdeal.Hand

end
-- ==== Proof.KI.Feat0Value.lean ====
import Idealize.ShloMosaic.PureOps.Ideal
import Idealize.ShloMosaic.PureOps.Ideal.Laws
import Idealize.ShloMosaic.Lib.ValueIdx
import proofs.«117129_j76819785056523_1_alg».proof.Proof.KI.Feat0

noncomputable section

namespace Cert.KernelIdeal.Hand

open Cert.KernelIdeal Cert.KernelIdeal.Gen
open Idealize.ShloMosaic Idealize.ShloMosaic.ValueIdx
open scoped BigOperators

-- Entry (p, q) of a matrix product is the sum over j of x (p, j) · w (j, q).
theorem pay0_at (x : Vec Ideal S1536x500 .bf16) (w : Vec Ideal S500x128 .bf16) (z : S1536x128.Idx) :
    k0_pay1 (F := Ideal) x w z = ∑ j : Fin 500, x (ix2 (z 0) j) * w (ix2 j (z 1)) := by
  simp only [k0_pay1, truncf_apply, shapeCast_self, matmul]
  rw [Ideal.matmul_constant_zero_apply, ← Equiv.sum_comp (contrEquiv1 dot_S1536x500_S500x128_S1536x128_1_0_0_1_n_n 500 rfl rfl)]
  exact Finset.sum_congr rfl fun k _ => congrArg₂ (· * ·) (congrArg x (Shape.idx_ext₂ rfl rfl)) (congrArg w (Shape.idx_ext₂ rfl rfl))

variable (V : Contents Ideal) (c : Dev nD)

abbrev rowsArr0 : Vec Ideal S12288x500 .bf16 := V c main_v52
abbrev weightArr0 : Vec Ideal S500x128 .bf16 := V c main_v53
abbrev outArr0 : Vec Ideal S12288x128 .bf16 := (dat0 (F := Ideal) V c).arrAt 2 cfg0.N

def featProd0 : Vec Ideal S12288x128 .bf16 :=
  fun i => ∑ j : Fin 500, rowsArr0 V c (ix2 (i 0) j) * weightArr0 V c (ix2 j (i 1))

theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Block t of the rows of X · W is the product of block t of the rows of X with all of W.
theorem flushed0_eq (t : Fin cfg0.N) :
    (dat0 (F := Ideal) V c).flushed 2 t = ((cfg0.win 2).blk t).view.read (Elt Ideal) (featProd0 V c) := by
  show (cfg0.win 2).cut (grid0.coords t) ((dat0 (F := Ideal) V c).after 2 t) = _
  rw [after0_2]
  funext y
  obtain ⟨e0, e1, e2, e3, e4, e5⟩ := blockIdx0 t
  refine (pay0_at _ _ _).trans ?_
  show _ = featProd0 V c (((cfg0.win 2).blk t).view.emb y)
  refine Finset.sum_congr rfl fun j _ => ?_
  have hrow : ((cfg0.win 0).blk t).view.emb (ix2 (((cfg0.win 2).xinj (grid0.coords t) y) 0) j) = ix2 ((((cfg0.win 2).blk t).view.emb y) 0) j :=
    Shape.idx_ext₂
      (by show win0_0.index t (0 : Fin 2) * 1536 + 1 * (y 0).val = win0_2.index t (0 : Fin 2) * 1536 + 1 * (y 0).val; omega)
      (by show win0_0.index t (1 : Fin 2) * 500 + 1 * j.val = j.val; omega)
  have hcol : ((cfg0.win 1).blk t).view.emb (ix2 j (((cfg0.win 2).xinj (grid0.coords t) y) 1)) = ix2 j ((((cfg0.win 2).blk t).view.emb y) 1) :=
    Shape.idx_ext₂
      (by show win0_1.index t (0 : Fin 2) * 500 + 1 * j.val = j.val; omega)
      (by show win0_1.index t (1 : Fin 2) * 128 + 1 * (y 1).val = win0_2.index t (1 : Fin 2) * 128 + 1 * (y 1).val; omega)
  exact congrArg₂ (· * ·) (congrArg (rowsArr0 V c) hrow) (congrArg (weightArr0 V c) hcol)

-- Every row lies in the block numbered by its quotient by the block height.
theorem covered0 (i : S12288x128.Idx) : ∃ t : Fin cfg0.N, (cfg0.win 2).flush t = true ∧ i ∈ ((cfg0.win 2).blk t).view.set := by
  have hi0 : (i 0).val < 12288 := (i 0).isLt
  have hi1 : (i 1).val < 128 := (i 1).isLt
  have ht : (i 0).val / 1536 < cfg0.N := by rw [show cfg0.N = 8 from N_0]; omega
  obtain ⟨-, -, -, -, e4, e5⟩ := blockIdx0 ⟨_, ht⟩
  refine ⟨⟨_, ht⟩, flush0_2 _, ?_⟩
  show i ∈ ((View.whole main_v58).slice (win0_2.rect ⟨_, ht⟩)).set
  rw [View.set_slice_whole, Rect.mem_set_unit]
  intro a
  match a with
  | ⟨0, _⟩ => show win0_2.index _ (0 : Fin 2) * 1536 ≤ (i 0).val ∧ (i 0).val < win0_2.index _ (0 : Fin 2) * 1536 + 1536; rw [e4]; show (i 0).val / 1536 * 1536 ≤ (i 0).val ∧ (i 0).val < (i 0).val / 1536 * 1536 + 1536; omega
  | ⟨1, _⟩ => show win0_2.index _ (1 : Fin 2) * 128 ≤ (i 1).val ∧ (i 1).val < win0_2.index _ (1 : Fin 2) * 128 + 128; rw [e5]; omega

-- The row blocks of the product tile the array.
theorem feat0_value (r : Fin 12288) (q : Fin 128) :
    outArr0 V c (ix2 r q) = ∑ j : Fin 500, rowsArr0 V c (ix2 r j) * weightArr0 V c (ix2 j q) :=
  congrFun ((dat0 (F := Ideal) V c).arrAt_eq_of_cover 2 (featProd0 V c) (fun t _ => flushed0_eq V c t) covered0) (ix2 r q)

end Cert.KernelIdeal.Hand

end
-- ==== Proof.KI.Feat2Value.lean ====
import Idealize.ShloMosaic.PureOps.Ideal
import Idealize.ShloMosaic.PureOps.Ideal.Laws
import Idealize.ShloMosaic.Lib.ValueIdx
import proofs.«117129_j76819785056523_1_alg».proof.Proof.KI.Feat2

noncomputable section

namespace Cert.KernelIdeal.Hand

open Cert.KernelIdeal Cert.KernelIdeal.Gen
open Idealize.ShloMosaic Idealize.ShloMosaic.ValueIdx
open scoped BigOperators

theorem pay2_at (x : Vec Ideal S1536x128 .bf16) (w : Vec Ideal S128x64 .bf16) (z : S1536x64.Idx) :
    k2_pay1 (F := Ideal) x w z = ∑ j : Fin 128, x (ix2 (z 0) j) * w (ix2 j (z 1)) := by
  simp only [k2_pay1, truncf_apply, shapeCast_self, matmul]
  rw [Ideal.matmul_constant_zero_apply, ← Equiv.sum_comp (contrEquiv1 dot_S1536x128_S128x64_S1536x64_1_0_0_1_n_n 128 rfl rfl)]
  exact Finset.sum_congr rfl fun k _ => congrArg₂ (· * ·) (congrArg x (Shape.idx_ext₂ rfl rfl)) (congrArg w (Shape.idx_ext₂ rfl rfl))

variable (V : Contents Ideal) (c : Dev nD)

abbrev rowsArr2 : Vec Ideal S12288x128 .bf16 := V c main_v60
abbrev weightArr2 : Vec Ideal S128x64 .bf16 := V c main_v54
abbrev outArr2 : Vec Ideal S12288x64 .bf16 := (dat2 (F := Ideal) V c).arrAt 2 cfg2.N

def featProd2 : Vec Ideal S12288x64 .bf16 :=
  fun i => ∑ j : Fin 128, rowsArr2 V c (ix2 (i 0) j) * weightArr2 V c (ix2 j (i 1))

theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (t : Fin cfg2.N) :
    (dat2 (F := Ideal) V c).flushed 2 t = ((cfg2.win 2).blk t).view.read (Elt Ideal) (featProd2 V c) := by
  show (cfg2.win 2).cut (grid2.coords t) ((dat2 (F := Ideal) V c).after 2 t) = _
  rw [after2_2]
  funext y
  obtain ⟨e0, e1, e2, e3, e4, e5⟩ := blockIdx2 t
  refine (pay2_at _ _ _).trans ?_
  show _ = featProd2 V c (((cfg2.win 2).blk t).view.emb y)
  refine Finset.sum_congr rfl fun j _ => ?_
  have hrow : ((cfg2.win 0).blk t).view.emb (ix2 (((cfg2.win 2).xinj (grid2.coords t) y) 0) j) = ix2 ((((cfg2.win 2).blk t).view.emb y) 0) j :=
    Shape.idx_ext₂
      (by show win2_0.index t (0 : Fin 2) * 1536 + 1 * (y 0).val = win2_2.index t (0 : Fin 2) * 1536 + 1 * (y 0).val; omega)
      (by show win2_0.index t (1 : Fin 2) * 128 + 1 * j.val = j.val; omega)
  have hcol : ((cfg2.win 1).blk t).view.emb (ix2 j (((cfg2.win 2).xinj (grid2.coords t) y) 1)) = ix2 j ((((cfg2.win 2).blk t).view.emb y) 1) :=
    Shape.idx_ext₂
      (by show win2_1.index t (0 : Fin 2) * 128 + 1 * j.val = j.val; omega)
      (by show win2_1.index t (1 : Fin 2) * 64 + 1 * (y 1).val = win2_2.index t (1 : Fin 2) * 64 + 1 * (y 1).val; omega)
  exact congrArg₂ (· * ·) (congrArg (rowsArr2 V c) hrow) (congrArg (weightArr2 V c) hcol)

theorem covered2 (i : S12288x64.Idx) : ∃ t : Fin cfg2.N, (cfg2.win 2).flush t = true ∧ i ∈ ((cfg2.win 2).blk t).view.set := by
  have hi0 : (i 0).val < 12288 := (i 0).isLt
  have hi1 : (i 1).val < 64 := (i 1).isLt
  have ht : (i 0).val / 1536 < cfg2.N := by rw [show cfg2.N = 8 from N_2]; omega
  obtain ⟨-, -, -, -, e4, e5⟩ := blockIdx2 ⟨_, ht⟩
  refine ⟨⟨_, ht⟩, flush2_2 _, ?_⟩
  show i ∈ ((View.whole main_v61).slice (win2_2.rect ⟨_, ht⟩)).set
  rw [View.set_slice_whole, Rect.mem_set_unit]
  intro a
  match a with
  | ⟨0, _⟩ => show win2_2.index _ (0 : Fin 2) * 1536 ≤ (i 0).val ∧ (i 0).val < win2_2.index _ (0 : Fin 2) * 1536 + 1536; rw [e4]; show (i 0).val / 1536 * 1536 ≤ (i 0).val ∧ (i 0).val < (i 0).val / 1536 * 1536 + 1536; omega
  | ⟨1, _⟩ => show win2_2.index _ (1 : Fin 2) * 64 ≤ (i 1).val ∧ (i 1).val < win2_2.index _ (1 : Fin 2) * 64 + 64; rw [e5]; omega

theorem feat2_value (r : Fin 12288) (q : Fin 64) :
    outArr2 V c (ix2 r q) = ∑ j : Fin 128, rowsArr2 V c (ix2 r j) * weightArr2 V c (ix2 j q) :=
  congrFun ((dat2 (F := Ideal) V c).arrAt_eq_of_cover 2 (featProd2 V c) (fun t _ => flushed2_eq V c t) covered2) (ix2 r q)

end Cert.KernelIdeal.Hand

end
-- ==== Proof.KI.Feat4Value.lean ====
import Idealize.ShloMosaic.PureOps.Ideal
import Idealize.ShloMosaic.PureOps.Ideal.Laws
import Idealize.ShloMosaic.Lib.ValueIdx
import proofs.«117129_j76819785056523_1_alg».proof.Proof.KI.Feat4

noncomputable section

namespace Cert.KernelIdeal.Hand

open Cert.KernelIdeal Cert.KernelIdeal.Gen
open Idealize.ShloMosaic Idealize.ShloMosaic.ValueIdx
open scoped BigOperators

theorem pay4_at (x : Vec Ideal S1536x64 .bf16) (w : Vec Ideal S64x128 .bf16) (z : S1536x128.Idx) :
    k4_pay1 (F := Ideal) x w z = ∑ j : Fin 64, x (ix2 (z 0) j) * w (ix2 j (z 1)) := by
  simp only [k4_pay1, truncf_apply, shapeCast_self, matmul]
  rw [Ideal.matmul_constant_zero_apply, ← Equiv.sum_comp (contrEquiv1 dot_S1536x64_S64x128_S1536x128_1_0_0_1_n_n 64 rfl rfl)]
  exact Finset.sum_congr rfl fun k _ => congrArg₂ (· * ·) (congrArg x (Shape.idx_ext₂ rfl rfl)) (congrArg w (Shape.idx_ext₂ rfl rfl))

variable (V : Contents Ideal) (c : Dev nD)

abbrev rowsArr4 : Vec Ideal S12288x64 .bf16 := V c main_v63
abbrev weightArr4 : Vec Ideal S64x128 .bf16 := V c main_v55
abbrev outArr4 : Vec Ideal S12288x128 .bf16 := (dat4 (F := Ideal) V c).arrAt 2 cfg4.N

def featProd4 : Vec Ideal S12288x128 .bf16 :=
  fun i => ∑ j : Fin 64, rowsArr4 V c (ix2 (i 0) j) * weightArr4 V c (ix2 j (i 1))

theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4_eq (t : Fin cfg4.N) :
    (dat4 (F := Ideal) V c).flushed 2 t = ((cfg4.win 2).blk t).view.read (Elt Ideal) (featProd4 V c) := by
  show (cfg4.win 2).cut (grid4.coords t) ((dat4 (F := Ideal) V c).after 2 t) = _
  rw [after4_2]
  funext y
  obtain ⟨e0, e1, e2, e3, e4, e5⟩ := blockIdx4 t
  refine (pay4_at _ _ _).trans ?_
  show _ = featProd4 V c (((cfg4.win 2).blk t).view.emb y)
  refine Finset.sum_congr rfl fun j _ => ?_
  have hrow : ((cfg4.win 0).blk t).view.emb (ix2 (((cfg4.win 2).xinj (grid4.coords t) y) 0) j) = ix2 ((((cfg4.win 2).blk t).view.emb y) 0) j :=
    Shape.idx_ext₂
      (by show win4_0.index t (0 : Fin 2) * 1536 + 1 * (y 0).val = win4_2.index t (0 : Fin 2) * 1536 + 1 * (y 0).val; omega)
      (by show win4_0.index t (1 : Fin 2) * 64 + 1 * j.val = j.val; omega)
  have hcol : ((cfg4.win 1).blk t).view.emb (ix2 j (((cfg4.win 2).xinj (grid4.coords t) y) 1)) = ix2 j ((((cfg4.win 2).blk t).view.emb y) 1) :=
    Shape.idx_ext₂
      (by show win4_1.index t (0 : Fin 2) * 64 + 1 * j.val = j.val; omega)
      (by show win4_1.index t (1 : Fin 2) * 128 + 1 * (y 1).val = win4_2.index t (1 : Fin 2) * 128 + 1 * (y 1).val; omega)
  exact congrArg₂ (· * ·) (congrArg (rowsArr4 V c) hrow) (congrArg (weightArr4 V c) hcol)

theorem covered4 (i : S12288x128.Idx) : ∃ t : Fin cfg4.N, (cfg4.win 2).flush t = true ∧ i ∈ ((cfg4.win 2).blk t).view.set := by
  have hi0 : (i 0).val < 12288 := (i 0).isLt
  have hi1 : (i 1).val < 128 := (i 1).isLt
  have ht : (i 0).val / 1536 < cfg4.N := by rw [show cfg4.N = 8 from N_4]; omega
  obtain ⟨-, -, -, -, e4, e5⟩ := blockIdx4 ⟨_, ht⟩
  refine ⟨⟨_, ht⟩, flush4_2 _, ?_⟩
  show i ∈ ((View.whole main_v64).slice (win4_2.rect ⟨_, ht⟩)).set
  rw [View.set_slice_whole, Rect.mem_set_unit]
  intro a
  match a with
  | ⟨0, _⟩ => show win4_2.index _ (0 : Fin 2) * 1536 ≤ (i 0).val ∧ (i 0).val < win4_2.index _ (0 : Fin 2) * 1536 + 1536; rw [e4]; show (i 0).val / 1536 * 1536 ≤ (i 0).val ∧ (i 0).val < (i 0).val / 1536 * 1536 + 1536; omega
  | ⟨1, _⟩ => show win4_2.index _ (1 : Fin 2) * 128 ≤ (i 1).val ∧ (i 1).val < win4_2.index _ (1 : Fin 2) * 128 + 128; rw [e5]; omega

theorem feat4_value (r : Fin 12288) (q : Fin 128) :
    outArr4 V c (ix2 r q) = ∑ j : Fin 64, rowsArr4 V c (ix2 r j) * weightArr4 V c (ix2 j q) :=
  congrFun ((dat4 (F := Ideal) V c).arrAt_eq_of_cover 2 (featProd4 V c) (fun t _ => flushed4_eq V c t) covered4) (ix2 r q)

end Cert.KernelIdeal.Hand

end
-- ==== Proof.KI.Feat6Value.lean ====
import Idealize.ShloMosaic.PureOps.Ideal
import Idealize.ShloMosaic.PureOps.Ideal.Laws
import Idealize.ShloMosaic.Lib.ValueIdx
import proofs.«117129_j76819785056523_1_alg».proof.Proof.KI.Feat6

noncomputable section

namespace Cert.KernelIdeal.Hand

open Cert.KernelIdeal Cert.KernelIdeal.Gen
open Idealize.ShloMosaic Idealize.ShloMosaic.ValueIdx
open scoped BigOperators

theorem pay6_at (x : Vec Ideal S1536x128 .bf16) (w : Vec Ideal S128x500 .bf16) (z : S1536x500.Idx) :
    k6_pay1 (F := Ideal) x w z = ∑ j : Fin 128, x (ix2 (z 0) j) * w (ix2 j (z 1)) := by
  simp only [k6_pay1, truncf_apply, shapeCast_self, matmul]
  rw [Ideal.matmul_constant_zero_apply, ← Equiv.sum_comp (contrEquiv1 dot_S1536x128_S128x500_S1536x500_1_0_0_1_n_n 128 rfl rfl)]
  exact Finset.sum_congr rfl fun k _ => congrArg₂ (· * ·) (congrArg x (Shape.idx_ext₂ rfl rfl)) (congrArg w (Shape.idx_ext₂ rfl rfl))

variable (V : Contents Ideal) (c : Dev nD)

abbrev rowsArr6 : Vec Ideal S12288x128 .bf16 := V c main_v66
abbrev weightArr6 : Vec Ideal S128x500 .bf16 := V c main_v56
abbrev outArr6 : Vec Ideal S12288x500 .bf16 := (dat6 (F := Ideal) V c).arrAt 2 cfg6.N

def featProd6 : Vec Ideal S12288x500 .bf16 :=
  fun i => ∑ j : Fin 128, rowsArr6 V c (ix2 (i 0) j) * weightArr6 V c (ix2 j (i 1))

theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem flushed6_eq (t : Fin cfg6.N) :
    (dat6 (F := Ideal) V c).flushed 2 t = ((cfg6.win 2).blk t).view.read (Elt Ideal) (featProd6 V c) := by
  show (cfg6.win 2).cut (grid6.coords t) ((dat6 (F := Ideal) V c).after 2 t) = _
  rw [after6_2]
  funext y
  obtain ⟨e0, e1, e2, e3, e4, e5⟩ := blockIdx6 t
  refine (pay6_at _ _ _).trans ?_
  show _ = featProd6 V c (((cfg6.win 2).blk t).view.emb y)
  refine Finset.sum_congr rfl fun j _ => ?_
  have hrow : ((cfg6.win 0).blk t).view.emb (ix2 (((cfg6.win 2).xinj (grid6.coords t) y) 0) j) = ix2 ((((cfg6.win 2).blk t).view.emb y) 0) j :=
    Shape.idx_ext₂
      (by show win6_0.index t (0 : Fin 2) * 1536 + 1 * (y 0).val = win6_2.index t (0 : Fin 2) * 1536 + 1 * (y 0).val; omega)
      (by show win6_0.index t (1 : Fin 2) * 128 + 1 * j.val = j.val; omega)
  have hcol : ((cfg6.win 1).blk t).view.emb (ix2 j (((cfg6.win 2).xinj (grid6.coords t) y) 1)) = ix2 j ((((cfg6.win 2).blk t).view.emb y) 1) :=
    Shape.idx_ext₂
      (by show win6_1.index t (0 : Fin 2) * 128 + 1 * j.val = j.val; omega)
      (by show win6_1.index t (1 : Fin 2) * 500 + 1 * (y 1).val = win6_2.index t (1 : Fin 2) * 500 + 1 * (y 1).val; omega)
  exact congrArg₂ (· * ·) (congrArg (rowsArr6 V c) hrow) (congrArg (weightArr6 V c) hcol)

theorem covered6 (i : S12288x500.Idx) : ∃ t : Fin cfg6.N, (cfg6.win 2).flush t = true ∧ i ∈ ((cfg6.win 2).blk t).view.set := by
  have hi0 : (i 0).val < 12288 := (i 0).isLt
  have hi1 : (i 1).val < 500 := (i 1).isLt
  have ht : (i 0).val / 1536 < cfg6.N := by rw [show cfg6.N = 8 from N_6]; omega
  obtain ⟨-, -, -, -, e4, e5⟩ := blockIdx6 ⟨_, ht⟩
  refine ⟨⟨_, ht⟩, flush6_2 _, ?_⟩
  show i ∈ ((View.whole main_v67).slice (win6_2.rect ⟨_, ht⟩)).set
  rw [View.set_slice_whole, Rect.mem_set_unit]
  intro a
  match a with
  | ⟨0, _⟩ => show win6_2.index _ (0 : Fin 2) * 1536 ≤ (i 0).val ∧ (i 0).val < win6_2.index _ (0 : Fin 2) * 1536 + 1536; rw [e4]; show (i 0).val / 1536 * 1536 ≤ (i 0).val ∧ (i 0).val < (i 0).val / 1536 * 1536 + 1536; omega
  | ⟨1, _⟩ => show win6_2.index _ (1 : Fin 2) * 500 ≤ (i 1).val ∧ (i 1).val < win6_2.index _ (1 : Fin 2) * 500 + 500; rw [e5]; omega

theorem feat6_value (r : Fin 12288) (q : Fin 500) :
    outArr6 V c (ix2 r q) = ∑ j : Fin 128, rowsArr6 V c (ix2 r j) * weightArr6 V c (ix2 j q) :=
  congrFun ((dat6 (F := Ideal) V c).arrAt_eq_of_cover 2 (featProd6 V c) (fun t _ => flushed6_eq V c t) covered6) (ix2 r q)

end Cert.KernelIdeal.Hand

end
-- ==== Proof.KI.Feat8Value.lean ====
import Idealize.ShloMosaic.PureOps.Ideal
import Idealize.ShloMosaic.PureOps.Ideal.Laws
import Idealize.ShloMosaic.Lib.ValueIdx
import proofs.«117129_j76819785056523_1_alg».proof.Proof.KI.Feat8

noncomputable section

namespace Cert.KernelIdeal.Hand

open Cert.KernelIdeal Cert.KernelIdeal.Gen
open Idealize.ShloMosaic Idealize.ShloMosaic.ValueIdx
open scoped BigOperators

theorem pay8_at (x : Vec Ideal S1536x64 .bf16) (w : Vec Ideal S64x64 .bf16) (z : S1536x64.Idx) :
    k8_pay1 (F := Ideal) x w z = ∑ j : Fin 64, x (ix2 (z 0) j) * w (ix2 j (z 1)) := by
  simp only [k8_pay1, truncf_apply, shapeCast_self, matmul]
  rw [Ideal.matmul_constant_zero_apply, ← Equiv.sum_comp (contrEquiv1 dot_S1536x64_S64x64_S1536x64_1_0_0_1_n_n 64 rfl rfl)]
  exact Finset.sum_congr rfl fun k _ => congrArg₂ (· * ·) (congrArg x (Shape.idx_ext₂ rfl rfl)) (congrArg w (Shape.idx_ext₂ rfl rfl))

variable (V : Contents Ideal) (c : Dev nD)

abbrev rowsArr8 : Vec Ideal S12288x64 .bf16 := V c main_v63
abbrev weightArr8 : Vec Ideal S64x64 .bf16 := V c main_v57
abbrev outArr8 : Vec Ideal S12288x64 .bf16 := (dat8 (F := Ideal) V c).arrAt 2 cfg8.N

def featProd8 : Vec Ideal S12288x64 .bf16 :=
  fun i => ∑ j : Fin 64, rowsArr8 V c (ix2 (i 0) j) * weightArr8 V c (ix2 j (i 1))

theorem blockIdx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

theorem flushed8_eq (t : Fin cfg8.N) :
    (dat8 (F := Ideal) V c).flushed 2 t = ((cfg8.win 2).blk t).view.read (Elt Ideal) (featProd8 V c) := by
  show (cfg8.win 2).cut (grid8.coords t) ((dat8 (F := Ideal) V c).after 2 t) = _
  rw [after8_2]
  funext y
  obtain ⟨e0, e1, e2, e3, e4, e5⟩ := blockIdx8 t
  refine (pay8_at _ _ _).trans ?_
  show _ = featProd8 V c (((cfg8.win 2).blk t).view.emb y)
  refine Finset.sum_congr rfl fun j _ => ?_
  have hrow : ((cfg8.win 0).blk t).view.emb (ix2 (((cfg8.win 2).xinj (grid8.coords t) y) 0) j) = ix2 ((((cfg8.win 2).blk t).view.emb y) 0) j :=
    Shape.idx_ext₂
      (by show win8_0.index t (0 : Fin 2) * 1536 + 1 * (y 0).val = win8_2.index t (0 : Fin 2) * 1536 + 1 * (y 0).val; omega)
      (by show win8_0.index t (1 : Fin 2) * 64 + 1 * j.val = j.val; omega)
  have hcol : ((cfg8.win 1).blk t).view.emb (ix2 j (((cfg8.win 2).xinj (grid8.coords t) y) 1)) = ix2 j ((((cfg8.win 2).blk t).view.emb y) 1) :=
    Shape.idx_ext₂
      (by show win8_1.index t (0 : Fin 2) * 64 + 1 * j.val = j.val; omega)
      (by show win8_1.index t (1 : Fin 2) * 64 + 1 * (y 1).val = win8_2.index t (1 : Fin 2) * 64 + 1 * (y 1).val; omega)
  exact congrArg₂ (· * ·) (congrArg (rowsArr8 V c) hrow) (congrArg (weightArr8 V c) hcol)

theorem covered8 (i : S12288x64.Idx) : ∃ t : Fin cfg8.N, (cfg8.win 2).flush t = true ∧ i ∈ ((cfg8.win 2).blk t).view.set := by
  have hi0 : (i 0).val < 12288 := (i 0).isLt
  have hi1 : (i 1).val < 64 := (i 1).isLt
  have ht : (i 0).val / 1536 < cfg8.N := by rw [show cfg8.N = 8 from N_8]; omega
  obtain ⟨-, -, -, -, e4, e5⟩ := blockIdx8 ⟨_, ht⟩
  refine ⟨⟨_, ht⟩, flush8_2 _, ?_⟩
  show i ∈ ((View.whole main_v71).slice (win8_2.rect ⟨_, ht⟩)).set
  rw [View.set_slice_whole, Rect.mem_set_unit]
  intro a
  match a with
  | ⟨0, _⟩ => show win8_2.index _ (0 : Fin 2) * 1536 ≤ (i 0).val ∧ (i 0).val < win8_2.index _ (0 : Fin 2) * 1536 + 1536; rw [e4]; show (i 0).val / 1536 * 1536 ≤ (i 0).val ∧ (i 0).val < (i 0).val / 1536 * 1536 + 1536; omega
  | ⟨1, _⟩ => show win8_2.index _ (1 : Fin 2) * 64 ≤ (i 1).val ∧ (i 1).val < win8_2.index _ (1 : Fin 2) * 64 + 64; rw [e5]; omega

theorem feat8_value (r : Fin 12288) (q : Fin 64) :
    outArr8 V c (ix2 r q) = ∑ j : Fin 64, rowsArr8 V c (ix2 r j) * weightArr8 V c (ix2 j q) :=
  congrFun ((dat8 (F := Ideal) V c).arrAt_eq_of_cover 2 (featProd8 V c) (fun t _ => flushed8_eq V c t) covered8) (ix2 r q)

end Cert.KernelIdeal.Hand

end
-- ==== Proof.KI.Agg1Pay.lean ====
import proofs.«117129_j76819785056523_1_alg».proof.Proof.KI.Base
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem pay1_1_apply (p : Fin 1536) (q : Fin 128) : (k1_pay1 (F := Ideal)) (ix2 p q) = 0 := by
  unfold k1_pay1
  rw [shapeCast_self]
  exact Ideal.ofBits_zero_f32

-- The contraction index is one coordinate j; the operands are read at (p, j) and (j, q).
theorem pay1_2_apply (H : Vec Ideal S1536x128 .bf16) (acc : Vec Ideal S1536x128 .f32) (A : Vec Ideal S1536x1536 .bf16)
    (p : Fin 1536) (q : Fin 128) :
    k1_pay2 H acc A (ix2 p q) = acc (ix2 p q) + ∑ j : Fin 1536, A (ix2 p j) * H (ix2 j q) := by
  unfold k1_pay2
  rw [shapeCast_self, shapeCast_self, shapeCast_self, addf_apply]
  simp only [matmul]
  rw [Ideal.matmul_constant_zero_apply, ← Equiv.sum_comp (contrEquiv1 _ 1536 rfl rfl).symm]
  refine congrArg _ (Finset.sum_congr rfl fun j _ => ?_)
  have hj := contrEquiv1_symm_val dot_S1536x1536_S1536x128_S1536x128_1_0_0_1_n_n 1536 rfl rfl j
  congr 2 <;> refine Shape.idx_ext₂ ?_ ?_
  · rfl
  · exact (DotDims.lhsIdx_val_of_single _ rfl _ _).trans hj
  · exact (DotDims.rhsIdx_val_of_single _ rfl _ _).trans hj
  · rfl

abbrev last1 (x : EReal) : EReal := max x 0

theorem pay1_3_apply (acc : Vec Ideal S1536x128 .f32) (b : Vec Ideal S1x128 .f32) (p : Fin 1536) (q : Fin 128) :
    k1_pay3 acc b (ix2 p q) = last1 (acc (ix2 p q) + b (ix2 (0 : Fin 1) q)) := by
  unfold k1_pay3
  rw [truncf_apply, maximumf_apply, addf_apply, shapeCast_self, broadcastTo_1b_ab_apply, broadcast_apply]; exact congrArg (max _) Ideal.ofBits_zero_f32

end Cert.KernelIdeal.Hand

end
-- ==== Proof.KI.AggAlgebra.lean ====
import Idealize.ShloMosaic.Lib.ValueIdx

noncomputable section

namespace Cert.KernelIdeal.Hand

variable {M : Type*} [AddCommMonoid M]

def runSum (P : ℕ → M) : ℕ → M
  | 0 => 0 + P 0
  | n + 1 => runSum P n + P (n + 1)

theorem runSum_succ (P : ℕ → M) (n : ℕ) : runSum P (n + 1) = runSum P n + P (n + 1) := rfl

theorem runSum_eq (P : ℕ → M) (n : ℕ) : runSum P n = ∑ k ∈ Finset.range (n + 1), P k := by
  induction n with
  | zero => simp [runSum]
  | succ n ih => rw [runSum, ih, Finset.sum_range_succ (n := n + 1)]

-- Position 1536 k + j of the 12288 is position j of block k.
theorem sum_eight_blocks (f : Fin 12288 → M) :
    ∑ s : Fin 12288, f s
      = ∑ k : Fin 8, ∑ j : Fin 1536, f ⟨1536 * k.val + j.val, by have := k.isLt; have := j.isLt; omega⟩ := by
  have e := Equiv.sum_comp (finProdFinEquiv : Fin 8 × Fin 1536 ≃ Fin (8 * 1536)) (f : Fin (8 * 1536) → M)
  rw [show (∑ s : Fin 12288, f s) = ∑ s : Fin (8 * 1536), (f : Fin (8 * 1536) → M) s from rfl, ← e,
    Fintype.sum_prod_type]
  refine Finset.sum_congr rfl fun k _ => Finset.sum_congr rfl fun j _ => congrArg f (Fin.ext ?_)
  show j.val + 1536 * k.val = 1536 * k.val + j.val
  omega

def blockSum (f : Fin 12288 → M) (k : ℕ) : M :=
  if h : k < 8 then ∑ j : Fin 1536, f ⟨1536 * k + j.val, by have := j.isLt; omega⟩ else 0

theorem runSum_blockSum (f : Fin 12288 → M) : runSum (blockSum f) 7 = ∑ s, f s := by
  rw [runSum_eq, Finset.sum_range, sum_eight_blocks]
  exact Finset.sum_congr rfl fun k _ => dif_pos k.isLt

-- A quantity reset to 0 + P 0 at the multiples of 8 and increased by P (n mod 8) at every other n is the running sum.
theorem runSum_of_steps {N : ℕ} (a : (n : ℕ) → n < N → M) (P : ℕ → M) (i : ℕ)
    (h0 : ∀ n h, n / 8 = i → n % 8 = 0 → a n h = 0 + P 0)
    (hs : ∀ n h, (n + 1) / 8 = i → ¬(n + 1) % 8 = 0 → a (n + 1) h = a n (Nat.lt_of_succ_lt h) + P ((n + 1) % 8)) :
    ∀ n h, n / 8 = i → a n h = runSum P (n % 8)
  | 0, h, hi => h0 0 h hi rfl
  | n + 1, h, hi => by
    by_cases hk : (n + 1) % 8 = 0
    · rw [h0 _ h hi hk, hk]; rfl
    · rw [hs n h hi hk, runSum_of_steps a P i h0 hs n _ (by omega), show (n + 1) % 8 = n % 8 + 1 by omega]; rfl

end Cert.KernelIdeal.Hand

end
-- ==== Proof.KI.Agg1Value.lean ====
import proofs.«117129_j76819785056523_1_alg».proof.Proof.KI.Agg1
import proofs.«117129_j76819785056523_1_alg».proof.Proof.KI.Agg1Pay
import proofs.«117129_j76819785056523_1_alg».proof.Proof.KI.AggAlgebra

noncomputable section

namespace Cert.KernelIdeal.Hand

open Cert.KernelIdeal Cert.KernelIdeal.Gen
open Idealize.ShloMosaic Idealize.ShloMosaic.Tactic Idealize.ShloMosaic.ValueIdx

theorem zeroOff1 : (![0, 0] : Fin 2 → Nat) = fun _ => 0 := funext fun a => by fin_cases a <;> rfl

variable (V : Contents Ideal) (c : Dev nD)

abbrev adjArr1 : Vec Ideal S12288x12288 .bf16 := V c main_v50
abbrev featArr1 : Vec Ideal S12288x128 .bf16 := V c main_v58
abbrev biasArr1 : Vec Ideal S1x128 .f32 := V c main_v59
abbrev outArr1 : Vec Ideal S12288x128 .bf16 := (dat1 (F := Ideal) V c).arrAt 3 cfg1.N

theorem idx1 : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ k1_off1 (grid1.coords t) (0 : Fin 2) = 1536 * (t.val % 8) ∧ k1_off1 (grid1.coords t) (1 : Fin 2) = 0 :=
  (by decide +kernel : ∀ t : Fin grid1.N, _)

def accStep1 (t : Fin cfg1.N) (acc : Vec Ideal S1536x128 .f32) : Vec Ideal S1536x128 .f32 :=
  k1_pay2 (View.ld (iblk1 V c 1 t : Vec Ideal S12288x128 .bf16)
    (Rect.unit (s := S12288x128) (k1_off1 (grid1.coords t)) S1536x128.size (k1_off1_inb (grid1.coords t)))) acc (iblk1 V c 0 t)

-- Entry (p, q) of the block at point t is entry (r, q) of the array, r = 1536 (t / 8) + p; the step adds the share of K block t mod 8.
theorem step1 (t : Fin cfg1.N) (acc : Vec Ideal S1536x128 .f32) (p : Fin 1536) (q : Fin 128) (r : Fin 12288)
    (hr : r.val = 1536 * (t.val / 8) + p.val) :
    accStep1 V c t acc (ix2 p q)
      = acc (ix2 p q) + blockSum (fun s => adjArr1 V c (ix2 r s) * featArr1 V c (ix2 s q)) (t.val % 8) := by
  obtain ⟨e0, e1, e2, e3, -, -, -, -, e8, e9⟩ := idx1 t
  unfold accStep1 blockSum
  rw [pay1_2_apply, dif_pos (Nat.mod_lt _ (by decide))]
  refine congrArg _ (Finset.sum_congr rfl fun j _ => congrArg₂ (· * ·)
    (congrArg (adjArr1 V c) (Shape.idx_ext₂ ?_ ?_)) (congrArg (featArr1 V c) (Shape.idx_ext₂ ?_ ?_)))
  · show win1_0.index t (0 : Fin 2) * 1536 + 1 * p.val = r.val; omega
  · show win1_0.index t (1 : Fin 2) * 1536 + 1 * j.val = 1536 * (t.val % 8) + j.val; omega
  · show win1_1.index t (0 : Fin 2) * 12288 + 1 * (k1_off1 (grid1.coords t) (0 : Fin 2) + 1 * j.val) = 1536 * (t.val % 8) + j.val; omega
  · show win1_1.index t (1 : Fin 2) * 128 + 1 * (k1_off1 (grid1.coords t) (1 : Fin 2) + 1 * q.val) = q.val; omega

theorem acc1_A (t : Fin cfg1.N) (hk0 : t.val % 8 = 0) :
    (outsAt1 V c t.val t.isLt).2 = accStep1 V c t (k1_pay1 (F := Ideal)) := by
  rw [outsAt1_A V c t hk0 (by omega)]
  dsimp only
  unfold readOver runA1 accStep1
  rw [View.read_writes_junk_eq_canon]
  unfold kernelRun1_A
  dsimp only
  sl_unfold_words
  rw [View.canon_cons_unit_zero (S := S1536x128) zeroOff1, View.readCov_cons_toLoadRect]
  simp only [View.readAt_eq_ld, Memref.IsWhole.read_unread, View.ld_unit_zero (S := S1536x128) zeroOff1,
    View.ld_unit_zero (S := S1536x1536) zeroOff1]
  rfl

theorem acc1_S (t : Fin cfg1.N) (hk0 : ¬t.val % 8 = 0) :
    (outsAt1 V c t.val t.isLt).2 = accStep1 V c t (outsAt1 V c (t.val - 1) (Nat.lt_of_le_of_lt (Nat.sub_le _ _) t.isLt)).2 := by
  by_cases hk7 : t.val % 8 = 7
  · rw [outsAt1_C V c t hk0 hk7]
    dsimp only
    unfold readOver runC1 accStep1
    rw [View.read_writes_junk_eq_canon]
    unfold kernelRun1_C
    dsimp only
    sl_unfold_words
    rw [View.canon_unit_zero (S := S1536x128) zeroOff1]
    simp only [View.readAt_eq_ld, Memref.IsWhole.read_unread, Memref.IsWhole.read_unread (m := scM1_0),
      View.ld_unit_zero (S := S1536x128) zeroOff1, View.ld_unit_zero (S := S1536x1536) zeroOff1]
    rfl
  · rw [outsAt1_B V c t hk0 hk7]
    dsimp only
    unfold readOver runB1 accStep1
    rw [View.read_writes_junk_eq_canon]
    unfold kernelRun1_B
    dsimp only
    rw [View.canon_unit_zero zeroOff1]
    simp only [View.readAt_eq_ld, Memref.IsWhole.read_unread, Memref.IsWhole.read_unread (m := scM1_0),
      View.ld_unit_zero (S := S1536x128) zeroOff1, View.ld_unit_zero (S := S1536x1536) zeroOff1]
    rfl

theorem res1_C (t : Fin cfg1.N) (hk7 : t.val % 8 = 7) :
    (outsAt1 V c t.val t.isLt).1
      = k1_pay3 (accStep1 V c t (outsAt1 V c (t.val - 1) (Nat.lt_of_le_of_lt (Nat.sub_le _ _) t.isLt)).2) (iblk1 V c 2 t) := by
  rw [outsAt1_C V c t (by omega) hk7]
  dsimp only
  unfold readOver runC1 accStep1
  rw [View.read_writes_junk_eq_canon]
  unfold kernelRun1_C
  dsimp only
  sl_unfold_words
  rw [View.canon_unit_zero (S := S1536x128) zeroOff1, View.readCov_cons_toLoadRect]
  simp only [View.readAt_eq_ld, Memref.IsWhole.read_unread, Memref.IsWhole.read_unread (m := scM1_0),
    View.ld_unit_zero (S := S1536x128) zeroOff1, View.ld_unit_zero (S := S1536x1536) zeroOff1, View.ld_unit_zero (S := S1x128) zeroOff1]
  rfl

theorem acc1_eq (n : ℕ) (hn : n < cfg1.N) (p : Fin 1536) (q : Fin 128) (r : Fin 12288) (hr : r.val = 1536 * (n / 8) + p.val) :
    (outsAt1 V c n hn).2 (ix2 p q) = runSum (blockSum fun s => adjArr1 V c (ix2 r s) * featArr1 V c (ix2 s q)) (n % 8) :=
  runSum_of_steps (fun n hn => (outsAt1 V c n hn).2 (ix2 p q)) _ (n / 8)
    (fun m hm hi h0 => by
      rw [acc1_A V c ⟨m, hm⟩ h0, step1 V c ⟨m, hm⟩ _ p q r (by rw [hr, ← hi]), pay1_1_apply, h0])
    (fun m hm hi h0 => by
      rw [acc1_S V c ⟨m + 1, hm⟩ h0, step1 V c ⟨m + 1, hm⟩ _ p q r (by rw [hr, ← hi])]; rfl) n hn rfl

abbrev G1 : Vec Ideal S12288x128 .bf16 := fun i =>
  last1 ((∑ s : Fin 12288, adjArr1 V c (ix2 (i 0) s) * featArr1 V c (ix2 s (i 1))) + biasArr1 V c (ix2 (0 : Fin 1) (i 1)))

theorem out1_apply (t : Fin cfg1.N) (hk7 : t.val % 8 = 7) (p : Fin 1536) (q : Fin 128) (r : Fin 12288)
    (hr : r.val = 1536 * (t.val / 8) + p.val) : (outsAt1 V c t.val t.isLt).1 (ix2 p q) = G1 V c (ix2 r q) := by
  obtain ⟨-, -, -, -, e4, e5, -⟩ := idx1 t
  have hN : t.val < 64 := lt_of_lt_of_eq t.isLt N_1
  rw [res1_C V c t hk7, pay1_3_apply, step1 V c t _ p q r hr, acc1_eq V c (t.val - 1) _ p q r (by rw [hr]; omega),
    show (t.val - 1) % 8 = 6 by omega, hk7, ← runSum_succ, runSum_blockSum]
  refine congrArg (fun y => last1 (_ + biasArr1 V c y)) (Shape.idx_ext₂ ?_ ?_)
  · show win1_2.index t (0 : Fin 2) * 1 + 1 * 0 = 0; omega
  · show win1_2.index t (1 : Fin 2) * 128 + 1 * q.val = q.val; omega

theorem flushed1_eq (t : Fin cfg1.N) (hf : (cfg1.win 3).flush t = true) :
    (dat1 (F := Ideal) V c).flushed 3 t = ((cfg1.win 3).blk t).view.read (Elt Ideal) (G1 V c) := by
  obtain ⟨-, -, -, -, -, -, e6, e7, -⟩ := idx1 t
  show (cfg1.win 3).cut (grid1.coords t) ((dat1 (F := Ideal) V c).after 3 t) = _
  rw [after1_3]
  funext x
  rw [View.read_apply, eq_ix2 x]
  refine (out1_apply V c t ((flush1_3 t).mp hf) _ _ (((cfg1.win 3).blk t).view.emb x 0) ?_).trans
    (congrArg (G1 V c) (Shape.idx_ext₂ rfl ?_))
  · show win1_3.index t (0 : Fin 2) * 1536 + 1 * (x 0).val = _; omega
  · show (x 1).val = win1_3.index t (1 : Fin 2) * 128 + 1 * (x 1).val; omega

theorem cover1 (i : S12288x128.Idx) :
    ∃ t : Fin cfg1.N, (cfg1.win 3).flush t = true ∧ i ∈ ((cfg1.win 3).blk t).view.set := by
  have h0 : (i 0).val < 12288 := (i 0).isLt
  have h1 : (i 1).val < 128 := (i 1).isLt
  obtain ⟨t, ht⟩ : ∃ t : Fin cfg1.N, t.val = 8 * ((i 0).val / 1536) + 7 :=
    ⟨⟨_, by rw [show cfg1.N = 64 from N_1]; omega⟩, rfl⟩
  obtain ⟨-, -, -, -, -, -, e6, e7, -⟩ := idx1 t
  refine ⟨t, (flush1_3 t).mpr (by omega), ?_⟩
  show i ∈ ((View.whole main_v60).slice (win1_3.rect t)).set
  rw [View.set_slice_whole, Rect.mem_set_unit]
  intro a
  match a with
  | ⟨0, _⟩ => show win1_3.index t (0 : Fin 2) * 1536 ≤ (i 0).val ∧ (i 0).val < win1_3.index t (0 : Fin 2) * 1536 + 1536; omega
  | ⟨1, _⟩ => show win1_3.index t (1 : Fin 2) * 128 ≤ (i 1).val ∧ (i 1).val < win1_3.index t (1 : Fin 2) * 128 + 128; omega

theorem agg1_value (r : Fin 12288) (q : Fin 128) :
    outArr1 V c (ix2 r q)
      = last1 ((∑ s : Fin 12288, adjArr1 V c (ix2 r s) * featArr1 V c (ix2 s q)) + biasArr1 V c (ix2 (0 : Fin 1) q)) := by
  show (dat1 (F := Ideal) V c).arrAt 3 cfg1.N (ix2 r q) = _
  rw [(dat1 (F := Ideal) V c).arrAt_eq_of_cover 3 (G1 V c) (flushed1_eq V c) cover1]

end Cert.KernelIdeal.Hand

end
-- ==== Proof.KI.Agg3Pay.lean ====
import proofs.«117129_j76819785056523_1_alg».proof.Proof.KI.Base
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem pay3_1_apply (p : Fin 1536) (q : Fin 64) : (k3_pay1 (F := Ideal)) (ix2 p q) = 0 := by
  unfold k3_pay1
  rw [shapeCast_self]
  exact Ideal.ofBits_zero_f32

theorem pay3_2_apply (H : Vec Ideal S1536x64 .bf16) (acc : Vec Ideal S1536x64 .f32) (A : Vec Ideal S1536x1536 .bf16)
    (p : Fin 1536) (q : Fin 64) :
    k3_pay2 H acc A (ix2 p q) = acc (ix2 p q) + ∑ j : Fin 1536, A (ix2 p j) * H (ix2 j q) := by
  unfold k3_pay2
  rw [shapeCast_self, shapeCast_self, shapeCast_self, addf_apply]
  simp only [matmul]
  rw [Ideal.matmul_constant_zero_apply, ← Equiv.sum_comp (contrEquiv1 _ 1536 rfl rfl).symm]
  refine congrArg _ (Finset.sum_congr rfl fun j _ => ?_)
  have hj := contrEquiv1_symm_val dot_S1536x1536_S1536x64_S1536x64_1_0_0_1_n_n 1536 rfl rfl j
  congr 2 <;> refine Shape.idx_ext₂ ?_ ?_
  · rfl
  · exact (DotDims.lhsIdx_val_of_single _ rfl _ _).trans hj
  · exact (DotDims.rhsIdx_val_of_single _ rfl _ _).trans hj
  · rfl

abbrev last3 (x : EReal) : EReal := max x 0

theorem pay3_3_apply (acc : Vec Ideal S1536x64 .f32) (b : Vec Ideal S1x64 .f32) (p : Fin 1536) (q : Fin 64) :
    k3_pay3 acc b (ix2 p q) = last3 (acc (ix2 p q) + b (ix2 (0 : Fin 1) q)) := by
  unfold k3_pay3
  rw [truncf_apply, maximumf_apply, addf_apply, shapeCast_self, broadcastTo_1b_ab_apply, broadcast_apply]; exact congrArg (max _) Ideal.ofBits_zero_f32

end Cert.KernelIdeal.Hand

end
-- ==== Proof.KI.Agg3Value.lean ====
import proofs.«117129_j76819785056523_1_alg».proof.Proof.KI.Agg3
import proofs.«117129_j76819785056523_1_alg».proof.Proof.KI.Agg3Pay
import proofs.«117129_j76819785056523_1_alg».proof.Proof.KI.AggAlgebra

noncomputable section

namespace Cert.KernelIdeal.Hand

open Cert.KernelIdeal Cert.KernelIdeal.Gen
open Idealize.ShloMosaic Idealize.ShloMosaic.Tactic Idealize.ShloMosaic.ValueIdx

theorem zeroOff3 : (![0, 0] : Fin 2 → Nat) = fun _ => 0 := funext fun a => by fin_cases a <;> rfl

variable (V : Contents Ideal) (c : Dev nD)

abbrev adjArr3 : Vec Ideal S12288x12288 .bf16 := V c main_v50
abbrev featArr3 : Vec Ideal S12288x64 .bf16 := V c main_v61
abbrev biasArr3 : Vec Ideal S1x64 .f32 := V c main_v62
abbrev outArr3 : Vec Ideal S12288x64 .bf16 := (dat3 (F := Ideal) V c).arrAt 3 cfg3.N

theorem idx3 : ∀ t : Fin cfg3.N, win3_0.index t (0 : Fin 2) = t.val / 8 ∧ win3_0.index t (1 : Fin 2) = t.val % 8
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0
    ∧ k3_off1 (grid3.coords t) (0 : Fin 2) = 1536 * (t.val % 8) ∧ k3_off1 (grid3.coords t) (1 : Fin 2) = 0 :=
  (by decide +kernel : ∀ t : Fin grid3.N, _)

def accStep3 (t : Fin cfg3.N) (acc : Vec Ideal S1536x64 .f32) : Vec Ideal S1536x64 .f32 :=
  k3_pay2 (View.ld (iblk3 V c 1 t : Vec Ideal S12288x64 .bf16)
    (Rect.unit (s := S12288x64) (k3_off1 (grid3.coords t)) S1536x64.size (k3_off1_inb (grid3.coords t)))) acc (iblk3 V c 0 t)

theorem step3 (t : Fin cfg3.N) (acc : Vec Ideal S1536x64 .f32) (p : Fin 1536) (q : Fin 64) (r : Fin 12288)
    (hr : r.val = 1536 * (t.val / 8) + p.val) :
    accStep3 V c t acc (ix2 p q)
      = acc (ix2 p q) + blockSum (fun s => adjArr3 V c (ix2 r s) * featArr3 V c (ix2 s q)) (t.val % 8) := by
  obtain ⟨e0, e1, e2, e3, -, -, -, -, e8, e9⟩ := idx3 t
  unfold accStep3 blockSum
  rw [pay3_2_apply, dif_pos (Nat.mod_lt _ (by decide))]
  refine congrArg _ (Finset.sum_congr rfl fun j _ => congrArg₂ (· * ·)
    (congrArg (adjArr3 V c) (Shape.idx_ext₂ ?_ ?_)) (congrArg (featArr3 V c) (Shape.idx_ext₂ ?_ ?_)))
  · show win3_0.index t (0 : Fin 2) * 1536 + 1 * p.val = r.val; omega
  · show win3_0.index t (1 : Fin 2) * 1536 + 1 * j.val = 1536 * (t.val % 8) + j.val; omega
  · show win3_1.index t (0 : Fin 2) * 12288 + 1 * (k3_off1 (grid3.coords t) (0 : Fin 2) + 1 * j.val) = 1536 * (t.val % 8) + j.val; omega
  · show win3_1.index t (1 : Fin 2) * 64 + 1 * (k3_off1 (grid3.coords t) (1 : Fin 2) + 1 * q.val) = q.val; omega

theorem acc3_A (t : Fin cfg3.N) (hk0 : t.val % 8 = 0) :
    (outsAt3 V c t.val t.isLt).2 = accStep3 V c t (k3_pay1 (F := Ideal)) := by
  rw [outsAt3_A V c t hk0 (by omega)]
  dsimp only
  unfold readOver runA3 accStep3
  rw [View.read_writes_junk_eq_canon]
  unfold kernelRun3_A
  dsimp only
  sl_unfold_words
  rw [View.canon_cons_unit_zero (S := S1536x64) zeroOff3, View.readCov_cons_toLoadRect]
  simp only [View.readAt_eq_ld, Memref.IsWhole.read_unread, View.ld_unit_zero (S := S1536x64) zeroOff3,
    View.ld_unit_zero (S := S1536x1536) zeroOff3]
  rfl

theorem acc3_S (t : Fin cfg3.N) (hk0 : ¬t.val % 8 = 0) :
    (outsAt3 V c t.val t.isLt).2 = accStep3 V c t (outsAt3 V c (t.val - 1) (Nat.lt_of_le_of_lt (Nat.sub_le _ _) t.isLt)).2 := by
  by_cases hk7 : t.val % 8 = 7
  · rw [outsAt3_C V c t hk0 hk7]
    dsimp only
    unfold readOver runC3 accStep3
    rw [View.read_writes_junk_eq_canon]
    unfold kernelRun3_C
    dsimp only
    sl_unfold_words
    rw [View.canon_unit_zero (S := S1536x64) zeroOff3]
    simp only [View.readAt_eq_ld, Memref.IsWhole.read_unread, Memref.IsWhole.read_unread (m := scM3_0),
      View.ld_unit_zero (S := S1536x64) zeroOff3, View.ld_unit_zero (S := S1536x1536) zeroOff3]
    rfl
  · rw [outsAt3_B V c t hk0 hk7]
    dsimp only
    unfold readOver runB3 accStep3
    rw [View.read_writes_junk_eq_canon]
    unfold kernelRun3_B
    dsimp only
    rw [View.canon_unit_zero zeroOff3]
    simp only [View.readAt_eq_ld, Memref.IsWhole.read_unread, Memref.IsWhole.read_unread (m := scM3_0),
      View.ld_unit_zero (S := S1536x64) zeroOff3, View.ld_unit_zero (S := S1536x1536) zeroOff3]
    rfl

theorem res3_C (t : Fin cfg3.N) (hk7 : t.val % 8 = 7) :
    (outsAt3 V c t.val t.isLt).1
      = k3_pay3 (accStep3 V c t (outsAt3 V c (t.val - 1) (Nat.lt_of_le_of_lt (Nat.sub_le _ _) t.isLt)).2) (iblk3 V c 2 t) := by
  rw [outsAt3_C V c t (by omega) hk7]
  dsimp only
  unfold readOver runC3 accStep3
  rw [View.read_writes_junk_eq_canon]
  unfold kernelRun3_C
  dsimp only
  sl_unfold_words
  rw [View.canon_unit_zero (S := S1536x64) zeroOff3, View.readCov_cons_toLoadRect]
  simp only [View.readAt_eq_ld, Memref.IsWhole.read_unread, Memref.IsWhole.read_unread (m := scM3_0),
    View.ld_unit_zero (S := S1536x64) zeroOff3, View.ld_unit_zero (S := S1536x1536) zeroOff3, View.ld_unit_zero (S := S1x64) zeroOff3]
  rfl

theorem acc3_eq (n : ℕ) (hn : n < cfg3.N) (p : Fin 1536) (q : Fin 64) (r : Fin 12288) (hr : r.val = 1536 * (n / 8) + p.val) :
    (outsAt3 V c n hn).2 (ix2 p q) = runSum (blockSum fun s => adjArr3 V c (ix2 r s) * featArr3 V c (ix2 s q)) (n % 8) :=
  runSum_of_steps (fun n hn => (outsAt3 V c n hn).2 (ix2 p q)) _ (n / 8)
    (fun m hm hi h0 => by
      rw [acc3_A V c ⟨m, hm⟩ h0, step3 V c ⟨m, hm⟩ _ p q r (by rw [hr, ← hi]), pay3_1_apply, h0])
    (fun m hm hi h0 => by
      rw [acc3_S V c ⟨m + 1, hm⟩ h0, step3 V c ⟨m + 1, hm⟩ _ p q r (by rw [hr, ← hi])]; rfl) n hn rfl

abbrev G3 : Vec Ideal S12288x64 .bf16 := fun i =>
  last3 ((∑ s : Fin 12288, adjArr3 V c (ix2 (i 0) s) * featArr3 V c (ix2 s (i 1))) + biasArr3 V c (ix2 (0 : Fin 1) (i 1)))

theorem out3_apply (t : Fin cfg3.N) (hk7 : t.val % 8 = 7) (p : Fin 1536) (q : Fin 64) (r : Fin 12288)
    (hr : r.val = 1536 * (t.val / 8) + p.val) : (outsAt3 V c t.val t.isLt).1 (ix2 p q) = G3 V c (ix2 r q) := by
  obtain ⟨-, -, -, -, e4, e5, -⟩ := idx3 t
  have hN : t.val < 64 := lt_of_lt_of_eq t.isLt N_3
  rw [res3_C V c t hk7, pay3_3_apply, step3 V c t _ p q r hr, acc3_eq V c (t.val - 1) _ p q r (by rw [hr]; omega),
    show (t.val - 1) % 8 = 6 by omega, hk7, ← runSum_succ, runSum_blockSum]
  refine congrArg (fun y => last3 (_ + biasArr3 V c y)) (Shape.idx_ext₂ ?_ ?_)
  · show win3_2.index t (0 : Fin 2) * 1 + 1 * 0 = 0; omega
  · show win3_2.index t (1 : Fin 2) * 64 + 1 * q.val = q.val; omega

theorem flushed3_eq (t : Fin cfg3.N) (hf : (cfg3.win 3).flush t = true) :
    (dat3 (F := Ideal) V c).flushed 3 t = ((cfg3.win 3).blk t).view.read (Elt Ideal) (G3 V c) := by
  obtain ⟨-, -, -, -, -, -, e6, e7, -⟩ := idx3 t
  show (cfg3.win 3).cut (grid3.coords t) ((dat3 (F := Ideal) V c).after 3 t) = _
  rw [after3_3]
  funext x
  rw [View.read_apply, eq_ix2 x]
  refine (out3_apply V c t ((flush3_3 t).mp hf) _ _ (((cfg3.win 3).blk t).view.emb x 0) ?_).trans
    (congrArg (G3 V c) (Shape.idx_ext₂ rfl ?_))
  · show win3_3.index t (0 : Fin 2) * 1536 + 1 * (x 0).val = _; omega
  · show (x 1).val = win3_3.index t (1 : Fin 2) * 64 + 1 * (x 1).val; omega

theorem cover3 (i : S12288x64.Idx) :
    ∃ t : Fin cfg3.N, (cfg3.win 3).flush t = true ∧ i ∈ ((cfg3.win 3).blk t).view.set := by
  have h0 : (i 0).val < 12288 := (i 0).isLt
  have h1 : (i 1).val < 64 := (i 1).isLt
  obtain ⟨t, ht⟩ : ∃ t : Fin cfg3.N, t.val = 8 * ((i 0).val / 1536) + 7 :=
    ⟨⟨_, by rw [show cfg3.N = 64 from N_3]; omega⟩, rfl⟩
  obtain ⟨-, -, -, -, -, -, e6, e7, -⟩ := idx3 t
  refine ⟨t, (flush3_3 t).mpr (by omega), ?_⟩
  show i ∈ ((View.whole main_v63).slice (win3_3.rect t)).set
  rw [View.set_slice_whole, Rect.mem_set_unit]
  intro a
  match a with
  | ⟨0, _⟩ => show win3_3.index t (0 : Fin 2) * 1536 ≤ (i 0).val ∧ (i 0).val < win3_3.index t (0 : Fin 2) * 1536 + 1536; omega
  | ⟨1, _⟩ => show win3_3.index t (1 : Fin 2) * 64 ≤ (i 1).val ∧ (i 1).val < win3_3.index t (1 : Fin 2) * 64 + 64; omega

theorem agg3_value (r : Fin 12288) (q : Fin 64) :
    outArr3 V c (ix2 r q)
      = last3 ((∑ s : Fin 12288, adjArr3 V c (ix2 r s) * featArr3 V c (ix2 s q)) + biasArr3 V c (ix2 (0 : Fin 1) q)) := by
  show (dat3 (F := Ideal) V c).arrAt 3 cfg3.N (ix2 r q) = _
  rw [(dat3 (F := Ideal) V c).arrAt_eq_of_cover 3 (G3 V c) (flushed3_eq V c) cover3]

end Cert.KernelIdeal.Hand

end
-- ==== Proof.KI.Agg5Pay.lean ====
import proofs.«117129_j76819785056523_1_alg».proof.Proof.KI.Base
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem pay5_1_apply (p : Fin 1536) (q : Fin 128) : (k5_pay1 (F := Ideal)) (ix2 p q) = 0 := by
  unfold k5_pay1
  rw [shapeCast_self]
  exact Ideal.ofBits_zero_f32

theorem pay5_2_apply (H : Vec Ideal S1536x128 .bf16) (acc : Vec Ideal S1536x128 .f32) (A : Vec Ideal S1536x1536 .bf16)
    (p : Fin 1536) (q : Fin 128) :
    k5_pay2 H acc A (ix2 p q) = acc (ix2 p q) + ∑ j : Fin 1536, A (ix2 p j) * H (ix2 j q) := by
  unfold k5_pay2
  rw [shapeCast_self, shapeCast_self, shapeCast_self, addf_apply]
  simp only [matmul]
  rw [Ideal.matmul_constant_zero_apply, ← Equiv.sum_comp (contrEquiv1 _ 1536 rfl rfl).symm]
  refine congrArg _ (Finset.sum_congr rfl fun j _ => ?_)
  have hj := contrEquiv1_symm_val dot_S1536x1536_S1536x128_S1536x128_1_0_0_1_n_n 1536 rfl rfl j
  congr 2 <;> refine Shape.idx_ext₂ ?_ ?_
  · rfl
  · exact (DotDims.lhsIdx_val_of_single _ rfl _ _).trans hj
  · exact (DotDims.rhsIdx_val_of_single _ rfl _ _).trans hj
  · rfl

abbrev last5 (x : EReal) : EReal := max x 0

theorem pay5_3_apply (acc : Vec Ideal S1536x128 .f32) (b : Vec Ideal S1x128 .f32) (p : Fin 1536) (q : Fin 128) :
    k5_pay3 acc b (ix2 p q) = last5 (acc (ix2 p q) + b (ix2 (0 : Fin 1) q)) := by
  unfold k5_pay3
  rw [truncf_apply, maximumf_apply, addf_apply, shapeCast_self, broadcastTo_1b_ab_apply, broadcast_apply]; exact congrArg (max _) Ideal.ofBits_zero_f32

end Cert.KernelIdeal.Hand

end
-- ==== Proof.KI.Agg5Value.lean ====
import proofs.«117129_j76819785056523_1_alg».proof.Proof.KI.Agg5
import proofs.«117129_j76819785056523_1_alg».proof.Proof.KI.Agg5Pay
import proofs.«117129_j76819785056523_1_alg».proof.Proof.KI.AggAlgebra

noncomputable section

namespace Cert.KernelIdeal.Hand

open Cert.KernelIdeal Cert.KernelIdeal.Gen
open Idealize.ShloMosaic Idealize.ShloMosaic.Tactic Idealize.ShloMosaic.ValueIdx

theorem zeroOff5 : (![0, 0] : Fin 2 → Nat) = fun _ => 0 := funext fun a => by fin_cases a <;> rfl

variable (V : Contents Ideal) (c : Dev nD)

abbrev adjArr5 : Vec Ideal S12288x12288 .bf16 := V c main_v50
abbrev featArr5 : Vec Ideal S12288x128 .bf16 := V c main_v64
abbrev biasArr5 : Vec Ideal S1x128 .f32 := V c main_v65
abbrev outArr5 : Vec Ideal S12288x128 .bf16 := (dat5 (F := Ideal) V c).arrAt 3 cfg5.N

theorem idx5 : ∀ t : Fin cfg5.N, win5_0.index t (0 : Fin 2) = t.val / 8 ∧ win5_0.index t (1 : Fin 2) = t.val % 8
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val / 8 ∧ win5_3.index t (1 : Fin 2) = 0
    ∧ k5_off1 (grid5.coords t) (0 : Fin 2) = 1536 * (t.val % 8) ∧ k5_off1 (grid5.coords t) (1 : Fin 2) = 0 :=
  (by decide +kernel : ∀ t : Fin grid5.N, _)

def accStep5 (t : Fin cfg5.N) (acc : Vec Ideal S1536x128 .f32) : Vec Ideal S1536x128 .f32 :=
  k5_pay2 (View.ld (iblk5 V c 1 t : Vec Ideal S12288x128 .bf16)
    (Rect.unit (s := S12288x128) (k5_off1 (grid5.coords t)) S1536x128.size (k5_off1_inb (grid5.coords t)))) acc (iblk5 V c 0 t)

theorem step5 (t : Fin cfg5.N) (acc : Vec Ideal S1536x128 .f32) (p : Fin 1536) (q : Fin 128) (r : Fin 12288)
    (hr : r.val = 1536 * (t.val / 8) + p.val) :
    accStep5 V c t acc (ix2 p q)
      = acc (ix2 p q) + blockSum (fun s => adjArr5 V c (ix2 r s) * featArr5 V c (ix2 s q)) (t.val % 8) := by
  obtain ⟨e0, e1, e2, e3, -, -, -, -, e8, e9⟩ := idx5 t
  unfold accStep5 blockSum
  rw [pay5_2_apply, dif_pos (Nat.mod_lt _ (by decide))]
  refine congrArg _ (Finset.sum_congr rfl fun j _ => congrArg₂ (· * ·)
    (congrArg (adjArr5 V c) (Shape.idx_ext₂ ?_ ?_)) (congrArg (featArr5 V c) (Shape.idx_ext₂ ?_ ?_)))
  · show win5_0.index t (0 : Fin 2) * 1536 + 1 * p.val = r.val; omega
  · show win5_0.index t (1 : Fin 2) * 1536 + 1 * j.val = 1536 * (t.val % 8) + j.val; omega
  · show win5_1.index t (0 : Fin 2) * 12288 + 1 * (k5_off1 (grid5.coords t) (0 : Fin 2) + 1 * j.val) = 1536 * (t.val % 8) + j.val; omega
  · show win5_1.index t (1 : Fin 2) * 128 + 1 * (k5_off1 (grid5.coords t) (1 : Fin 2) + 1 * q.val) = q.val; omega

theorem acc5_A (t : Fin cfg5.N) (hk0 : t.val % 8 = 0) :
    (outsAt5 V c t.val t.isLt).2 = accStep5 V c t (k5_pay1 (F := Ideal)) := by
  rw [outsAt5_A V c t hk0 (by omega)]
  dsimp only
  unfold readOver runA5 accStep5
  rw [View.read_writes_junk_eq_canon]
  unfold kernelRun5_A
  dsimp only
  sl_unfold_words
  rw [View.canon_cons_unit_zero (S := S1536x128) zeroOff5, View.readCov_cons_toLoadRect]
  simp only [View.readAt_eq_ld, Memref.IsWhole.read_unread, View.ld_unit_zero (S := S1536x128) zeroOff5,
    View.ld_unit_zero (S := S1536x1536) zeroOff5]
  rfl

theorem acc5_S (t : Fin cfg5.N) (hk0 : ¬t.val % 8 = 0) :
    (outsAt5 V c t.val t.isLt).2 = accStep5 V c t (outsAt5 V c (t.val - 1) (Nat.lt_of_le_of_lt (Nat.sub_le _ _) t.isLt)).2 := by
  by_cases hk7 : t.val % 8 = 7
  · rw [outsAt5_C V c t hk0 hk7]
    dsimp only
    unfold readOver runC5 accStep5
    rw [View.read_writes_junk_eq_canon]
    unfold kernelRun5_C
    dsimp only
    sl_unfold_words
    rw [View.canon_unit_zero (S := S1536x128) zeroOff5]
    simp only [View.readAt_eq_ld, Memref.IsWhole.read_unread, Memref.IsWhole.read_unread (m := scM5_0),
      View.ld_unit_zero (S := S1536x128) zeroOff5, View.ld_unit_zero (S := S1536x1536) zeroOff5]
    rfl
  · rw [outsAt5_B V c t hk0 hk7]
    dsimp only
    unfold readOver runB5 accStep5
    rw [View.read_writes_junk_eq_canon]
    unfold kernelRun5_B
    dsimp only
    rw [View.canon_unit_zero zeroOff5]
    simp only [View.readAt_eq_ld, Memref.IsWhole.read_unread, Memref.IsWhole.read_unread (m := scM5_0),
      View.ld_unit_zero (S := S1536x128) zeroOff5, View.ld_unit_zero (S := S1536x1536) zeroOff5]
    rfl

theorem res5_C (t : Fin cfg5.N) (hk7 : t.val % 8 = 7) :
    (outsAt5 V c t.val t.isLt).1
      = k5_pay3 (accStep5 V c t (outsAt5 V c (t.val - 1) (Nat.lt_of_le_of_lt (Nat.sub_le _ _) t.isLt)).2) (iblk5 V c 2 t) := by
  rw [outsAt5_C V c t (by omega) hk7]
  dsimp only
  unfold readOver runC5 accStep5
  rw [View.read_writes_junk_eq_canon]
  unfold kernelRun5_C
  dsimp only
  sl_unfold_words
  rw [View.canon_unit_zero (S := S1536x128) zeroOff5, View.readCov_cons_toLoadRect]
  simp only [View.readAt_eq_ld, Memref.IsWhole.read_unread, Memref.IsWhole.read_unread (m := scM5_0),
    View.ld_unit_zero (S := S1536x128) zeroOff5, View.ld_unit_zero (S := S1536x1536) zeroOff5, View.ld_unit_zero (S := S1x128) zeroOff5]
  rfl

theorem acc5_eq (n : ℕ) (hn : n < cfg5.N) (p : Fin 1536) (q : Fin 128) (r : Fin 12288) (hr : r.val = 1536 * (n / 8) + p.val) :
    (outsAt5 V c n hn).2 (ix2 p q) = runSum (blockSum fun s => adjArr5 V c (ix2 r s) * featArr5 V c (ix2 s q)) (n % 8) :=
  runSum_of_steps (fun n hn => (outsAt5 V c n hn).2 (ix2 p q)) _ (n / 8)
    (fun m hm hi h0 => by
      rw [acc5_A V c ⟨m, hm⟩ h0, step5 V c ⟨m, hm⟩ _ p q r (by rw [hr, ← hi]), pay5_1_apply, h0])
    (fun m hm hi h0 => by
      rw [acc5_S V c ⟨m + 1, hm⟩ h0, step5 V c ⟨m + 1, hm⟩ _ p q r (by rw [hr, ← hi])]; rfl) n hn rfl

abbrev G5 : Vec Ideal S12288x128 .bf16 := fun i =>
  last5 ((∑ s : Fin 12288, adjArr5 V c (ix2 (i 0) s) * featArr5 V c (ix2 s (i 1))) + biasArr5 V c (ix2 (0 : Fin 1) (i 1)))

theorem out5_apply (t : Fin cfg5.N) (hk7 : t.val % 8 = 7) (p : Fin 1536) (q : Fin 128) (r : Fin 12288)
    (hr : r.val = 1536 * (t.val / 8) + p.val) : (outsAt5 V c t.val t.isLt).1 (ix2 p q) = G5 V c (ix2 r q) := by
  obtain ⟨-, -, -, -, e4, e5, -⟩ := idx5 t
  have hN : t.val < 64 := lt_of_lt_of_eq t.isLt N_5
  rw [res5_C V c t hk7, pay5_3_apply, step5 V c t _ p q r hr, acc5_eq V c (t.val - 1) _ p q r (by rw [hr]; omega),
    show (t.val - 1) % 8 = 6 by omega, hk7, ← runSum_succ, runSum_blockSum]
  refine congrArg (fun y => last5 (_ + biasArr5 V c y)) (Shape.idx_ext₂ ?_ ?_)
  · show win5_2.index t (0 : Fin 2) * 1 + 1 * 0 = 0; omega
  · show win5_2.index t (1 : Fin 2) * 128 + 1 * q.val = q.val; omega

theorem flushed5_eq (t : Fin cfg5.N) (hf : (cfg5.win 3).flush t = true) :
    (dat5 (F := Ideal) V c).flushed 3 t = ((cfg5.win 3).blk t).view.read (Elt Ideal) (G5 V c) := by
  obtain ⟨-, -, -, -, -, -, e6, e7, -⟩ := idx5 t
  show (cfg5.win 3).cut (grid5.coords t) ((dat5 (F := Ideal) V c).after 3 t) = _
  rw [after5_3]
  funext x
  rw [View.read_apply, eq_ix2 x]
  refine (out5_apply V c t ((flush5_3 t).mp hf) _ _ (((cfg5.win 3).blk t).view.emb x 0) ?_).trans
    (congrArg (G5 V c) (Shape.idx_ext₂ rfl ?_))
  · show win5_3.index t (0 : Fin 2) * 1536 + 1 * (x 0).val = _; omega
  · show (x 1).val = win5_3.index t (1 : Fin 2) * 128 + 1 * (x 1).val; omega

theorem cover5 (i : S12288x128.Idx) :
    ∃ t : Fin cfg5.N, (cfg5.win 3).flush t = true ∧ i ∈ ((cfg5.win 3).blk t).view.set := by
  have h0 : (i 0).val < 12288 := (i 0).isLt
  have h1 : (i 1).val < 128 := (i 1).isLt
  obtain ⟨t, ht⟩ : ∃ t : Fin cfg5.N, t.val = 8 * ((i 0).val / 1536) + 7 :=
    ⟨⟨_, by rw [show cfg5.N = 64 from N_5]; omega⟩, rfl⟩
  obtain ⟨-, -, -, -, -, -, e6, e7, -⟩ := idx5 t
  refine ⟨t, (flush5_3 t).mpr (by omega), ?_⟩
  show i ∈ ((View.whole main_v66).slice (win5_3.rect t)).set
  rw [View.set_slice_whole, Rect.mem_set_unit]
  intro a
  match a with
  | ⟨0, _⟩ => show win5_3.index t (0 : Fin 2) * 1536 ≤ (i 0).val ∧ (i 0).val < win5_3.index t (0 : Fin 2) * 1536 + 1536; omega
  | ⟨1, _⟩ => show win5_3.index t (1 : Fin 2) * 128 ≤ (i 1).val ∧ (i 1).val < win5_3.index t (1 : Fin 2) * 128 + 128; omega

theorem agg5_value (r : Fin 12288) (q : Fin 128) :
    outArr5 V c (ix2 r q)
      = last5 ((∑ s : Fin 12288, adjArr5 V c (ix2 r s) * featArr5 V c (ix2 s q)) + biasArr5 V c (ix2 (0 : Fin 1) q)) := by
  show (dat5 (F := Ideal) V c).arrAt 3 cfg5.N (ix2 r q) = _
  rw [(dat5 (F := Ideal) V c).arrAt_eq_of_cover 3 (G5 V c) (flushed5_eq V c) cover5]

end Cert.KernelIdeal.Hand

end
-- ==== Proof.KI.Agg7Pay.lean ====
import proofs.«117129_j76819785056523_1_alg».proof.Proof.KI.Base
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem pay7_1_apply (p : Fin 1536) (q : Fin 500) : (k7_pay1 (F := Ideal)) (ix2 p q) = 0 := by
  unfold k7_pay1
  rw [shapeCast_self]
  exact Ideal.ofBits_zero_f32

theorem pay7_2_apply (H : Vec Ideal S1536x500 .bf16) (acc : Vec Ideal S1536x500 .f32) (A : Vec Ideal S1536x1536 .bf16)
    (p : Fin 1536) (q : Fin 500) :
    k7_pay2 H acc A (ix2 p q) = acc (ix2 p q) + ∑ j : Fin 1536, A (ix2 p j) * H (ix2 j q) := by
  unfold k7_pay2
  rw [shapeCast_self, shapeCast_self, shapeCast_self, addf_apply]
  simp only [matmul]
  rw [Ideal.matmul_constant_zero_apply, ← Equiv.sum_comp (contrEquiv1 _ 1536 rfl rfl).symm]
  refine congrArg _ (Finset.sum_congr rfl fun j _ => ?_)
  have hj := contrEquiv1_symm_val dot_S1536x1536_S1536x500_S1536x500_1_0_0_1_n_n 1536 rfl rfl j
  congr 2 <;> refine Shape.idx_ext₂ ?_ ?_
  · rfl
  · exact (DotDims.lhsIdx_val_of_single _ rfl _ _).trans hj
  · exact (DotDims.rhsIdx_val_of_single _ rfl _ _).trans hj
  · rfl

abbrev last7 (x : EReal) : EReal := x

theorem pay7_3_apply (acc : Vec Ideal S1536x500 .f32) (b : Vec Ideal S1x500 .f32) (p : Fin 1536) (q : Fin 500) :
    k7_pay3 acc b (ix2 p q) = last7 (acc (ix2 p q) + b (ix2 (0 : Fin 1) q)) := by
  unfold k7_pay3
  rw [addf_apply, shapeCast_self, broadcastTo_1b_ab_apply]

end Cert.KernelIdeal.Hand

end
-- ==== Proof.KI.Agg7Value.lean ====
import proofs.«117129_j76819785056523_1_alg».proof.Proof.KI.Agg7
import proofs.«117129_j76819785056523_1_alg».proof.Proof.KI.Agg7Pay
import proofs.«117129_j76819785056523_1_alg».proof.Proof.KI.AggAlgebra

noncomputable section

namespace Cert.KernelIdeal.Hand

open Cert.KernelIdeal Cert.KernelIdeal.Gen
open Idealize.ShloMosaic Idealize.ShloMosaic.Tactic Idealize.ShloMosaic.ValueIdx

theorem zeroOff7 : (![0, 0] : Fin 2 → Nat) = fun _ => 0 := funext fun a => by fin_cases a <;> rfl

variable (V : Contents Ideal) (c : Dev nD)

abbrev adjArr7 : Vec Ideal S12288x12288 .bf16 := V c main_v50
abbrev featArr7 : Vec Ideal S12288x500 .bf16 := V c main_v67
abbrev biasArr7 : Vec Ideal S1x500 .f32 := V c main_v68
abbrev outArr7 : Vec Ideal S12288x500 .f32 := (dat7 (F := Ideal) V c).arrAt 3 cfg7.N

theorem idx7 : ∀ t : Fin cfg7.N, win7_0.index t (0 : Fin 2) = t.val / 8 ∧ win7_0.index t (1 : Fin 2) = t.val % 8
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val / 8 ∧ win7_3.index t (1 : Fin 2) = 0
    ∧ k7_off1 (grid7.coords t) (0 : Fin 2) = 1536 * (t.val % 8) ∧ k7_off1 (grid7.coords t) (1 : Fin 2) = 0 :=
  (by decide +kernel : ∀ t : Fin grid7.N, _)

def accStep7 (t : Fin cfg7.N) (acc : Vec Ideal S1536x500 .f32) : Vec Ideal S1536x500 .f32 :=
  k7_pay2 (View.ld (iblk7 V c 1 t : Vec Ideal S12288x500 .bf16)
    (Rect.unit (s := S12288x500) (k7_off1 (grid7.coords t)) S1536x500.size (k7_off1_inb (grid7.coords t)))) acc (iblk7 V c 0 t)

theorem step7 (t : Fin cfg7.N) (acc : Vec Ideal S1536x500 .f32) (p : Fin 1536) (q : Fin 500) (r : Fin 12288)
    (hr : r.val = 1536 * (t.val / 8) + p.val) :
    accStep7 V c t acc (ix2 p q)
      = acc (ix2 p q) + blockSum (fun s => adjArr7 V c (ix2 r s) * featArr7 V c (ix2 s q)) (t.val % 8) := by
  obtain ⟨e0, e1, e2, e3, -, -, -, -, e8, e9⟩ := idx7 t
  unfold accStep7 blockSum
  rw [pay7_2_apply, dif_pos (Nat.mod_lt _ (by decide))]
  refine congrArg _ (Finset.sum_congr rfl fun j _ => congrArg₂ (· * ·)
    (congrArg (adjArr7 V c) (Shape.idx_ext₂ ?_ ?_)) (congrArg (featArr7 V c) (Shape.idx_ext₂ ?_ ?_)))
  · show win7_0.index t (0 : Fin 2) * 1536 + 1 * p.val = r.val; omega
  · show win7_0.index t (1 : Fin 2) * 1536 + 1 * j.val = 1536 * (t.val % 8) + j.val; omega
  · show win7_1.index t (0 : Fin 2) * 12288 + 1 * (k7_off1 (grid7.coords t) (0 : Fin 2) + 1 * j.val) = 1536 * (t.val % 8) + j.val; omega
  · show win7_1.index t (1 : Fin 2) * 500 + 1 * (k7_off1 (grid7.coords t) (1 : Fin 2) + 1 * q.val) = q.val; omega

theorem acc7_A (t : Fin cfg7.N) (hk0 : t.val % 8 = 0) :
    (outsAt7 V c t.val t.isLt).2 = accStep7 V c t (k7_pay1 (F := Ideal)) := by
  rw [outsAt7_A V c t hk0 (by omega)]
  dsimp only
  unfold readOver runA7 accStep7
  rw [View.read_writes_junk_eq_canon]
  unfold kernelRun7_A
  dsimp only
  sl_unfold_words
  rw [View.canon_cons_unit_zero (S := S1536x500) zeroOff7, View.readCov_cons_toLoadRect]
  simp only [View.readAt_eq_ld, Memref.IsWhole.read_unread, View.ld_unit_zero (S := S1536x500) zeroOff7,
    View.ld_unit_zero (S := S1536x1536) zeroOff7]
  rfl

theorem acc7_S (t : Fin cfg7.N) (hk0 : ¬t.val % 8 = 0) :
    (outsAt7 V c t.val t.isLt).2 = accStep7 V c t (outsAt7 V c (t.val - 1) (Nat.lt_of_le_of_lt (Nat.sub_le _ _) t.isLt)).2 := by
  by_cases hk7 : t.val % 8 = 7
  · rw [outsAt7_C V c t hk0 hk7]
    dsimp only
    unfold readOver runC7 accStep7
    rw [View.read_writes_junk_eq_canon]
    unfold kernelRun7_C
    dsimp only
    sl_unfold_words
    rw [View.canon_unit_zero (S := S1536x500) zeroOff7]
    simp only [View.readAt_eq_ld, Memref.IsWhole.read_unread, Memref.IsWhole.read_unread (m := scM7_0),
      View.ld_unit_zero (S := S1536x500) zeroOff7, View.ld_unit_zero (S := S1536x1536) zeroOff7]
    rfl
  · rw [outsAt7_B V c t hk0 hk7]
    dsimp only
    unfold readOver runB7 accStep7
    rw [View.read_writes_junk_eq_canon]
    unfold kernelRun7_B
    dsimp only
    rw [View.canon_unit_zero zeroOff7]
    simp only [View.readAt_eq_ld, Memref.IsWhole.read_unread, Memref.IsWhole.read_unread (m := scM7_0),
      View.ld_unit_zero (S := S1536x500) zeroOff7, View.ld_unit_zero (S := S1536x1536) zeroOff7]
    rfl

theorem res7_C (t : Fin cfg7.N) (hk7 : t.val % 8 = 7) :
    (outsAt7 V c t.val t.isLt).1
      = k7_pay3 (accStep7 V c t (outsAt7 V c (t.val - 1) (Nat.lt_of_le_of_lt (Nat.sub_le _ _) t.isLt)).2) (iblk7 V c 2 t) := by
  rw [outsAt7_C V c t (by omega) hk7]
  dsimp only
  unfold readOver runC7 accStep7
  rw [View.read_writes_junk_eq_canon]
  unfold kernelRun7_C
  dsimp only
  sl_unfold_words
  rw [View.canon_unit_zero (S := S1536x500) zeroOff7, View.readCov_cons_toLoadRect]
  simp only [View.readAt_eq_ld, Memref.IsWhole.read_unread, Memref.IsWhole.read_unread (m := scM7_0),
    View.ld_unit_zero (S := S1536x500) zeroOff7, View.ld_unit_zero (S := S1536x1536) zeroOff7, View.ld_unit_zero (S := S1x500) zeroOff7]
  rfl

theorem acc7_eq (n : ℕ) (hn : n < cfg7.N) (p : Fin 1536) (q : Fin 500) (r : Fin 12288) (hr : r.val = 1536 * (n / 8) + p.val) :
    (outsAt7 V c n hn).2 (ix2 p q) = runSum (blockSum fun s => adjArr7 V c (ix2 r s) * featArr7 V c (ix2 s q)) (n % 8) :=
  runSum_of_steps (fun n hn => (outsAt7 V c n hn).2 (ix2 p q)) _ (n / 8)
    (fun m hm hi h0 => by
      rw [acc7_A V c ⟨m, hm⟩ h0, step7 V c ⟨m, hm⟩ _ p q r (by rw [hr, ← hi]), pay7_1_apply, h0])
    (fun m hm hi h0 => by
      rw [acc7_S V c ⟨m + 1, hm⟩ h0, step7 V c ⟨m + 1, hm⟩ _ p q r (by rw [hr, ← hi])]; rfl) n hn rfl

abbrev G7 : Vec Ideal S12288x500 .f32 := fun i =>
  last7 ((∑ s : Fin 12288, adjArr7 V c (ix2 (i 0) s) * featArr7 V c (ix2 s (i 1))) + biasArr7 V c (ix2 (0 : Fin 1) (i 1)))

theorem out7_apply (t : Fin cfg7.N) (hk7 : t.val % 8 = 7) (p : Fin 1536) (q : Fin 500) (r : Fin 12288)
    (hr : r.val = 1536 * (t.val / 8) + p.val) : (outsAt7 V c t.val t.isLt).1 (ix2 p q) = G7 V c (ix2 r q) := by
  obtain ⟨-, -, -, -, e4, e5, -⟩ := idx7 t
  have hN : t.val < 64 := lt_of_lt_of_eq t.isLt N_7
  rw [res7_C V c t hk7, pay7_3_apply, step7 V c t _ p q r hr, acc7_eq V c (t.val - 1) _ p q r (by rw [hr]; omega),
    show (t.val - 1) % 8 = 6 by omega, hk7, ← runSum_succ, runSum_blockSum]
  refine congrArg (fun y => last7 (_ + biasArr7 V c y)) (Shape.idx_ext₂ ?_ ?_)
  · show win7_2.index t (0 : Fin 2) * 1 + 1 * 0 = 0; omega
  · show win7_2.index t (1 : Fin 2) * 500 + 1 * q.val = q.val; omega

theorem flushed7_eq (t : Fin cfg7.N) (hf : (cfg7.win 3).flush t = true) :
    (dat7 (F := Ideal) V c).flushed 3 t = ((cfg7.win 3).blk t).view.read (Elt Ideal) (G7 V c) := by
  obtain ⟨-, -, -, -, -, -, e6, e7, -⟩ := idx7 t
  show (cfg7.win 3).cut (grid7.coords t) ((dat7 (F := Ideal) V c).after 3 t) = _
  rw [after7_3]
  funext x
  rw [View.read_apply, eq_ix2 x]
  refine (out7_apply V c t ((flush7_3 t).mp hf) _ _ (((cfg7.win 3).blk t).view.emb x 0) ?_).trans
    (congrArg (G7 V c) (Shape.idx_ext₂ rfl ?_))
  · show win7_3.index t (0 : Fin 2) * 1536 + 1 * (x 0).val = _; omega
  · show (x 1).val = win7_3.index t (1 : Fin 2) * 500 + 1 * (x 1).val; omega

theorem cover7 (i : S12288x500.Idx) :
    ∃ t : Fin cfg7.N, (cfg7.win 3).flush t = true ∧ i ∈ ((cfg7.win 3).blk t).view.set := by
  have h0 : (i 0).val < 12288 := (i 0).isLt
  have h1 : (i 1).val < 500 := (i 1).isLt
  obtain ⟨t, ht⟩ : ∃ t : Fin cfg7.N, t.val = 8 * ((i 0).val / 1536) + 7 :=
    ⟨⟨_, by rw [show cfg7.N = 64 from N_7]; omega⟩, rfl⟩
  obtain ⟨-, -, -, -, -, -, e6, e7, -⟩ := idx7 t
  refine ⟨t, (flush7_3 t).mpr (by omega), ?_⟩
  show i ∈ ((View.whole main_v69).slice (win7_3.rect t)).set
  rw [View.set_slice_whole, Rect.mem_set_unit]
  intro a
  match a with
  | ⟨0, _⟩ => show win7_3.index t (0 : Fin 2) * 1536 ≤ (i 0).val ∧ (i 0).val < win7_3.index t (0 : Fin 2) * 1536 + 1536; omega
  | ⟨1, _⟩ => show win7_3.index t (1 : Fin 2) * 500 ≤ (i 1).val ∧ (i 1).val < win7_3.index t (1 : Fin 2) * 500 + 500; omega

theorem agg7_value (r : Fin 12288) (q : Fin 500) :
    outArr7 V c (ix2 r q)
      = last7 ((∑ s : Fin 12288, adjArr7 V c (ix2 r s) * featArr7 V c (ix2 s q)) + biasArr7 V c (ix2 (0 : Fin 1) q)) := by
  show (dat7 (F := Ideal) V c).arrAt 3 cfg7.N (ix2 r q) = _
  rw [(dat7 (F := Ideal) V c).arrAt_eq_of_cover 3 (G7 V c) (flushed7_eq V c) cover7]

end Cert.KernelIdeal.Hand

end
-- ==== Proof.KI.Agg9Pay.lean ====
import proofs.«117129_j76819785056523_1_alg».proof.Proof.KI.Base
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem pay9_1_apply (p : Fin 1536) (q : Fin 64) : (k9_pay1 (F := Ideal)) (ix2 p q) = 0 := by
  unfold k9_pay1
  rw [shapeCast_self]
  exact Ideal.ofBits_zero_f32

theorem pay9_2_apply (H : Vec Ideal S1536x64 .bf16) (acc : Vec Ideal S1536x64 .f32) (A : Vec Ideal S1536x1536 .bf16)
    (p : Fin 1536) (q : Fin 64) :
    k9_pay2 H acc A (ix2 p q) = acc (ix2 p q) + ∑ j : Fin 1536, A (ix2 p j) * H (ix2 j q) := by
  unfold k9_pay2
  rw [shapeCast_self, shapeCast_self, shapeCast_self, addf_apply]
  simp only [matmul]
  rw [Ideal.matmul_constant_zero_apply, ← Equiv.sum_comp (contrEquiv1 _ 1536 rfl rfl).symm]
  refine congrArg _ (Finset.sum_congr rfl fun j _ => ?_)
  have hj := contrEquiv1_symm_val dot_S1536x1536_S1536x64_S1536x64_1_0_0_1_n_n 1536 rfl rfl j
  congr 2 <;> refine Shape.idx_ext₂ ?_ ?_
  · rfl
  · exact (DotDims.lhsIdx_val_of_single _ rfl _ _).trans hj
  · exact (DotDims.rhsIdx_val_of_single _ rfl _ _).trans hj
  · rfl

abbrev last9 (x : EReal) : EReal := max x 0

theorem pay9_3_apply (acc : Vec Ideal S1536x64 .f32) (b : Vec Ideal S1x64 .f32) (p : Fin 1536) (q : Fin 64) :
    k9_pay3 acc b (ix2 p q) = last9 (acc (ix2 p q) + b (ix2 (0 : Fin 1) q)) := by
  unfold k9_pay3
  rw [truncf_apply, maximumf_apply, addf_apply, shapeCast_self, broadcastTo_1b_ab_apply, broadcast_apply]; exact congrArg (max _) Ideal.ofBits_zero_f32

end Cert.KernelIdeal.Hand

end
-- ==== Proof.KI.Agg9Value.lean ====
import proofs.«117129_j76819785056523_1_alg».proof.Proof.KI.Agg9
import proofs.«117129_j76819785056523_1_alg».proof.Proof.KI.Agg9Pay
import proofs.«117129_j76819785056523_1_alg».proof.Proof.KI.AggAlgebra

noncomputable section

namespace Cert.KernelIdeal.Hand

open Cert.KernelIdeal Cert.KernelIdeal.Gen
open Idealize.ShloMosaic Idealize.ShloMosaic.Tactic Idealize.ShloMosaic.ValueIdx

theorem zeroOff9 : (![0, 0] : Fin 2 → Nat) = fun _ => 0 := funext fun a => by fin_cases a <;> rfl

variable (V : Contents Ideal) (c : Dev nD)

abbrev adjArr9 : Vec Ideal S12288x12288 .bf16 := V c main_v50
abbrev featArr9 : Vec Ideal S12288x64 .bf16 := V c main_v71
abbrev biasArr9 : Vec Ideal S1x64 .f32 := V c main_v72
abbrev outArr9 : Vec Ideal S12288x64 .bf16 := (dat9 (F := Ideal) V c).arrAt 3 cfg9.N

theorem idx9 : ∀ t : Fin cfg9.N, win9_0.index t (0 : Fin 2) = t.val / 8 ∧ win9_0.index t (1 : Fin 2) = t.val % 8
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val / 8 ∧ win9_3.index t (1 : Fin 2) = 0
    ∧ k9_off1 (grid9.coords t) (0 : Fin 2) = 1536 * (t.val % 8) ∧ k9_off1 (grid9.coords t) (1 : Fin 2) = 0 :=
  (by decide +kernel : ∀ t : Fin grid9.N, _)

def accStep9 (t : Fin cfg9.N) (acc : Vec Ideal S1536x64 .f32) : Vec Ideal S1536x64 .f32 :=
  k9_pay2 (View.ld (iblk9 V c 1 t : Vec Ideal S12288x64 .bf16)
    (Rect.unit (s := S12288x64) (k9_off1 (grid9.coords t)) S1536x64.size (k9_off1_inb (grid9.coords t)))) acc (iblk9 V c 0 t)

theorem step9 (t : Fin cfg9.N) (acc : Vec Ideal S1536x64 .f32) (p : Fin 1536) (q : Fin 64) (r : Fin 12288)
    (hr : r.val = 1536 * (t.val / 8) + p.val) :
    accStep9 V c t acc (ix2 p q)
      = acc (ix2 p q) + blockSum (fun s => adjArr9 V c (ix2 r s) * featArr9 V c (ix2 s q)) (t.val % 8) := by
  obtain ⟨e0, e1, e2, e3, -, -, -, -, e8, e9⟩ := idx9 t
  unfold accStep9 blockSum
  rw [pay9_2_apply, dif_pos (Nat.mod_lt _ (by decide))]
  refine congrArg _ (Finset.sum_congr rfl fun j _ => congrArg₂ (· * ·)
    (congrArg (adjArr9 V c) (Shape.idx_ext₂ ?_ ?_)) (congrArg (featArr9 V c) (Shape.idx_ext₂ ?_ ?_)))
  · show win9_0.index t (0 : Fin 2) * 1536 + 1 * p.val = r.val; omega
  · show win9_0.index t (1 : Fin 2) * 1536 + 1 * j.val = 1536 * (t.val % 8) + j.val; omega
  · show win9_1.index t (0 : Fin 2) * 12288 + 1 * (k9_off1 (grid9.coords t) (0 : Fin 2) + 1 * j.val) = 1536 * (t.val % 8) + j.val; omega
  · show win9_1.index t (1 : Fin 2) * 64 + 1 * (k9_off1 (grid9.coords t) (1 : Fin 2) + 1 * q.val) = q.val; omega

theorem acc9_A (t : Fin cfg9.N) (hk0 : t.val % 8 = 0) :
    (outsAt9 V c t.val t.isLt).2 = accStep9 V c t (k9_pay1 (F := Ideal)) := by
  rw [outsAt9_A V c t hk0 (by omega)]
  dsimp only
  unfold readOver runA9 accStep9
  rw [View.read_writes_junk_eq_canon]
  unfold kernelRun9_A
  dsimp only
  sl_unfold_words
  rw [View.canon_cons_unit_zero (S := S1536x64) zeroOff9, View.readCov_cons_toLoadRect]
  simp only [View.readAt_eq_ld, Memref.IsWhole.read_unread, View.ld_unit_zero (S := S1536x64) zeroOff9,
    View.ld_unit_zero (S := S1536x1536) zeroOff9]
  rfl

theorem acc9_S (t : Fin cfg9.N) (hk0 : ¬t.val % 8 = 0) :
    (outsAt9 V c t.val t.isLt).2 = accStep9 V c t (outsAt9 V c (t.val - 1) (Nat.lt_of_le_of_lt (Nat.sub_le _ _) t.isLt)).2 := by
  by_cases hk7 : t.val % 8 = 7
  · rw [outsAt9_C V c t hk0 hk7]
    dsimp only
    unfold readOver runC9 accStep9
    rw [View.read_writes_junk_eq_canon]
    unfold kernelRun9_C
    dsimp only
    sl_unfold_words
    rw [View.canon_unit_zero (S := S1536x64) zeroOff9]
    simp only [View.readAt_eq_ld, Memref.IsWhole.read_unread, Memref.IsWhole.read_unread (m := scM9_0),
      View.ld_unit_zero (S := S1536x64) zeroOff9, View.ld_unit_zero (S := S1536x1536) zeroOff9]
    rfl
  · rw [outsAt9_B V c t hk0 hk7]
    dsimp only
    unfold readOver runB9 accStep9
    rw [View.read_writes_junk_eq_canon]
    unfold kernelRun9_B
    dsimp only
    rw [View.canon_unit_zero zeroOff9]
    simp only [View.readAt_eq_ld, Memref.IsWhole.read_unread, Memref.IsWhole.read_unread (m := scM9_0),
      View.ld_unit_zero (S := S1536x64) zeroOff9, View.ld_unit_zero (S := S1536x1536) zeroOff9]
    rfl

theorem res9_C (t : Fin cfg9.N) (hk7 : t.val % 8 = 7) :
    (outsAt9 V c t.val t.isLt).1
      = k9_pay3 (accStep9 V c t (outsAt9 V c (t.val - 1) (Nat.lt_of_le_of_lt (Nat.sub_le _ _) t.isLt)).2) (iblk9 V c 2 t) := by
  rw [outsAt9_C V c t (by omega) hk7]
  dsimp only
  unfold readOver runC9 accStep9
  rw [View.read_writes_junk_eq_canon]
  unfold kernelRun9_C
  dsimp only
  sl_unfold_words
  rw [View.canon_unit_zero (S := S1536x64) zeroOff9, View.readCov_cons_toLoadRect]
  simp only [View.readAt_eq_ld, Memref.IsWhole.read_unread, Memref.IsWhole.read_unread (m := scM9_0),
    View.ld_unit_zero (S := S1536x64) zeroOff9, View.ld_unit_zero (S := S1536x1536) zeroOff9, View.ld_unit_zero (S := S1x64) zeroOff9]
  rfl

theorem acc9_eq (n : ℕ) (hn : n < cfg9.N) (p : Fin 1536) (q : Fin 64) (r : Fin 12288) (hr : r.val = 1536 * (n / 8) + p.val) :
    (outsAt9 V c n hn).2 (ix2 p q) = runSum (blockSum fun s => adjArr9 V c (ix2 r s) * featArr9 V c (ix2 s q)) (n % 8) :=
  runSum_of_steps (fun n hn => (outsAt9 V c n hn).2 (ix2 p q)) _ (n / 8)
    (fun m hm hi h0 => by
      rw [acc9_A V c ⟨m, hm⟩ h0, step9 V c ⟨m, hm⟩ _ p q r (by rw [hr, ← hi]), pay9_1_apply, h0])
    (fun m hm hi h0 => by
      rw [acc9_S V c ⟨m + 1, hm⟩ h0, step9 V c ⟨m + 1, hm⟩ _ p q r (by rw [hr, ← hi])]; rfl) n hn rfl

abbrev G9 : Vec Ideal S12288x64 .bf16 := fun i =>
  last9 ((∑ s : Fin 12288, adjArr9 V c (ix2 (i 0) s) * featArr9 V c (ix2 s (i 1))) + biasArr9 V c (ix2 (0 : Fin 1) (i 1)))

theorem out9_apply (t : Fin cfg9.N) (hk7 : t.val % 8 = 7) (p : Fin 1536) (q : Fin 64) (r : Fin 12288)
    (hr : r.val = 1536 * (t.val / 8) + p.val) : (outsAt9 V c t.val t.isLt).1 (ix2 p q) = G9 V c (ix2 r q) := by
  obtain ⟨-, -, -, -, e4, e5, -⟩ := idx9 t
  have hN : t.val < 64 := lt_of_lt_of_eq t.isLt N_9
  rw [res9_C V c t hk7, pay9_3_apply, step9 V c t _ p q r hr, acc9_eq V c (t.val - 1) _ p q r (by rw [hr]; omega),
    show (t.val - 1) % 8 = 6 by omega, hk7, ← runSum_succ, runSum_blockSum]
  refine congrArg (fun y => last9 (_ + biasArr9 V c y)) (Shape.idx_ext₂ ?_ ?_)
  · show win9_2.index t (0 : Fin 2) * 1 + 1 * 0 = 0; omega
  · show win9_2.index t (1 : Fin 2) * 64 + 1 * q.val = q.val; omega

theorem flushed9_eq (t : Fin cfg9.N) (hf : (cfg9.win 3).flush t = true) :
    (dat9 (F := Ideal) V c).flushed 3 t = ((cfg9.win 3).blk t).view.read (Elt Ideal) (G9 V c) := by
  obtain ⟨-, -, -, -, -, -, e6, e7, -⟩ := idx9 t
  show (cfg9.win 3).cut (grid9.coords t) ((dat9 (F := Ideal) V c).after 3 t) = _
  rw [after9_3]
  funext x
  rw [View.read_apply, eq_ix2 x]
  refine (out9_apply V c t ((flush9_3 t).mp hf) _ _ (((cfg9.win 3).blk t).view.emb x 0) ?_).trans
    (congrArg (G9 V c) (Shape.idx_ext₂ rfl ?_))
  · show win9_3.index t (0 : Fin 2) * 1536 + 1 * (x 0).val = _; omega
  · show (x 1).val = win9_3.index t (1 : Fin 2) * 64 + 1 * (x 1).val; omega

theorem cover9 (i : S12288x64.Idx) :
    ∃ t : Fin cfg9.N, (cfg9.win 3).flush t = true ∧ i ∈ ((cfg9.win 3).blk t).view.set := by
  have h0 : (i 0).val < 12288 := (i 0).isLt
  have h1 : (i 1).val < 64 := (i 1).isLt
  obtain ⟨t, ht⟩ : ∃ t : Fin cfg9.N, t.val = 8 * ((i 0).val / 1536) + 7 :=
    ⟨⟨_, by rw [show cfg9.N = 64 from N_9]; omega⟩, rfl⟩
  obtain ⟨-, -, -, -, -, -, e6, e7, -⟩ := idx9 t
  refine ⟨t, (flush9_3 t).mpr (by omega), ?_⟩
  show i ∈ ((View.whole main_v73).slice (win9_3.rect t)).set
  rw [View.set_slice_whole, Rect.mem_set_unit]
  intro a
  match a with
  | ⟨0, _⟩ => show win9_3.index t (0 : Fin 2) * 1536 ≤ (i 0).val ∧ (i 0).val < win9_3.index t (0 : Fin 2) * 1536 + 1536; omega
  | ⟨1, _⟩ => show win9_3.index t (1 : Fin 2) * 64 ≤ (i 1).val ∧ (i 1).val < win9_3.index t (1 : Fin 2) * 64 + 64; omega

theorem agg9_value (r : Fin 12288) (q : Fin 64) :
    outArr9 V c (ix2 r q)
      = last9 ((∑ s : Fin 12288, adjArr9 V c (ix2 r s) * featArr9 V c (ix2 s q)) + biasArr9 V c (ix2 (0 : Fin 1) q)) := by
  show (dat9 (F := Ideal) V c).arrAt 3 cfg9.N (ix2 r q) = _
  rw [(dat9 (F := Ideal) V c).arrAt_eq_of_cover 3 (G9 V c) (flushed9_eq V c) cover9]

end Cert.KernelIdeal.Hand

end
-- ==== Proof.KI.Outer10Value.lean ====
import Idealize.ShloMosaic.Lib.Pipeline.Value
import Idealize.ShloMosaic.Lib.ValueIdx
import Idealize.ShloMosaic.PureOps.Ideal.Laws
import proofs.«117129_j76819785056523_1_alg».proof.Proof.KI.Outer10

noncomputable section

namespace Cert.KernelIdeal.Hand

open Cert.KernelIdeal Cert.KernelIdeal.Gen
open Idealize.ShloMosaic Idealize.ShloMosaic.TcCoe Idealize.ShloMosaic.ValueIdx
open scoped BigOperators

abbrev gramDims : DotDims S1536x64 S1536x64 S1536x1536 := dot_S1536x64_S1536x64_S1536x1536_1_1_0_0_n_n

-- A rank-2 index is determined by its two coordinates.
theorem ix2_ext {n0 n1 : Nat} {i : (⟨2, ![n0, n1]⟩ : Shape).Idx} {a : Fin n0} {b : Fin n1}
    (h0 : (i 0).val = a.val) (h1 : (i 1).val = b.val) : i = ix2 a b :=
  funext fun d => Fin.ext (match d with | ⟨0, _⟩ => h0 | ⟨1, _⟩ => h1)

-- Both operands are contracted along their second axis: entry (p, p') is the dot product of row p of the left with row p' of the right.
theorem k10_pay1_at (x y : Vec Ideal S1536x64 .bf16) (i : S1536x1536.Idx) :
    k10_pay1 (F := Ideal) x y i = ∑ j : Fin 64, x (ix2 (i 0) j) * y (ix2 (i 1) j) := by
  unfold k10_pay1
  simp only [matmul, shapeCast_self]
  rw [Ideal.matmul_constant_zero_apply, ← Equiv.sum_comp (contrEquiv1 gramDims 64 rfl rfl).symm]
  refine Finset.sum_congr rfl fun k _ => ?_
  have hk := contrEquiv1_symm_val gramDims 64 rfl rfl k
  rw [show gramDims.lhsIdx i ((contrEquiv1 gramDims 64 rfl rfl).symm k) = ix2 (i 0) k from
      ix2_ext (by unfold DotDims.lhsIdx; rw [dif_neg (by decide), dif_pos (by decide)]; rfl)
        ((gramDims.lhsIdx_val_of_single rfl i _).trans hk),
    show gramDims.rhsIdx i ((contrEquiv1 gramDims 64 rfl rfl).symm k) = ix2 (i 1) k from
      ix2_ext (by unfold DotDims.rhsIdx; rw [dif_neg (by decide), dif_pos (by decide)]; rfl)
        ((gramDims.rhsIdx_val_of_single rfl i _).trans hk)]
  rfl

abbrev zsArr (V : Contents Ideal) (c : Dev nD) : Vec Ideal S12288x64 .bf16 := V c main_v73

abbrev outArr10 (V : Contents Ideal) (c : Dev nD) : Vec Ideal S12288x12288 .f32 := (dat10 (F := Ideal) V c).arrAt 2 cfg10.N

abbrev gram (Z : Vec Ideal S12288x64 .bf16) : Vec Ideal S12288x12288 .f32 :=
  fun i => ∑ j : Fin 64, Z (ix2 (i 0) j) * Z (ix2 (i 1) j)

theorem zeroOff : (![0, 0] : Fin 2 → Nat) = fun _ => 0 := funext fun a => by fin_cases a <;> rfl

-- Over the 8×8 grid the operands' row blocks are the result block's row and column; the embedding axis is not blocked.
theorem blockIdx10 : ∀ t : Fin cfg10.N, win10_0.index t (0 : Fin 2) = win10_2.index t (0 : Fin 2)
    ∧ win10_0.index t (1 : Fin 2) = 0
    ∧ win10_1.index t (0 : Fin 2) = win10_2.index t (1 : Fin 2)
    ∧ win10_1.index t (1 : Fin 2) = 0 :=
  (by decide +kernel : ∀ t : Fin grid10.N, _)

theorem blockOnto10 : ∀ (q0 q1 : Fin 8), ∃ t : Fin cfg10.N, win10_2.index t = ![q0.val, q1.val] :=
  (by decide +kernel : ∀ (q0 q1 : Fin 8), ∃ t : Fin grid10.N, win10_2.index t = ![q0.val, q1.val])

theorem iblk10_0_apply (V : Contents Ideal) (c : Dev nD) (t : Fin cfg10.N) (p : Fin 1536) (k : Fin 64) (R : Fin 12288)
    (hR : R.val = win10_0.index t (0 : Fin 2) * 1536 + p.val) :
    iblk10 (F := Ideal) V c 0 t (ix2 p k) = zsArr V c (ix2 R k) := by
  obtain ⟨-, e1, -, -⟩ := blockIdx10 t
  show V c main_v73 (((cfg10.win 0).blk t).view.emb (ix2 p k)) = V c main_v73 (ix2 R k)
  refine congrArg _ (ix2_ext ?_ ?_)
  · show win10_0.index t (0 : Fin 2) * 1536 + 1 * p.val = R.val; omega
  · show win10_0.index t (1 : Fin 2) * 64 + 1 * k.val = k.val; omega

theorem iblk10_1_apply (V : Contents Ideal) (c : Dev nD) (t : Fin cfg10.N) (p : Fin 1536) (k : Fin 64) (R : Fin 12288)
    (hR : R.val = win10_1.index t (0 : Fin 2) * 1536 + p.val) :
    iblk10 (F := Ideal) V c 1 t (ix2 p k) = zsArr V c (ix2 R k) := by
  obtain ⟨-, -, -, e3⟩ := blockIdx10 t
  show V c main_v73 (((cfg10.win 1).blk t).view.emb (ix2 p k)) = V c main_v73 (ix2 R k)
  refine congrArg _ (ix2_ext ?_ ?_)
  · show win10_1.index t (0 : Fin 2) * 1536 + 1 * p.val = R.val; omega
  · show win10_1.index t (1 : Fin 2) * 64 + 1 * k.val = k.val; omega

-- Point t's block of the result is block t of the Gram matrix of the embedding's rows.
theorem flushed10_eq (V : Contents Ideal) (c : Dev nD) (t : Fin cfg10.N) :
    (dat10 (F := Ideal) V c).flushed 2 t = ((cfg10.win 2).blk t).view.read (Elt Ideal) (gram (zsArr V c)) := by
  show (cfg10.win 2).cut (grid10.coords t) ((dat10 (F := Ideal) V c).after 2 t) = _
  rw [after10_2]
  unfold out10_2
  rw [View.canon_unit_zero zeroOff]
  simp only [View.ld_unit_zero (S := S1536x64) zeroOff]
  obtain ⟨e0, -, e2, -⟩ := blockIdx10 t
  funext y
  show k10_pay1 (F := Ideal) (iblk10 V c 0 t) (iblk10 V c 1 t) ((cfg10.win 2).xinj (grid10.coords t) y)
    = gram (zsArr V c) (((cfg10.win 2).blk t).view.emb y)
  refine (k10_pay1_at _ _ _).trans (Finset.sum_congr rfl fun k _ => ?_)
  exact congrArg₂ (· * ·)
    (iblk10_0_apply V c t _ k _ (by
      show win10_2.index t (0 : Fin 2) * 1536 + 1 * (y 0).val = win10_0.index t (0 : Fin 2) * 1536 + (y 0).val; omega))
    (iblk10_1_apply V c t _ k _ (by
      show win10_2.index t (1 : Fin 2) * 1536 + 1 * (y 1).val = win10_1.index t (0 : Fin 2) * 1536 + (y 1).val; omega))

-- Entry (r, s) lies in block (r / 1536, s / 1536), which is some grid point's.
theorem cover10 (i : S12288x12288.Idx) :
    ∃ t : Fin cfg10.N, (cfg10.win 2).flush t = true ∧ i ∈ ((cfg10.win 2).blk t).view.set := by
  have hi0 : (i 0).val < 12288 := (i 0).isLt
  have hi1 : (i 1).val < 12288 := (i 1).isLt
  obtain ⟨t, ht⟩ := blockOnto10 ⟨(i 0).val / 1536, by omega⟩ ⟨(i 1).val / 1536, by omega⟩
  have q0 : win10_2.index t (0 : Fin 2) = (i 0).val / 1536 := congrFun ht 0
  have q1 : win10_2.index t (1 : Fin 2) = (i 1).val / 1536 := congrFun ht 1
  refine ⟨t, flush10_2 t, ?_⟩
  show i ∈ ((View.whole main_v74).slice (win10_2.rect t)).set
  rw [View.set_slice_whole, Rect.mem_set_unit]
  intro a
  match a with
  | ⟨0, _⟩ => show win10_2.index t (0 : Fin 2) * 1536 ≤ (i 0).val ∧ (i 0).val < win10_2.index t (0 : Fin 2) * 1536 + 1536; omega
  | ⟨1, _⟩ => show win10_2.index t (1 : Fin 2) * 1536 ≤ (i 1).val ∧ (i 1).val < win10_2.index t (1 : Fin 2) * 1536 + 1536; omega

-- The 64 blocks tile the result, so every entry is the dot product of two rows of the embedding.
theorem outer10_value (V : Contents Ideal) (c : Dev nD) (r s : Fin 12288) :
    outArr10 V c (ix2 r s) = ∑ j : Fin 64, zsArr V c (ix2 r j) * zsArr V c (ix2 s j) :=
  congrFun ((dat10 (F := Ideal) V c).arrAt_eq_of_cover 2 (gram (zsArr V c)) (fun t _ => flushed10_eq V c t) cover10) _

end Cert.KernelIdeal.Hand

end
-- ==== Proof.KI.Spec.lean ====
import Mathlib.Data.EReal.Basic
import Mathlib.Data.EReal.Operations
import Mathlib.Algebra.BigOperators.Group.Finset.Basic
import Mathlib.Data.Fintype.BigOperators

noncomputable section

namespace Cert.GraphAE

open Finset

def mm {n k p : ℕ} (X : Fin n → Fin k → EReal) (W : Fin k → Fin p → EReal) :
    Fin n → Fin p → EReal := fun r q => ∑ j : Fin k, X r j * W j q

def relu {n p : ℕ} (Y : Fin n → Fin p → EReal) : Fin n → Fin p → EReal :=
  fun r q => max (Y r q) 0

def aggS (src dst : Fin 396000 → Fin 12000) (nrm : Fin 396000 → EReal) {p : ℕ}
    (h : Fin 12000 → Fin p → EReal) (b : Fin p → EReal) : Fin 12000 → Fin p → EReal :=
  fun d q => (0 + ∑ e ∈ univ.filter (fun e => dst e = d), h (src e) q * nrm e) + b q

def adj (src dst : Fin 396000 → Fin 12288) (nrm : Fin 396000 → EReal) :
    Fin 12288 → Fin 12288 → EReal :=
  fun d s => 0 + ∑ e ∈ univ.filter (fun e => dst e = d ∧ src e = s), nrm e

def aggD {p : ℕ} (A : Fin 12288 → Fin 12288 → EReal) (h : Fin 12288 → Fin p → EReal)
    (b : Fin p → EReal) : Fin 12288 → Fin p → EReal :=
  fun d q => (∑ s : Fin 12288, A d s * h s q) + b q

def padRows {k : ℕ} (x : Fin 12000 → Fin k → EReal) : Fin 12288 → Fin k → EReal :=
  fun r j => if h : r.val < 12000 then x ⟨r.val, h⟩ j else 0

def emb (i : Fin 12000) : Fin 12288 := ⟨i.val, by omega⟩

structure Params where
  x : Fin 12000 → Fin 500 → EReal
  W1 : Fin 500 → Fin 128 → EReal
  b1 : Fin 128 → EReal
  W2 : Fin 128 → Fin 64 → EReal
  b2 : Fin 64 → EReal
  W3 : Fin 64 → Fin 128 → EReal
  b3 : Fin 128 → EReal
  W4 : Fin 128 → Fin 500 → EReal
  b4 : Fin 500 → EReal
  W5 : Fin 64 → Fin 64 → EReal
  b5 : Fin 64 → EReal

variable (P : Params) (src dst : Fin 396000 → Fin 12000) (nrm : Fin 396000 → EReal)

def refZ1 := relu (aggS src dst nrm (mm P.x P.W1) P.b1)

def refZ := relu (aggS src dst nrm (mm (refZ1 P src dst nrm) P.W2) P.b2)

def refXh := relu (aggS src dst nrm (mm (refZ P src dst nrm) P.W3) P.b3)

def refXhat := aggS src dst nrm (mm (refXh P src dst nrm) P.W4) P.b4

def refZs := relu (aggS src dst nrm (mm (refZ P src dst nrm) P.W5) P.b5)

def refAhat : Fin 12000 → Fin 12000 → EReal :=
  fun r s => ∑ j : Fin 64, refZs P src dst nrm r j * refZs P src dst nrm s j

def kerA := adj (fun e => emb (src e)) (fun e => emb (dst e)) nrm

def kerZ1 := relu (aggD (kerA src dst nrm) (mm (padRows P.x) P.W1) P.b1)

def kerZ := relu (aggD (kerA src dst nrm) (mm (kerZ1 P src dst nrm) P.W2) P.b2)

def kerXh := relu (aggD (kerA src dst nrm) (mm (kerZ P src dst nrm) P.W3) P.b3)

def kerXhat := aggD (kerA src dst nrm) (mm (kerXh P src dst nrm) P.W4) P.b4

def kerZs := relu (aggD (kerA src dst nrm) (mm (kerZ P src dst nrm) P.W5) P.b5)

def kerAhat : Fin 12288 → Fin 12288 → EReal :=
  fun r s => ∑ j : Fin 64, kerZs P src dst nrm r j * kerZs P src dst nrm s j

def Params.Real (P : Params) : Prop :=
  (∀ r j, ∃ v : ℝ, P.x r j = v) ∧ (∀ r j, ∃ v : ℝ, P.W1 r j = v) ∧ (∀ j, ∃ v : ℝ, P.b1 j = v) ∧
  (∀ r j, ∃ v : ℝ, P.W2 r j = v) ∧ (∀ j, ∃ v : ℝ, P.b2 j = v) ∧
  (∀ r j, ∃ v : ℝ, P.W3 r j = v) ∧ (∀ j, ∃ v : ℝ, P.b3 j = v) ∧
  (∀ r j, ∃ v : ℝ, P.W4 r j = v) ∧ (∀ j, ∃ v : ℝ, P.b4 j = v) ∧
  (∀ r j, ∃ v : ℝ, P.W5 r j = v) ∧ (∀ j, ∃ v : ℝ, P.b5 j = v)

end Cert.GraphAE
-- ==== Proof.KI.HostSmall.lean ====
import proofs.«117129_j76819785056523_1_alg».proof.Proof.Gen.KernelIdeal.Regions
import proofs.«117129_j76819785056523_1_alg».proof.Proof.KI.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.StableHlo (after_cons after_nil)

variable (m : (ℓ : Loc nD τ sig) → Buf (Elt Ideal) ℓ) (c : Dev nD)

/- An argument array is as launched until the first region: no host operation before it writes an argument. -/
theorem V4_arg (b : Ref sig .tc) (h1 : b ∉ hostOps0_W := by decide) (h2 : b ∉ hostOps0_1_W := by decide)
    (h3 : b ∉ hostOps0_2_W := by decide) (h4 : b ∉ hostOps0_3_W := by decide) : V4 m c b = m ((c : Thread nD τ).loc b) :=
  (V4_of m c b h4).trans <| (V3_of m c b h3).trans <| (V2_of m c b h2).trans (V1_of m c b h1)

theorem V5_arg (b : Ref sig .tc) (h1 : b ∉ hostOps0_W := by decide) (h2 : b ∉ hostOps0_1_W := by decide)
    (h3 : b ∉ hostOps0_2_W := by decide) (h4 : b ∉ hostOps0_3_W := by decide) (h5 : b ∉ hostOps0_4_W := by decide) :
    V5 m c b = m ((c : Thread nD τ).loc b) :=
  (V5_of m c b h5).trans (V4_arg m c b h1 h2 h3 h4)

abbrev featArr : Vec Ideal S12000x500 .f32 := m ((c : Thread nD τ).loc main_arg0)

theorem host_rows_term :
    (V5 m c main_v52 : Vec Ideal S12288x500 .bf16)
      = pad S12288x500 ![0, 0] ![288, 0] ![0, 0] (featArr m c) (sitofp (F := Ideal) .f32 (constantI S_ 32 0#32))
            pads_S12000x500_S12288x500_02880_000 h_S_ := by
  have e4 : ∀ X : Valuation τ sig (Elt Ideal), (StableHlo.after hostOps0_4 X main_v52 : Vec Ideal S12288x500 .bf16)
      = (X main_v51 : Vec Ideal S12288x500 .f32) := fun X => by after_results; rfl
  have e3 : ∀ X : Valuation τ sig (Elt Ideal), (StableHlo.after hostOps0_3 X main_v51 : Vec Ideal S12288x500 .f32)
      = pad S12288x500 ![0, 0] ![288, 0] ![0, 0] (X main_arg0 : Vec Ideal S12000x500 .f32)
          (sitofp (F := Ideal) .f32 (X main_c_13 : IVec S_ 32)) pads_S12000x500_S12288x500_02880_000 h_S_ := fun X => by
    after_results; rfl
  have e2 : ∀ X : Valuation τ sig (Elt Ideal), (StableHlo.after hostOps0_2 X main_c_13 : IVec S_ 32) = constantI S_ 32 0#32 :=
    fun X => by after_results
  have ea : V3 m c main_arg0 = featArr m c :=
    (V3_of m c main_arg0 (by decide)).trans <| (V2_of m c main_arg0 (by decide)).trans (V1_of m c main_arg0 (by decide))
  show StableHlo.after hostOps0_4 (V4 m c) main_v52 = _
  rw [e4]
  show (StableHlo.after hostOps0_3 (V3 m c) main_v51 : Vec Ideal S12288x500 .f32) = _
  rw [e3, ea]
  have ec : (V3 m c main_c_13 : IVec S_ 32) = constantI S_ 32 0#32 := e2 (V2 m c)
  rw [ec]

theorem host_rows (r : Fin 12288) (j : Fin 500) :
    (V5 m c main_v52 : Vec Ideal S12288x500 .bf16) (ix2 r j)
      = Cert.GraphAE.padRows (fun r j => featArr m c (ix2 r j)) r j := by
  rw [host_rows_term]
  show pad S12288x500 ![0, 0] ![288, 0] ![0, 0] (featArr m c) (sitofp (F := Ideal) .f32 (constantI S_ 32 0#32))
    pads_S12000x500_S12288x500_02880_000 h_S_ (ix2 r j) = _
  unfold Cert.GraphAE.padRows
  by_cases h : r.val < 12000
  · rw [dif_pos h]
    refine pad_apply_of_inside _ _ _ _ _ _ _ _ (ix2 ⟨r.val, h⟩ j) (fun a => ?_)
    match a with
    | ⟨0, _⟩ => show r.val = 0 + r.val * (0 + 1); omega
    | ⟨1, _⟩ => show j.val = 0 + j.val * (0 + 1); omega
  · rw [dif_neg h]
    refine (pad_apply_of_not_inside _ _ _ _ _ _ _ _ (⟨0, by decide⟩ : Fin 2) (fun hin => h ?_)).trans ?_
    · have h3 : (r.val - 0) / (0 + 1) < 12000 := hin.2.2
      omega
    · show ((((0#32 : BitVec 32).toInt : ℝ)) : EReal) = 0
      simp

theorem host_weight1 (j : Fin 500) (q : Fin 128) :
    (V5 m c main_v53 : Vec Ideal S500x128 .bf16) (ix2 j q) = (m ((c : Thread nD τ).loc main_arg2) : Vec Ideal S500x128 .f32) (ix2 j q) := by
  have e4 : ∀ X : Valuation τ sig (Elt Ideal), (StableHlo.after hostOps0_4 X main_v53 : Vec Ideal S500x128 .bf16)
      = (X main_arg2 : Vec Ideal S500x128 .f32) := fun X => by after_results; rfl
  exact congrFun ((e4 (V4 m c)).trans (V4_arg m c main_arg2)) (ix2 j q)

theorem host_weight2 (j : Fin 128) (q : Fin 64) :
    (V5 m c main_v54 : Vec Ideal S128x64 .bf16) (ix2 j q) = (m ((c : Thread nD τ).loc main_arg4) : Vec Ideal S128x64 .f32) (ix2 j q) := by
  have e4 : ∀ X : Valuation τ sig (Elt Ideal), (StableHlo.after hostOps0_4 X main_v54 : Vec Ideal S128x64 .bf16)
      = (X main_arg4 : Vec Ideal S128x64 .f32) := fun X => by after_results; rfl
  exact congrFun ((e4 (V4 m c)).trans (V4_arg m c main_arg4)) (ix2 j q)

theorem host_weight3 (j : Fin 64) (q : Fin 128) :
    (V5 m c main_v55 : Vec Ideal S64x128 .bf16) (ix2 j q) = (m ((c : Thread nD τ).loc main_arg6) : Vec Ideal S64x128 .f32) (ix2 j q) := by
  have e4 : ∀ X : Valuation τ sig (Elt Ideal), (StableHlo.after hostOps0_4 X main_v55 : Vec Ideal S64x128 .bf16)
      = (X main_arg6 : Vec Ideal S64x128 .f32) := fun X => by after_results; rfl
  exact congrFun ((e4 (V4 m c)).trans (V4_arg m c main_arg6)) (ix2 j q)

theorem host_weight4 (j : Fin 128) (q : Fin 500) :
    (V5 m c main_v56 : Vec Ideal S128x500 .bf16) (ix2 j q) = (m ((c : Thread nD τ).loc main_arg8) : Vec Ideal S128x500 .f32) (ix2 j q) := by
  have e4 : ∀ X : Valuation τ sig (Elt Ideal), (StableHlo.after hostOps0_4 X main_v56 : Vec Ideal S128x500 .bf16)
      = (X main_arg8 : Vec Ideal S128x500 .f32) := fun X => by after_results; rfl
  exact congrFun ((e4 (V4 m c)).trans (V4_arg m c main_arg8)) (ix2 j q)

theorem host_weight5 (j : Fin 64) (q : Fin 64) :
    (V5 m c main_v57 : Vec Ideal S64x64 .bf16) (ix2 j q) = (m ((c : Thread nD τ).loc main_arg10) : Vec Ideal S64x64 .f32) (ix2 j q) := by
  have e4 : ∀ X : Valuation τ sig (Elt Ideal), (StableHlo.after hostOps0_4 X main_v57 : Vec Ideal S64x64 .bf16)
      = (X main_arg10 : Vec Ideal S64x64 .f32) := fun X => by after_results; rfl
  exact congrFun ((e4 (V4 m c)).trans (V4_arg m c main_arg10)) (ix2 j q)

theorem host_bias1 (X : Valuation τ sig (Elt Ideal)) (q : Fin 128) :
    (StableHlo.after hostOps1 X main_v59 : Vec Ideal S1x128 .f32) (ix2 (0 : Fin 1) q) = (X main_arg3 : Vec Ideal S128 .f32) (ix1 q) := by
  after_results
  exact shapeCast_a_1a_apply _ _ 0 q

theorem host_bias2 (X : Valuation τ sig (Elt Ideal)) (q : Fin 64) :
    (StableHlo.after hostOps3 X main_v62 : Vec Ideal S1x64 .f32) (ix2 (0 : Fin 1) q) = (X main_arg5 : Vec Ideal S64 .f32) (ix1 q) := by
  after_results
  exact shapeCast_a_1a_apply _ _ 0 q

theorem host_bias3 (X : Valuation τ sig (Elt Ideal)) (q : Fin 128) :
    (StableHlo.after hostOps5 X main_v65 : Vec Ideal S1x128 .f32) (ix2 (0 : Fin 1) q) = (X main_arg7 : Vec Ideal S128 .f32) (ix1 q) := by
  after_results
  exact shapeCast_a_1a_apply _ _ 0 q

theorem host_bias4 (X : Valuation τ sig (Elt Ideal)) (q : Fin 500) :
    (StableHlo.after hostOps7 X main_v68 : Vec Ideal S1x500 .f32) (ix2 (0 : Fin 1) q) = (X main_arg9 : Vec Ideal S500 .f32) (ix1 q) := by
  after_results
  exact shapeCast_a_1a_apply _ _ 0 q

theorem host_bias5 (X : Valuation τ sig (Elt Ideal)) (q : Fin 64) :
    (StableHlo.after hostOps9 X main_v72 : Vec Ideal S1x64 .f32) (ix2 (0 : Fin 1) q) = (X main_arg11 : Vec Ideal S64 .f32) (ix1 q) := by
  after_results
  exact shapeCast_a_1a_apply _ _ 0 q

theorem host_slice_x (X : Valuation τ sig (Elt Ideal)) (r : Fin 12000) (q : Fin 500) :
    (StableHlo.after hostOps8 X main_v70 : Vec Ideal S12000x500 .f32) (ix2 r q)
      = (X main_v69 : Vec Ideal S12288x500 .f32) (ix2 (Cert.GraphAE.emb r) q) := by
  after_results
  exact slice2_axis0_apply 0 _ _ r q (Cert.GraphAE.emb r) (by show r.val = 0 + r.val; omega)

theorem host_slice_a (X : Valuation τ sig (Elt Ideal)) (r s : Fin 12000) :
    (StableHlo.after hostOps11 X main_v75 : Vec Ideal S12000x12000 .f32) (ix2 r s)
      = (X main_v74 : Vec Ideal S12288x12288 .f32) (ix2 (Cert.GraphAE.emb r) (Cert.GraphAE.emb s)) := by
  after_results
  refine extractStridedSlice_apply _ _ _ _ (ix2 (Cert.GraphAE.emb r) (Cert.GraphAE.emb s)) (fun a => ?_)
  match a with
  | ⟨0, _⟩ => show r.val = 0 + r.val; omega
  | ⟨1, _⟩ => show s.val = 0 + s.val; omega

end Cert.KernelIdeal.Hand

end
-- ==== Proof.KI.ParamsOf.lean ====
import proofs.«117129_j76819785056523_1_alg».proof.Proof.KI.Spec
import Idealize.ShloMosaic.Lib.ValueIdx

noncomputable section

namespace Cert.KernelIdeal.Hand

open Idealize.ShloMosaic Idealize.ShloMosaic.ValueIdx

def paramsOf (a0 : FVec Ideal ⟨2, ![12000, 500]⟩ .f32) (a1 : IVec ⟨2, ![2, 384000]⟩ 32)
    (a2 : FVec Ideal ⟨2, ![500, 128]⟩ .f32) (a3 : FVec Ideal ⟨1, ![128]⟩ .f32)
    (a4 : FVec Ideal ⟨2, ![128, 64]⟩ .f32) (a5 : FVec Ideal ⟨1, ![64]⟩ .f32)
    (a6 : FVec Ideal ⟨2, ![64, 128]⟩ .f32) (a7 : FVec Ideal ⟨1, ![128]⟩ .f32)
    (a8 : FVec Ideal ⟨2, ![128, 500]⟩ .f32) (a9 : FVec Ideal ⟨1, ![500]⟩ .f32)
    (a10 : FVec Ideal ⟨2, ![64, 64]⟩ .f32) (a11 : FVec Ideal ⟨1, ![64]⟩ .f32) : Cert.GraphAE.Params where
  x r j := a0 (ix2 r j)
  W1 r j := a2 (ix2 r j)
  b1 j := a3 (ix1 j)
  W2 r j := a4 (ix2 r j)
  b2 j := a5 (ix1 j)
  W3 r j := a6 (ix2 r j)
  b3 j := a7 (ix1 j)
  W4 r j := a8 (ix2 r j)
  b4 j := a9 (ix1 j)
  W5 r j := a10 (ix2 r j)
  b5 j := a11 (ix1 j)

end Cert.KernelIdeal.Hand

end
-- ==== Proof.KI.NormChain.lean ====
import proofs.«117129_j76819785056523_1_alg».proof.Proof.Gen.KernelIdeal
import Idealize.ShloMosaic.PureOps.Ideal
import Idealize.ShloMosaic.Lib.ValueIdx
import Idealize.ShloMosaic.Lib.IdealHost
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.ValueIdx

variable (ei : IVec S2x384000 32)

def srcWords : IVec S396000 32 :=
  concatenate S396000 0
    [⟨S384000, shapeCast S384000 (extractStridedSlice S1x384000 ![0, 0] ei slices_S2x384000_S1x384000_0_0)
        shapeCasts_S1x384000_S384000⟩,
     ⟨S12000, iotaInDim S12000 32 0⟩] concatenates_S384000_S12000_S396000_d0

def dstWords : IVec S396000 32 :=
  concatenate S396000 0
    [⟨S384000, shapeCast S384000 (extractStridedSlice S1x384000 ![1, 0] ei slices_S2x384000_S1x384000_1_0)
        shapeCasts_S1x384000_S384000⟩,
     ⟨S12000, iotaInDim S12000 32 0⟩] concatenates_S384000_S12000_S396000_d0

def wrapWords (n : BitVec 32) (x : IVec S396000 32) : IVec S396000 32 :=
  select (cmpi .slt x (broadcastInDim S396000 ![] bcast_S_S396000 (constantI S_ 32 0#32)))
    (addi x (broadcastInDim S396000 ![] bcast_S_S396000 (constantI S_ 32 n))) x

def degVec : FVec Ideal S12000 .f32 :=
  Host.scatterAdd scatter_S12000_S396000x1_S396000_n_0_0_1
    (broadcastInDim S12000 ![] bcast_S_S12000 (constant (F := Ideal) S_ .f32 0x00000000#32))
    (broadcastInDim S396000x1 ![0] bcast_S396000_S396000x1_0 (wrapWords 12000#32 (dstWords ei)))
    (broadcastInDim S396000 ![] bcast_S_S396000 (constant (F := Ideal) S_ .f32 0x3F800000#32))

def dinvVec : FVec Ideal S12000 .f32 :=
  select
    (cmpf .ogt (degVec ei) (broadcastInDim S12000 ![] bcast_S_S12000 (constant (F := Ideal) S_ .f32 0x00000000#32)))
    (Host.rsqrt (degVec ei))
    (broadcastInDim S12000 ![] bcast_S_S12000 (id (constant (F := Ideal) S_ .f32 0x00000000#32)))

def normVec : FVec Ideal S396000 .f32 :=
  mulf
    (Host.gather gather_S12000_S396000x1_S396000_n_0_n_n_0_1_1 (dinvVec ei)
      (broadcastInDim S396000x1 ![0] bcast_S396000_S396000x1_0 (wrapWords 12000#32 (srcWords ei))))
    (Host.gather gather_S12000_S396000x1_S396000_n_0_n_n_0_1_1 (dinvVec ei)
      (broadcastInDim S396000x1 ![0] bcast_S396000_S396000x1_0 (wrapWords 12000#32 (dstWords ei))))

-- Row r of the edge list followed by the 12000 self-loops; srcWords is row 0 and dstWords row 1.
variable (r : Fin 2) (hs : S2x384000.Slices ![r.val, 0] S1x384000)

def rowWords : IVec S396000 32 :=
  concatenate S396000 0
    [⟨S384000, shapeCast S384000 (extractStridedSlice S1x384000 ![r.val, 0] ei hs) shapeCasts_S1x384000_S384000⟩,
     ⟨S12000, iotaInDim S12000 32 0⟩] concatenates_S384000_S12000_S396000_d0

variable (hr : ∀ i : S2x384000.Idx, 0 ≤ (ei i).toInt ∧ (ei i).toInt < 12000)

def rowNode (e : Fin 396000) : Fin 12000 :=
  if h : e.val < 384000 then
    ⟨(ei (ix2 r (⟨e.val, h⟩ : Fin 384000))).toInt.toNat, by have := hr (ix2 r (⟨e.val, h⟩ : Fin 384000)); omega⟩
  else ⟨e.val - 384000, by have := e.isLt; omega⟩

def srcNode : Fin 396000 → Fin 12000 := rowNode ei 0 hr

def dstNode : Fin 396000 → Fin 12000 := rowNode ei 1 hr

theorem rowWords_lo (e : Fin 396000) (h : e.val < 384000) :
    rowWords ei r hs (ix1 e) = ei (ix2 r (⟨e.val, h⟩ : Fin 384000)) := by
  unfold rowWords
  rw [concatenate_pair_apply_left (0 : Fin S396000.rank) _ _ concatenates_S384000_S12000_S396000_d0
    (ix1 e) rfl (ix1 (⟨e.val, h⟩ : Fin 384000)) (fun b => by match b with | ⟨0, _⟩ => rfl)]
  refine (shapeCast_dropUnit_apply (n := 1) (![384000]) _ shapeCasts_S1x384000_S384000 _).trans ?_
  refine extractStridedSlice_apply _ _ _ _ _ (fun a => ?_)
  match a with
  | ⟨0, _⟩ => rfl
  | ⟨1, _⟩ => exact (Nat.zero_add _).symm

theorem loopWord (x : IVec S384000 32) (e : Fin 396000) (h : ¬ e.val < 384000) :
    concatenate S396000 0 [⟨S384000, x⟩, ⟨S12000, iotaInDim S12000 32 0⟩] concatenates_S384000_S12000_S396000_d0
      (ix1 e) = BitVec.ofNat 32 (e.val - 384000) := by
  have hlt : e.val - 384000 < 12000 := by have := e.isLt; omega
  rw [concatenate_pair_apply_right (0 : Fin S396000.rank) _ _ concatenates_S384000_S12000_S396000_d0
    (ix1 e) rfl rfl (ix1 (⟨e.val - 384000, hlt⟩ : Fin 12000))
    (fun b hb => absurd (Subsingleton.elim _ _) hb)
    (by show e.val - 384000 + 384000 = e.val; omega)]
  rfl

theorem rowWords_toInt (e : Fin 396000) : (rowWords ei r hs (ix1 e)).toInt = (rowNode ei r hr e).val := by
  unfold rowNode
  split
  · next h =>
    rw [rowWords_lo ei r hs e h]
    exact (Int.toNat_of_nonneg (hr _).1).symm
  · next h =>
    unfold rowWords
    rw [loopWord _ e h, StableHlo.Predicate.toInt_ofNat_small _ (by have := e.isLt; omega)]

theorem srcWords_toInt (e : Fin 396000) : (srcWords ei (ix1 e)).toInt = (srcNode ei hr e).val :=
  rowWords_toInt ei 0 _ hr e

theorem dstWords_toInt (e : Fin 396000) : (dstWords ei (ix1 e)).toInt = (dstNode ei hr e).val :=
  rowWords_toInt ei 1 _ hr e

include hr in
theorem rowWords_nonneg (j : S396000.Idx) : 0 ≤ (rowWords ei r hs j).toInt := by
  obtain ⟨e, rfl⟩ : ∃ e : Fin 396000, j = ix1 e := ⟨_, eq_ix1 j⟩
  rw [rowWords_toInt ei r hs hr e]
  exact Int.natCast_nonneg _

-- A vector of non-negative words is left alone by the wrap of negative indices.
theorem wrapWords_of_nonneg (n : BitVec 32) (x : IVec S396000 32) (hx : ∀ j : S396000.Idx, 0 ≤ (x j).toInt) :
    wrapWords n x = x := by
  funext j
  unfold wrapWords
  rw [select_apply]
  have hc : cmpi .slt x (broadcastInDim S396000 ![] bcast_S_S396000 (constantI S_ 32 0#32)) j = 0#1 := by
    show BitVec.ofBool (decide ((x j).toInt < (0#32).toInt)) = 0#1
    rw [decide_eq_false (by have := hx j; simp only [BitVec.toInt_zero]; omega)]
    rfl
  rw [hc, select_zero]

include hr in
theorem wrap12288_src : wrapWords 12288#32 (srcWords ei) = srcWords ei :=
  wrapWords_of_nonneg _ _ (rowWords_nonneg ei 0 _ hr)

include hr in
theorem wrap12288_dst : wrapWords 12288#32 (dstWords ei) = dstWords ei :=
  wrapWords_of_nonneg _ _ (rowWords_nonneg ei 1 _ hr)

theorem rsqrt_or_zero_real (d : EReal) :
    ∃ v : ℝ, Scalar.select (Ideal.cmp .ogt d 0) (Ideal.rsqrt d) (0 : EReal) = (v : EReal) := by
  induction d using EReal.rec with
  | bot => exact ⟨0, by rw [show Ideal.cmp .ogt (⊥ : EReal) 0 = 0#1 by simp [Ideal.cmp], select_zero]; rfl⟩
  | coe r =>
    by_cases hpos : 0 < r
    · exact ⟨(Real.sqrt r)⁻¹, by
        rw [show Ideal.cmp .ogt (r : EReal) 0 = 1#1 by simp [Ideal.cmp, hpos], select_one, Ideal.rsqrt_coe,
          if_neg (not_lt.2 hpos.le), if_neg (ne_of_gt hpos)]⟩
    · exact ⟨0, by rw [show Ideal.cmp .ogt (r : EReal) 0 = 0#1 by simp [Ideal.cmp, hpos], select_zero]; rfl⟩
  | top => exact ⟨0, by rw [Ideal.rsqrt_top]; unfold Scalar.select; split <;> rfl⟩

theorem dinvVec_real (i : S12000.Idx) : ∃ v : ℝ, dinvVec ei i = (v : EReal) := by
  unfold dinvVec
  generalize degVec ei = a
  show ∃ v : ℝ, Scalar.select (Ideal.cmp .ogt (a i) (Ideal.ofBits .f32 0x00000000#32)) (Ideal.rsqrt (a i))
    (Ideal.ofBits .f32 0x00000000#32) = (v : EReal)
  rw [Ideal.ofBits_zero_f32]
  exact rsqrt_or_zero_real _

theorem real_mul {x y : EReal} : (∃ a : ℝ, x = a) → (∃ b : ℝ, y = b) → ∃ v : ℝ, x * y = v
  | ⟨a, ha⟩, ⟨b, hb⟩ => ⟨a * b, by rw [ha, hb, EReal.coe_mul]⟩

include hr in
theorem normVec_real (e : Fin 396000) : ∃ v : ℝ, normVec ei (ix1 e) = (v : EReal) :=
  real_mul (dinvVec_real ei _) (dinvVec_real ei _)

end Cert.KernelIdeal.Hand

end
-- ==== Proof.KI.LaunchData.lean ====
import proofs.«117129_j76819785056523_1_alg».proof.Proof.KI.ParamsOf
import proofs.«117129_j76819785056523_1_alg».proof.Proof.KI.NormChain

noncomputable section

namespace Cert.KernelIdeal.Hand

open Cert.KernelIdeal
open Idealize.ShloMosaic Idealize.ShloMosaic.TcCoe
open Idealize.ShloMosaic.ValueIdx

variable (m : (ℓ : Loc nD τ sig) → Buf (Elt Ideal) ℓ) (c : Dev nD)

abbrev eiOf : IVec S2x384000 32 := m ((c : Thread nD τ).loc main_arg1)

abbrev netP : Cert.GraphAE.Params :=
  paramsOf (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))

abbrev EdgeRange : Prop := ∀ i : S2x384000.Idx, 0 ≤ (eiOf m c i).toInt ∧ (eiOf m c i).toInt < 12000

variable (hr : EdgeRange m c)

abbrev netSrc : Fin 396000 → Fin 12000 := srcNode (eiOf m c) hr

abbrev netDst : Fin 396000 → Fin 12000 := dstNode (eiOf m c) hr

abbrev netNrm : Fin 396000 → EReal := fun e => normVec (eiOf m c) (ix1 e)

end Cert.KernelIdeal.Hand

end
-- ==== Proof.KI.ScatterIdx.lean ====
import proofs.«117129_j76819785056523_1_alg».proof.Proof.Gen.KernelIdeal
import Idealize.ShloMosaic.Lib.ValueIdx

noncomputable section

namespace Cert.KernelIdeal.Hand

open Cert.KernelIdeal Cert.KernelIdeal.Gen
open Idealize.ShloMosaic Idealize.ShloMosaic.ValueIdx

abbrev adjDims : ScatterDims S12288x12288 S396000x2 S396000 := scatter_S12288x12288_S396000x2_S396000_n_01_01_1

theorem scat_siIdx (e : Fin 396000) (k : Fin 2) (hk : k.val < adjDims.scatterDimsToOperandDims.length) :
    adjDims.siIdx (ix1 e) ⟨k.val, hk⟩ = ix2 e k := by
  funext b
  match b, k with
  | ⟨0, _⟩, ⟨0, _⟩ => rfl
  | ⟨0, _⟩, ⟨1, _⟩ => rfl
  | ⟨1, _⟩, ⟨0, _⟩ => rfl
  | ⟨1, _⟩, ⟨1, _⟩ => rfl

theorem scat_start (idx : IVec S396000x2 32) (e : Fin 396000) (a : Fin 2) :
    adjDims.start (ix1 e) idx a = (idx (ix2 e a)).toInt := by
  unfold ScatterDims.start
  fin_cases a
  · rw [dif_pos (by decide)]
    exact congrArg (fun i => (idx i).toInt) (scat_siIdx e (0 : Fin 2) _)
  · rw [dif_pos (by decide)]
    exact congrArg (fun i => (idx i).toInt) (scat_siIdx e (1 : Fin 2) _)

theorem scat_window (j : S396000.Idx) (a : Fin 2) : adjDims.window j a = 0 := by
  unfold ScatterDims.window
  fin_cases a <;> exact dif_neg (by decide)

theorem scat_resultIdx (idx : IVec S396000x2 32) (e : Fin 396000) (p q : Fin 12288)
    (hp : (idx (ix2 e (0 : Fin 2))).toInt = p.val) (hq : (idx (ix2 e (1 : Fin 2))).toInt = q.val) :
    adjDims.resultIdx? (ix1 e) idx = some (ix2 p q) := by
  have hs : ∀ a : Fin 2, adjDims.start (ix1 e) idx a + ((adjDims.window (ix1 e) a : ℕ) : ℤ) = (((ix2 p q) a).val : ℤ) := fun a => by
    rw [scat_start idx e a, scat_window (ix1 e) a]
    match a with
    | ⟨0, _⟩ => show (idx (ix2 e (0 : Fin 2))).toInt + ((0 : ℕ) : ℤ) = (p.val : ℤ); rw [hp]; simp
    | ⟨1, _⟩ => show (idx (ix2 e (1 : Fin 2))).toInt + ((0 : ℕ) : ℤ) = (q.val : ℤ); rw [hq]; simp
  unfold ScatterDims.resultIdx?
  rw [dif_pos (fun a => by
    rw [hs a]
    exact ⟨Int.natCast_nonneg _, Int.ofNat_lt.mpr ((ix2 p q) a).isLt⟩)]
  refine congrArg some (funext fun a => Fin.ext ?_)
  show (adjDims.start (ix1 e) idx a + ((adjDims.window (ix1 e) a : ℕ) : ℤ)).toNat = ((ix2 p q) a).val
  rw [hs a]
  exact Int.toNat_natCast _

end Cert.KernelIdeal.Hand

end
-- ==== Proof.KI.HostStretch2.lean ====
import proofs.«117129_j76819785056523_1_alg».proof.Proof.Gen.KernelIdeal.Launch
import proofs.«117129_j76819785056523_1_alg».proof.Proof.KI.NormChain
import Idealize.ShloMosaic.Lib.StableHlo.Run

noncomputable section

namespace Cert.KernelIdeal.Hand

open Cert.KernelIdeal Cert.KernelIdeal.Gen
open Idealize.ShloMosaic Idealize.ShloMosaic.TcCoe
open Idealize.ShloMosaic.StableHlo (after_cons after_nil)

def adjOfWords (sw dw : IVec S396000 32) (dinv : FVec Ideal S12000 .f32) : FVec Ideal S12288x12288 .bf16 :=
  truncf (F := Ideal) .bf16
    (Host.scatterAdd scatter_S12288x12288_S396000x2_S396000_n_01_01_1
      (broadcastInDim S12288x12288 ![] bcast_S_S12288x12288 (constant (F := Ideal) S_ .f32 0x00000000#32))
      (concatenate S396000x2 1
        [⟨S396000x1, broadcastInDim S396000x1 ![0] bcast_S396000_S396000x1_0 (wrapWords 12288#32 dw)⟩,
         ⟨S396000x1, broadcastInDim S396000x1 ![0] bcast_S396000_S396000x1_0 (wrapWords 12288#32 sw)⟩]
        concatenates_S396000x1_S396000x1_S396000x2_d1)
      (mulf
        (Host.gather gather_S12000_S396000x1_S396000_n_0_n_n_0_1_1 dinv
          (broadcastInDim S396000x1 ![0] bcast_S396000_S396000x1_0 (wrapWords 12000#32 sw)))
        (Host.gather gather_S12000_S396000x1_S396000_n_0_n_n_0_1_1 dinv
          (broadcastInDim S396000x1 ![0] bcast_S396000_S396000x1_0 (wrapWords 12000#32 dw)))))
    bitsLt_bf16_f32

theorem stretch2_v50 (X : Valuation τ sig (Elt Ideal)) :
    (StableHlo.after hostOps0_2 X main_v50 : Vec Ideal S12288x12288 .bf16)
      = adjOfWords (X main_v3) (X main_v6) (X main_v19) := by
  after_results_simp
  rfl

end Cert.KernelIdeal.Hand

end
-- ==== Proof.KI.HostAdj.lean ====
import proofs.«117129_j76819785056523_1_alg».proof.Proof.Gen.KernelIdeal.Regions
import proofs.«117129_j76819785056523_1_alg».proof.Proof.KI.LaunchData
import proofs.«117129_j76819785056523_1_alg».proof.Proof.KI.ScatterIdx
import proofs.«117129_j76819785056523_1_alg».proof.Proof.KI.HostStretch2

noncomputable section

namespace Cert.KernelIdeal.Hand

open Cert.KernelIdeal Cert.KernelIdeal.Gen
open Idealize.ShloMosaic Idealize.ShloMosaic.TcCoe
open Idealize.ShloMosaic.ValueIdx

open Idealize.ShloMosaic.StableHlo (after_cons after_nil)

def edgeIdx : S396000.Idx ≃ Fin 396000 where
  toFun j := j 0
  invFun := ix1
  left_inv j := (eq_ix1 j).symm
  right_inv e := rfl

theorem ix2_eq_iff {n0 n1 : Nat} (a a' : Fin n0) (b b' : Fin n1) : ix2 a b = ix2 a' b' ↔ a = a' ∧ b = b' :=
  ⟨fun h => ⟨congrFun h 0, congrFun h 1⟩, by rintro ⟨rfl, rfl⟩; rfl⟩

theorem pairIdx_fst (dw sw : IVec S396000 32) (e : Fin 396000) :
    concatenate S396000x2 1
      [⟨S396000x1, broadcastInDim S396000x1 ![0] bcast_S396000_S396000x1_0 dw⟩,
       ⟨S396000x1, broadcastInDim S396000x1 ![0] bcast_S396000_S396000x1_0 sw⟩]
      concatenates_S396000x1_S396000x1_S396000x2_d1 (ix2 e (0 : Fin 2)) = dw (ix1 e) := by
  rw [concatenate_pair_apply_left (1 : Fin S396000x2.rank) _ _ concatenates_S396000x1_S396000x1_S396000x2_d1
    (ix2 e (0 : Fin 2)) rfl (ix2 e (0 : Fin 1)) (fun b => by match b with | ⟨0, _⟩ => rfl | ⟨1, _⟩ => rfl)]
  exact broadcastInDim_apply _ _ _ _ (ix1 e) (fun a => by match a with | ⟨0, _⟩ => rfl)

theorem pairIdx_snd (dw sw : IVec S396000 32) (e : Fin 396000) :
    concatenate S396000x2 1
      [⟨S396000x1, broadcastInDim S396000x1 ![0] bcast_S396000_S396000x1_0 dw⟩,
       ⟨S396000x1, broadcastInDim S396000x1 ![0] bcast_S396000_S396000x1_0 sw⟩]
      concatenates_S396000x1_S396000x1_S396000x2_d1 (ix2 e (1 : Fin 2)) = sw (ix1 e) := by
  rw [concatenate_pair_apply_right (1 : Fin S396000x2.rank) _ _ concatenates_S396000x1_S396000x1_S396000x2_d1
    (ix2 e (1 : Fin 2)) rfl rfl (ix2 e (0 : Fin 1))
    (fun b => by match b with | ⟨0, _⟩ => exact fun _ => rfl | ⟨1, _⟩ => exact fun h => absurd rfl h) rfl]
  exact broadcastInDim_apply _ _ _ _ (ix1 e) (fun a => by match a with | ⟨0, _⟩ => rfl)

theorem scatterAdd_entry (x : FVec Ideal S12288x12288 .f32) (idx : IVec S396000x2 32) (upd : FVec Ideal S396000 .f32)
    (dn sn : Fin 396000 → Fin 12288)
    (hidx : ∀ e : Fin 396000,
      scatter_S12288x12288_S396000x2_S396000_n_01_01_1.resultIdx? (ix1 e) idx = some (ix2 (dn e) (sn e)))
    (d s : Fin 12288) :
    Host.scatterAdd scatter_S12288x12288_S396000x2_S396000_n_01_01_1 x idx upd (ix2 d s)
      = x (ix2 d s) + ∑ e ∈ Finset.univ.filter (fun e => dn e = d ∧ sn e = s), upd (ix1 e) := by
  have h1 : Host.scatterAdd scatter_S12288x12288_S396000x2_S396000_n_01_01_1 x idx upd
      = Ideal.hostScatterAdd scatter_S12288x12288_S396000x2_S396000_n_01_01_1 x idx upd := rfl
  rw [h1]
  unfold Ideal.hostScatterAdd
  refine congrArg (x (ix2 d s) + ·) ?_
  refine Finset.sum_equiv edgeIdx (fun j => ?_) (fun j _ => ?_)
  · obtain ⟨e, rfl⟩ : ∃ e : Fin 396000, j = ix1 e := ⟨_, eq_ix1 j⟩
    rw [Finset.mem_filter, Finset.mem_filter, hidx e, Option.some.injEq, ix2_eq_iff]
    simp only [Finset.mem_univ, true_and]
    rfl
  · obtain ⟨e, rfl⟩ : ∃ e : Fin 396000, j = ix1 e := ⟨_, eq_ix1 j⟩
    rfl

theorem zeros_entry (i : S12288x12288.Idx) :
    broadcastInDim S12288x12288 ![] bcast_S_S12288x12288 (constant (F := Ideal) S_ .f32 0x00000000#32) i = 0 := by
  rw [broadcastInDim_scalar_apply, constant_apply, Ideal.ofBits_zero_f32]

theorem ops0_src (X : Valuation τ sig (Elt Ideal)) :
    (StableHlo.after hostOps0 X main_v3 : Vec Ideal S396000 .i32) = srcWords (X main_arg1) := by
  after_results_simp
  rfl

theorem ops0_dst (X : Valuation τ sig (Elt Ideal)) :
    (StableHlo.after hostOps0 X main_v6 : Vec Ideal S396000 .i32) = dstWords (X main_arg1) := by
  after_results_simp
  rfl

theorem ops0_pos (X : Valuation τ sig (Elt Ideal)) :
    (StableHlo.after hostOps0 X main_v17 : Vec Ideal S12000 .i1)
      = cmpf .ogt (degVec (X main_arg1))
          (broadcastInDim S12000 ![] bcast_S_S12000 (constant (F := Ideal) S_ .f32 0x00000000#32)) := by
  after_results_simp
  rfl

theorem ops0_rsqrt (X : Valuation τ sig (Elt Ideal)) :
    (StableHlo.after hostOps0 X main_v18 : Vec Ideal S12000 .f32) = Host.rsqrt (degVec (X main_arg1)) := by
  after_results_simp
  rfl

theorem ops0_zero (X : Valuation τ sig (Elt Ideal)) :
    (StableHlo.after hostOps0 X main_cst_3 : Vec Ideal S_ .f32) = constant (F := Ideal) S_ .f32 0x00000000#32 := by
  after_results_simp

theorem ops1_dinv (X : Valuation τ sig (Elt Ideal)) :
    (StableHlo.after hostOps0_1 X main_v19 : Vec Ideal S12000 .f32)
      = select (X main_v17 : Vec Ideal S12000 .i1) (X main_v18 : Vec Ideal S12000 .f32)
          (broadcastInDim S12000 ![] bcast_S_S12000 (id (X main_cst_3 : Vec Ideal S_ .f32))) := by
  after_results
  rfl

theorem adjOfWords_entry (ei : IVec S2x384000 32)
    (hr : ∀ i : S2x384000.Idx, 0 ≤ (ei i).toInt ∧ (ei i).toInt < 12000) (d s : Fin 12288) :
    adjOfWords (srcWords ei) (dstWords ei) (dinvVec ei) (ix2 d s)
      = Cert.GraphAE.kerA (srcNode ei hr) (dstNode ei hr) (fun e => normVec ei (ix1 e)) d s := by
  unfold adjOfWords
  rw [truncf_apply]
  rw [scatterAdd_entry _ _ _ (fun e => Cert.GraphAE.emb (dstNode ei hr e)) (fun e => Cert.GraphAE.emb (srcNode ei hr e))
    (fun e => scat_resultIdx _ e _ _
      (by
        rw [pairIdx_fst, wrap12288_dst ei hr]
        exact dstWords_toInt ei hr e)
      (by
        rw [pairIdx_snd, wrap12288_src ei hr]
        exact srcWords_toInt ei hr e)) d s,
    zeros_entry]
  rfl

section Launch

variable (m : (ℓ : Loc nD τ sig) → Buf (Elt Ideal) ℓ) (c : Dev nD)

theorem V2_src : (V2 m c main_v3 : Vec Ideal S396000 .i32) = srcWords (eiOf m c) :=
  (V2_of m c main_v3 (by decide)).trans (ops0_src (V0 m c))

theorem V2_dst : (V2 m c main_v6 : Vec Ideal S396000 .i32) = dstWords (eiOf m c) :=
  (V2_of m c main_v6 (by decide)).trans (ops0_dst (V0 m c))

theorem V2_dinv : (V2 m c main_v19 : Vec Ideal S12000 .f32) = dinvVec (eiOf m c) := by
  have e17 : (V1 m c main_v17 : Vec Ideal S12000 .i1) = _ := ops0_pos (V0 m c)
  have e18 : (V1 m c main_v18 : Vec Ideal S12000 .f32) = _ := ops0_rsqrt (V0 m c)
  have e3 : (V1 m c main_cst_3 : Vec Ideal S_ .f32) = _ := ops0_zero (V0 m c)
  have h := ops1_dinv (V1 m c)
  rw [e17, e18, e3] at h
  exact h

theorem V5_adj : (V5 m c main_v50 : Vec Ideal S12288x12288 .bf16)
    = adjOfWords (srcWords (eiOf m c)) (dstWords (eiOf m c)) (dinvVec (eiOf m c)) := by
  have h := stretch2_v50 (V2 m c)
  rw [V2_src m c, V2_dst m c, V2_dinv m c] at h
  exact ((V5_of m c main_v50 (by decide)).trans (V4_of m c main_v50 (by decide))).trans h

theorem host_adj (hr : EdgeRange m c) (d s : Fin 12288) :
    (V5 m c main_v50 : Vec Ideal S12288x12288 .bf16) (ix2 d s)
      = Cert.GraphAE.kerA (netSrc m c hr) (netDst m c hr) (netNrm m c) d s := by
  rw [V5_adj m c]
  exact adjOfWords_entry (eiOf m c) hr d s

end Launch

end Cert.KernelIdeal.Hand

end
-- ==== Proof.KI.KernelNet.lean ====
import proofs.«117129_j76819785056523_1_alg».proof.Proof.KI.RunVals
import proofs.«117129_j76819785056523_1_alg».proof.Proof.KI.Feat0Value
import proofs.«117129_j76819785056523_1_alg».proof.Proof.KI.Feat2Value
import proofs.«117129_j76819785056523_1_alg».proof.Proof.KI.Feat4Value
import proofs.«117129_j76819785056523_1_alg».proof.Proof.KI.Feat6Value
import proofs.«117129_j76819785056523_1_alg».proof.Proof.KI.Feat8Value
import proofs.«117129_j76819785056523_1_alg».proof.Proof.KI.Agg1Value
import proofs.«117129_j76819785056523_1_alg».proof.Proof.KI.Agg3Value
import proofs.«117129_j76819785056523_1_alg».proof.Proof.KI.Agg5Value
import proofs.«117129_j76819785056523_1_alg».proof.Proof.KI.Agg7Value
import proofs.«117129_j76819785056523_1_alg».proof.Proof.KI.Agg9Value
import proofs.«117129_j76819785056523_1_alg».proof.Proof.KI.Outer10Value
import proofs.«117129_j76819785056523_1_alg».proof.Proof.KI.HostSmall
import proofs.«117129_j76819785056523_1_alg».proof.Proof.KI.HostAdj

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pure
open Cert.GraphAE

-- A sum of row entries times column entries is the product's entry, once each operand is known entry by entry.
theorem mm_of_arrays {n k p : ℕ} {X : Fin n → Fin k → EReal} {W : Fin k → Fin p → EReal}
    {A A' : (⟨2, ![n, k]⟩ : Shape).Idx → EReal} {B B' : (⟨2, ![k, p]⟩ : Shape).Idx → EReal} {v : EReal} {r : Fin n} {q : Fin p}
    (hv : v = ∑ j, A (ix2 r j) * B (ix2 j q)) (hA : A = A') (hx : ∀ j, A' (ix2 r j) = X r j) (hB : B = B')
    (hw : ∀ j, B' (ix2 j q) = W j q) : v = mm X W r q := by
  subst hA hB; simp only [hv, mm, hx, hw]

theorem aggD_of_arrays {p : ℕ} {A : Fin 12288 → Fin 12288 → EReal} {h : Fin 12288 → Fin p → EReal} {b : Fin p → EReal}
    {M M' : (⟨2, ![12288, 12288]⟩ : Shape).Idx → EReal} {H H' : (⟨2, ![12288, p]⟩ : Shape).Idx → EReal} {β : EReal}
    {d : Fin 12288} {q : Fin p} (hM : M = M') (ha : ∀ s, M' (ix2 d s) = A d s) (hH : H = H') (hf : ∀ s, H' (ix2 s q) = h s q)
    (hβ : β = b q) : (∑ s, M (ix2 d s) * H (ix2 s q)) + β = aggD A h b d q := by
  subst hM hH; simp only [aggD, ha, hf, hβ]

end Pure

section Keep

variable (m : (ℓ : Loc nD τ sig) → Buf (Elt Ideal) ℓ) (c : Dev nD)

/- A buffer that no item between two points writes keeps its contents; each lemma spans one layer's items. -/
theorem W7_keep (b : Ref sig .tc) (h1 : b ≠ main_v58 := by decide) (h2 : b ∉ hostOps1_W := by decide) : W7 m c b = V5 m c b :=
  (StableHlo.after_of_writes_sub hostOps1 _ hostOps1_writes h2 : W7 m c b = W6 m c b).trans (W6_ne m c b h1)
theorem W10_keep (b : Ref sig .tc) (h1 : b ≠ main_v60 := by decide) (h2 : b ≠ main_v61 := by decide) (h3 : b ∉ hostOps3_W := by decide) :
    W10 m c b = W7 m c b :=
  (StableHlo.after_of_writes_sub hostOps3 _ hostOps3_writes h3 : W10 m c b = W9 m c b).trans <| (W9_ne m c b h2).trans (W8_ne m c b h1)
theorem W13_keep (b : Ref sig .tc) (h1 : b ≠ main_v63 := by decide) (h2 : b ≠ main_v64 := by decide) (h3 : b ∉ hostOps5_W := by decide) :
    W13 m c b = W10 m c b :=
  (StableHlo.after_of_writes_sub hostOps5 _ hostOps5_writes h3 : W13 m c b = W12 m c b).trans <| (W12_ne m c b h2).trans (W11_ne m c b h1)
theorem W16_keep (b : Ref sig .tc) (h1 : b ≠ main_v66 := by decide) (h2 : b ≠ main_v67 := by decide) (h3 : b ∉ hostOps7_W := by decide) :
    W16 m c b = W13 m c b :=
  (StableHlo.after_of_writes_sub hostOps7 _ hostOps7_writes h3 : W16 m c b = W15 m c b).trans <| (W15_ne m c b h2).trans (W14_ne m c b h1)
theorem W18_keep (b : Ref sig .tc) (h1 : b ≠ main_v69 := by decide) (h2 : b ∉ hostOps8_W := by decide) : W18 m c b = W16 m c b :=
  (StableHlo.after_of_writes_sub hostOps8 _ hostOps8_writes h2 : W18 m c b = W17 m c b).trans (W17_ne m c b h1)
theorem W20_keep (b : Ref sig .tc) (h1 : b ≠ main_v71 := by decide) (h2 : b ∉ hostOps9_W := by decide) : W20 m c b = W18 m c b :=
  (StableHlo.after_of_writes_sub hostOps9 _ hostOps9_writes h2 : W20 m c b = W19 m c b).trans (W19_ne m c b h1)

theorem W7_adj : W7 m c main_v50 = V5 m c main_v50 := W7_keep m c _
theorem W10_adj : W10 m c main_v50 = V5 m c main_v50 := (W10_keep m c _).trans (W7_adj m c)
theorem W13_adj : W13 m c main_v50 = V5 m c main_v50 := (W13_keep m c _).trans (W10_adj m c)
theorem W16_adj : W16 m c main_v50 = V5 m c main_v50 := (W16_keep m c _).trans (W13_adj m c)
theorem W20_adj : W20 m c main_v50 = V5 m c main_v50 := (W20_keep m c _).trans <| (W18_keep m c _).trans (W16_adj m c)

theorem W8_weight : W8 m c main_v54 = V5 m c main_v54 := (W8_ne m c _ (by decide)).trans (W7_keep m c _)
theorem W11_weight : W11 m c main_v55 = V5 m c main_v55 :=
  (W11_ne m c _ (by decide)).trans <| (W10_keep m c _).trans (W7_keep m c _)
theorem W14_weight : W14 m c main_v56 = V5 m c main_v56 :=
  (W14_ne m c _ (by decide)).trans <| (W13_keep m c _).trans <| (W10_keep m c _).trans (W7_keep m c _)
theorem W18_weight : W18 m c main_v57 = V5 m c main_v57 :=
  (W18_keep m c _).trans <| (W16_keep m c _).trans <| (W13_keep m c _).trans <| (W10_keep m c _).trans (W7_keep m c _)

theorem W6_bias : W6 m c main_arg3 = m ((c : Thread nD τ).loc main_arg3) := (W6_ne m c _ (by decide)).trans (V5_arg m c _)
theorem W9_bias : W9 m c main_arg5 = m ((c : Thread nD τ).loc main_arg5) :=
  (W9_ne m c _ (by decide)).trans <| (W8_ne m c _ (by decide)).trans <| (W7_keep m c _).trans (V5_arg m c _)
theorem W12_bias : W12 m c main_arg7 = m ((c : Thread nD τ).loc main_arg7) :=
  (W12_ne m c _ (by decide)).trans <| (W11_ne m c _ (by decide)).trans <| (W10_keep m c _).trans <| (W7_keep m c _).trans (V5_arg m c _)
theorem W15_bias : W15 m c main_arg9 = m ((c : Thread nD τ).loc main_arg9) :=
  (W15_ne m c _ (by decide)).trans <| (W14_ne m c _ (by decide)).trans <| (W13_keep m c _).trans <| (W10_keep m c _).trans <|
    (W7_keep m c _).trans (V5_arg m c _)
theorem W19_bias : W19 m c main_arg11 = m ((c : Thread nD τ).loc main_arg11) :=
  (W19_ne m c _ (by decide)).trans <| (W18_keep m c _).trans <| (W16_keep m c _).trans <| (W13_keep m c _).trans <|
    (W10_keep m c _).trans <| (W7_keep m c _).trans (V5_arg m c _)

theorem W7_feat : W7 m c main_v58 = o0 m c :=
  (StableHlo.after_of_writes_sub hostOps1 _ hostOps1_writes (by decide) : W7 m c main_v58 = W6 m c main_v58).trans (W6_out m c)
theorem W10_feat : W10 m c main_v61 = o2 m c :=
  (StableHlo.after_of_writes_sub hostOps3 _ hostOps3_writes (by decide) : W10 m c main_v61 = W9 m c main_v61).trans (W9_out m c)
theorem W13_feat : W13 m c main_v64 = o4 m c :=
  (StableHlo.after_of_writes_sub hostOps5 _ hostOps5_writes (by decide) : W13 m c main_v64 = W12 m c main_v64).trans (W12_out m c)
theorem W16_feat : W16 m c main_v67 = o6 m c :=
  (StableHlo.after_of_writes_sub hostOps7 _ hostOps7_writes (by decide) : W16 m c main_v67 = W15 m c main_v67).trans (W15_out m c)
theorem W20_feat : W20 m c main_v71 = o8 m c :=
  (StableHlo.after_of_writes_sub hostOps9 _ hostOps9_writes (by decide) : W20 m c main_v71 = W19 m c main_v71).trans (W19_out m c)
theorem W18_latent : W18 m c main_v63 = o3 m c :=
  (W18_keep m c _).trans <| (W16_keep m c _).trans <|
    (StableHlo.after_of_writes_sub hostOps5 _ hostOps5_writes (by decide) : W13 m c main_v63 = W12 m c main_v63).trans <|
      (W12_ne m c _ (by decide)).trans (W11_out m c)
theorem W23_xhat : W23 m c main_v70 = W18 m c main_v70 :=
  (StableHlo.after_of_writes_sub hostOps11 _ hostOps11_writes (by decide) : W23 m c main_v70 = W22 m c main_v70).trans <|
    (W22_ne m c _ (by decide)).trans <| (W21_ne m c _ (by decide)).trans (W20_keep m c _)

end Keep

section Layers
open Cert.GraphAE

variable (m : (ℓ : Loc nD τ sig) → Buf (Elt Ideal) ℓ) (c : Dev nD) (hr : EdgeRange m c)

theorem o0_eq (s : Fin 12288) (q : Fin 128) :
    (o0 m c : Vec Ideal S12288x128 .bf16) (ix2 s q) = mm (padRows (netP m c).x) (netP m c).W1 s q :=
  mm_of_arrays (feat0_value (fun c b => W5 m c b) c s q) rfl (host_rows m c s) rfl (host_weight1 m c · q)

theorem o1_eq (d : Fin 12288) (q : Fin 128) :
    (o1 m c : Vec Ideal S12288x128 .bf16) (ix2 d q) = kerZ1 (netP m c) (netSrc m c hr) (netDst m c hr) (netNrm m c) d q :=
  (agg1_value (fun c b => W7 m c b) c d q).trans <| congrArg (max · 0) <| aggD_of_arrays (W7_adj m c) (host_adj m c hr d)
    (W7_feat m c) (o0_eq m c · q) ((host_bias1 (W6 m c) q).trans (congrFun (W6_bias m c) (ix1 q)))

theorem o2_eq (s : Fin 12288) (q : Fin 64) :
    (o2 m c : Vec Ideal S12288x64 .bf16) (ix2 s q) = mm (kerZ1 (netP m c) (netSrc m c hr) (netDst m c hr) (netNrm m c)) (netP m c).W2 s q :=
  mm_of_arrays (feat2_value (fun c b => W8 m c b) c s q) (W8_out m c) (o1_eq m c hr s) (W8_weight m c) (host_weight2 m c · q)

theorem o3_eq (d : Fin 12288) (q : Fin 64) :
    (o3 m c : Vec Ideal S12288x64 .bf16) (ix2 d q) = kerZ (netP m c) (netSrc m c hr) (netDst m c hr) (netNrm m c) d q :=
  (agg3_value (fun c b => W10 m c b) c d q).trans <| congrArg (max · 0) <| aggD_of_arrays (W10_adj m c) (host_adj m c hr d)
    (W10_feat m c) (o2_eq m c hr · q) ((host_bias2 (W9 m c) q).trans (congrFun (W9_bias m c) (ix1 q)))

theorem o4_eq (s : Fin 12288) (q : Fin 128) :
    (o4 m c : Vec Ideal S12288x128 .bf16) (ix2 s q) = mm (kerZ (netP m c) (netSrc m c hr) (netDst m c hr) (netNrm m c)) (netP m c).W3 s q :=
  mm_of_arrays (feat4_value (fun c b => W11 m c b) c s q) (W11_out m c) (o3_eq m c hr s) (W11_weight m c) (host_weight3 m c · q)

theorem o5_eq (d : Fin 12288) (q : Fin 128) :
    (o5 m c : Vec Ideal S12288x128 .bf16) (ix2 d q) = kerXh (netP m c) (netSrc m c hr) (netDst m c hr) (netNrm m c) d q :=
  (agg5_value (fun c b => W13 m c b) c d q).trans <| congrArg (max · 0) <| aggD_of_arrays (W13_adj m c) (host_adj m c hr d)
    (W13_feat m c) (o4_eq m c hr · q) ((host_bias3 (W12 m c) q).trans (congrFun (W12_bias m c) (ix1 q)))

theorem o6_eq (s : Fin 12288) (q : Fin 500) :
    (o6 m c : Vec Ideal S12288x500 .bf16) (ix2 s q) = mm (kerXh (netP m c) (netSrc m c hr) (netDst m c hr) (netNrm m c)) (netP m c).W4 s q :=
  mm_of_arrays (feat6_value (fun c b => W14 m c b) c s q) (W14_out m c) (o5_eq m c hr s) (W14_weight m c) (host_weight4 m c · q)

theorem o7_eq (d : Fin 12288) (q : Fin 500) :
    (o7 m c : Vec Ideal S12288x500 .f32) (ix2 d q) = kerXhat (netP m c) (netSrc m c hr) (netDst m c hr) (netNrm m c) d q :=
  (agg7_value (fun c b => W16 m c b) c d q).trans <| aggD_of_arrays (W16_adj m c) (host_adj m c hr d)
    (W16_feat m c) (o6_eq m c hr · q) ((host_bias4 (W15 m c) q).trans (congrFun (W15_bias m c) (ix1 q)))

theorem o8_eq (s : Fin 12288) (q : Fin 64) :
    (o8 m c : Vec Ideal S12288x64 .bf16) (ix2 s q) = mm (kerZ (netP m c) (netSrc m c hr) (netDst m c hr) (netNrm m c)) (netP m c).W5 s q :=
  mm_of_arrays (feat8_value (fun c b => W18 m c b) c s q) (W18_latent m c) (o3_eq m c hr s) (W18_weight m c) (host_weight5 m c · q)

theorem o9_eq (d : Fin 12288) (q : Fin 64) :
    (o9 m c : Vec Ideal S12288x64 .bf16) (ix2 d q) = kerZs (netP m c) (netSrc m c hr) (netDst m c hr) (netNrm m c) d q :=
  (agg9_value (fun c b => W20 m c b) c d q).trans <| congrArg (max · 0) <| aggD_of_arrays (W20_adj m c) (host_adj m c hr d)
    (W20_feat m c) (o8_eq m c hr · q) ((host_bias5 (W19 m c) q).trans (congrFun (W19_bias m c) (ix1 q)))

theorem o10_eq (r s : Fin 12288) :
    (o10 m c : Vec Ideal S12288x12288 .f32) (ix2 r s) = kerAhat (netP m c) (netSrc m c hr) (netDst m c hr) (netNrm m c) r s :=
  (outer10_value (fun c b => W21 m c b) c r s).trans <| Finset.sum_congr rfl fun j _ => congrArg₂ (· * ·)
    ((congrFun (W21_out m c) (ix2 r j)).trans (o9_eq m c hr r j)) ((congrFun (W21_out m c) (ix2 s j)).trans (o9_eq m c hr s j))

theorem kernel_xhat (r : Fin 12000) (q : Fin 500) :
    (W23 m c main_v70 : Vec Ideal S12000x500 .f32) (ix2 r q) = kerXhat (netP m c) (netSrc m c hr) (netDst m c hr) (netNrm m c) (emb r) q :=
  (congrFun (W23_xhat m c) (ix2 r q)).trans <| (host_slice_x (W17 m c) r q).trans <|
    (congrFun (W17_out m c) (ix2 (emb r) q)).trans (o7_eq m c hr (emb r) q)

theorem kernel_ahat (r s : Fin 12000) :
    (W23 m c main_v75 : Vec Ideal S12000x12000 .f32) (ix2 r s) = kerAhat (netP m c) (netSrc m c hr) (netDst m c hr) (netNrm m c) (emb r) (emb s) :=
  (host_slice_a (W22 m c) r s).trans <| (congrFun (W22_out m c) (ix2 (emb r) (emb s))).trans (o10_eq m c hr (emb r) (emb s))

end Layers

end Cert.KernelIdeal.Hand

end
-- ==== Proof.KI.RefRun.lean ====
import proofs.«117129_j76819785056523_1_alg».proof.Proof.KI.GenRefRead
-- ==== Proof.KI.RefLayerLib.lean ====
import Idealize.ShloMosaic.PureOps.Ideal
import Idealize.ShloMosaic.PureOps.Ideal.Laws
import Idealize.ShloMosaic.Lib.ValueIdx
import Idealize.ShloMosaic.Lib.StableHlo.Predicate
import Mathlib.Algebra.BigOperators.Group.Finset.Basic

noncomputable section

namespace Cert.ReferenceIdeal.Hand

open Idealize.ShloMosaic Idealize.ShloMosaic.ValueIdx
open Idealize.ShloMosaic.StableHlo.Predicate (ixP)
open Finset

theorem wrap_word {n : ℕ} (x nW : BitVec 32) (r : Fin n) (hx : x.toInt = (r.val : ℤ)) :
    Scalar.select (IntOp.cmpi .slt x 0#32) (IntOp.addi x nW) x = x := by
  have h0 : ¬ (IntOp.cmpi .slt x 0#32 = 1) := by
    unfold IntOp.cmpi
    have hlt : ¬ ((r.val : ℤ) < 0) := by omega
    simp [BitVec.slt, hx, hlt]
  unfold Scalar.select
  rw [if_neg h0]

theorem gather_rows_siIdx {N p E : ℕ} (d : GatherDims ⟨2, ![N, p]⟩ ⟨2, ![E, 1]⟩ ⟨2, ![E, p]⟩)
    (hoff : d.offsetDims = [1]) (hsim : d.startIndexMap = [0]) (hivd : d.indexVectorDim = 1)
    (e : Fin E) (q : Fin p) (c : Fin d.startIndexMap.length) : d.siIdx (ix2 e q) c = ixP e := by
  obtain ⟨od, cd, ob, sb, sm, iv, ss, wf⟩ := d
  simp only at hoff hsim hivd c
  subst hoff hsim hivd
  have hc : c.val = 0 := Nat.lt_one_iff.mp c.isLt
  funext b
  apply Fin.ext
  match b with
  | ⟨0, _⟩ => rfl
  | ⟨1, _⟩ => exact hc

theorem gather_rows {α : Type} {N p E w : ℕ} (d : GatherDims ⟨2, ![N, p]⟩ ⟨2, ![E, 1]⟩ ⟨2, ![E, p]⟩)
    (hoff : d.offsetDims = [1]) (hcoll : d.collapsedSliceDims = [0]) (hob : d.operandBatchingDims = [])
    (hsb : d.startIndicesBatchingDims = [])
    (hsim : d.startIndexMap = [0]) (hivd : d.indexVectorDim = 1) (hss : d.sliceSizes = ![1, p])
    (x : (⟨2, ![N, p]⟩ : Shape).Idx → α) (idx : IVec ⟨2, ![E, 1]⟩ w) (e : Fin E) (q : Fin p) (hN : 0 < N) :
    Host.gather d x idx (ix2 e q) = x (ix2 ⟨min (idx (ixP e)).toInt.toNat (N - 1), by omega⟩ q) := by
  have hsi := gather_rows_siIdx d hoff hsim hivd e q
  have hsK : d.sKept = [1] := by
    show Shape.kept _ (d.collapsedSliceDims ++ d.operandBatchingDims) = [1]
    rw [hcoll, hob]; rfl
  obtain ⟨od, cd, ob, sb, sm, iv, ss, wf⟩ := d
  simp only at hoff hcoll hob hsb hsim hivd hss hsi hsK
  subst hoff hcoll hob hsb hsim hivd hss
  unfold Host.gather
  congr 1
  funext a
  apply Fin.ext
  match a with
  | ⟨0, _⟩ =>
    simp [GatherDims.operandIdx, GatherDims.start, GatherDims.batchCoord, GatherDims.offCoord, hsK, hsi]
  | ⟨1, _⟩ =>
    simp [GatherDims.operandIdx, GatherDims.start, GatherDims.batchCoord, GatherDims.offCoord, hsK]
    rfl

section ScatterRows
variable {N p E w : ℕ} (d : ScatterDims ⟨2, ![N, p]⟩ ⟨2, ![E, 1]⟩ ⟨2, ![E, p]⟩)
  (huw : d.updateWindowDims = [1]) (hiw : d.insertedWindowDims = [0]) (hsd : d.scatterDimsToOperandDims = [0])
  (hivd : d.indexVectorDim = 1) (idx : IVec ⟨2, ![E, 1]⟩ w) (e : Fin E) (q : Fin p)
include huw hiw hsd hivd

theorem scatter_rows_siIdx (c : Fin d.scatterDimsToOperandDims.length) : d.siIdx (ix2 e q) c = ixP e := by
  obtain ⟨uw, iw, sd, iv, wf⟩ := d
  simp only at huw hiw hsd hivd c
  subst huw hiw hsd hivd
  have hc : c.val = 0 := Nat.lt_one_iff.mp c.isLt
  funext b
  apply Fin.ext
  match b with
  | ⟨0, _⟩ => rfl
  | ⟨1, _⟩ => exact hc

theorem scatter_rows_start0 : d.start (ix2 e q) idx 0 = (idx (ixP e)).toInt := by
  have hsi := scatter_rows_siIdx d huw hiw hsd hivd e q
  obtain ⟨uw, iw, sd, iv, wf⟩ := d
  simp only at huw hiw hsd hivd hsi
  subst huw hiw hsd hivd
  simp [ScatterDims.start, hsi]

theorem scatter_rows_start1 : d.start (ix2 e q) idx 1 = 0 := by
  obtain ⟨uw, iw, sd, iv, wf⟩ := d
  simp only at huw hiw hsd hivd
  subst huw hiw hsd hivd
  simp [ScatterDims.start]

theorem scatter_rows_window0 : d.window (ix2 e q) 0 = 0 := by
  have hsK : d.sKept = [1] := by show Shape.kept _ d.insertedWindowDims = [1]; rw [hiw]; rfl
  obtain ⟨uw, iw, sd, iv, wf⟩ := d
  simp only at huw hiw hsd hivd hsK
  subst huw hiw hsd hivd
  simp [ScatterDims.window, hsK]

theorem scatter_rows_window1 : d.window (ix2 e q) 1 = q.val := by
  obtain ⟨uw, iw, sd, iv, wf⟩ := d
  simp only at huw hiw hsd hivd
  subst huw hiw hsd hivd
  rfl

theorem scatter_rows_resultIdx (r : Fin N) (hr : (idx (ixP e)).toInt = (r.val : ℤ)) :
    d.resultIdx? (ix2 e q) idx = some (ix2 r q) := by
  have s0 := scatter_rows_start0 d huw hiw hsd hivd idx e q
  have s1 := scatter_rows_start1 d huw hiw hsd hivd idx e q
  have w0 := scatter_rows_window0 d huw hiw hsd hivd e q
  have w1 := scatter_rows_window1 d huw hiw hsd hivd e q
  have h : ∀ a : Fin 2, 0 ≤ d.start (ix2 e q) idx a + (d.window (ix2 e q) a : ℤ)
      ∧ d.start (ix2 e q) idx a + (d.window (ix2 e q) a : ℤ) < (((⟨2, ![N, p]⟩ : Shape).size a : ℕ) : ℤ) := by
    intro a
    match a with
    | ⟨0, _⟩ =>
      show 0 ≤ d.start (ix2 e q) idx 0 + (d.window (ix2 e q) 0 : ℤ)
        ∧ d.start (ix2 e q) idx 0 + (d.window (ix2 e q) 0 : ℤ) < ((N : ℕ) : ℤ)
      rw [s0, w0, hr]; have := r.isLt; omega
    | ⟨1, _⟩ =>
      show 0 ≤ d.start (ix2 e q) idx 1 + (d.window (ix2 e q) 1 : ℤ)
        ∧ d.start (ix2 e q) idx 1 + (d.window (ix2 e q) 1 : ℤ) < ((p : ℕ) : ℤ)
      rw [s1, w1]; have := q.isLt; omega
  unfold ScatterDims.resultIdx?
  rw [dif_pos h]
  congr 1
  funext a
  apply Fin.ext
  match a with
  | ⟨0, _⟩ =>
    show (d.start (ix2 e q) idx 0 + (d.window (ix2 e q) 0 : ℤ)).toNat = r.val
    rw [s0, w0, hr]; omega
  | ⟨1, _⟩ =>
    show (d.start (ix2 e q) idx 1 + (d.window (ix2 e q) 1 : ℤ)).toNat = q.val
    rw [s1, w1]; omega

end ScatterRows

theorem scatterAdd_rows {φ : FTy} {N p E w : ℕ} (d : ScatterDims ⟨2, ![N, p]⟩ ⟨2, ![E, 1]⟩ ⟨2, ![E, p]⟩)
    (huw : d.updateWindowDims = [1]) (hiw : d.insertedWindowDims = [0]) (hsd : d.scatterDimsToOperandDims = [0])
    (hivd : d.indexVectorDim = 1) (x : FVec Ideal ⟨2, ![N, p]⟩ φ) (idx : IVec ⟨2, ![E, 1]⟩ w)
    (upd : FVec Ideal ⟨2, ![E, p]⟩ φ) (dst : Fin E → Fin N) (hd : ∀ e, (idx (ixP e)).toInt = ((dst e).val : ℤ))
    (r : Fin N) (q : Fin p) :
    Host.scatterAdd d x idx upd (ix2 r q) = x (ix2 r q) + ∑ e ∈ univ.filter (fun e => dst e = r), upd (ix2 e q) := by
  unfold Host.scatterAdd
  rw [Ideal.hostScatterAdd_def]
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx d huw hiw hsd hivd idx e q (dst e) (hd e), he.2]
  · intro e _ e' _ h
    exact congrFun h 0
  · intro j hj
    rw [Finset.mem_filter] at hj
    obtain ⟨e, q', rfl⟩ : ∃ e q', j = ix2 e q' := ⟨j 0, j 1, eq_ix2 j⟩
    rw [scatter_rows_resultIdx d huw hiw hsd hivd idx e q' (dst e) (hd e)] at hj
    have h2 := Option.some.inj hj.2
    have hr : dst e = r := congrFun h2 0
    have hq : q' = q := congrFun h2 1
    subst hq
    exact ⟨e, Finset.mem_filter.mpr ⟨Finset.mem_univ _, hr⟩, rfl⟩
  · intro e _; rfl

theorem ij_eq_ix2 {n m : ℕ} (a : Fin n) (b : Fin m) : Idealize.ShloMosaic.StableHlo.Predicate.ij a b = ix2 a b := by
  funext k; match k with | ⟨0, _⟩ => rfl | ⟨1, _⟩ => rfl
theorem ofFin_eq_ix1 {n : ℕ} (a : Fin n) : Shape.Idx.ofFin a = ix1 a := by
  funext k; match k with | ⟨0, _⟩ => rfl

theorem wrapCol_apply {E n : ℕ} (b0 : (⟨0, ![]⟩ : Shape).BroadcastsInDim ⟨1, ![E]⟩ ![])
    (b1 : (⟨1, ![E]⟩ : Shape).BroadcastsInDim ⟨2, ![E, 1]⟩ ![0]) (nW : BitVec 32) (xW : IVec ⟨1, ![E]⟩ 32)
    (x : Fin E → Fin n) (hx : ∀ e, (xW (ix1 e)).toInt = ((x e).val : ℤ)) (e : Fin E) :
    broadcastInDim ⟨2, ![E, 1]⟩ ![0] b1
        (select (cmpi .slt xW (broadcastInDim ⟨1, ![E]⟩ ![] b0 (constantI ⟨0, ![]⟩ 32 0#32)))
          (addi xW (broadcastInDim ⟨1, ![E]⟩ ![] b0 (constantI ⟨0, ![]⟩ 32 nW))) xW) (ixP e)
      = xW (ix1 e) := by
  rw [Idealize.ShloMosaic.StableHlo.Predicate.bcast_col1, ofFin_eq_ix1]
  exact wrap_word (xW (ix1 e)) nW (x e) (hx e)

theorem layer_apply {N p E : ℕ} (hN : 0 < N)
    (gd : GatherDims ⟨2, ![N, p]⟩ ⟨2, ![E, 1]⟩ ⟨2, ![E, p]⟩)
    (hoff : gd.offsetDims = [1]) (hcoll : gd.collapsedSliceDims = [0]) (hob : gd.operandBatchingDims = [])
    (hsb : gd.startIndicesBatchingDims = []) (hsim : gd.startIndexMap = [0]) (hivd : gd.indexVectorDim = 1)
    (hss : gd.sliceSizes = ![1, p])
    (sd : ScatterDims ⟨2, ![N, p]⟩ ⟨2, ![E, 1]⟩ ⟨2, ![E, p]⟩)
    (huw : sd.updateWindowDims = [1]) (hiw : sd.insertedWindowDims = [0]) (hsd : sd.scatterDimsToOperandDims = [0])
    (hivd' : sd.indexVectorDim = 1)
    (b0 : (⟨0, ![]⟩ : Shape).BroadcastsInDim ⟨1, ![E]⟩ ![])
    (b1 : (⟨1, ![E]⟩ : Shape).BroadcastsInDim ⟨2, ![E, 1]⟩ ![0])
    (b2 : (⟨2, ![E, 1]⟩ : Shape).BroadcastsInDim ⟨2, ![E, p]⟩ ![0, 1])
    (bz : (⟨0, ![]⟩ : Shape).BroadcastsInDim ⟨2, ![N, p]⟩ ![])
    (bb1 : (⟨1, ![p]⟩ : Shape).BroadcastsInDim ⟨2, ![1, p]⟩ ![1])
    (bb2 : (⟨2, ![1, p]⟩ : Shape).BroadcastsInDim ⟨2, ![N, p]⟩ ![0, 1])
    (nW : BitVec 32) (srcW dstW : IVec ⟨1, ![E]⟩ 32) (nrmV : FVec Ideal ⟨1, ![E]⟩ .f32)
    (h : FVec Ideal ⟨2, ![N, p]⟩ .f32) (bias : FVec Ideal ⟨1, ![p]⟩ .f32) (src dst : Fin E → Fin N)
    (hs : ∀ e, (srcW (ix1 e)).toInt = ((src e).val : ℤ)) (hd : ∀ e, (dstW (ix1 e)).toInt = ((dst e).val : ℤ))
    (d : Fin N) (q : Fin p) :
    addf
      (Host.scatterAdd sd
        (broadcastInDim ⟨2, ![N, p]⟩ ![] bz (constant (F := Ideal) ⟨0, ![]⟩ .f32 0x00000000#32))
        (broadcastInDim ⟨2, ![E, 1]⟩ ![0] b1
          (select (cmpi .slt dstW (broadcastInDim ⟨1, ![E]⟩ ![] b0 (constantI ⟨0, ![]⟩ 32 0#32)))
            (addi dstW (broadcastInDim ⟨1, ![E]⟩ ![] b0 (constantI ⟨0, ![]⟩ 32 nW))) dstW))
        (mulf
          (Host.gather gd h
            (broadcastInDim ⟨2, ![E, 1]⟩ ![0] b1
              (select (cmpi .slt srcW (broadcastInDim ⟨1, ![E]⟩ ![] b0 (constantI ⟨0, ![]⟩ 32 0#32)))
                (addi srcW (broadcastInDim ⟨1, ![E]⟩ ![] b0 (constantI ⟨0, ![]⟩ 32 nW))) srcW)))
          (broadcastInDim ⟨2, ![E, p]⟩ ![0, 1] b2 (broadcastInDim ⟨2, ![E, 1]⟩ ![0] b1 nrmV))))
      (broadcastInDim ⟨2, ![N, p]⟩ ![0, 1] bb2 (broadcastInDim ⟨2, ![1, p]⟩ ![1] bb1 bias)) (ix2 d q)
      = (0 + ∑ e ∈ univ.filter (fun e => dst e = d), h (ix2 (src e) q) * nrmV (ix1 e)) + bias (ix1 q) := by
  rw [addf_apply, scatterAdd_rows sd huw hiw hsd hivd' _ _ _ dst
    (fun e => by rw [wrapCol_apply b0 b1 nW dstW dst hd e]; exact hd e) d q]
  congr 1
  · congr 1
    · exact Ideal.ofBits_zero_f32
    · refine Finset.sum_congr rfl fun e _ => ?_
      rw [mulf_apply, gather_rows gd hoff hcoll hob hsb hsim hivd hss h _ e q hN]
      congr 1
      · congr 2
        apply Fin.ext
        dsimp only
        rw [wrapCol_apply b0 b1 nW srcW src hs e, hs e, Int.toNat_natCast]
        have := (src e).isLt
        omega
      · rw [← ij_eq_ix2, Idealize.ShloMosaic.StableHlo.Predicate.bcast_rows, ofFin_eq_ix1]
  · rw [← ij_eq_ix2, Idealize.ShloMosaic.StableHlo.Predicate.bcast_cols, ofFin_eq_ix1]

end Cert.ReferenceIdeal.Hand

end
-- ==== Proof.KI.RefLayer128.lean ====
import proofs.«117129_j76819785056523_1_alg».proof.ReferenceIdeal
import proofs.«117129_j76819785056523_1_alg».proof.Proof.KI.Spec
import proofs.«117129_j76819785056523_1_alg».proof.Proof.KI.RefLayerLib

noncomputable section

namespace Cert.ReferenceIdeal.Hand

open Cert.ReferenceIdeal Cert.ReferenceIdeal.Facts₀
open Idealize.ShloMosaic Idealize.ShloMosaic.ValueIdx
open Finset

variable [Facts₀]

def layer128 (srcW dstW : IVec S396000 32) (nrmV : FVec Ideal S396000 .f32) (h : FVec Ideal S12000x128 .f32)
    (bias : FVec Ideal S128 .f32) : FVec Ideal S12000x128 .f32 :=
  addf
    (Host.scatterAdd scatter_S12000x128_S396000x1_S396000x128_1_0_0_1
      (broadcastInDim S12000x128 ![] bcast_S_S12000x128 (constant (F := Ideal) S_ .f32 0x00000000#32))
      (broadcastInDim S396000x1 ![0] bcast_S396000_S396000x1_0
        (select (cmpi .slt dstW (broadcastInDim S396000 ![] bcast_S_S396000 (constantI S_ 32 0#32)))
          (addi dstW (broadcastInDim S396000 ![] bcast_S_S396000 (constantI S_ 32 12000#32))) dstW))
      (mulf
        (Host.gather gather_S12000x128_S396000x1_S396000x128_1_0_n_n_0_1_1128 h
          (broadcastInDim S396000x1 ![0] bcast_S396000_S396000x1_0
            (select (cmpi .slt srcW (broadcastInDim S396000 ![] bcast_S_S396000 (constantI S_ 32 0#32)))
              (addi srcW (broadcastInDim S396000 ![] bcast_S_S396000 (constantI S_ 32 12000#32))) srcW)))
        (broadcastInDim S396000x128 ![0, 1] bcast_S396000x1_S396000x128_0_1
          (broadcastInDim S396000x1 ![0] bcast_S396000_S396000x1_0 nrmV))))
    (broadcastInDim S12000x128 ![0, 1] bcast_S1x128_S12000x128_0_1
      (broadcastInDim S1x128 ![1] bcast_S128_S1x128_1 bias))

theorem layer128_apply (srcW dstW : IVec S396000 32) (nrmV : FVec Ideal S396000 .f32) (h : FVec Ideal S12000x128 .f32)
    (bias : FVec Ideal S128 .f32) (src dst : Fin 396000 → Fin 12000)
    (hs : ∀ e, (srcW (ix1 e)).toInt = ((src e).val : ℤ)) (hd : ∀ e, (dstW (ix1 e)).toInt = ((dst e).val : ℤ))
    (d : Fin 12000) (q : Fin 128) :
    layer128 srcW dstW nrmV h bias (ix2 d q)
      = Cert.GraphAE.aggS src dst (fun e => nrmV (ix1 e)) (fun i j => h (ix2 i j)) (fun j => bias (ix1 j)) d q := by
  unfold layer128 Cert.GraphAE.aggS
  exact layer_apply (by decide) gather_S12000x128_S396000x1_S396000x128_1_0_n_n_0_1_1128 rfl rfl rfl rfl rfl rfl rfl
    scatter_S12000x128_S396000x1_S396000x128_1_0_0_1 rfl rfl rfl rfl
    bcast_S_S396000 bcast_S396000_S396000x1_0 bcast_S396000x1_S396000x128_0_1 bcast_S_S12000x128
    bcast_S128_S1x128_1 bcast_S1x128_S12000x128_0_1 12000#32 srcW dstW nrmV h bias src dst hs hd d q

end Cert.ReferenceIdeal.Hand

end
-- ==== Proof.KI.RefLayer64.lean ====
import proofs.«117129_j76819785056523_1_alg».proof.ReferenceIdeal
import proofs.«117129_j76819785056523_1_alg».proof.Proof.KI.Spec
import proofs.«117129_j76819785056523_1_alg».proof.Proof.KI.RefLayerLib

noncomputable section

namespace Cert.ReferenceIdeal.Hand

open Cert.ReferenceIdeal Cert.ReferenceIdeal.Facts₀
open Idealize.ShloMosaic Idealize.ShloMosaic.ValueIdx
open Finset

variable [Facts₀]

def layer64 (srcW dstW : IVec S396000 32) (nrmV : FVec Ideal S396000 .f32) (h : FVec Ideal S12000x64 .f32)
    (bias : FVec Ideal S64 .f32) : FVec Ideal S12000x64 .f32 :=
  addf
    (Host.scatterAdd scatter_S12000x64_S396000x1_S396000x64_1_0_0_1
      (broadcastInDim S12000x64 ![] bcast_S_S12000x64 (constant (F := Ideal) S_ .f32 0x00000000#32))
      (broadcastInDim S396000x1 ![0] bcast_S396000_S396000x1_0
        (select (cmpi .slt dstW (broadcastInDim S396000 ![] bcast_S_S396000 (constantI S_ 32 0#32)))
          (addi dstW (broadcastInDim S396000 ![] bcast_S_S396000 (constantI S_ 32 12000#32))) dstW))
      (mulf
        (Host.gather gather_S12000x64_S396000x1_S396000x64_1_0_n_n_0_1_164 h
          (broadcastInDim S396000x1 ![0] bcast_S396000_S396000x1_0
            (select (cmpi .slt srcW (broadcastInDim S396000 ![] bcast_S_S396000 (constantI S_ 32 0#32)))
              (addi srcW (broadcastInDim S396000 ![] bcast_S_S396000 (constantI S_ 32 12000#32))) srcW)))
        (broadcastInDim S396000x64 ![0, 1] bcast_S396000x1_S396000x64_0_1
          (broadcastInDim S396000x1 ![0] bcast_S396000_S396000x1_0 nrmV))))
    (broadcastInDim S12000x64 ![0, 1] bcast_S1x64_S12000x64_0_1
      (broadcastInDim S1x64 ![1] bcast_S64_S1x64_1 bias))

theorem layer64_apply (srcW dstW : IVec S396000 32) (nrmV : FVec Ideal S396000 .f32) (h : FVec Ideal S12000x64 .f32)
    (bias : FVec Ideal S64 .f32) (src dst : Fin 396000 → Fin 12000)
    (hs : ∀ e, (srcW (ix1 e)).toInt = ((src e).val : ℤ)) (hd : ∀ e, (dstW (ix1 e)).toInt = ((dst e).val : ℤ))
    (d : Fin 12000) (q : Fin 64) :
    layer64 srcW dstW nrmV h bias (ix2 d q)
      = Cert.GraphAE.aggS src dst (fun e => nrmV (ix1 e)) (fun i j => h (ix2 i j)) (fun j => bias (ix1 j)) d q := by
  unfold layer64 Cert.GraphAE.aggS
  exact layer_apply (by decide) gather_S12000x64_S396000x1_S396000x64_1_0_n_n_0_1_164 rfl rfl rfl rfl rfl rfl rfl
    scatter_S12000x64_S396000x1_S396000x64_1_0_0_1 rfl rfl rfl rfl
    bcast_S_S396000 bcast_S396000_S396000x1_0 bcast_S396000x1_S396000x64_0_1 bcast_S_S12000x64
    bcast_S64_S1x64_1 bcast_S1x64_S12000x64_0_1 12000#32 srcW dstW nrmV h bias src dst hs hd d q

end Cert.ReferenceIdeal.Hand

end
-- ==== Proof.KI.RefLayer500.lean ====
import proofs.«117129_j76819785056523_1_alg».proof.ReferenceIdeal
import proofs.«117129_j76819785056523_1_alg».proof.Proof.KI.Spec
import proofs.«117129_j76819785056523_1_alg».proof.Proof.KI.RefLayerLib

noncomputable section

namespace Cert.ReferenceIdeal.Hand

open Cert.ReferenceIdeal Cert.ReferenceIdeal.Facts₀
open Idealize.ShloMosaic Idealize.ShloMosaic.ValueIdx
open Finset

variable [Facts₀]

def layer500 (srcW dstW : IVec S396000 32) (nrmV : FVec Ideal S396000 .f32) (h : FVec Ideal S12000x500 .f32)
    (bias : FVec Ideal S500 .f32) : FVec Ideal S12000x500 .f32 :=
  addf
    (Host.scatterAdd scatter_S12000x500_S396000x1_S396000x500_1_0_0_1
      (broadcastInDim S12000x500 ![] bcast_S_S12000x500 (constant (F := Ideal) S_ .f32 0x00000000#32))
      (broadcastInDim S396000x1 ![0] bcast_S396000_S396000x1_0
        (select (cmpi .slt dstW (broadcastInDim S396000 ![] bcast_S_S396000 (constantI S_ 32 0#32)))
          (addi dstW (broadcastInDim S396000 ![] bcast_S_S396000 (constantI S_ 32 12000#32))) dstW))
      (mulf
        (Host.gather gather_S12000x500_S396000x1_S396000x500_1_0_n_n_0_1_1500 h
          (broadcastInDim S396000x1 ![0] bcast_S396000_S396000x1_0
            (select (cmpi .slt srcW (broadcastInDim S396000 ![] bcast_S_S396000 (constantI S_ 32 0#32)))
              (addi srcW (broadcastInDim S396000 ![] bcast_S_S396000 (constantI S_ 32 12000#32))) srcW)))
        (broadcastInDim S396000x500 ![0, 1] bcast_S396000x1_S396000x500_0_1
          (broadcastInDim S396000x1 ![0] bcast_S396000_S396000x1_0 nrmV))))
    (broadcastInDim S12000x500 ![0, 1] bcast_S1x500_S12000x500_0_1
      (broadcastInDim S1x500 ![1] bcast_S500_S1x500_1 bias))

theorem layer500_apply (srcW dstW : IVec S396000 32) (nrmV : FVec Ideal S396000 .f32) (h : FVec Ideal S12000x500 .f32)
    (bias : FVec Ideal S500 .f32) (src dst : Fin 396000 → Fin 12000)
    (hs : ∀ e, (srcW (ix1 e)).toInt = ((src e).val : ℤ)) (hd : ∀ e, (dstW (ix1 e)).toInt = ((dst e).val : ℤ))
    (d : Fin 12000) (q : Fin 500) :
    layer500 srcW dstW nrmV h bias (ix2 d q)
      = Cert.GraphAE.aggS src dst (fun e => nrmV (ix1 e)) (fun i j => h (ix2 i j)) (fun j => bias (ix1 j)) d q := by
  unfold layer500 Cert.GraphAE.aggS
  exact layer_apply (by decide) gather_S12000x500_S396000x1_S396000x500_1_0_n_n_0_1_1500 rfl rfl rfl rfl rfl rfl rfl
    scatter_S12000x500_S396000x1_S396000x500_1_0_0_1 rfl rfl rfl rfl
    bcast_S_S396000 bcast_S396000_S396000x1_0 bcast_S396000x1_S396000x500_0_1 bcast_S_S12000x500
    bcast_S500_S1x500_1 bcast_S1x500_S12000x500_0_1 12000#32 srcW dstW nrmV h bias src dst hs hd d q

end Cert.ReferenceIdeal.Hand

end
-- ==== Proof.KI.RefValue.lean ====
import proofs.«117129_j76819785056523_1_alg».proof.Proof.KI.RefRun
import proofs.«117129_j76819785056523_1_alg».proof.Proof.KI.ParamsOf
import proofs.«117129_j76819785056523_1_alg».proof.Proof.KI.NormChain
import proofs.«117129_j76819785056523_1_alg».proof.Proof.KI.RefLayer128
import proofs.«117129_j76819785056523_1_alg».proof.Proof.KI.RefLayer64
import proofs.«117129_j76819785056523_1_alg».proof.Proof.KI.RefLayer500

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Idealize.ShloMosaic.ValueIdx
open Cert.KernelIdeal.Hand (srcNode dstNode normVec paramsOf srcWords_toInt dstWords_toInt)
open Cert.GraphAE (mm relu aggS refZ1 refZ refXh refZs refAhat refXhat)
open Cert.ReferenceIdeal.Hand (layer128_apply layer64_apply layer500_apply)

def refXhatArr (m' : (ℓ : Loc nD τ sig) → Buf (Elt Ideal) ℓ) (c : Dev nD) :
    (⟨S12000x500, .f32⟩ : BufTy).Contents (Elt Ideal) :=
  res_main_v125 (F := Ideal) m' c

def refAhatArr (m' : (ℓ : Loc nD τ sig) → Buf (Elt Ideal) ℓ) (c : Dev nD) :
    (⟨S12000x12000, .f32⟩ : BufTy).Contents (Elt Ideal) :=
  res_main_v150 (F := Ideal) m' c

theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v125) = refXhatArr m' c
      ∧ r.2.mem ((c.tc : Thread nD τ).loc main_v150) = refAhatArr m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  Cert.ReferenceIdeal.Value.run (F := Ideal) m' ρ'

theorem idx2_ext {n0 n1 : Nat} {f g : (⟨2, ![n0, n1]⟩ : Shape).Idx} (h0 : (f 0).val = (g 0).val)
    (h1 : (f 1).val = (g 1).val) : f = g := by
  funext a
  match a with
  | ⟨0, _⟩ => exact Fin.ext h0
  | ⟨1, _⟩ => exact Fin.ext h1

theorem max_zero_bits (v : Ideal .f32) :
    FloatOps.maximumf (F := Ideal) (φ := .f32) v (FloatOps.ofBits .f32 0x00000000#32) = max v 0 := by
  show max v (Ideal.ofBits .f32 0x00000000#32) = max v 0
  rw [Ideal.ofBits_zero_f32]

theorem aggS_h {p : ℕ} {s d : Fin 396000 → Fin 12000} {n : Fin 396000 → EReal} {h h' : Fin 12000 → Fin p → EReal}
    {b : Fin p → EReal} (hh : ∀ i j, h i j = h' i j) (r : Fin 12000) (q : Fin p) : aggS s d n h b r q = aggS s d n h' b r q := by
  rw [show h = h' from funext₂ hh]

-- A sum over `j` of `a` at row `r`, column `j` times `w` at row `j`, column `q` is the matrix product at `(r, q)`.
theorem mm_of {n k p : ℕ} {a : (⟨2, ![n, k]⟩ : Shape).Idx → EReal} {w : (⟨2, ![k, p]⟩ : Shape).Idx → EReal}
    {l : Fin k → (⟨2, ![n, k]⟩ : Shape).Idx} {ρ : Fin k → (⟨2, ![k, p]⟩ : Shape).Idx} {v : EReal} {r : Fin n} {q : Fin p}
    {X : Fin n → Fin k → EReal} (hv : v = ∑ j, a (l j) * w (ρ j)) (hX : ∀ j, a (ix2 r j) = X r j)
    (hl : ∀ j, l j = ix2 r j := by exact fun _ => idx2_ext rfl rfl) (hρ : ∀ j, ρ j = ix2 j q := by exact fun _ => idx2_ext rfl rfl) :
    v = mm X (fun i j => w (ix2 i j)) r q := by
  rw [hv]; exact Finset.sum_congr rfl fun j _ => by rw [hl, hρ, hX]

theorem relu_of {n p : ℕ} {Y : Fin n → Fin p → EReal} {v c z : Ideal .f32} {r : Fin n} {q : Fin p}
    (hv : v = FloatOps.maximumf c z) (hz : z = FloatOps.ofBits .f32 0x00000000#32) (hc : c = Y r q) : v = relu Y r q := by
  rw [hv, hz, max_zero_bits, hc]; rfl

section Net

variable {x0 : (⟨S12000x500, .f32⟩ : BufTy).Contents (Elt Ideal)} {x1 : (⟨S2x384000, .i32⟩ : BufTy).Contents (Elt Ideal)}
  {x2 : (⟨S500x128, .f32⟩ : BufTy).Contents (Elt Ideal)} {x3 : (⟨S128, .f32⟩ : BufTy).Contents (Elt Ideal)}
  {x4 : (⟨S128x64, .f32⟩ : BufTy).Contents (Elt Ideal)} {x5 : (⟨S64, .f32⟩ : BufTy).Contents (Elt Ideal)}
  {x6 : (⟨S64x128, .f32⟩ : BufTy).Contents (Elt Ideal)} {x7 : (⟨S128, .f32⟩ : BufTy).Contents (Elt Ideal)}
  {x8 : (⟨S128x500, .f32⟩ : BufTy).Contents (Elt Ideal)} {x9 : (⟨S500, .f32⟩ : BufTy).Contents (Elt Ideal)}
  {x10 : (⟨S64x64, .f32⟩ : BufTy).Contents (Elt Ideal)} {x11 : (⟨S64, .f32⟩ : BufTy).Contents (Elt Ideal)}
  (hr : ∀ i : S2x384000.Idx, 0 ≤ (x1 i).toInt ∧ (x1 i).toInt < 12000)

local notation "𝒫" => paramsOf x0 x1 x2 x3 x4 x5 x6 x7 x8 x9 x10 x11
local notation "𝓈" => srcNode x1 hr
local notation "𝒹" => dstNode x1 hr
local notation "𝓃" => (fun e : Fin 396000 => normVec x1 (ix1 e))

theorem z1_apply (r : Fin 12000) (q : Fin 128) : val_main_v57 x0 x1 x2 x3 (ix2 r q) = refZ1 𝒫 𝓈 𝒹 𝓃 r q :=
  relu_of (val_main_v57_apply _ _ _ _ _) (val_main_call1_v0_apply _) <|
    (layer128_apply (val_main_v3 x1) (val_main_v6 x1) (val_main_v34 x1) (val_main_v35 x0 x2) x3 𝓈 𝒹
      (srcWords_toInt x1 hr) (dstWords_toInt x1 hr) r q).trans <|
      aggS_h (fun _ _ => mm_of (val_main_v35_apply _ _ _) fun _ => rfl) r q

theorem z_apply (r : Fin 12000) (q : Fin 64) : val_main_v80 x0 x1 x2 x3 x4 x5 (ix2 r q) = refZ 𝒫 𝓈 𝒹 𝓃 r q :=
  relu_of (val_main_v80_apply _ _ _ _ _ _ _) (val_main_call2_v0_apply _) <|
    (layer64_apply (val_main_v3 x1) (val_main_v6 x1) (val_main_v34 x1) (val_main_v58 x0 x1 x2 x3 x4) x5 𝓈 𝒹
      (srcWords_toInt x1 hr) (dstWords_toInt x1 hr) r q).trans <|
      aggS_h (fun i _ => mm_of (val_main_v58_apply _ _ _ _ _ _) (z1_apply hr i)) r q

theorem xh_apply (r : Fin 12000) (q : Fin 128) : val_main_v103 x0 x1 x2 x3 x4 x5 x6 x7 (ix2 r q) = refXh 𝒫 𝓈 𝒹 𝓃 r q :=
  relu_of (val_main_v103_apply _ _ _ _ _ _ _ _ _) (val_main_call3_v0_apply _) <|
    (layer128_apply (val_main_v3 x1) (val_main_v6 x1) (val_main_v34 x1) (val_main_v81 x0 x1 x2 x3 x4 x5 x6) x7 𝓈 𝒹
      (srcWords_toInt x1 hr) (dstWords_toInt x1 hr) r q).trans <|
      aggS_h (fun i _ => mm_of (val_main_v81_apply _ _ _ _ _ _ _ _) (z_apply hr i)) r q

theorem xhat_apply (r : Fin 12000) (q : Fin 500) :
    val_main_v125 x0 x1 x2 x3 x4 x5 x6 x7 x8 x9 (ix2 r q) = refXhat 𝒫 𝓈 𝒹 𝓃 r q :=
  (layer500_apply (val_main_v3 x1) (val_main_v6 x1) (val_main_v34 x1) (val_main_v104 x0 x1 x2 x3 x4 x5 x6 x7 x8) x9 𝓈 𝒹
    (srcWords_toInt x1 hr) (dstWords_toInt x1 hr) r q).trans <|
    aggS_h (fun i _ => mm_of (val_main_v104_apply _ _ _ _ _ _ _ _ _ _) (xh_apply hr i)) r q

theorem zs_apply (r : Fin 12000) (q : Fin 64) : val_main_v148 x0 x1 x2 x3 x4 x5 x10 x11 (ix2 r q) = refZs 𝒫 𝓈 𝒹 𝓃 r q :=
  relu_of (val_main_v148_apply _ _ _ _ _ _ _ _ _) (val_main_call4_v0_apply _) <|
    (layer64_apply (val_main_v3 x1) (val_main_v6 x1) (val_main_v34 x1) (val_main_v126 x0 x1 x2 x3 x4 x5 x10) x11 𝓈 𝒹
      (srcWords_toInt x1 hr) (dstWords_toInt x1 hr) r q).trans <|
      aggS_h (fun i _ => mm_of (val_main_v126_apply _ _ _ _ _ _ _ _) (z_apply hr i)) r q

theorem ahat_apply (r s : Fin 12000) : val_main_v150 x0 x1 x2 x3 x4 x5 x10 x11 (ix2 r s) = refAhat 𝒫 𝓈 𝒹 𝓃 r s := by
  rw [val_main_v150_apply]
  refine Finset.sum_congr rfl fun k _ => ?_
  rw [val_main_v149_apply, show lidx_main_v150 (ix2 r s) k = ix2 r k from idx2_ext rfl rfl,
    show idx_main_v149 (ridx_main_v150 (ix2 r s) k) = ix2 s k from idx2_ext rfl rfl, zs_apply hr, zs_apply hr]

end Net

section Results

variable (m' : (ℓ : Loc nD τ sig) → Buf (Elt Ideal) ℓ) (c : Dev nD)

abbrev refEi : (⟨S2x384000, .i32⟩ : BufTy).Contents (Elt Ideal) := m' ((c.tc : Thread nD τ).loc main_arg1)

abbrev refP : Cert.GraphAE.Params :=
  paramsOf (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))
    (m' ((c.tc : Thread nD τ).loc main_arg11))

abbrev RefEdgeRange : Prop := ∀ i : S2x384000.Idx, 0 ≤ (refEi m' c i).toInt ∧ (refEi m' c i).toInt < 12000

variable (hr : RefEdgeRange m' c)

abbrev refSrc : Fin 396000 → Fin 12000 := srcNode (refEi m' c) hr

abbrev refDst : Fin 396000 → Fin 12000 := dstNode (refEi m' c) hr

abbrev refNrm : Fin 396000 → EReal := fun e => normVec (refEi m' c) (ix1 e)

theorem refXhat_apply (r : Fin 12000) (q : Fin 500) :
    refXhatArr m' c (ix2 r q)
      = refXhat (refP m' c) (refSrc m' c hr) (refDst m' c hr) (refNrm m' c) r q := by
  unfold refXhatArr
  rw [val_main_v125_eq]
  exact xhat_apply hr r q

theorem refAhat_apply (r s : Fin 12000) :
    refAhatArr m' c (ix2 r s)
      = refAhat (refP m' c) (refSrc m' c hr) (refDst m' c hr) (refNrm m' c) r s := by
  unfold refAhatArr
  rw [val_main_v150_eq]
  exact ahat_apply hr r s

end Results

end Cert.ReferenceIdeal.RefValue

end
-- ==== Proof.KI.SpecEq.lean ====
import proofs.«117129_j76819785056523_1_alg».proof.Proof.KI.Spec
import Mathlib.Algebra.BigOperators.Ring.Finset

noncomputable section

namespace Cert.GraphAE

open Finset

def IsR (a : EReal) : Prop := ∃ v : ℝ, a = v

theorem IsR.zero : IsR 0 := ⟨0, rfl⟩

theorem IsR.add {a b : EReal} (ha : IsR a) (hb : IsR b) : IsR (a + b) := by
  obtain ⟨x, rfl⟩ := ha; obtain ⟨y, rfl⟩ := hb
  exact ⟨x + y, (EReal.coe_add x y).symm⟩

theorem IsR.mul {a b : EReal} (ha : IsR a) (hb : IsR b) : IsR (a * b) := by
  obtain ⟨x, rfl⟩ := ha; obtain ⟨y, rfl⟩ := hb
  exact ⟨x * y, (EReal.coe_mul x y).symm⟩

theorem IsR.max_zero {a : EReal} (ha : IsR a) : IsR (max a 0) := by
  rcases le_total a 0 with h | h
  · rw [max_eq_right h]; exact IsR.zero
  · rw [max_eq_left h]; exact ha

theorem IsR.sum {ι : Type*} (s : Finset ι) (f : ι → EReal) (hf : ∀ i ∈ s, IsR (f i)) :
    IsR (∑ i ∈ s, f i) := by
  classical
  induction s using Finset.induction_on with
  | empty => simpa using IsR.zero
  | insert a s ha ih =>
    rw [sum_insert ha]
    exact (hf a (mem_insert_self a s)).add (ih fun i hi => hf i (mem_insert_of_mem hi))

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

theorem mm_real {n k p : ℕ} {X : Fin n → Fin k → EReal} {W : Fin k → Fin p → EReal}
    (hX : ∀ r j, IsR (X r j)) (hW : ∀ j q, IsR (W j q)) : ∀ r q, IsR (mm X W r q) :=
  fun r q => IsR.sum _ _ fun j _ => (hX r j).mul (hW j q)

theorem relu_real {n p : ℕ} {Y : Fin n → Fin p → EReal} (hY : ∀ r q, IsR (Y r q)) :
    ∀ r q, IsR (relu Y r q) := fun r q => (hY r q).max_zero

theorem adj_real {s d : Fin 396000 → Fin 12288} {w : Fin 396000 → EReal}
    (hw : ∀ e, IsR (w e)) : ∀ i j, IsR (adj s d w i j) :=
  fun _ _ => IsR.zero.add (IsR.sum _ _ fun e _ => hw e)

theorem aggD_real {p : ℕ} {A : Fin 12288 → Fin 12288 → EReal} {h : Fin 12288 → Fin p → EReal}
    {b : Fin p → EReal} (hA : ∀ i j, IsR (A i j)) (hh : ∀ s q, IsR (h s q))
    (hb : ∀ q, IsR (b q)) : ∀ d q, IsR (aggD A h b d q) :=
  fun d q => (IsR.sum _ _ fun s _ => (hA d s).mul (hh s q)).add (hb q)

theorem padRows_real {k : ℕ} {x : Fin 12000 → Fin k → EReal} (hx : ∀ r j, IsR (x r j)) :
    ∀ r j, IsR (padRows x r j) := by
  intro r j
  unfold padRows
  split
  · exact hx _ j
  · exact IsR.zero

theorem emb_inj {a b : Fin 12000} : emb a = emb b ↔ a = b := by
  constructor
  · intro h
    exact Fin.ext (by simpa [emb] using congrArg Fin.val h)
  · rintro rfl; rfl

theorem padRows_emb {k : ℕ} (x : Fin 12000 → Fin k → EReal) (i : Fin 12000) (j : Fin k) :
    padRows x (emb i) j = x i j := by
  simp [padRows, emb]

theorem regroup_real (src dst : Fin 396000 → Fin 12000) (w : Fin 396000 → ℝ)
    (h : Fin 12288 → ℝ) (d : Fin 12000) :
    ∑ s : Fin 12288,
        (∑ e ∈ univ.filter (fun e => emb (dst e) = emb d ∧ emb (src e) = s), w e) * h s
      = ∑ e ∈ univ.filter (fun e => dst e = d), h (emb (src e)) * w e := by
  simp only [emb_inj]
  rw [← sum_fiberwise (univ.filter (fun e => dst e = d)) (fun e => emb (src e))]
  refine sum_congr rfl fun s _ => ?_
  rw [sum_mul, filter_filter]
  refine sum_congr rfl fun e he => ?_
  rw [(mem_filter.mp he).2.2, mul_comm]

variable (P : Params) (src dst : Fin 396000 → Fin 12000) (nrm : Fin 396000 → EReal)

theorem kerA_real (hn : ∀ e, IsR (nrm e)) : ∀ i j, IsR (kerA src dst nrm i j) :=
  adj_real hn

theorem aggD_emb_eq_aggS {p : ℕ} (h : Fin 12288 → Fin p → EReal) (b : Fin p → EReal)
    (hh : ∀ s q, IsR (h s q)) (hn : ∀ e, IsR (nrm e)) (d : Fin 12000) (q : Fin p) :
    aggD (kerA src dst nrm) h b (emb d) q = aggS src dst nrm (fun i => h (emb i)) b d q := by
  choose hr hhr using hh
  choose w hw using hn
  unfold aggD kerA adj aggS
  simp only [zero_add, hhr, hw, ← coe_sum, ← EReal.coe_mul]
  rw [regroup_real src dst w (fun s => hr s q) d]

theorem layer {k p : ℕ} (K : Fin 12288 → Fin k → EReal) (R : Fin 12000 → Fin k → EReal)
    (W : Fin k → Fin p → EReal) (b : Fin p → EReal)
    (hK : ∀ r j, IsR (K r j)) (hW : ∀ j q, IsR (W j q)) (hn : ∀ e, IsR (nrm e))
    (hKR : ∀ i j, K (emb i) j = R i j) (d : Fin 12000) (q : Fin p) :
    aggD (kerA src dst nrm) (mm K W) b (emb d) q = aggS src dst nrm (mm R W) b d q := by
  rw [aggD_emb_eq_aggS src dst nrm _ b (mm_real hK hW) hn]
  have hrow : (fun i => mm K W (emb i)) = mm R W := by
    funext i q; simp only [mm, hKR]
  rw [hrow]

theorem layer_relu {k p : ℕ} (K : Fin 12288 → Fin k → EReal) (R : Fin 12000 → Fin k → EReal)
    (W : Fin k → Fin p → EReal) (b : Fin p → EReal)
    (hK : ∀ r j, IsR (K r j)) (hW : ∀ j q, IsR (W j q)) (hn : ∀ e, IsR (nrm e))
    (hKR : ∀ i j, K (emb i) j = R i j) (d : Fin 12000) (q : Fin p) :
    relu (aggD (kerA src dst nrm) (mm K W) b) (emb d) q
      = relu (aggS src dst nrm (mm R W) b) d q := by
  unfold relu
  rw [layer src dst nrm K R W b hK hW hn hKR]

theorem layer_real {k p : ℕ} (K : Fin 12288 → Fin k → EReal)
    (W : Fin k → Fin p → EReal) (b : Fin p → EReal)
    (hK : ∀ r j, IsR (K r j)) (hW : ∀ j q, IsR (W j q)) (hb : ∀ q, IsR (b q))
    (hn : ∀ e, IsR (nrm e)) :
    ∀ r q, IsR (relu (aggD (kerA src dst nrm) (mm K W) b) r q) :=
  relu_real (aggD_real (kerA_real src dst nrm hn) (mm_real hK hW) hb)

theorem kerZ1_real (hP : P.Real) (hn : ∀ e, IsR (nrm e)) :
    ∀ r q, IsR (kerZ1 P src dst nrm r q) :=
  layer_real src dst nrm _ _ _ (padRows_real hP.1) hP.2.1 hP.2.2.1 hn

theorem kerZ1_eq (hP : P.Real) (hn : ∀ e, IsR (nrm e)) (i : Fin 12000) (j : Fin 128) :
    kerZ1 P src dst nrm (emb i) j = refZ1 P src dst nrm i j :=
  layer_relu src dst nrm _ _ _ _ (padRows_real hP.1) hP.2.1 hn (padRows_emb P.x) i j

theorem kerZ_real (hP : P.Real) (hn : ∀ e, IsR (nrm e)) :
    ∀ r q, IsR (kerZ P src dst nrm r q) :=
  layer_real src dst nrm _ _ _ (kerZ1_real P src dst nrm hP hn) hP.2.2.2.1 hP.2.2.2.2.1 hn

theorem kerZ_eq (hP : P.Real) (hn : ∀ e, IsR (nrm e)) (i : Fin 12000) (j : Fin 64) :
    kerZ P src dst nrm (emb i) j = refZ P src dst nrm i j :=
  layer_relu src dst nrm _ _ _ _ (kerZ1_real P src dst nrm hP hn) hP.2.2.2.1 hn
    (kerZ1_eq P src dst nrm hP hn) i j

theorem kerXh_real (hP : P.Real) (hn : ∀ e, IsR (nrm e)) :
    ∀ r q, IsR (kerXh P src dst nrm r q) :=
  layer_real src dst nrm _ _ _ (kerZ_real P src dst nrm hP hn) hP.2.2.2.2.2.1
    hP.2.2.2.2.2.2.1 hn

theorem kerXh_eq (hP : P.Real) (hn : ∀ e, IsR (nrm e)) (i : Fin 12000) (j : Fin 128) :
    kerXh P src dst nrm (emb i) j = refXh P src dst nrm i j :=
  layer_relu src dst nrm _ _ _ _ (kerZ_real P src dst nrm hP hn) hP.2.2.2.2.2.1 hn
    (kerZ_eq P src dst nrm hP hn) i j

theorem kerZs_eq (hP : P.Real) (hn : ∀ e, IsR (nrm e)) (i : Fin 12000) (j : Fin 64) :
    kerZs P src dst nrm (emb i) j = refZs P src dst nrm i j :=
  layer_relu src dst nrm _ _ _ _ (kerZ_real P src dst nrm hP hn) hP.2.2.2.2.2.2.2.2.2.1 hn
    (kerZ_eq P src dst nrm hP hn) i j

theorem xhat_eq (hP : P.Real) (hn : ∀ e, ∃ v : ℝ, nrm e = v) (r : Fin 12000) (q : Fin 500) :
    kerXhat P src dst nrm (emb r) q = refXhat P src dst nrm r q :=
  layer src dst nrm _ _ _ _ (kerXh_real P src dst nrm hP hn) hP.2.2.2.2.2.2.2.1 hn
    (kerXh_eq P src dst nrm hP hn) r q

theorem ahat_eq (hP : P.Real) (hn : ∀ e, ∃ v : ℝ, nrm e = v) (r s : Fin 12000) :
    kerAhat P src dst nrm (emb r) (emb s) = refAhat P src dst nrm r s := by
  unfold kerAhat refAhat
  simp only [kerZs_eq P src dst nrm hP hn]

end Cert.GraphAE
-- ==== Proof.KI.PreFacts.lean ====
import proofs.«117129_j76819785056523_1_alg».proof.Proof.Gen.Pre_finite_inputs
import proofs.«117129_j76819785056523_1_alg».proof.Proof.KI.ParamsOf
import Idealize.ShloMosaic.Lib.ReduceAll
import Idealize.ShloMosaic.Lib.StableHlo.Predicate
import Idealize.ShloMosaic.PureOps.Ideal
import Idealize.ShloMosaic.PureOps.Ideal.Laws

noncomputable section

namespace Cert.KernelIdeal.Hand

open Idealize.ShloMosaic Idealize.ShloMosaic.ValueIdx
open Cert.Pre_finite_inputs

instance subsingleton_scalarIdx : Subsingleton S_.Idx := ⟨fun a b => funext fun d => d.elim0⟩

theorem real_of_abs_lt_inf (x : Ideal .f32)
    (e : FloatOps.cmpf .olt (FloatOps.hostAbsf x) (FloatOps.ofBits (F := Ideal) .f32 0x7F800000#32) = 1#1) :
    ∃ v : ℝ, x = (v : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at e
  rw [htop] at e
  induction x using EReal.rec with
  | bot => exact absurd e (by simp [Ideal.cmp])
  | coe v => exact ⟨v, rfl⟩
  | top => exact absurd e (by simp [Ideal.cmp])

theorem entries_real {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi (cmpf .olt (Host.absf a) (broadcastInDim s ![] hb (constant S_ .f32 0x7F800000#32)))
          init hr hu ix0 = 1#1) :
    ∀ i, ∃ v : ℝ, a i = (v : EReal) := fun i =>
  real_of_abs_lt_inf (a i) (Host.reduce_andi_all _ init hr hu ix0 e i)

theorem entries_nonneg {s : Shape} {axes : List (Fin s.rank)} (hb : S_.BroadcastsInDim s (![] : Fin 0 → Fin s.rank))
    (hr : s.ReducesTo axes S_) (hu : 0 < S_.numel) (a : IVec s 32) (init : IVec S_ 1)
    (e : Host.reduce IntOp.andi (cmpi .sge a (broadcastInDim s ![] hb (constantI S_ 32 0#32))) init hr hu ix0 = 1#1) :
    ∀ i, 0 ≤ (a i).toInt := fun i => by
  have h := Host.reduce_andi_all _ init hr hu ix0 e i
  change IntOp.cmpi .sge (a i) 0#32 = 1#1 at h
  rw [IntOp.cmpi_sge] at h
  exact h

theorem entries_lt {s : Shape} {axes : List (Fin s.rank)} (hb : S_.BroadcastsInDim s (![] : Fin 0 → Fin s.rank))
    (hr : s.ReducesTo axes S_) (hu : 0 < S_.numel) (a : IVec s 32) (init : IVec S_ 1)
    (e : Host.reduce IntOp.andi (cmpi .slt a (broadcastInDim s ![] hb (constantI S_ 32 12000#32))) init hr hu ix0 = 1#1) :
    ∀ i, (a i).toInt < 12000 := fun i => by
  have h := Host.reduce_andi_all _ init hr hu ix0 e i
  change IntOp.cmpi .slt (a i) 12000#32 = 1#1 at h
  rw [IntOp.cmpi_slt] at h
  exact h

variable [Cert.Pre_finite_inputs.Facts]

theorem pre_params (a0 : FVec Ideal S12000x500 .f32) (a1 : IVec S2x384000 32) (a2 : FVec Ideal S500x128 .f32)
    (a3 : FVec Ideal S128 .f32) (a4 : FVec Ideal S128x64 .f32) (a5 : FVec Ideal S64 .f32) (a6 : FVec Ideal S64x128 .f32)
    (a7 : FVec Ideal S128 .f32) (a8 : FVec Ideal S128x500 .f32) (a9 : FVec Ideal S500 .f32) (a10 : FVec Ideal S64x64 .f32)
    (a11 : FVec Ideal S64 .f32)
    (h : Cert.Pre_finite_inputs.fn (F := Ideal) a0 a1 a2 a3 a4 a5 a6 a7 a8 a9 a10 a11 = fun _ => 1#1) :
    (paramsOf a0 a1 a2 a3 a4 a5 a6 a7 a8 a9 a10 a11).Real ∧ ∀ i : S2x384000.Idx, 0 ≤ (a1 i).toInt ∧ (a1 i).toInt < 12000 := by
  have h0 := congrFun h ix0
  dsimp only [Cert.Pre_finite_inputs.fn, fn_part1, fn_part2, fn_part3, andi] at h0
  simp only [IntOp.andi_eq_one] at h0
  obtain ⟨⟨⟨⟨⟨⟨⟨⟨⟨⟨⟨⟨e0, e2⟩, e3⟩, e4⟩, e5⟩, e6⟩, e7⟩, e8⟩, e9⟩, e10⟩, e11⟩, eGe⟩, eLt⟩ := h0
  exact ⟨⟨fun r j => entries_real _ _ _ a0 _ e0 (ix2 r j), fun r j => entries_real _ _ _ a2 _ e2 (ix2 r j),
      fun j => entries_real _ _ _ a3 _ e3 (ix1 j), fun r j => entries_real _ _ _ a4 _ e4 (ix2 r j),
      fun j => entries_real _ _ _ a5 _ e5 (ix1 j), fun r j => entries_real _ _ _ a6 _ e6 (ix2 r j),
      fun j => entries_real _ _ _ a7 _ e7 (ix1 j), fun r j => entries_real _ _ _ a8 _ e8 (ix2 r j),
      fun j => entries_real _ _ _ a9 _ e9 (ix1 j), fun r j => entries_real _ _ _ a10 _ e10 (ix2 r j),
      fun j => entries_real _ _ _ a11 _ e11 (ix1 j)⟩,
    fun i => ⟨entries_nonneg _ _ _ a1 _ eGe i, entries_lt _ _ _ a1 _ eLt i⟩⟩

end Cert.KernelIdeal.Hand

end
-- ==== Proof.KI.Bridge.lean ====
import proofs.«117129_j76819785056523_1_alg».proof.Defs
import proofs.«117129_j76819785056523_1_alg».proof.Proof.KI.Run
import proofs.«117129_j76819785056523_1_alg».proof.Proof.KI.KernelNet
import proofs.«117129_j76819785056523_1_alg».proof.Proof.KI.RefValue
import proofs.«117129_j76819785056523_1_alg».proof.Proof.KI.SpecEq
import proofs.«117129_j76819785056523_1_alg».proof.Proof.KI.PreFacts

noncomputable section

namespace Cert.Proof.GraphAE

open Idealize.ShloMosaic Idealize.ShloMosaic.TcCoe Idealize.SL.Sem Idealize.ShloMosaic.ValueIdx
open Cert.KernelIdeal.Hand (srcNode dstNode normVec paramsOf W23)
open Cert.ReferenceIdeal.RefValue (refXhatArr refAhatArr ref_run refXhat_apply refAhat_apply)

theorem net_congr {α : Sort _}
    (Φ : Cert.GraphAE.Params → (Fin 396000 → Fin 12000) → (Fin 396000 → Fin 12000) → (Fin 396000 → EReal) → α)
    {a0' : FVec Ideal ⟨2, ![12000, 500]⟩ .f32} {a1' : IVec ⟨2, ![2, 384000]⟩ 32} {a2' : FVec Ideal ⟨2, ![500, 128]⟩ .f32} {a3' : FVec Ideal ⟨1, ![128]⟩ .f32} {a4' : FVec Ideal ⟨2, ![128, 64]⟩ .f32} {a5' : FVec Ideal ⟨1, ![64]⟩ .f32} {a6' : FVec Ideal ⟨2, ![64, 128]⟩ .f32} {a7' : FVec Ideal ⟨1, ![128]⟩ .f32} {a8' : FVec Ideal ⟨2, ![128, 500]⟩ .f32} {a9' : FVec Ideal ⟨1, ![500]⟩ .f32} {a10' : FVec Ideal ⟨2, ![64, 64]⟩ .f32} {a11' : FVec Ideal ⟨1, ![64]⟩ .f32}
    {a0 : FVec Ideal ⟨2, ![12000, 500]⟩ .f32} {a1 : IVec ⟨2, ![2, 384000]⟩ 32} {a2 : FVec Ideal ⟨2, ![500, 128]⟩ .f32} {a3 : FVec Ideal ⟨1, ![128]⟩ .f32} {a4 : FVec Ideal ⟨2, ![128, 64]⟩ .f32} {a5 : FVec Ideal ⟨1, ![64]⟩ .f32} {a6 : FVec Ideal ⟨2, ![64, 128]⟩ .f32} {a7 : FVec Ideal ⟨1, ![128]⟩ .f32} {a8 : FVec Ideal ⟨2, ![128, 500]⟩ .f32} {a9 : FVec Ideal ⟨1, ![500]⟩ .f32} {a10 : FVec Ideal ⟨2, ![64, 64]⟩ .f32} {a11 : FVec Ideal ⟨1, ![64]⟩ .f32}
    (e0 : a0' = a0) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11)
    (hr' : ∀ i : (⟨2, ![2, 384000]⟩ : Shape).Idx, 0 ≤ (a1' i).toInt ∧ (a1' i).toInt < 12000)
    (hr : ∀ i : (⟨2, ![2, 384000]⟩ : Shape).Idx, 0 ≤ (a1 i).toInt ∧ (a1 i).toInt < 12000) :
    Φ (paramsOf a0' a1' a2' a3' a4' a5' a6' a7' a8' a9' a10' a11') (srcNode a1' hr') (dstNode a1' hr') (fun e => normVec a1' (ix1 e))
      = Φ (paramsOf a0 a1 a2 a3 a4 a5 a6 a7 a8 a9 a10 a11) (srcNode a1 hr) (dstNode a1 hr) (fun e => normVec a1 (ix1 e)) := by
  subst e0 e1 e2 e3 e4 e5 e6 e7 e8 e9 e10 e11
  rfl

theorem frame_kernel_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2.2) (ref_run m ρ)

theorem preserves : Cert.preserves_Kernel_KernelIdeal := trivial

theorem algebraic : Cert.algebraic_KernelIdeal_ReferenceIdeal := by
  intro m ρ m' ρ' hpre hagree
  refine ⟨fun c => W23 m c Cert.KernelIdeal.main_v70, fun c => W23 m c Cert.KernelIdeal.main_v75,
    Cert.KernelIdeal.Hand.run_results m ρ, ?_⟩
  refine (θ_run Cert.ReferenceIdeal.defs _ _).mono (fun _ h c => ?_) (ref_run m' ρ')
  obtain ⟨e0, e1, e2, e3, e4, e5, e6, e7, e8, e9, e10, e11⟩ := hagree c
  obtain ⟨hP, hr⟩ := Cert.KernelIdeal.Hand.pre_params _ _ _ _ _ _ _ _ _ _ _ _ (hpre c)
  have hr' : ∀ i : (⟨2, ![2, 384000]⟩ : Shape).Idx,
      0 ≤ ((m' ((c.tc : Thread Cert.ReferenceIdeal.nD Cert.ReferenceIdeal.τ).loc Cert.ReferenceIdeal.main_arg1)) i).toInt
        ∧ ((m' ((c.tc : Thread Cert.ReferenceIdeal.nD Cert.ReferenceIdeal.τ).loc Cert.ReferenceIdeal.main_arg1)) i).toInt < 12000 := by
    rw [e1]; exact hr
  have hn := fun e => Cert.KernelIdeal.Hand.normVec_real _ hr e
  refine ⟨(h c).1.trans (funext fun i => ?_), (h c).2.1.trans (funext fun i => ?_), (h c).2.2⟩
  · obtain ⟨r, q, rfl⟩ : ∃ (r : Fin 12000) (q : Fin 500), i = ix2 r q := ⟨i 0, i 1, eq_ix2 i⟩
    exact (refXhat_apply m' c hr' r q).trans <|
      (net_congr (fun P s d n => Cert.GraphAE.refXhat P s d n r q) e0 e1 e2 e3 e4 e5 e6 e7 e8 e9 e10 e11 hr' hr).trans <|
      (Cert.GraphAE.xhat_eq _ _ _ _ hP hn r q).symm.trans (Cert.KernelIdeal.Hand.kernel_xhat m c hr r q).symm
  · obtain ⟨r, s, rfl⟩ : ∃ (r s : Fin 12000), i = ix2 r s := ⟨i 0, i 1, eq_ix2 i⟩
    exact (refAhat_apply m' c hr' r s).trans <|
      (net_congr (fun P sn d n => Cert.GraphAE.refAhat P sn d n r s) e0 e1 e2 e3 e4 e5 e6 e7 e8 e9 e10 e11 hr' hr).trans <|
      (Cert.GraphAE.ahat_eq _ _ _ _ hP hn r s).symm.trans (Cert.KernelIdeal.Hand.kernel_ahat m c hr r s).symm

end Cert.Proof.GraphAE

end
-- ==== Proof.lean ====
import proofs.«117129_j76819785056523_1_alg».proof.Proof.KB.Run
import proofs.«117129_j76819785056523_1_alg».proof.Proof.KI.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  ⟨fun m ρ _ => Cert.Kernel.Hand.frame m ρ, Cert.Proof.GraphAE.frame_kernel_ideal, Cert.Proof.GraphAE.frame_reference,
    Cert.Proof.GraphAE.preserves, Cert.Proof.GraphAE.algebraic⟩⟩

end Cert.Proof

end
